-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S4x128 .f32) (main_arg5 : FVec F S4x128 .f32) (main_arg6 : FVec F S4x128 .f32) (main_arg7 : FVec F S128x64 .f32) (main_arg8 : FVec F S64 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S128 .f32) (main_arg3 : FVec F S4x128x128 .f32) (main_arg4 : FVec F S4x128 .f32) (main_arg5 : FVec F S4x128 .f32) (main_arg6 : FVec F S4x128 .f32) (main_arg7 : FVec F S128x64 .f32) (main_arg8 : FVec F S64 .f32) (main_arg9 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S1x128 : Shape := ⟨2, ![1, 128]⟩
abbrev S2000x128 : Shape := ⟨2, ![2000, 128]⟩
abbrev S1x128x128 : Shape := ⟨3, ![1, 128, 128]⟩
abbrev S600000x128 : Shape := ⟨2, ![600000, 128]⟩
abbrev S50000x1 : Shape := ⟨2, ![50000, 1]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 199
  | .vmem => 140
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S4x128x128, .f32⟩
  | 4 => ⟨S4x128, .f32⟩
  | 5 => ⟨S4x128, .f32⟩
  | 6 => ⟨S4x128, .f32⟩
  | 7 => ⟨S128x64, .f32⟩
  | 8 => ⟨S64, .f32⟩
  | 9 => ⟨S2x600000, .i32⟩
  | 10 => ⟨S1x600000, .i32⟩
  | 11 => ⟨S600000, .i32⟩
  | 12 => ⟨S1x600000, .i32⟩
  | 13 => ⟨S600000, .i32⟩
  | 14 => ⟨S_, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S_, .f32⟩
  | 25 => ⟨S600000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S50000, .f32⟩
  | 51 => ⟨S1x128, .f32⟩
  | 52 => ⟨S50000x128, .f32⟩
  | 53 => ⟨S_, .f32⟩
  | 54 => ⟨S50000x128, .f32⟩
  | 55 => ⟨S_, .f32⟩
  | 56 => ⟨S128, .f32⟩
  | 57 => ⟨S1x128x128, .f32⟩
  | 58 => ⟨S128x128, .f32⟩
  | 59 => ⟨S1x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x1, .f32⟩
  | 71 => ⟨S600000x128, .f32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S1x128, .f32⟩
  | 78 => ⟨S128, .f32⟩
  | 79 => ⟨S50000x1, .f32⟩
  | 80 => ⟨S1x128, .f32⟩
  | 81 => ⟨S50000x128, .f32⟩
  | 82 => ⟨S1x128, .f32⟩
  | 83 => ⟨S1x128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S1x128, .f32⟩
  | 90 => ⟨S50000x128, .f32⟩
  | 91 => ⟨S50000x128, .f32⟩
  | 92 => ⟨S1x128x128, .f32⟩
  | 93 => ⟨S128x128, .f32⟩
  | 94 => ⟨S1x128, .f32⟩
  | 95 => ⟨S50000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S600000x1, .f32⟩
  | 106 => ⟨S600000x128, .f32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S1x128, .f32⟩
  | 113 => ⟨S128, .f32⟩
  | 114 => ⟨S50000x1, .f32⟩
  | 115 => ⟨S1x128, .f32⟩
  | 116 => ⟨S50000x128, .f32⟩
  | 117 => ⟨S1x128, .f32⟩
  | 118 => ⟨S1x128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S1x128, .f32⟩
  | 125 => ⟨S50000x128, .f32⟩
  | 126 => ⟨S50000x128, .f32⟩
  | 127 => ⟨S1x128x128, .f32⟩
  | _ => ⟨S50000x128, .f32⟩

abbrev hbmTy0_1 (i : Nat) : BufTy := match i % 128 with
  | 0 => ⟨S128x128, .f32⟩
  | 1 => ⟨S1x128, .f32⟩
  | 2 => ⟨S50000x128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S600000x1, .f32⟩
  | 13 => ⟨S600000x128, .f32⟩
  | 14 => ⟨S600000x128, .f32⟩
  | 15 => ⟨S_, .f32⟩
  | 16 => ⟨S50000x128, .f32⟩
  | 17 => ⟨S600000x1, .i32⟩
  | 18 => ⟨S50000x128, .f32⟩
  | 19 => ⟨S1x128, .f32⟩
  | 20 => ⟨S128, .f32⟩
  | 21 => ⟨S50000x1, .f32⟩
  | 22 => ⟨S1x128, .f32⟩
  | 23 => ⟨S50000x128, .f32⟩
  | 24 => ⟨S1x128, .f32⟩
  | 25 => ⟨S1x128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S50000x128, .f32⟩
  | 33 => ⟨S50000x128, .f32⟩
  | 34 => ⟨S1x128x128, .f32⟩
  | 35 => ⟨S128x128, .f32⟩
  | 36 => ⟨S1x128, .f32⟩
  | 37 => ⟨S50000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S600000x1, .f32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S1x128, .f32⟩
  | 55 => ⟨S128, .f32⟩
  | 56 => ⟨S50000x1, .f32⟩
  | 57 => ⟨S1x128, .f32⟩
  | 58 => ⟨S50000x128, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S1x128, .f32⟩
  | 67 => ⟨S50000x128, .f32⟩
  | 68 => ⟨S50000x128, .f32⟩
  | 69 => ⟨S1x64, .f32⟩
  | 70 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev vmemTy0_0 (i : Nat) : BufTy := match i % 128 with
  | 0 => ⟨S2000x128, .f32⟩
  | 1 => ⟨S2000x128, .f32⟩
  | 2 => ⟨S128x128, .f32⟩
  | 3 => ⟨S1x128, .f32⟩
  | 4 => ⟨S2000x128, .f32⟩
  | 5 => ⟨S2000x128, .f32⟩
  | 6 => ⟨S2000x128, .f32⟩
  | 7 => ⟨S2000x128, .f32⟩
  | 8 => ⟨S128x128, .f32⟩
  | 9 => ⟨S1x128, .f32⟩
  | 10 => ⟨S2000x128, .f32⟩
  | 11 => ⟨S2000x128, .f32⟩
  | 12 => ⟨S2000x128, .f32⟩
  | 13 => ⟨S2000x128, .f32⟩
  | 14 => ⟨S2000x128, .f32⟩
  | 15 => ⟨S2000x128, .f32⟩
  | 16 => ⟨S2000x1, .f32⟩
  | 17 => ⟨S2000x1, .f32⟩
  | 18 => ⟨S1x128, .f32⟩
  | 19 => ⟨S2000x128, .f32⟩
  | 20 => ⟨S2000x128, .f32⟩
  | 21 => ⟨S1x128, .f32⟩
  | 22 => ⟨S1x128, .f32⟩
  | 23 => ⟨S1x128, .f32⟩
  | 24 => ⟨S1x128, .f32⟩
  | 25 => ⟨S2000x128, .f32⟩
  | 26 => ⟨S2000x128, .f32⟩
  | 27 => ⟨S1x128, .f32⟩
  | 28 => ⟨S1x128, .f32⟩
  | 29 => ⟨S1x128, .f32⟩
  | 30 => ⟨S1x128, .f32⟩
  | 31 => ⟨S2000x128, .f32⟩
  | 32 => ⟨S2000x128, .f32⟩
  | 33 => ⟨S2000x128, .f32⟩
  | 34 => ⟨S2000x128, .f32⟩
  | 35 => ⟨S2000x128, .f32⟩
  | 36 => ⟨S2000x128, .f32⟩
  | 37 => ⟨S2000x128, .f32⟩
  | 38 => ⟨S2000x128, .f32⟩
  | 39 => ⟨S128x128, .f32⟩
  | 40 => ⟨S1x128, .f32⟩
  | 41 => ⟨S2000x128, .f32⟩
  | 42 => ⟨S2000x128, .f32⟩
  | 43 => ⟨S2000x128, .f32⟩
  | 44 => ⟨S2000x128, .f32⟩
  | 45 => ⟨S2000x128, .f32⟩
  | 46 => ⟨S2000x128, .f32⟩
  | 47 => ⟨S2000x1, .f32⟩
  | 48 => ⟨S2000x1, .f32⟩
  | 49 => ⟨S1x128, .f32⟩
  | 50 => ⟨S2000x128, .f32⟩
  | 51 => ⟨S2000x128, .f32⟩
  | 52 => ⟨S1x128, .f32⟩
  | 53 => ⟨S1x128, .f32⟩
  | 54 => ⟨S1x128, .f32⟩
  | 55 => ⟨S1x128, .f32⟩
  | 56 => ⟨S2000x128, .f32⟩
  | 57 => ⟨S2000x128, .f32⟩
  | 58 => ⟨S1x128, .f32⟩
  | 59 => ⟨S1x128, .f32⟩
  | 60 => ⟨S1x128, .f32⟩
  | 61 => ⟨S1x128, .f32⟩
  | 62 => ⟨S2000x128, .f32⟩
  | 63 => ⟨S2000x128, .f32⟩
  | 64 => ⟨S2000x128, .f32⟩
  | 65 => ⟨S2000x128, .f32⟩
  | 66 => ⟨S2000x128, .f32⟩
  | 67 => ⟨S2000x128, .f32⟩
  | 68 => ⟨S2000x128, .f32⟩
  | 69 => ⟨S2000x128, .f32⟩
  | 70 => ⟨S2000x128, .f32⟩
  | 71 => ⟨S2000x128, .f32⟩
  | 72 => ⟨S128x128, .f32⟩
  | 73 => ⟨S1x128, .f32⟩
  | 74 => ⟨S2000x128, .f32⟩
  | 75 => ⟨S2000x128, .f32⟩
  | 76 => ⟨S2000x128, .f32⟩
  | 77 => ⟨S2000x128, .f32⟩
  | 78 => ⟨S2000x128, .f32⟩
  | 79 => ⟨S2000x128, .f32⟩
  | 80 => ⟨S2000x1, .f32⟩
  | 81 => ⟨S2000x1, .f32⟩
  | 82 => ⟨S1x128, .f32⟩
  | 83 => ⟨S2000x128, .f32⟩
  | 84 => ⟨S2000x128, .f32⟩
  | 85 => ⟨S1x128, .f32⟩
  | 86 => ⟨S1x128, .f32⟩
  | 87 => ⟨S1x128, .f32⟩
  | 88 => ⟨S1x128, .f32⟩
  | 89 => ⟨S2000x128, .f32⟩
  | 90 => ⟨S2000x128, .f32⟩
  | 91 => ⟨S1x128, .f32⟩
  | 92 => ⟨S1x128, .f32⟩
  | 93 => ⟨S1x128, .f32⟩
  | 94 => ⟨S1x128, .f32⟩
  | 95 => ⟨S2000x128, .f32⟩
  | 96 => ⟨S2000x128, .f32⟩
  | 97 => ⟨S2000x128, .f32⟩
  | 98 => ⟨S2000x128, .f32⟩
  | 99 => ⟨S2000x128, .f32⟩
  | 100 => ⟨S2000x128, .f32⟩
  | 101 => ⟨S2000x128, .f32⟩
  | 102 => ⟨S2000x128, .f32⟩
  | 103 => ⟨S128x128, .f32⟩
  | 104 => ⟨S1x128, .f32⟩
  | 105 => ⟨S2000x128, .f32⟩
  | 106 => ⟨S2000x128, .f32⟩
  | 107 => ⟨S2000x128, .f32⟩
  | 108 => ⟨S2000x128, .f32⟩
  | 109 => ⟨S2000x128, .f32⟩
  | 110 => ⟨S2000x128, .f32⟩
  | 111 => ⟨S2000x1, .f32⟩
  | 112 => ⟨S2000x1, .f32⟩
  | 113 => ⟨S1x128, .f32⟩
  | 114 => ⟨S2000x128, .f32⟩
  | 115 => ⟨S2000x128, .f32⟩
  | 116 => ⟨S1x128, .f32⟩
  | 117 => ⟨S1x128, .f32⟩
  | 118 => ⟨S1x128, .f32⟩
  | 119 => ⟨S1x128, .f32⟩
  | 120 => ⟨S2000x128, .f32⟩
  | 121 => ⟨S2000x128, .f32⟩
  | 122 => ⟨S1x128, .f32⟩
  | 123 => ⟨S1x128, .f32⟩
  | 124 => ⟨S1x128, .f32⟩
  | 125 => ⟨S1x128, .f32⟩
  | 126 => ⟨S2000x128, .f32⟩
  | 127 => ⟨S2000x128, .f32⟩
  | _ => ⟨S50000x128, .f32⟩

abbrev vmemTy0_1 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S2000x128, .f32⟩
  | 5 => ⟨S2000x128, .f32⟩
  | 6 => ⟨S2000x128, .f32⟩
  | 7 => ⟨S2000x128, .f32⟩
  | 8 => ⟨S128x64, .f32⟩
  | 9 => ⟨S1x64, .f32⟩
  | 10 => ⟨S2000x64, .f32⟩
  | 11 => ⟨S2000x64, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57_0 : Ref sig .tc := ⟨.hbm, 81, rfl⟩
abbrev main_v57_1 : Ref sig .tc := ⟨.hbm, 82, rfl⟩
abbrev main_v57_2 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64_0 : Ref sig .tc := ⟨.hbm, 90, rfl⟩
abbrev main_v64_1 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86_0 : Ref sig .tc := ⟨.hbm, 116, rfl⟩
abbrev main_v86_1 : Ref sig .tc := ⟨.hbm, 117, rfl⟩
abbrev main_v86_2 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93_0 : Ref sig .tc := ⟨.hbm, 125, rfl⟩
abbrev main_v93_1 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_15 : Ref sig .tc := ⟨.hbm, 131, rfl⟩
abbrev main_v98 : Ref sig .tc := ⟨.hbm, 132, rfl⟩
abbrev main_v99 : Ref sig .tc := ⟨.hbm, 133, rfl⟩
abbrev main_c_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_17 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115_0 : Ref sig .tc := ⟨.hbm, 151, rfl⟩
abbrev main_v115_1 : Ref sig .tc := ⟨.hbm, 152, rfl⟩
abbrev main_v115_2 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122_0 : Ref sig .tc := ⟨.hbm, 160, rfl⟩
abbrev main_v122_1 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_18 : Ref sig .tc := ⟨.hbm, 166, rfl⟩
abbrev main_v127 : Ref sig .tc := ⟨.hbm, 167, rfl⟩
abbrev main_v128 : Ref sig .tc := ⟨.hbm, 168, rfl⟩
abbrev main_c_19 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_20 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144_0 : Ref sig .tc := ⟨.hbm, 186, rfl⟩
abbrev main_v144_1 : Ref sig .tc := ⟨.hbm, 187, rfl⟩
abbrev main_v144_2 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151_0 : Ref sig .tc := ⟨.hbm, 195, rfl⟩
abbrev main_v151_1 : Ref sig .tc := ⟨.hbm, 196, rfl⟩
abbrev main_v152 : Ref sig .tc := ⟨.hbm, 197, rfl⟩
abbrev main_v153 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc2_scratch0 : Ref sig .tc := ⟨.vmem, 23, rfl⟩
abbrev cc2_scratch1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg7_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc5_stg5_0 : Ref sig .tc := ⟨.vmem, 52, rfl⟩
abbrev cc5_stg6_0 : Ref sig .tc := ⟨.vmem, 53, rfl⟩
abbrev cc5_scratch0 : Ref sig .tc := ⟨.vmem, 54, rfl⟩
abbrev cc5_scratch1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg5_1 : Ref sig .tc := ⟨.vmem, 63, rfl⟩
abbrev cc6_stg6_0 : Ref sig .tc := ⟨.vmem, 64, rfl⟩
abbrev cc6_stg6_1 : Ref sig .tc := ⟨.vmem, 65, rfl⟩
abbrev cc6_stg7_0 : Ref sig .tc := ⟨.vmem, 66, rfl⟩
abbrev cc6_stg7_1 : Ref sig .tc := ⟨.vmem, 67, rfl⟩
abbrev cc6_stg8_0 : Ref sig .tc := ⟨.vmem, 68, rfl⟩
abbrev cc6_stg8_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg3_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg4_1 : Ref sig .tc := ⟨.vmem, 84, rfl⟩
abbrev cc8_stg5_0 : Ref sig .tc := ⟨.vmem, 85, rfl⟩
abbrev cc8_stg6_0 : Ref sig .tc := ⟨.vmem, 86, rfl⟩
abbrev cc8_scratch0 : Ref sig .tc := ⟨.vmem, 87, rfl⟩
abbrev cc8_scratch1 : Ref sig .tc := ⟨.vmem, 88, rfl⟩
abbrev cc9_stg0_0 : Ref sig .tc := ⟨.vmem, 89, rfl⟩
abbrev cc9_stg0_1 : Ref sig .tc := ⟨.vmem, 90, rfl⟩
abbrev cc9_stg1_0 : Ref sig .tc := ⟨.vmem, 91, rfl⟩
abbrev cc9_stg2_0 : Ref sig .tc := ⟨.vmem, 92, rfl⟩
abbrev cc9_stg3_0 : Ref sig .tc := ⟨.vmem, 93, rfl⟩
abbrev cc9_stg4_0 : Ref sig .tc := ⟨.vmem, 94, rfl⟩
abbrev cc9_stg5_0 : Ref sig .tc := ⟨.vmem, 95, rfl⟩
abbrev cc9_stg5_1 : Ref sig .tc := ⟨.vmem, 96, rfl⟩
abbrev cc9_stg6_0 : Ref sig .tc := ⟨.vmem, 97, rfl⟩
abbrev cc9_stg6_1 : Ref sig .tc := ⟨.vmem, 98, rfl⟩
abbrev cc9_stg7_0 : Ref sig .tc := ⟨.vmem, 99, rfl⟩
abbrev cc9_stg7_1 : Ref sig .tc := ⟨.vmem, 100, rfl⟩
abbrev cc10_stg0_0 : Ref sig .tc := ⟨.vmem, 101, rfl⟩
abbrev cc10_stg0_1 : Ref sig .tc := ⟨.vmem, 102, rfl⟩
abbrev cc10_stg1_0 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg3_1 : Ref sig .tc := ⟨.vmem, 106, rfl⟩
abbrev cc11_stg0_0 : Ref sig .tc := ⟨.vmem, 107, rfl⟩
abbrev cc11_stg0_1 : Ref sig .tc := ⟨.vmem, 108, rfl⟩
abbrev cc11_stg1_0 : Ref sig .tc := ⟨.vmem, 109, rfl⟩
abbrev cc11_stg1_1 : Ref sig .tc := ⟨.vmem, 110, rfl⟩
abbrev cc11_stg2_0 : Ref sig .tc := ⟨.vmem, 111, rfl⟩
abbrev cc11_stg2_1 : Ref sig .tc := ⟨.vmem, 112, rfl⟩
abbrev cc11_stg3_0 : Ref sig .tc := ⟨.vmem, 113, rfl⟩
abbrev cc11_stg4_0 : Ref sig .tc := ⟨.vmem, 114, rfl⟩
abbrev cc11_stg4_1 : Ref sig .tc := ⟨.vmem, 115, rfl⟩
abbrev cc11_stg5_0 : Ref sig .tc := ⟨.vmem, 116, rfl⟩
abbrev cc11_stg6_0 : Ref sig .tc := ⟨.vmem, 117, rfl⟩
abbrev cc11_scratch0 : Ref sig .tc := ⟨.vmem, 118, rfl⟩
abbrev cc11_scratch1 : Ref sig .tc := ⟨.vmem, 119, rfl⟩
abbrev cc12_stg0_0 : Ref sig .tc := ⟨.vmem, 120, rfl⟩
abbrev cc12_stg0_1 : Ref sig .tc := ⟨.vmem, 121, rfl⟩
abbrev cc12_stg1_0 : Ref sig .tc := ⟨.vmem, 122, rfl⟩
abbrev cc12_stg2_0 : Ref sig .tc := ⟨.vmem, 123, rfl⟩
abbrev cc12_stg3_0 : Ref sig .tc := ⟨.vmem, 124, rfl⟩
abbrev cc12_stg4_0 : Ref sig .tc := ⟨.vmem, 125, rfl⟩
abbrev cc12_stg5_0 : Ref sig .tc := ⟨.vmem, 126, rfl⟩
abbrev cc12_stg5_1 : Ref sig .tc := ⟨.vmem, 127, rfl⟩
abbrev cc12_stg6_0 : Ref sig .tc := ⟨.vmem, 128, rfl⟩
abbrev cc12_stg6_1 : Ref sig .tc := ⟨.vmem, 129, rfl⟩
abbrev cc12_stg7_0 : Ref sig .tc := ⟨.vmem, 130, rfl⟩
abbrev cc12_stg7_1 : Ref sig .tc := ⟨.vmem, 131, rfl⟩
abbrev cc12_stg8_0 : Ref sig .tc := ⟨.vmem, 132, rfl⟩
abbrev cc12_stg8_1 : Ref sig .tc := ⟨.vmem, 133, rfl⟩
abbrev cc13_stg0_0 : Ref sig .tc := ⟨.vmem, 134, rfl⟩
abbrev cc13_stg0_1 : Ref sig .tc := ⟨.vmem, 135, rfl⟩
abbrev cc13_stg1_0 : Ref sig .tc := ⟨.vmem, 136, rfl⟩
abbrev cc13_stg2_0 : Ref sig .tc := ⟨.vmem, 137, rfl⟩
abbrev cc13_stg3_0 : Ref sig .tc := ⟨.vmem, 138, rfl⟩
abbrev cc13_stg3_1 : Ref sig .tc := ⟨.vmem, 139, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem6_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc3_sem6_0 : DmaSem sig := 31
abbrev cc3_sem6_1 : DmaSem sig := 32
abbrev cc3_sem7_0 : DmaSem sig := 33
abbrev cc3_sem7_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem6_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc6_sem6_0 : DmaSem sig := 60
abbrev cc6_sem6_1 : DmaSem sig := 61
abbrev cc6_sem7_0 : DmaSem sig := 62
abbrev cc6_sem7_1 : DmaSem sig := 63
abbrev cc6_sem8_0 : DmaSem sig := 64
abbrev cc6_sem8_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem4_0 : DmaSem sig := 79
abbrev cc8_sem4_1 : DmaSem sig := 80
abbrev cc8_sem5_0 : DmaSem sig := 81
abbrev cc8_sem6_0 : DmaSem sig := 82
abbrev cc9_sem0_0 : DmaSem sig := 83
abbrev cc9_sem0_1 : DmaSem sig := 84
abbrev cc9_sem1_0 : DmaSem sig := 85
abbrev cc9_sem2_0 : DmaSem sig := 86
abbrev cc9_sem3_0 : DmaSem sig := 87
abbrev cc9_sem4_0 : DmaSem sig := 88
abbrev cc9_sem5_0 : DmaSem sig := 89
abbrev cc9_sem5_1 : DmaSem sig := 90
abbrev cc9_sem6_0 : DmaSem sig := 91
abbrev cc9_sem6_1 : DmaSem sig := 92
abbrev cc9_sem7_0 : DmaSem sig := 93
abbrev cc9_sem7_1 : DmaSem sig := 94
abbrev cc10_sem0_0 : DmaSem sig := 95
abbrev cc10_sem0_1 : DmaSem sig := 96
abbrev cc10_sem1_0 : DmaSem sig := 97
abbrev cc10_sem2_0 : DmaSem sig := 98
abbrev cc10_sem3_0 : DmaSem sig := 99
abbrev cc10_sem3_1 : DmaSem sig := 100
abbrev cc11_sem0_0 : DmaSem sig := 101
abbrev cc11_sem0_1 : DmaSem sig := 102
abbrev cc11_sem1_0 : DmaSem sig := 103
abbrev cc11_sem1_1 : DmaSem sig := 104
abbrev cc11_sem2_0 : DmaSem sig := 105
abbrev cc11_sem2_1 : DmaSem sig := 106
abbrev cc11_sem3_0 : DmaSem sig := 107
abbrev cc11_sem4_0 : DmaSem sig := 108
abbrev cc11_sem4_1 : DmaSem sig := 109
abbrev cc11_sem5_0 : DmaSem sig := 110
abbrev cc11_sem6_0 : DmaSem sig := 111
abbrev cc12_sem0_0 : DmaSem sig := 112
abbrev cc12_sem0_1 : DmaSem sig := 113
abbrev cc12_sem1_0 : DmaSem sig := 114
abbrev cc12_sem2_0 : DmaSem sig := 115
abbrev cc12_sem3_0 : DmaSem sig := 116
abbrev cc12_sem4_0 : DmaSem sig := 117
abbrev cc12_sem5_0 : DmaSem sig := 118
abbrev cc12_sem5_1 : DmaSem sig := 119
abbrev cc12_sem6_0 : DmaSem sig := 120
abbrev cc12_sem6_1 : DmaSem sig := 121
abbrev cc12_sem7_0 : DmaSem sig := 122
abbrev cc12_sem7_1 : DmaSem sig := 123
abbrev cc12_sem8_0 : DmaSem sig := 124
abbrev cc12_sem8_1 : DmaSem sig := 125
abbrev cc13_sem0_0 : DmaSem sig := 126
abbrev cc13_sem0_1 : DmaSem sig := 127
abbrev cc13_sem1_0 : DmaSem sig := 128
abbrev cc13_sem2_0 : DmaSem sig := 129
abbrev cc13_sem3_0 : DmaSem sig := 130
abbrev cc13_sem3_1 : DmaSem sig := 131

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S2000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S2000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S2000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def k11_cond2 (i : grid11.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_19 : BitVec 32 := 0#32
  let v34 : BitVec 1 := Scalar.cmpi .ne v33 c0_i32_19
  v34

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S2000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S2000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S2000x128 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x128 : S_.BroadcastsInDim S50000x128 (![] : Fin 0 → Fin S50000x128.rank)
  bcast_S_S128 : S_.BroadcastsInDim S128 (![] : Fin 0 → Fin S128.rank)
  slices_S4x128x128_S1x128x128_0_0_0 : S4x128x128.Slices ![0, 0, 0] S1x128x128
  shapeCasts_S1x128x128_S128x128 : S1x128x128.ShapeCasts S128x128
  shapeCasts_S2000x128_S2000x128 : S2000x128.ShapeCasts S2000x128
  shapeCasts_S128x128_S128x128 : S128x128.ShapeCasts S128x128
  bcast_S600000x1_S600000x128_0_1 : S600000x1.BroadcastsInDim S600000x128 (![0, 1] : Fin 2 → Fin S600000x128.rank)
  slices_S4x128_S1x128_0_0 : S4x128.Slices ![0, 0] S1x128
  shapeCasts_S1x128_S128 : S1x128.ShapeCasts S128
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S128 : S2000x128.Reduces [0] S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S50000x128.size a
  hwx6_5 : ∀ i : grid6.Coords, EltTy.bits .f32 = 32 ∨ (Rect.block (s := S50000x128) S2000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S50000x128.size a
  hwx6_7 : ∀ i : grid6.Coords, EltTy.bits .f32 = 32 ∨ (Rect.block (s := S50000x128) S2000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x128.size a ≤ S50000x128.size a
  hwx6_8 : ∀ i : grid6.Coords, EltTy.bits .f32 = 32 ∨ (Rect.block (s := S50000x128) S2000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S50000x1.size a
  hwx8_2 : ∀ i : grid8.Coords, EltTy.bits .f32 = 32 ∨ (Rect.block (s := S50000x1) S2000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S50000x128.size a
  hwx8_4 : ∀ i : grid8.Coords, EltTy.bits .f32 = 32 ∨ (Rect.block (s := S50000x128) S2000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S50000x128.size a
  hwx9_5 : ∀ i : grid9.Coords, EltTy.bits .f32 = 32 ∨ (Rect.block (s := S50000x128) S2000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x128.size a ≤ S50000x128.size a
  hwx9_6 : ∀ i : grid9.Coords, EltTy.bits .f32 = 32 ∨ (Rect.block (s := S50000x128) S2000x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x128.size a ≤ S50000x128.size a
  hwx9_7 : ∀ i : grid9.Coords, EltTy.bits .f32 = 32 ∨ (Rect.block (s := S50000x128) S2000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .f32 = 32 ∨ (Rect.block (s := S50000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S50000x128.size a
  hwx11_1 : ∀ i : grid11.Coords, EltTy.bits .f32 = 32 ∨ (Rect.block (s := S50000x128) S2000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x1.size a ≤ S50000x1.size a
  hwx11_2 : ∀ i : grid11.Coords, EltTy.bits .f32 = 32 ∨ (Rect.block (s := S50000x1) S2000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x128.size a ≤ S50000x128.size a
  hwx11_4 : ∀ i : grid11.Coords, EltTy.bits .f32 = 32 ∨ (Rect.block (s := S50000x128) S2000x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x128.size a ≤ S50000x128.size a
  hwx12_5 : ∀ i : grid12.Coords, EltTy.bits .f32 = 32 ∨ (Rect.block (s := S50000x128) S2000x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S2000x128.size a ≤ S50000x128.size a
  hwx12_6 : ∀ i : grid12.Coords, EltTy.bits .f32 = 32 ∨ (Rect.block (s := S50000x128) S2000x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S2000x128.size a ≤ S50000x128.size a
  hwx12_7 : ∀ i : grid12.Coords, EltTy.bits .f32 = 32 ∨ (Rect.block (s := S50000x128) S2000x128.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S2000x128.size a ≤ S50000x128.size a
  hwx12_8 : ∀ i : grid12.Coords, EltTy.bits .f32 = 32 ∨ (Rect.block (s := S50000x128) S2000x128.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x64.size a ≤ S128x64.size a
  hwx13_1 : ∀ i : grid13.Coords, EltTy.bits .f32 = 32 ∨ (Rect.block (s := S128x64) S128x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x64.size a ≤ S50000x64.size a
  hwx13_3 : ∀ i : grid13.Coords, EltTy.bits .f32 = 32 ∨ (Rect.block (s := S50000x64) S2000x64.size (cc13_transform_3 i) (hinb13_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v57_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v57_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v64_0) S2000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v64_1) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v64_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v81) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86_0) S2000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v86_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v86_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun i => !(k5_cond2 i == 1#1) | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v86_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86_1) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86_2) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v33) S2000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v64_1) S2000x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v93_0) S2000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v93_1) S2000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v93_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v110) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v97) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v113) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v114) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v115_0) S2000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v115_1) S1x128.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v115_2) S1x128.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun i => !(k8_cond2 i == 1#1) | 6 => fun i => !(k8_cond2 i == 1#1) | ⟨_ + 7, h⟩ => absurd h (Nat.not_lt.2 (Nat.le_add_left _ _))

abbrev win9_0 : Pipeline.Window sig grid9 :=
  Pipeline.Window.ofSpec (Memref.whole main_v115_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v115_1) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v115_2) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v120) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v121) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v93_1) S2000x128.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v122_0) S2000x128.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v122_1) S2000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v122_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v124) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v125) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v126) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v139) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v142) S2000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v143) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v144_0) S2000x128.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v144_1) S1x128.size cc11_transform_5 reads11_5 true true 1 stage11_5 sem11_5
    hrank11 hreads11_5 hinb11_5 nbuf11_5 (Memref.isWhole_whole _) hwx11_5 hstage11_5

abbrev win11_6 : Pipeline.Window sig grid11 :=
  Pipeline.Window.ofSpec (Memref.whole main_v144_2) S1x128.size cc11_transform_6 reads11_6 true true 1 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev idle11 : Fin 7 → grid11.Coords → Bool := fun | 0 => fun _ => false | 1 => fun _ => false | 2 => fun _ => false | 3 => fun _ => false | 4 => fun _ => false | 5 => fun i => !(k11_cond2 i == 1#1) | 6 => fun i => !(k11_cond2 i == 1#1) | ⟨_ + 7, h⟩ => absurd h (Nat.not_lt.2 (Nat.le_add_left _ _))

abbrev win12_0 : Pipeline.Window sig grid12 :=
  Pipeline.Window.ofSpec (Memref.whole main_v144_0) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v144_1) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v144_2) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v149) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v150) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v33) S2000x128.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v122_1) S2000x128.size cc12_transform_6 reads12_6 false false 2 stage12_6 sem12_6
    hrank12 hreads12_6 hinb12_6 nbuf12_6 (Memref.isWhole_whole _) hwx12_6 hstage12_6

abbrev win12_7 : Pipeline.Window sig grid12 :=
  Pipeline.Window.ofSpec (Memref.whole main_v151_0) S2000x128.size cc12_transform_7 reads12_7 true false 2 stage12_7 sem12_7
    hrank12 hreads12_7 hinb12_7 nbuf12_7 (Memref.isWhole_whole _) hwx12_7 hstage12_7

abbrev win12_8 : Pipeline.Window sig grid12 :=
  Pipeline.Window.ofSpec (Memref.whole main_v151_1) S2000x128.size cc12_transform_8 reads12_8 true false 2 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v151_1) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg7) S128x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v152) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v153) S2000x64.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S1x128 : Shape := ⟨2, ![1, 128]⟩
abbrev S1x128x128 : Shape := ⟨3, ![1, 128, 128]⟩
abbrev S600000x128 : Shape := ⟨2, ![600000, 128]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 333
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S4x128x128, .f32⟩
  | 4 => ⟨S4x128, .f32⟩
  | 5 => ⟨S4x128, .f32⟩
  | 6 => ⟨S4x128, .f32⟩
  | 7 => ⟨S128x64, .f32⟩
  | 8 => ⟨S64, .f32⟩
  | 9 => ⟨S2x600000, .i32⟩
  | 10 => ⟨S1x600000, .i32⟩
  | 11 => ⟨S600000, .i32⟩
  | 12 => ⟨S1x600000, .i32⟩
  | 13 => ⟨S600000, .i32⟩
  | 14 => ⟨S_, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S_, .f32⟩
  | 25 => ⟨S600000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S50000, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S1x128x128, .f32⟩
  | 58 => ⟨S128x128, .f32⟩
  | 59 => ⟨S50000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x1, .f32⟩
  | 70 => ⟨S600000x128, .f32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S_, .i32⟩
  | 127 => ⟨S600000, .i32⟩
  | _ => ⟨S50000x128, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S600000x1, .f32⟩
  | 8 => ⟨S600000x128, .f32⟩
  | 9 => ⟨S600000x128, .f32⟩
  | 10 => ⟨S_, .f32⟩
  | 11 => ⟨S50000x128, .f32⟩
  | 12 => ⟨S600000x1, .i32⟩
  | 13 => ⟨S50000x128, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S600000x1, .f32⟩
  | 78 => ⟨S600000x128, .f32⟩
  | 79 => ⟨S600000x128, .f32⟩
  | 80 => ⟨S_, .f32⟩
  | 81 => ⟨S50000x128, .f32⟩
  | 82 => ⟨S600000x1, .i32⟩
  | 83 => ⟨S50000x128, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S_, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S128, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x1, .f32⟩
  | 16 => ⟨S600000x128, .f32⟩
  | 17 => ⟨S600000x128, .f32⟩
  | 18 => ⟨S_, .f32⟩
  | 19 => ⟨S50000x128, .f32⟩
  | 20 => ⟨S600000x1, .i32⟩
  | 21 => ⟨S50000x128, .f32⟩
  | 22 => ⟨S50000x1, .f32⟩
  | 23 => ⟨S50000x128, .f32⟩
  | 24 => ⟨S50000x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S128, .f32⟩
  | 42 => ⟨S_, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000x64, .f32⟩
  | 74 => ⟨S1x64, .f32⟩
  | 75 => ⟨S50000x64, .f32⟩
  | 76 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call0_cst : Ref sig .tc := ⟨.hbm, 119, rfl⟩
abbrev main_call0_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_16 : Ref sig .tc := ⟨.hbm, 126, rfl⟩
abbrev main_v96 : Ref sig .tc := ⟨.hbm, 127, rfl⟩
abbrev main_v97 : Ref sig .tc := ⟨.hbm, 128, rfl⟩
abbrev main_c_17 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_18 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_19 : Ref sig .tc := ⟨.hbm, 151, rfl⟩
abbrev main_v118 : Ref sig .tc := ⟨.hbm, 152, rfl⟩
abbrev main_cst_20 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_21 : Ref sig .tc := ⟨.hbm, 160, rfl⟩
abbrev main_v125 : Ref sig .tc := ⟨.hbm, 161, rfl⟩
abbrev main_cst_22 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_23 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_24 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_call1_cst : Ref sig .tc := ⟨.hbm, 189, rfl⟩
abbrev main_call1_v0 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_c_25 : Ref sig .tc := ⟨.hbm, 196, rfl⟩
abbrev main_v155 : Ref sig .tc := ⟨.hbm, 197, rfl⟩
abbrev main_v156 : Ref sig .tc := ⟨.hbm, 198, rfl⟩
abbrev main_c_26 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_27 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_28 : Ref sig .tc := ⟨.hbm, 221, rfl⟩
abbrev main_v177 : Ref sig .tc := ⟨.hbm, 222, rfl⟩
abbrev main_cst_29 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_cst_30 : Ref sig .tc := ⟨.hbm, 230, rfl⟩
abbrev main_v184 : Ref sig .tc := ⟨.hbm, 231, rfl⟩
abbrev main_cst_31 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_32 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_call2_cst : Ref sig .tc := ⟨.hbm, 255, rfl⟩
abbrev main_call2_v0 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_c_33 : Ref sig .tc := ⟨.hbm, 262, rfl⟩
abbrev main_v211 : Ref sig .tc := ⟨.hbm, 263, rfl⟩
abbrev main_v212 : Ref sig .tc := ⟨.hbm, 264, rfl⟩
abbrev main_c_34 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_cst_35 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_cst_36 : Ref sig .tc := ⟨.hbm, 287, rfl⟩
abbrev main_v233 : Ref sig .tc := ⟨.hbm, 288, rfl⟩
abbrev main_cst_37 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_cst_38 : Ref sig .tc := ⟨.hbm, 296, rfl⟩
abbrev main_v240 : Ref sig .tc := ⟨.hbm, 297, rfl⟩
abbrev main_cst_39 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_cst_40 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_cst_41 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_call3_cst : Ref sig .tc := ⟨.hbm, 325, rfl⟩
abbrev main_call3_v0 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128_S1x128_0_0 : S4x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Bits.Reg0.lean ====
import proofs.«101364_j7567732376252_1_alg».proof.Proof.Gen.Kernel.Launch
import proofs.«101364_j7567732376252_1_alg».proof.Proof.Gen.Kernel.Skeleton
import proofs.«101364_j7567732376252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Kernel
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0
abbrev r0_y : Rect S2000x128 := Rect.unit (s := S2000x128) ![0, 0] S2000x128.size inb_S2000x128_S2000x128_0_0

def linear_skel0 (pay : Vec F S2000x128 .f32 → Vec F S128x128 .f32 → Vec F S1x128 .f32 →
      FVec F S2000x128 .f32)
    (arg1 : Memref sig .tc .vmem S2000x128 .f32) (arg2 : Memref sig .tc .vmem S128x128 .f32) (arg3 : Memref sig .tc .vmem S1x128 .f32)
    (arg4 : Memref sig .tc .vmem S2000x128 .f32) :
    Prog (TpuEff nD τ sig (Elt F) Λ₀ .tc) PUnit := do
  let v0 ← Prog.lift (.load arg1 r0_x.toLoadRect (View.loadsAt_vmem h_S2000x128))
  let v2 ← Prog.lift (.load arg2 r0_w.toLoadRect (View.loadsAt_vmem h_S128x128))
  let v5 ← Prog.lift (.load arg3 r0_b.toLoadRect (View.loadsAt_vmem h_S1x128))
  let _ ← Prog.lift (.load arg4 r0_y.toLoadRect (View.loadsAt_vmem h_S2000x128))
  Prog.lift (.store arg4 r0_y (pay v0 v2 v5) Finset.univ (View.stores_vmem_bits_univ h_S2000x128 rfl) (.inl rfl))
  pure ⟨⟩

set_option maxHeartbeats 1000000 in
-- the output is written once over a rectangle that is the whole shape, so every entry of it is the stored value's
theorem sound_linear0 (pay : Vec F S2000x128 .f32 → Vec F S128x128 .f32 → Vec F S1x128 .f32 →
      FVec F S2000x128 .f32)
    (c : Dev nD) (E : Set ℕ)
    (arg1 : Memref sig .tc .vmem S2000x128 .f32) (arg2 : Memref sig .tc .vmem S128x128 .f32) (arg3 : Memref sig .tc .vmem S1x128 .f32)
    (arg4 : Memref sig .tc .vmem S2000x128 .f32)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare
              (View.canon [⟨r0_y, pay (View.ld x0 r0_x) (View.ld x1 r0_w) (View.ld x2 r0_b)⟩])) -∗ K ⟨⟩))
      ⊢ wp frame (wpE (defs₀ (F := F)) Variants.none c none) E (linear_skel0 pay arg1 arg2 arg3 arg4) K := by
  unfold linear_skel0 owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x128.size (by rfl))
end Kernel

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S2000x128 .f32) (x1 : Vec F S128x128 .f32) (x2 : Vec F S1x128 .f32) :
    Vec F S2000x128 .f32 :=
  View.canon [⟨r0_y, k0_pay1 (View.ld x0 r0_x) (View.ld x1 r0_w) (View.ld x2 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show iprop(_ ∗ _ ∗ (∃ d, owns c.tc (st0_0 t) _ ((dat0 V c).before 0 t d)) ∗ (∃ d, owns c.tc (st0_1 t) _ ((dat0 V c).before 1 t d))
      ∗ (∃ d, owns c.tc (st0_2 t) _ ((dat0 V c).before 2 t d)) ∗ (∃ d, owns c.tc (st0_3 t) _ ((dat0 V c).before 3 t d)))
    ⊢ wp frame _ _ (bodyAt0 t) fun _ => iprop(_ ∗ _ ∗ owns c.tc (st0_0 t) _ (iblk0 V c 0 t) ∗ owns c.tc (st0_1 t) _ (iblk0 V c 1 t)
      ∗ owns c.tc (st0_2 t) _ (iblk0 V c 2 t) ∗ owns c.tc (st0_3 t) _ ((dat0 V c).after 3 t))
  rw [show (dat0 V c).Φ t.succ = (dat0 V c).Φ t.castSucc from rfl,
    show (dat0 V c).owesAt () t.succ = (dat0 V c).owesAt () t.castSucc from rfl]
  unfold bodyAt0
  simp only [before0_0, before0_1, before0_2, after0_3, out0_3, cc0__linear_kernel_eq_skeleton]
  iintro ⟨HΦ, Ho, ⟨%d0, H0⟩, ⟨%d1, H1⟩, ⟨%d2, H2⟩, ⟨%d3, H3⟩⟩
  iapply (sound_linear0 k0_pay1 c Set.univ _ _ _ _ (iblk0 V c 0 t) (iblk0 V c 1 t) (iblk0 V c 2 t) _)
  iframe H0 H1 H2
  isplitl [H3]; · iexists _; iexact H3
  iintro ⟨H0, H1, H2, H3⟩
  iframe

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Gen
-- ==== Proof.Bits.Reg1.lean ====
import proofs.«101364_j7567732376252_1_alg».proof.Proof.Bits.Reg0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S2000x128 .f32) (x1 : Vec F S128x128 .f32) (x2 : Vec F S1x128 .f32) :
    Vec F S2000x128 .f32 :=
  View.canon [⟨r0_y, k1_pay1 (View.ld x0 r0_x) (View.ld x1 r0_w) (View.ld x2 r0_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show iprop(_ ∗ _ ∗ (∃ d, owns c.tc (st1_0 t) _ ((dat1 V c).before 0 t d)) ∗ (∃ d, owns c.tc (st1_1 t) _ ((dat1 V c).before 1 t d))
      ∗ (∃ d, owns c.tc (st1_2 t) _ ((dat1 V c).before 2 t d)) ∗ (∃ d, owns c.tc (st1_3 t) _ ((dat1 V c).before 3 t d)))
    ⊢ wp frame _ _ (bodyAt1 t) fun _ => iprop(_ ∗ _ ∗ owns c.tc (st1_0 t) _ (iblk1 V c 0 t) ∗ owns c.tc (st1_1 t) _ (iblk1 V c 1 t)
      ∗ owns c.tc (st1_2 t) _ (iblk1 V c 2 t) ∗ owns c.tc (st1_3 t) _ ((dat1 V c).after 3 t))
  rw [show (dat1 V c).Φ t.succ = (dat1 V c).Φ t.castSucc from rfl,
    show (dat1 V c).owesAt () t.succ = (dat1 V c).owesAt () t.castSucc from rfl]
  unfold bodyAt1
  simp only [before1_0, before1_1, before1_2, after1_3, out1_3, cc1__linear_kernel_eq_skeleton]
  iintro ⟨HΦ, Ho, ⟨%d0, H0⟩, ⟨%d1, H1⟩, ⟨%d2, H2⟩, ⟨%d3, H3⟩⟩
  iapply (sound_linear0 k1_pay1 c Set.univ _ _ _ _ (iblk1 V c 0 t) (iblk1 V c 1 t) (iblk1 V c 2 t) _)
  iframe H0 H1 H2
  isplitl [H3]; · iexists _; iexact H3
  iintro ⟨H0, H1, H2, H3⟩
  iframe

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.Kernel.Gen
-- ==== Proof.Bits.Reg2Runs.lean ====
import proofs.«101364_j7567732376252_1_alg».proof.Proof.Gen.Kernel.Launch
import proofs.«101364_j7567732376252_1_alg».proof.Proof.Gen.Kernel.Skeleton
import proofs.«101364_j7567732376252_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The four statistics launches run one body on one grid.
def statsBody := cc2__agg_stats_kernel (F := F)
theorem stats_eq2 : cc2__agg_stats_kernel (F := F) = statsBody := rfl
theorem stats_eq5 : cc5__agg_stats_kernel (F := F) = statsBody := rfl
theorem stats_eq8 : cc8__agg_stats_kernel (F := F) = statsBody := rfl
theorem stats_eq11 : cc11__agg_stats_kernel (F := F) = statsBody := rfl

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

theorem zero2 : (![0, 0] : Fin 2 → Nat) = fun _ => 0 := funext fun a => by fin_cases a <;> rfl

-- A store over the whole shape, made last, decides what is read, whatever was stored before it.
theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

-- The same for a read through the whole shape of what such stores left.
theorem readCov_whole2 {κ : Kind} {sp : Space} {S : Shape} {e : EltTy} (v : View sig κ sp S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩), View.canon_cons_unit_zero h,
    View.ld_unit_zero h]

section
variable (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)

-- One run of the body: the fused block is stored, each carried row gains the block's column sums (of squares) from zero at the first point, and the last point forms the mean and variance rows from them.
theorem sound_stats (x0 x1 d5 : Vec F S2000x128 .f32) (x2 : Vec F S2000x1 .f32) (x3 d6 d7 d8 d9 : Vec F S1x128 .f32) (K : PUnit → sProp 𝕄) :
    owns (c : Thread nD τ) arg1 fullShare x0 ⊢ iprop(owns (c : Thread nD τ) arg2 fullShare x1 -∗ owns (c : Thread nD τ) arg3 fullShare x2 -∗ owns (c : Thread nD τ) arg4 fullShare x3
        -∗ owns (c : Thread nD τ) arg5 fullShare d5 -∗ owns (c : Thread nD τ) arg6 fullShare d6 -∗ owns (c : Thread nD τ) arg7 fullShare d7 -∗ owns (c : Thread nD τ) arg8 fullShare d8 -∗ owns (c : Thread nD τ) arg9 fullShare d9
        -∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay5 x0 x1 x2 x3)
            ∗ owns (c : Thread nD τ) arg6 fullShare (if cond2_1 i then k2_pay1 (k2_pay6 x0 x1 x2 x3 (if cond2_0 i then k2_pay3 else d8)) else d6)
            ∗ owns (c : Thread nD τ) arg7 fullShare (if cond2_1 i then k2_pay2 (k2_pay6 x0 x1 x2 x3 (if cond2_0 i then k2_pay3 else d8)) (k2_pay7 x0 x1 x2 x3 (if cond2_0 i then k2_pay4 else d9)) else d7)
            ∗ owns (c : Thread nD τ) arg8 fullShare (k2_pay6 x0 x1 x2 x3 (if cond2_0 i then k2_pay3 else d8)) ∗ owns (c : Thread nD τ) arg9 fullShare (k2_pay7 x0 x1 x2 x3 (if cond2_0 i then k2_pay4 else d9))) -∗ K ⟨⟩)
        -∗ wp frame (wpE (defs₀ (F := F)) Variants.none c none) E (statsBody i arg1 harg1 arg2 harg2 arg3 harg3 arg4 harg4 arg5 harg5 arg6 harg6 arg7 harg7 arg8 harg8 arg9 harg9) K) := by
  by_cases hc0 : cond2_0 i <;> by_cases hc1 : cond2_1 i <;>
  ( first | simp only [if_neg hc0, if_neg hc1] | simp only [if_neg hc0, if_pos hc1] | simp only [if_pos hc0, if_neg hc1] | simp only [if_pos hc0, if_pos hc1]
    unfold statsBody; simp only [cc2__agg_stats_kernel_eq_skeleton]; unfold cc2__agg_stats_kernel_skel
    simp only [k2_part1_eq_skeleton]
    unfold owns
    iintro ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ Hk
    subst hf1 hf2 hf3 hf4 hf5 hf6 hf7 hf8 hf9
    sl_exec (disch := first | exact hc0 | exact hc1)
    sl_step
    try sl_unfold_words
    iapply Hk
    isplitl [H1]; iexists _; isplitr; swap; iexact H1; ipureintro; swap
    isplitl [H2]; iexists _; isplitr; swap; iexact H2; ipureintro; swap
    isplitl [H3]; iexists _; isplitr; swap; iexact H3; ipureintro; swap
    isplitl [H4]; iexists _; isplitr; swap; iexact H4; ipureintro; swap
    isplitl [H5]; iexists _; isplitr; swap; iexact H5; ipureintro; swap
    isplitl [H6]; iexists _; isplitr; swap; iexact H6; ipureintro; swap
    isplitl [H7]; iexists _; isplitr; swap; iexact H7; ipureintro; swap
    isplitl [H8]; iexists _; isplitr; swap; iexact H8; ipureintro; swap
    iexists _; isplitr; swap; iexact H9; ipureintro
    all_goals first | rfl | exact (read_writes_whole2 _ _ zero2 _ _ _).trans (by simp only [View.readAt_eq_ld, View.ld_unit_zero (S := S2000x128) zero2, View.ld_unit_zero (S := S2000x1) zero2, View.ld_unit_zero (S := S1x128) zero2, readCov_whole2 (S := S1x128) _ zero2]) )

end

end Cert.Kernel.Gen

end
-- ==== Proof.Bits.Reg2.lean ====
import proofs.«101364_j7567732376252_1_alg».proof.Proof.Bits.Reg2Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem idleAt2 : ∀ t : Fin cfg2.N,
    (¬cond2_1 (grid2.coords t) → idle2 5 (grid2.coords t) = true ∧ idle2 6 (grid2.coords t) = true
      ∧ (win2 5).flush t = false ∧ (win2 6).flush t = false)
    ∧ (cond2_1 (grid2.coords t) → idle2 5 (grid2.coords t) = false ∧ idle2 6 (grid2.coords t) = false) := by decide +kernel

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

def point2 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k2_pay5 b0 b1 b2 b3, k2_pay1 (k2_pay6 b0 b1 b2 b3 s), k2_pay2 (k2_pay6 b0 b1 b2 b3 s) (k2_pay7 b0 b1 b2 b3 q),
    k2_pay6 b0 b1 b2 b3 s, k2_pay7 b0 b1 b2 b3 q)

-- What each point leaves, by recursion on the point: the carried rows start from zero and pass from point to point.
def outsAt2 (c : Dev nD) : (n : ℕ) → n < cfg2.N →
    Vec F S2000x128 .f32 × Vec F S1x128 .f32 × Vec F S1x128 .f32 × Vec F S1x128 .f32 × Vec F S1x128 .f32
  | 0, hn => point2 (iblk2 V c 0 ⟨0, hn⟩) (iblk2 V c 1 ⟨0, hn⟩) (iblk2 V c 2 ⟨0, hn⟩) (iblk2 V c 3 ⟨0, hn⟩) k2_pay3 k2_pay4
  | n + 1, hn => point2 (iblk2 V c 0 ⟨n + 1, hn⟩) (iblk2 V c 1 ⟨n + 1, hn⟩) (iblk2 V c 2 ⟨n + 1, hn⟩) (iblk2 V c 3 ⟨n + 1, hn⟩)
      (outsAt2 c n (Nat.lt_of_succ_lt hn)).2.2.2.1 (outsAt2 c n (Nat.lt_of_succ_lt hn)).2.2.2.2

theorem outsAt2_zero (c : Dev nD) (t : Fin cfg2.N) (hz : t.val = 0) :
    outsAt2 V c t.val t.isLt = point2 (iblk2 V c 0 t) (iblk2 V c 1 t) (iblk2 V c 2 t) (iblk2 V c 3 t) k2_pay3 k2_pay4 := by
  obtain ⟨n, hn⟩ := t
  cases n with
  | zero => rfl
  | succ n => exact absurd hz (Nat.succ_ne_zero n)

theorem outsAt2_pos (c : Dev nD) (t : Fin cfg2.N) (hz : t.val ≠ 0) :
    outsAt2 V c t.val t.isLt = point2 (iblk2 V c 0 t) (iblk2 V c 1 t) (iblk2 V c 2 t) (iblk2 V c 3 t)
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

-- The body at any point, by the point's position: the first, the last, or one between.
theorem body_obligation2 (c : Dev nD) : BodyObligation (dat2 (F := F) V c) (defs₀ (F := F)) Variants.none () Set.univ := fun t => by
  rw [bigSep_W2, bigSep_W2]
  change _ ⊢ wp _ _ _ (bodyAt2 t) _
  unfold bodyAt2
  rw [stats_eq2]
  simp only [before2_0, before2_1, before2_2, before2_3]
  rw [show (dat2 V c).Φ t.succ = PhiS2 V c (t.val + 1) t.isLt from rfl, PhiS2, PhiS2_castSucc V c t, after2_4]
  have hN : t.val < 25 := lt_of_lt_of_eq t.isLt (show cfg2.N = 25 from N_2)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid2.coords t) := fun h => hz (h0.mp h)
    have hc1 : ¬cond2_1 (grid2.coords t) := fun h => hl (h1.mp h)
    obtain ⟨i5, i6, f5, f6⟩ := (idleAt2 t).1 hc1
    simp only [i5, i6, f5, f6]
    rw [outsAt2_pos V c t hz, PhiS2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid2.coords t) := fun h => hz (h0.mp h)
    have hc1 : cond2_1 (grid2.coords t) := h1.mpr hl
    simp only [((idleAt2 t).2 hc1).1, ((idleAt2 t).2 hc1).2]
    rw [after2_5, after2_6, outsAt2_pos V c t hz, PhiS2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid2.coords t) := h0.mpr hz
    have hc1 : ¬cond2_1 (grid2.coords t) := fun h => by have := h1.mp h; omega
    obtain ⟨i5, i6, f5, f6⟩ := (idleAt2 t).1 hc1
    simp only [i5, i6, f5, f6]
    rw [outsAt2_zero V c t hz, PhiS2_zero V c _ _ hz, PhiA2_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point2]
    iapply (sound_stats c Set.univ (grid2.coords t) _ _ _ _ _ _ _ _ _ _ _ _ _ _ _ _ _ _ (iblk2 V c 0 t) (iblk2 V c 1 t) _ (iblk2 V c 2 t) (iblk2 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin2 (c : Dev nD) : Pipeline.ΦA spec2 c ⊢ (dat2 V c).Φ 0 := Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout2 (c : Dev nD) : (dat2 V c).Φ (Fin.last cfg2.N) ⊢ Pipeline.ΦA spec2 c :=
  Phi_out2 V c _ (by rw [Fin.val_last]; have : cfg2.N = 25 := N_2; omega)

end Cert.Kernel.Gen

end
-- ==== Proof.Bits.Reg3.lean ====
import proofs.«101364_j7567732376252_1_alg».proof.Proof.Gen.Kernel.Launch
import proofs.«101364_j7567732376252_1_alg».proof.Proof.Gen.Kernel.Skeleton
import proofs.«101364_j7567732376252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Kernel
abbrev r3_t : Rect S2000x128 := Rect.unit (s := S2000x128) ![0, 0] S2000x128.size inb_S2000x128_S2000x128_0_0
abbrev r3_r : Rect S1x128 := Rect.unit (s := S1x128) ![0, 0] S1x128.size inb_S1x128_S1x128_0_0

def bn_skel3 (pay1 : Vec F S2000x128 .f32 → Vec F S1x128 .f32 → Vec F S1x128 .f32 → Vec F S1x128 .f32 → Vec F S1x128 .f32 →
      FVec F S2000x128 .f32)
    (pay2 : Vec F S2000x128 .f32 → Vec F S1x128 .f32 → Vec F S1x128 .f32 → Vec F S1x128 .f32 → Vec F S1x128 .f32 → Vec F S2000x128 .f32 →
      FVec F S2000x128 .f32)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32) :
    Prog (TpuEff nD τ sig (Elt F) Λ₀ .tc) PUnit := do
  let v0 ← Prog.lift (.load arg1 r3_t.toLoadRect (View.loadsAt_vmem h_S2000x128))
  let v2 ← Prog.lift (.load arg3 r3_r.toLoadRect (View.loadsAt_vmem h_S1x128))
  let v7 ← Prog.lift (.load arg2 r3_r.toLoadRect (View.loadsAt_vmem h_S1x128))
  let v13 ← Prog.lift (.load arg4 r3_r.toLoadRect (View.loadsAt_vmem h_S1x128))
  let v17 ← Prog.lift (.load arg5 r3_r.toLoadRect (View.loadsAt_vmem h_S1x128))
  let _ ← Prog.lift (.load arg7 r3_t.toLoadRect (View.loadsAt_vmem h_S2000x128))
  Prog.lift (.store arg7 r3_t (pay1 v0 v2 v7 v13 v17) Finset.univ (View.stores_vmem_bits_univ h_S2000x128 rfl) (.inl rfl))
  let v24 ← Prog.lift (.load arg6 r3_t.toLoadRect (View.loadsAt_vmem h_S2000x128))
  let _ ← Prog.lift (.load arg8 r3_t.toLoadRect (View.loadsAt_vmem h_S2000x128))
  Prog.lift (.store arg8 r3_t (pay2 v0 v2 v7 v13 v17 v24) Finset.univ (View.stores_vmem_bits_univ h_S2000x128 rfl) (.inl rfl))
  pure ⟨⟩

set_option maxHeartbeats 4000000 in
-- each output is written once over a rectangle that is the whole shape, so every entry of it is the stored value's
theorem sound_bn3 (pay1 : Vec F S2000x128 .f32 → Vec F S1x128 .f32 → Vec F S1x128 .f32 → Vec F S1x128 .f32 → Vec F S1x128 .f32 →
      FVec F S2000x128 .f32)
    (pay2 : Vec F S2000x128 .f32 → Vec F S1x128 .f32 → Vec F S1x128 .f32 → Vec F S1x128 .f32 → Vec F S1x128 .f32 → Vec F S2000x128 .f32 →
      FVec F S2000x128 .f32)
    (c : Dev nD) (E : Set ℕ)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32)
    (x0 : Vec F S2000x128 .f32) (x1 x2 x3 x4 : Vec F S1x128 .f32) (x5 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (View.canon [⟨r3_t, pay1 (View.ld x0 r3_t) (View.ld x2 r3_r) (View.ld x1 r3_r) (View.ld x3 r3_r) (View.ld x4 r3_r)⟩])
            ∗ owns (c : Thread nD τ) arg8 fullShare (View.canon [⟨r3_t, pay2 (View.ld x0 r3_t) (View.ld x2 r3_r) (View.ld x1 r3_r) (View.ld x3 r3_r) (View.ld x4 r3_r) (View.ld x5 r3_t)⟩])) -∗ K ⟨⟩))
      ⊢ wp frame (wpE (defs₀ (F := F)) Variants.none c none) E
          (bn_skel3 pay1 pay2 arg1 arg2 arg3 arg4 arg5 arg6 arg7 arg8) K := by
  unfold bn_skel3 owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (View.cover_of_tiled _ S2000x128.size (by rfl))
  iexists _; isplitr
  swap; · iexact H7
  ipureintro
  exact View.read_writes_eq_canon _ _ _ (View.cover_of_tiled _ S2000x128.size (by rfl))
end Kernel

def bn3 (x0 : Vec F S2000x128 .f32) (x1 x2 x3 x4 : Vec F S1x128 .f32) : FVec F S2000x128 .f32 :=
  k3_pay1 (View.ld x0 r3_t) (View.ld x2 r3_r) (View.ld x1 r3_r) (View.ld x3 r3_r) (View.ld x4 r3_r)

def out3_6 (x0 : Vec F S2000x128 .f32) (x1 x2 x3 x4 : Vec F S1x128 .f32) : Vec F S2000x128 .f32 :=
  View.canon [⟨r3_t, bn3 x0 x1 x2 x3 x4⟩]

def out3_7 (x0 : Vec F S2000x128 .f32) (x1 x2 x3 x4 : Vec F S1x128 .f32) (x5 : Vec F S2000x128 .f32) : Vec F S2000x128 .f32 :=
  View.canon [⟨r3_t, k3_pay2 (View.ld x0 r3_t) (View.ld x2 r3_r) (View.ld x1 r3_r) (View.ld x3 r3_r) (View.ld x4 r3_r) (View.ld x5 r3_t)⟩]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t
    = out3_6 (iblk3 V c 0 t) (iblk3 V c 1 t) (iblk3 V c 2 t) (iblk3 V c 3 t) (iblk3 V c 4 t) := by dsimp only [dat3]
theorem after3_7 (c : Dev nD) (t : Fin cfg3.N) : (dat3 V c).after 7 t
    = out3_7 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

set_option maxHeartbeats 1000000 in
theorem body_obligation3 (c : Dev nD) : BodyObligation (dat3 (F := F) V c) (defs₀ (F := F)) Variants.none () Set.univ := fun t => by
  rw [bigSep_W3, bigSep_W3]
  show iprop(_ ∗ _ ∗ (∃ d, owns c.tc (st3_0 t) _ ((dat3 V c).before 0 t d)) ∗ (∃ d, owns c.tc (st3_1 t) _ ((dat3 V c).before 1 t d))
      ∗ (∃ d, owns c.tc (st3_2 t) _ ((dat3 V c).before 2 t d)) ∗ (∃ d, owns c.tc (st3_3 t) _ ((dat3 V c).before 3 t d))
      ∗ (∃ d, owns c.tc (st3_4 t) _ ((dat3 V c).before 4 t d)) ∗ (∃ d, owns c.tc (st3_5 t) _ ((dat3 V c).before 5 t d))
      ∗ (∃ d, owns c.tc (st3_6 t) _ ((dat3 V c).before 6 t d)) ∗ (∃ d, owns c.tc (st3_7 t) _ ((dat3 V c).before 7 t d)))
    ⊢ wp frame _ _ (bodyAt3 t) fun _ => iprop(_ ∗ _ ∗ owns c.tc (st3_0 t) _ (iblk3 V c 0 t) ∗ owns c.tc (st3_1 t) _ (iblk3 V c 1 t)
      ∗ owns c.tc (st3_2 t) _ (iblk3 V c 2 t) ∗ owns c.tc (st3_3 t) _ (iblk3 V c 3 t)
      ∗ owns c.tc (st3_4 t) _ (iblk3 V c 4 t) ∗ owns c.tc (st3_5 t) _ (iblk3 V c 5 t)
      ∗ owns c.tc (st3_6 t) _ ((dat3 V c).after 6 t) ∗ owns c.tc (st3_7 t) _ ((dat3 V c).after 7 t))
  rw [show (dat3 V c).Φ t.succ = (dat3 V c).Φ t.castSucc from rfl,
    show (dat3 V c).owesAt () t.succ = (dat3 V c).owesAt () t.castSucc from rfl]
  unfold bodyAt3
  simp only [before3_0, before3_1, before3_2, before3_3, before3_4, before3_5, after3_6, after3_7, out3_6, bn3, out3_7, cc3_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_bn3 k3_pay1 k3_pay2 c Set.univ _ _ _ _ _ _ _ _
    (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  isplitl [H7]; · iexists _; iexact H7
  iintro ⟨H0, H1, H2, H3, H4, H5, H6, H7⟩
  iframe

end Cert.Kernel.Gen
-- ==== Proof.Bits.Reg4.lean ====
import proofs.«101364_j7567732376252_1_alg».proof.Proof.Bits.Reg0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S2000x128 .f32) (x1 : Vec F S128x128 .f32) (x2 : Vec F S1x128 .f32) :
    Vec F S2000x128 .f32 :=
  View.canon [⟨r0_y, k4_pay1 (View.ld x0 r0_x) (View.ld x1 r0_w) (View.ld x2 r0_b)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show iprop(_ ∗ _ ∗ (∃ d, owns c.tc (st4_0 t) _ ((dat4 V c).before 0 t d)) ∗ (∃ d, owns c.tc (st4_1 t) _ ((dat4 V c).before 1 t d))
      ∗ (∃ d, owns c.tc (st4_2 t) _ ((dat4 V c).before 2 t d)) ∗ (∃ d, owns c.tc (st4_3 t) _ ((dat4 V c).before 3 t d)))
    ⊢ wp frame _ _ (bodyAt4 t) fun _ => iprop(_ ∗ _ ∗ owns c.tc (st4_0 t) _ (iblk4 V c 0 t) ∗ owns c.tc (st4_1 t) _ (iblk4 V c 1 t)
      ∗ owns c.tc (st4_2 t) _ (iblk4 V c 2 t) ∗ owns c.tc (st4_3 t) _ ((dat4 V c).after 3 t))
  rw [show (dat4 V c).Φ t.succ = (dat4 V c).Φ t.castSucc from rfl,
    show (dat4 V c).owesAt () t.succ = (dat4 V c).owesAt () t.castSucc from rfl]
  unfold bodyAt4
  simp only [before4_0, before4_1, before4_2, after4_3, out4_3, cc4__linear_kernel_eq_skeleton]
  iintro ⟨HΦ, Ho, ⟨%d0, H0⟩, ⟨%d1, H1⟩, ⟨%d2, H2⟩, ⟨%d3, H3⟩⟩
  iapply (sound_linear0 k4_pay1 c Set.univ _ _ _ _ (iblk4 V c 0 t) (iblk4 V c 1 t) (iblk4 V c 2 t) _)
  iframe H0 H1 H2
  isplitl [H3]; · iexists _; iexact H3
  iintro ⟨H0, H1, H2, H3⟩
  iframe

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.Kernel.Gen
-- ==== Proof.Bits.Reg5.lean ====
import proofs.«101364_j7567732376252_1_alg».proof.Proof.Bits.Reg2Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem idleAt5 : ∀ t : Fin cfg5.N,
    (¬cond2_1 (grid5.coords t) → idle5 5 (grid5.coords t) = true ∧ idle5 6 (grid5.coords t) = true
      ∧ (win5 5).flush t = false ∧ (win5 6).flush t = false)
    ∧ (cond2_1 (grid5.coords t) → idle5 5 (grid5.coords t) = false ∧ idle5 6 (grid5.coords t) = false) := by decide +kernel

abbrev scM5_0 : Memref sig .tc .vmem S1x128 .f32 := Memref.whole cc5_scratch0
abbrev scM5_1 : Memref sig .tc .vmem S1x128 .f32 := Memref.whole cc5_scratch1

abbrev rest5 (c : Dev nD) : sProp 𝕄 :=
  Pipeline.scopedRestBut (Ix := Unit) (Name := ℕ) (U := UR sig nD τ) (Lvl := ℕ) (Val := Elt F) spec5 c [cc5_scratch0, cc5_scratch1]

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

def point5 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k5_pay5 b0 b1 b2 b3, k5_pay1 (k5_pay6 b0 b1 b2 b3 s), k5_pay2 (k5_pay6 b0 b1 b2 b3 s) (k5_pay7 b0 b1 b2 b3 q),
    k5_pay6 b0 b1 b2 b3 s, k5_pay7 b0 b1 b2 b3 q)

-- What each point leaves, by recursion on the point: the carried rows start from zero and pass from point to point.
def outsAt5 (c : Dev nD) : (n : ℕ) → n < cfg5.N →
    Vec F S2000x128 .f32 × Vec F S1x128 .f32 × Vec F S1x128 .f32 × Vec F S1x128 .f32 × Vec F S1x128 .f32
  | 0, hn => point5 (iblk5 V c 0 ⟨0, hn⟩) (iblk5 V c 1 ⟨0, hn⟩) (iblk5 V c 2 ⟨0, hn⟩) (iblk5 V c 3 ⟨0, hn⟩) k5_pay3 k5_pay4
  | n + 1, hn => point5 (iblk5 V c 0 ⟨n + 1, hn⟩) (iblk5 V c 1 ⟨n + 1, hn⟩) (iblk5 V c 2 ⟨n + 1, hn⟩) (iblk5 V c 3 ⟨n + 1, hn⟩)
      (outsAt5 c n (Nat.lt_of_succ_lt hn)).2.2.2.1 (outsAt5 c n (Nat.lt_of_succ_lt hn)).2.2.2.2

theorem outsAt5_zero (c : Dev nD) (t : Fin cfg5.N) (hz : t.val = 0) :
    outsAt5 V c t.val t.isLt = point5 (iblk5 V c 0 t) (iblk5 V c 1 t) (iblk5 V c 2 t) (iblk5 V c 3 t) k5_pay3 k5_pay4 := by
  obtain ⟨n, hn⟩ := t
  cases n with
  | zero => rfl
  | succ n => exact absurd hz (Nat.succ_ne_zero n)

theorem outsAt5_pos (c : Dev nD) (t : Fin cfg5.N) (hz : t.val ≠ 0) :
    outsAt5 V c t.val t.isLt = point5 (iblk5 V c 0 t) (iblk5 V c 1 t) (iblk5 V c 2 t) (iblk5 V c 3 t)
      (outsAt5 V c (t.val - 1) (Nat.lt_of_le_of_lt (Nat.sub_le _ _) t.isLt)).2.2.2.1
      (outsAt5 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.2.1) ∗ owns (c : Thread nD τ) scM5_1 fullShare ((outsAt5 V c n hn).2.2.2.2)) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.2.1) ∗ owns (c : Thread nD τ) scM5_1 fullShare ((outsAt5 V c (n - 1) (by omega)).2.2.2.2)) ∗ rest5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2.1
    | ⟨6, _⟩ => (outsAt5 V c t.val t.isLt).2.2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2.1 := by dsimp only [dat5]
theorem after5_6 (c : Dev nD) (t : Fin cfg5.N) : (dat5 V c).after 6 t = (outsAt5 V c t.val t.isLt).2.2.1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

-- The body at any point, by the point's position: the first, the last, or one between.
theorem body_obligation5 (c : Dev nD) : BodyObligation (dat5 (F := F) V c) (defs₀ (F := F)) Variants.none () Set.univ := fun t => by
  rw [bigSep_W5, bigSep_W5]
  change _ ⊢ wp _ _ _ (bodyAt5 t) _
  unfold bodyAt5
  rw [stats_eq5]
  simp only [before5_0, before5_1, before5_2, before5_3]
  rw [show (dat5 V c).Φ t.succ = PhiS5 V c (t.val + 1) t.isLt from rfl, PhiS5, PhiS5_castSucc V c t, after5_4]
  have hN : t.val < 25 := lt_of_lt_of_eq t.isLt (show cfg5.N = 25 from N_5)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid5.coords t) := fun h => hz (h0.mp h)
    have hc1 : ¬cond2_1 (grid5.coords t) := fun h => hl (h1.mp h)
    obtain ⟨i5, i6, f5, f6⟩ := (idleAt5 t).1 hc1
    simp only [i5, i6, f5, f6]
    rw [outsAt5_pos V c t hz, PhiS5_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid5.coords t) := fun h => hz (h0.mp h)
    have hc1 : cond2_1 (grid5.coords t) := h1.mpr hl
    simp only [((idleAt5 t).2 hc1).1, ((idleAt5 t).2 hc1).2]
    rw [after5_5, after5_6, outsAt5_pos V c t hz, PhiS5_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid5.coords t) := h0.mpr hz
    have hc1 : ¬cond2_1 (grid5.coords t) := fun h => by have := h1.mp h; omega
    obtain ⟨i5, i6, f5, f6⟩ := (idleAt5 t).1 hc1
    simp only [i5, i6, f5, f6]
    rw [outsAt5_zero V c t hz, PhiS5_zero V c _ _ hz, PhiA5_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point5]
    iapply (sound_stats c Set.univ (grid5.coords t) _ _ _ _ _ _ _ _ _ _ _ _ _ _ _ _ _ _ (iblk5 V c 0 t) (iblk5 V c 1 t) _ (iblk5 V c 2 t) (iblk5 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin5 (c : Dev nD) : Pipeline.ΦA spec5 c ⊢ (dat5 V c).Φ 0 := Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout5 (c : Dev nD) : (dat5 V c).Φ (Fin.last cfg5.N) ⊢ Pipeline.ΦA spec5 c :=
  Phi_out5 V c _ (by rw [Fin.val_last]; have : cfg5.N = 25 := N_5; omega)

end Cert.Kernel.Gen

end
-- ==== Proof.Bits.Reg6.lean ====
import proofs.«101364_j7567732376252_1_alg».proof.Proof.Gen.Kernel.Launch
import proofs.«101364_j7567732376252_1_alg».proof.Proof.Gen.Kernel.Skeleton
import proofs.«101364_j7567732376252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Kernel
abbrev r6_t : Rect S2000x128 := Rect.unit (s := S2000x128) ![0, 0] S2000x128.size inb_S2000x128_S2000x128_0_0
abbrev r6_r : Rect S1x128 := Rect.unit (s := S1x128) ![0, 0] S1x128.size inb_S1x128_S1x128_0_0

def bn_skel6 (pay1 : Vec F S2000x128 .f32 → Vec F S1x128 .f32 → Vec F S1x128 .f32 → Vec F S1x128 .f32 → Vec F S1x128 .f32 → Vec F S2000x128 .f32 →
      FVec F S2000x128 .f32)
    (pay2 : Vec F S2000x128 .f32 → Vec F S1x128 .f32 → Vec F S1x128 .f32 → Vec F S1x128 .f32 → Vec F S1x128 .f32 → Vec F S2000x128 .f32 → Vec F S2000x128 .f32 →
      FVec F S2000x128 .f32)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32)
    (arg9 : Memref sig .tc .vmem S2000x128 .f32) :
    Prog (TpuEff nD τ sig (Elt F) Λ₀ .tc) PUnit := do
  let v0 ← Prog.lift (.load arg1 r6_t.toLoadRect (View.loadsAt_vmem h_S2000x128))
  let v2 ← Prog.lift (.load arg3 r6_r.toLoadRect (View.loadsAt_vmem h_S1x128))
  let v7 ← Prog.lift (.load arg2 r6_r.toLoadRect (View.loadsAt_vmem h_S1x128))
  let v13 ← Prog.lift (.load arg4 r6_r.toLoadRect (View.loadsAt_vmem h_S1x128))
  let v17 ← Prog.lift (.load arg5 r6_r.toLoadRect (View.loadsAt_vmem h_S1x128))
  let v21 ← Prog.lift (.load arg6 r6_t.toLoadRect (View.loadsAt_vmem h_S2000x128))
  let _ ← Prog.lift (.load arg8 r6_t.toLoadRect (View.loadsAt_vmem h_S2000x128))
  Prog.lift (.store arg8 r6_t (pay1 v0 v2 v7 v13 v17 v21) Finset.univ (View.stores_vmem_bits_univ h_S2000x128 rfl) (.inl rfl))
  let v29 ← Prog.lift (.load arg7 r6_t.toLoadRect (View.loadsAt_vmem h_S2000x128))
  let _ ← Prog.lift (.load arg9 r6_t.toLoadRect (View.loadsAt_vmem h_S2000x128))
  Prog.lift (.store arg9 r6_t (pay2 v0 v2 v7 v13 v17 v21 v29) Finset.univ (View.stores_vmem_bits_univ h_S2000x128 rfl) (.inl rfl))
  pure ⟨⟩

set_option maxHeartbeats 4000000 in
-- each output is written once over a rectangle that is the whole shape, so every entry of it is the stored value's
theorem sound_bn6 (pay1 : Vec F S2000x128 .f32 → Vec F S1x128 .f32 → Vec F S1x128 .f32 → Vec F S1x128 .f32 → Vec F S1x128 .f32 → Vec F S2000x128 .f32 →
      FVec F S2000x128 .f32)
    (pay2 : Vec F S2000x128 .f32 → Vec F S1x128 .f32 → Vec F S1x128 .f32 → Vec F S1x128 .f32 → Vec F S1x128 .f32 → Vec F S2000x128 .f32 → Vec F S2000x128 .f32 →
      FVec F S2000x128 .f32)
    (c : Dev nD) (E : Set ℕ)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32)
    (arg9 : Memref sig .tc .vmem S2000x128 .f32)
    (x0 : Vec F S2000x128 .f32) (x1 x2 x3 x4 : Vec F S1x128 .f32) (x5 x6 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (View.canon [⟨r6_t, pay1 (View.ld x0 r6_t) (View.ld x2 r6_r) (View.ld x1 r6_r) (View.ld x3 r6_r) (View.ld x4 r6_r) (View.ld x5 r6_t)⟩])
            ∗ owns (c : Thread nD τ) arg9 fullShare (View.canon [⟨r6_t, pay2 (View.ld x0 r6_t) (View.ld x2 r6_r) (View.ld x1 r6_r) (View.ld x3 r6_r) (View.ld x4 r6_r) (View.ld x5 r6_t) (View.ld x6 r6_t)⟩])) -∗ K ⟨⟩))
      ⊢ wp frame (wpE (defs₀ (F := F)) Variants.none c none) E
          (bn_skel6 pay1 pay2 arg1 arg2 arg3 arg4 arg5 arg6 arg7 arg8 arg9) K := by
  unfold bn_skel6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S2000x128.size (by rfl))
  iexists _; isplitr
  swap; · iexact H8
  ipureintro
  exact View.read_writes_eq_canon _ _ _ (View.cover_of_tiled _ S2000x128.size (by rfl))
end Kernel

def bn6 (x0 : Vec F S2000x128 .f32) (x1 x2 x3 x4 : Vec F S1x128 .f32) (x5 : Vec F S2000x128 .f32) : FVec F S2000x128 .f32 :=
  k6_pay1 (View.ld x0 r6_t) (View.ld x2 r6_r) (View.ld x1 r6_r) (View.ld x3 r6_r) (View.ld x4 r6_r) (View.ld x5 r6_t)

def out6_7 (x0 : Vec F S2000x128 .f32) (x1 x2 x3 x4 : Vec F S1x128 .f32) (x5 : Vec F S2000x128 .f32) : Vec F S2000x128 .f32 :=
  View.canon [⟨r6_t, bn6 x0 x1 x2 x3 x4 x5⟩]

def out6_8 (x0 : Vec F S2000x128 .f32) (x1 x2 x3 x4 : Vec F S1x128 .f32) (x5 x6 : Vec F S2000x128 .f32) : Vec F S2000x128 .f32 :=
  View.canon [⟨r6_t, k6_pay2 (View.ld x0 r6_t) (View.ld x2 r6_r) (View.ld x1 r6_r) (View.ld x3 r6_r) (View.ld x4 r6_r) (View.ld x5 r6_t) (View.ld x6 r6_t)⟩]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t)
    | ⟨8, _⟩ => out6_8 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t
    = out6_7 (iblk6 V c 0 t) (iblk6 V c 1 t) (iblk6 V c 2 t) (iblk6 V c 3 t) (iblk6 V c 4 t) (iblk6 V c 5 t) := by dsimp only [dat6]
theorem after6_8 (c : Dev nD) (t : Fin cfg6.N) : (dat6 V c).after 8 t
    = out6_8 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d
theorem before6_5 (c : Dev nD) (t : Fin cfg6.N) (d) : (dat6 V c).before 5 t d = iblk6 V c 5 t :=
  (dat6 V c).before_in_eq_fetched 5 rfl (fun _ => rfl) (fun _ _ _ => rfl) (fun _ => rfl) t d
theorem before6_6 (c : Dev nD) (t : Fin cfg6.N) (d) : (dat6 V c).before 6 t d = iblk6 V c 6 t :=
  (dat6 V c).before_in_eq_fetched 6 rfl (fun _ => rfl) (fun _ _ _ => rfl) (fun _ => rfl) t d

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

set_option maxHeartbeats 1000000 in
theorem body_obligation6 (c : Dev nD) : BodyObligation (dat6 (F := F) V c) (defs₀ (F := F)) Variants.none () Set.univ := fun t => by
  rw [bigSep_W6, bigSep_W6]
  show iprop(_ ∗ _ ∗ (∃ d, owns c.tc (st6_0 t) _ ((dat6 V c).before 0 t d)) ∗ (∃ d, owns c.tc (st6_1 t) _ ((dat6 V c).before 1 t d))
      ∗ (∃ d, owns c.tc (st6_2 t) _ ((dat6 V c).before 2 t d)) ∗ (∃ d, owns c.tc (st6_3 t) _ ((dat6 V c).before 3 t d))
      ∗ (∃ d, owns c.tc (st6_4 t) _ ((dat6 V c).before 4 t d)) ∗ (∃ d, owns c.tc (st6_5 t) _ ((dat6 V c).before 5 t d))
      ∗ (∃ d, owns c.tc (st6_6 t) _ ((dat6 V c).before 6 t d)) ∗ (∃ d, owns c.tc (st6_7 t) _ ((dat6 V c).before 7 t d))
      ∗ (∃ d, owns c.tc (st6_8 t) _ ((dat6 V c).before 8 t d)))
    ⊢ wp frame _ _ (bodyAt6 t) fun _ => iprop(_ ∗ _ ∗ owns c.tc (st6_0 t) _ (iblk6 V c 0 t) ∗ owns c.tc (st6_1 t) _ (iblk6 V c 1 t)
      ∗ owns c.tc (st6_2 t) _ (iblk6 V c 2 t) ∗ owns c.tc (st6_3 t) _ (iblk6 V c 3 t)
      ∗ owns c.tc (st6_4 t) _ (iblk6 V c 4 t) ∗ owns c.tc (st6_5 t) _ (iblk6 V c 5 t)
      ∗ owns c.tc (st6_6 t) _ (iblk6 V c 6 t) ∗ owns c.tc (st6_7 t) _ ((dat6 V c).after 7 t)
      ∗ owns c.tc (st6_8 t) _ ((dat6 V c).after 8 t))
  rw [show (dat6 V c).Φ t.succ = (dat6 V c).Φ t.castSucc from rfl,
    show (dat6 V c).owesAt () t.succ = (dat6 V c).owesAt () t.castSucc from rfl]
  unfold bodyAt6
  simp only [before6_0, before6_1, before6_2, before6_3, before6_4, before6_5, before6_6, after6_7, after6_8, out6_7, bn6, out6_8, cc6_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_bn6 k6_pay1 k6_pay2 c Set.univ _ _ _ _ _ _ _ _ _
    (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  isplitl [H8]; · iexists _; iexact H8
  iintro ⟨H0, H1, H2, H3, H4, H5, H6, H7, H8⟩
  iframe

end Cert.Kernel.Gen
-- ==== Proof.Bits.Reg7.lean ====
import proofs.«101364_j7567732376252_1_alg».proof.Proof.Bits.Reg0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_3 (x0 : Vec F S2000x128 .f32) (x1 : Vec F S128x128 .f32) (x2 : Vec F S1x128 .f32) :
    Vec F S2000x128 .f32 :=
  View.canon [⟨r0_y, k7_pay1 (View.ld x0 r0_x) (View.ld x1 r0_w) (View.ld x2 r0_b)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  show iprop(_ ∗ _ ∗ (∃ d, owns c.tc (st7_0 t) _ ((dat7 V c).before 0 t d)) ∗ (∃ d, owns c.tc (st7_1 t) _ ((dat7 V c).before 1 t d))
      ∗ (∃ d, owns c.tc (st7_2 t) _ ((dat7 V c).before 2 t d)) ∗ (∃ d, owns c.tc (st7_3 t) _ ((dat7 V c).before 3 t d)))
    ⊢ wp frame _ _ (bodyAt7 t) fun _ => iprop(_ ∗ _ ∗ owns c.tc (st7_0 t) _ (iblk7 V c 0 t) ∗ owns c.tc (st7_1 t) _ (iblk7 V c 1 t)
      ∗ owns c.tc (st7_2 t) _ (iblk7 V c 2 t) ∗ owns c.tc (st7_3 t) _ ((dat7 V c).after 3 t))
  rw [show (dat7 V c).Φ t.succ = (dat7 V c).Φ t.castSucc from rfl,
    show (dat7 V c).owesAt () t.succ = (dat7 V c).owesAt () t.castSucc from rfl]
  unfold bodyAt7
  simp only [before7_0, before7_1, before7_2, after7_3, out7_3, cc7__linear_kernel_eq_skeleton]
  iintro ⟨HΦ, Ho, ⟨%d0, H0⟩, ⟨%d1, H1⟩, ⟨%d2, H2⟩, ⟨%d3, H3⟩⟩
  iapply (sound_linear0 k7_pay1 c Set.univ _ _ _ _ (iblk7 V c 0 t) (iblk7 V c 1 t) (iblk7 V c 2 t) _)
  iframe H0 H1 H2
  isplitl [H3]; · iexists _; iexact H3
  iintro ⟨H0, H1, H2, H3⟩
  iframe

theorem hin7 (c : Dev nD) : Pipeline.ΦA spec7 c ⊢ (dat7 V c).Φ 0 := .rfl
theorem hout7 (c : Dev nD) : (dat7 V c).Φ (Fin.last cfg7.N) ⊢ Pipeline.ΦA spec7 c := .rfl

end Cert.Kernel.Gen
-- ==== Proof.Bits.Reg8.lean ====
import proofs.«101364_j7567732376252_1_alg».proof.Proof.Bits.Reg2Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem idleAt8 : ∀ t : Fin cfg8.N,
    (¬cond2_1 (grid8.coords t) → idle8 5 (grid8.coords t) = true ∧ idle8 6 (grid8.coords t) = true
      ∧ (win8 5).flush t = false ∧ (win8 6).flush t = false)
    ∧ (cond2_1 (grid8.coords t) → idle8 5 (grid8.coords t) = false ∧ idle8 6 (grid8.coords t) = false) := by decide +kernel

abbrev scM8_0 : Memref sig .tc .vmem S1x128 .f32 := Memref.whole cc8_scratch0
abbrev scM8_1 : Memref sig .tc .vmem S1x128 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

def point8 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k8_pay5 b0 b1 b2 b3, k8_pay1 (k8_pay6 b0 b1 b2 b3 s), k8_pay2 (k8_pay6 b0 b1 b2 b3 s) (k8_pay7 b0 b1 b2 b3 q),
    k8_pay6 b0 b1 b2 b3 s, k8_pay7 b0 b1 b2 b3 q)

-- What each point leaves, by recursion on the point: the carried rows start from zero and pass from point to point.
def outsAt8 (c : Dev nD) : (n : ℕ) → n < cfg8.N →
    Vec F S2000x128 .f32 × Vec F S1x128 .f32 × Vec F S1x128 .f32 × Vec F S1x128 .f32 × Vec F S1x128 .f32
  | 0, hn => point8 (iblk8 V c 0 ⟨0, hn⟩) (iblk8 V c 1 ⟨0, hn⟩) (iblk8 V c 2 ⟨0, hn⟩) (iblk8 V c 3 ⟨0, hn⟩) k8_pay3 k8_pay4
  | n + 1, hn => point8 (iblk8 V c 0 ⟨n + 1, hn⟩) (iblk8 V c 1 ⟨n + 1, hn⟩) (iblk8 V c 2 ⟨n + 1, hn⟩) (iblk8 V c 3 ⟨n + 1, hn⟩)
      (outsAt8 c n (Nat.lt_of_succ_lt hn)).2.2.2.1 (outsAt8 c n (Nat.lt_of_succ_lt hn)).2.2.2.2

theorem outsAt8_zero (c : Dev nD) (t : Fin cfg8.N) (hz : t.val = 0) :
    outsAt8 V c t.val t.isLt = point8 (iblk8 V c 0 t) (iblk8 V c 1 t) (iblk8 V c 2 t) (iblk8 V c 3 t) k8_pay3 k8_pay4 := by
  obtain ⟨n, hn⟩ := t
  cases n with
  | zero => rfl
  | succ n => exact absurd hz (Nat.succ_ne_zero n)

theorem outsAt8_pos (c : Dev nD) (t : Fin cfg8.N) (hz : t.val ≠ 0) :
    outsAt8 V c t.val t.isLt = point8 (iblk8 V c 0 t) (iblk8 V c 1 t) (iblk8 V c 2 t) (iblk8 V c 3 t)
      (outsAt8 V c (t.val - 1) (Nat.lt_of_le_of_lt (Nat.sub_le _ _) t.isLt)).2.2.2.1
      (outsAt8 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.2.1) ∗ owns (c : Thread nD τ) scM8_1 fullShare ((outsAt8 V c n hn).2.2.2.2)) ∗ rest8 c) ∗ (∃ r, prngReg c r))

theorem PhiS8_zero (c : Dev nD) (n : ℕ) (h : n ≤ cfg8.N) (hz : n = 0) : PhiS8 V c n h = Pipeline.ΦA spec8 c := by
  subst hz; rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.2.1) ∗ owns (c : Thread nD τ) scM8_1 fullShare ((outsAt8 V c (n - 1) (by omega)).2.2.2.2)) ∗ rest8 c) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
    | ⟨5, _⟩ => (outsAt8 V c t.val t.isLt).2.1
    | ⟨6, _⟩ => (outsAt8 V c t.val t.isLt).2.2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_4 (c : Dev nD) (t : Fin cfg8.N) : (dat8 V c).after 4 t = (outsAt8 V c t.val t.isLt).1 := by dsimp only [dat8]
theorem after8_5 (c : Dev nD) (t : Fin cfg8.N) : (dat8 V c).after 5 t = (outsAt8 V c t.val t.isLt).2.1 := by dsimp only [dat8]
theorem after8_6 (c : Dev nD) (t : Fin cfg8.N) : (dat8 V c).after 6 t = (outsAt8 V c t.val t.isLt).2.2.1 := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl

-- The body at any point, by the point's position: the first, the last, or one between.
theorem body_obligation8 (c : Dev nD) : BodyObligation (dat8 (F := F) V c) (defs₀ (F := F)) Variants.none () Set.univ := fun t => by
  rw [bigSep_W8, bigSep_W8]
  change _ ⊢ wp _ _ _ (bodyAt8 t) _
  unfold bodyAt8
  rw [stats_eq8]
  simp only [before8_0, before8_1, before8_2, before8_3]
  rw [show (dat8 V c).Φ t.succ = PhiS8 V c (t.val + 1) t.isLt from rfl, PhiS8, PhiS8_castSucc V c t, after8_4]
  have hN : t.val < 25 := lt_of_lt_of_eq t.isLt (show cfg8.N = 25 from N_8)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid8.coords t) := fun h => hz (h0.mp h)
    have hc1 : ¬cond2_1 (grid8.coords t) := fun h => hl (h1.mp h)
    obtain ⟨i5, i6, f5, f6⟩ := (idleAt8 t).1 hc1
    simp only [i5, i6, f5, f6]
    rw [outsAt8_pos V c t hz, PhiS8_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid8.coords t) := fun h => hz (h0.mp h)
    have hc1 : cond2_1 (grid8.coords t) := h1.mpr hl
    simp only [((idleAt8 t).2 hc1).1, ((idleAt8 t).2 hc1).2]
    rw [after8_5, after8_6, outsAt8_pos V c t hz, PhiS8_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid8.coords t) := h0.mpr hz
    have hc1 : ¬cond2_1 (grid8.coords t) := fun h => by have := h1.mp h; omega
    obtain ⟨i5, i6, f5, f6⟩ := (idleAt8 t).1 hc1
    simp only [i5, i6, f5, f6]
    rw [outsAt8_zero V c t hz, PhiS8_zero V c _ _ hz, PhiA8_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point8]
    iapply (sound_stats c Set.univ (grid8.coords t) _ _ _ _ _ _ _ _ _ _ _ _ _ _ _ _ _ _ (iblk8 V c 0 t) (iblk8 V c 1 t) _ (iblk8 V c 2 t) (iblk8 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin8 (c : Dev nD) : Pipeline.ΦA spec8 c ⊢ (dat8 V c).Φ 0 := Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout8 (c : Dev nD) : (dat8 V c).Φ (Fin.last cfg8.N) ⊢ Pipeline.ΦA spec8 c :=
  Phi_out8 V c _ (by rw [Fin.val_last]; have : cfg8.N = 25 := N_8; omega)

end Cert.Kernel.Gen

end
-- ==== Proof.Bits.Reg9.lean ====
import proofs.«101364_j7567732376252_1_alg».proof.Proof.Bits.Reg3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def bn9 (x0 : Vec F S2000x128 .f32) (x1 x2 x3 x4 : Vec F S1x128 .f32) : FVec F S2000x128 .f32 :=
  k9_pay1 (View.ld x0 r3_t) (View.ld x2 r3_r) (View.ld x1 r3_r) (View.ld x3 r3_r) (View.ld x4 r3_r)

def out9_6 (x0 : Vec F S2000x128 .f32) (x1 x2 x3 x4 : Vec F S1x128 .f32) : Vec F S2000x128 .f32 :=
  View.canon [⟨r3_t, bn9 x0 x1 x2 x3 x4⟩]

def out9_7 (x0 : Vec F S2000x128 .f32) (x1 x2 x3 x4 : Vec F S1x128 .f32) (x5 : Vec F S2000x128 .f32) : Vec F S2000x128 .f32 :=
  View.canon [⟨r3_t, k9_pay2 (View.ld x0 r3_t) (View.ld x2 r3_r) (View.ld x1 r3_r) (View.ld x3 r3_r) (View.ld x4 r3_r) (View.ld x5 r3_t)⟩]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t)
    | ⟨7, _⟩ => out9_7 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := rfl

theorem after9_6 (c : Dev nD) (t : Fin cfg9.N) : (dat9 V c).after 6 t
    = out9_6 (iblk9 V c 0 t) (iblk9 V c 1 t) (iblk9 V c 2 t) (iblk9 V c 3 t) (iblk9 V c 4 t) := by dsimp only [dat9]
theorem after9_7 (c : Dev nD) (t : Fin cfg9.N) : (dat9 V c).after 7 t
    = out9_7 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d
theorem before9_2 (c : Dev nD) (t : Fin cfg9.N) (d) : (dat9 V c).before 2 t d = iblk9 V c 2 t :=
  (dat9 V c).before_in_eq_fetched 2 rfl (fun _ => rfl) (fun _ _ _ => rfl) (fun _ => rfl) t d
theorem before9_3 (c : Dev nD) (t : Fin cfg9.N) (d) : (dat9 V c).before 3 t d = iblk9 V c 3 t :=
  (dat9 V c).before_in_eq_fetched 3 rfl (fun _ => rfl) (fun _ _ _ => rfl) (fun _ => rfl) t d
theorem before9_4 (c : Dev nD) (t : Fin cfg9.N) (d) : (dat9 V c).before 4 t d = iblk9 V c 4 t :=
  (dat9 V c).before_in_eq_fetched 4 rfl (fun _ => rfl) (fun _ _ _ => rfl) (fun _ => rfl) t d
theorem before9_5 (c : Dev nD) (t : Fin cfg9.N) (d) : (dat9 V c).before 5 t d = iblk9 V c 5 t :=
  (dat9 V c).before_in_eq_fetched 5 rfl (fun _ => rfl) (fun _ _ _ => rfl) (fun _ => rfl) t d

theorem hin9 (c : Dev nD) : Pipeline.ΦA spec9 c ⊢ (dat9 V c).Φ 0 := .rfl
theorem hout9 (c : Dev nD) : (dat9 V c).Φ (Fin.last cfg9.N) ⊢ Pipeline.ΦA spec9 c := .rfl

set_option maxHeartbeats 1000000 in
theorem body_obligation9 (c : Dev nD) : BodyObligation (dat9 (F := F) V c) (defs₀ (F := F)) Variants.none () Set.univ := fun t => by
  rw [bigSep_W9, bigSep_W9]
  show iprop(_ ∗ _ ∗ (∃ d, owns c.tc (st9_0 t) _ ((dat9 V c).before 0 t d)) ∗ (∃ d, owns c.tc (st9_1 t) _ ((dat9 V c).before 1 t d))
      ∗ (∃ d, owns c.tc (st9_2 t) _ ((dat9 V c).before 2 t d)) ∗ (∃ d, owns c.tc (st9_3 t) _ ((dat9 V c).before 3 t d))
      ∗ (∃ d, owns c.tc (st9_4 t) _ ((dat9 V c).before 4 t d)) ∗ (∃ d, owns c.tc (st9_5 t) _ ((dat9 V c).before 5 t d))
      ∗ (∃ d, owns c.tc (st9_6 t) _ ((dat9 V c).before 6 t d)) ∗ (∃ d, owns c.tc (st9_7 t) _ ((dat9 V c).before 7 t d)))
    ⊢ wp frame _ _ (bodyAt9 t) fun _ => iprop(_ ∗ _ ∗ owns c.tc (st9_0 t) _ (iblk9 V c 0 t) ∗ owns c.tc (st9_1 t) _ (iblk9 V c 1 t)
      ∗ owns c.tc (st9_2 t) _ (iblk9 V c 2 t) ∗ owns c.tc (st9_3 t) _ (iblk9 V c 3 t)
      ∗ owns c.tc (st9_4 t) _ (iblk9 V c 4 t) ∗ owns c.tc (st9_5 t) _ (iblk9 V c 5 t)
      ∗ owns c.tc (st9_6 t) _ ((dat9 V c).after 6 t) ∗ owns c.tc (st9_7 t) _ ((dat9 V c).after 7 t))
  rw [show (dat9 V c).Φ t.succ = (dat9 V c).Φ t.castSucc from rfl,
    show (dat9 V c).owesAt () t.succ = (dat9 V c).owesAt () t.castSucc from rfl]
  unfold bodyAt9
  simp only [before9_0, before9_1, before9_2, before9_3, before9_4, before9_5, after9_6, after9_7, out9_6, bn9, out9_7, cc9_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_bn3 k9_pay1 k9_pay2 c Set.univ _ _ _ _ _ _ _ _
    (iblk9 V c 0 t) (iblk9 V c 1 t) (iblk9 V c 2 t) (iblk9 V c 3 t) (iblk9 V c 4 t) (iblk9 V c 5 t) _)
  iframe H0 H1 H2 H3 H4 H5
  isplitl [H6]; · iexists _; iexact H6
  isplitl [H7]; · iexists _; iexact H7
  iintro ⟨H0, H1, H2, H3, H4, H5, H6, H7⟩
  iframe

end Cert.Kernel.Gen
-- ==== Proof.Bits.Reg10.lean ====
import proofs.«101364_j7567732376252_1_alg».proof.Proof.Bits.Reg0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_3 (x0 : Vec F S2000x128 .f32) (x1 : Vec F S128x128 .f32) (x2 : Vec F S1x128 .f32) :
    Vec F S2000x128 .f32 :=
  View.canon [⟨r0_y, k10_pay1 (View.ld x0 r0_x) (View.ld x1 r0_w) (View.ld x2 r0_b)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := rfl

theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d

theorem body_obligation10 (c : Dev nD) : BodyObligation (dat10 (F := F) V c) (defs₀ (F := F)) Variants.none () Set.univ := fun t => by
  rw [bigSep_W10, bigSep_W10]
  show iprop(_ ∗ _ ∗ (∃ d, owns c.tc (st10_0 t) _ ((dat10 V c).before 0 t d)) ∗ (∃ d, owns c.tc (st10_1 t) _ ((dat10 V c).before 1 t d))
      ∗ (∃ d, owns c.tc (st10_2 t) _ ((dat10 V c).before 2 t d)) ∗ (∃ d, owns c.tc (st10_3 t) _ ((dat10 V c).before 3 t d)))
    ⊢ wp frame _ _ (bodyAt10 t) fun _ => iprop(_ ∗ _ ∗ owns c.tc (st10_0 t) _ (iblk10 V c 0 t) ∗ owns c.tc (st10_1 t) _ (iblk10 V c 1 t)
      ∗ owns c.tc (st10_2 t) _ (iblk10 V c 2 t) ∗ owns c.tc (st10_3 t) _ ((dat10 V c).after 3 t))
  rw [show (dat10 V c).Φ t.succ = (dat10 V c).Φ t.castSucc from rfl,
    show (dat10 V c).owesAt () t.succ = (dat10 V c).owesAt () t.castSucc from rfl]
  unfold bodyAt10
  simp only [before10_0, before10_1, before10_2, after10_3, out10_3, cc10__linear_kernel_eq_skeleton]
  iintro ⟨HΦ, Ho, ⟨%d0, H0⟩, ⟨%d1, H1⟩, ⟨%d2, H2⟩, ⟨%d3, H3⟩⟩
  iapply (sound_linear0 k10_pay1 c Set.univ _ _ _ _ (iblk10 V c 0 t) (iblk10 V c 1 t) (iblk10 V c 2 t) _)
  iframe H0 H1 H2
  isplitl [H3]; · iexists _; iexact H3
  iintro ⟨H0, H1, H2, H3⟩
  iframe

theorem hin10 (c : Dev nD) : Pipeline.ΦA spec10 c ⊢ (dat10 V c).Φ 0 := .rfl
theorem hout10 (c : Dev nD) : (dat10 V c).Φ (Fin.last cfg10.N) ⊢ Pipeline.ΦA spec10 c := .rfl

end Cert.Kernel.Gen
-- ==== Proof.Bits.Reg11.lean ====
import proofs.«101364_j7567732376252_1_alg».proof.Proof.Bits.Reg2Runs

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem idleAt11 : ∀ t : Fin cfg11.N,
    (¬cond2_1 (grid11.coords t) → idle11 5 (grid11.coords t) = true ∧ idle11 6 (grid11.coords t) = true
      ∧ (win11 5).flush t = false ∧ (win11 6).flush t = false)
    ∧ (cond2_1 (grid11.coords t) → idle11 5 (grid11.coords t) = false ∧ idle11 6 (grid11.coords t) = false) := by decide +kernel

abbrev scM11_0 : Memref sig .tc .vmem S1x128 .f32 := Memref.whole cc11_scratch0
abbrev scM11_1 : Memref sig .tc .vmem S1x128 .f32 := Memref.whole cc11_scratch1

abbrev rest11 (c : Dev nD) : sProp 𝕄 :=
  Pipeline.scopedRestBut (Ix := Unit) (Name := ℕ) (U := UR sig nD τ) (Lvl := ℕ) (Val := Elt F) spec11 c [cc11_scratch0, cc11_scratch1]

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d)) ∗ rest11 c) ∗ (∃ r, prngReg c r)) := by
  unfold Pipeline.ΦA; rw [scopedRest11_split]; simp only [scM11_0, scM11_1, owns_whole]; try rfl

def point11 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k11_pay5 b0 b1 b2 b3, k11_pay1 (k11_pay6 b0 b1 b2 b3 s), k11_pay2 (k11_pay6 b0 b1 b2 b3 s) (k11_pay7 b0 b1 b2 b3 q),
    k11_pay6 b0 b1 b2 b3 s, k11_pay7 b0 b1 b2 b3 q)

-- What each point leaves, by recursion on the point: the carried rows start from zero and pass from point to point.
def outsAt11 (c : Dev nD) : (n : ℕ) → n < cfg11.N →
    Vec F S2000x128 .f32 × Vec F S1x128 .f32 × Vec F S1x128 .f32 × Vec F S1x128 .f32 × Vec F S1x128 .f32
  | 0, hn => point11 (iblk11 V c 0 ⟨0, hn⟩) (iblk11 V c 1 ⟨0, hn⟩) (iblk11 V c 2 ⟨0, hn⟩) (iblk11 V c 3 ⟨0, hn⟩) k11_pay3 k11_pay4
  | n + 1, hn => point11 (iblk11 V c 0 ⟨n + 1, hn⟩) (iblk11 V c 1 ⟨n + 1, hn⟩) (iblk11 V c 2 ⟨n + 1, hn⟩) (iblk11 V c 3 ⟨n + 1, hn⟩)
      (outsAt11 c n (Nat.lt_of_succ_lt hn)).2.2.2.1 (outsAt11 c n (Nat.lt_of_succ_lt hn)).2.2.2.2

theorem outsAt11_zero (c : Dev nD) (t : Fin cfg11.N) (hz : t.val = 0) :
    outsAt11 V c t.val t.isLt = point11 (iblk11 V c 0 t) (iblk11 V c 1 t) (iblk11 V c 2 t) (iblk11 V c 3 t) k11_pay3 k11_pay4 := by
  obtain ⟨n, hn⟩ := t
  cases n with
  | zero => rfl
  | succ n => exact absurd hz (Nat.succ_ne_zero n)

theorem outsAt11_pos (c : Dev nD) (t : Fin cfg11.N) (hz : t.val ≠ 0) :
    outsAt11 V c t.val t.isLt = point11 (iblk11 V c 0 t) (iblk11 V c 1 t) (iblk11 V c 2 t) (iblk11 V c 3 t)
      (outsAt11 V c (t.val - 1) (Nat.lt_of_le_of_lt (Nat.sub_le _ _) t.isLt)).2.2.2.1
      (outsAt11 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2.2.2.1) ∗ owns (c : Thread nD τ) scM11_1 fullShare ((outsAt11 V c n hn).2.2.2.2)) ∗ rest11 c) ∗ (∃ r, prngReg c r))

theorem PhiS11_zero (c : Dev nD) (n : ℕ) (h : n ≤ cfg11.N) (hz : n = 0) : PhiS11 V c n h = Pipeline.ΦA spec11 c := by
  subst hz; rfl

theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2.2.2.1) ∗ owns (c : Thread nD τ) scM11_1 fullShare ((outsAt11 V c (n - 1) (by omega)).2.2.2.2)) ∗ rest11 c) ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => (outsAt11 V c t.val t.isLt).1
    | ⟨5, _⟩ => (outsAt11 V c t.val t.isLt).2.1
    | ⟨6, _⟩ => (outsAt11 V c t.val t.isLt).2.2.1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_4 (c : Dev nD) (t : Fin cfg11.N) : (dat11 V c).after 4 t = (outsAt11 V c t.val t.isLt).1 := by dsimp only [dat11]
theorem after11_5 (c : Dev nD) (t : Fin cfg11.N) : (dat11 V c).after 5 t = (outsAt11 V c t.val t.isLt).2.1 := by dsimp only [dat11]
theorem after11_6 (c : Dev nD) (t : Fin cfg11.N) : (dat11 V c).after 6 t = (outsAt11 V c t.val t.isLt).2.2.1 := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl
theorem before11_2 (c : Dev nD) (t : Fin cfg11.N) (d) : (dat11 V c).before 2 t d = iblk11 V c 2 t :=
  ((dat11 V c).before_in_eq_fetched 2 rfl (fun _ => rfl) (fun _ _ _ => rfl) (fun _ => rfl) t d).trans rfl
theorem before11_3 (c : Dev nD) (t : Fin cfg11.N) (d) : (dat11 V c).before 3 t d = iblk11 V c 3 t :=
  ((dat11 V c).before_in_eq_fetched 3 rfl (fun _ => rfl) (fun _ _ _ => rfl) (fun _ => rfl) t d).trans rfl

-- The body at any point, by the point's position: the first, the last, or one between.
theorem body_obligation11 (c : Dev nD) : BodyObligation (dat11 (F := F) V c) (defs₀ (F := F)) Variants.none () Set.univ := fun t => by
  rw [bigSep_W11, bigSep_W11]
  change _ ⊢ wp _ _ _ (bodyAt11 t) _
  unfold bodyAt11
  rw [stats_eq11]
  simp only [before11_0, before11_1, before11_2, before11_3]
  rw [show (dat11 V c).Φ t.succ = PhiS11 V c (t.val + 1) t.isLt from rfl, PhiS11, PhiS11_castSucc V c t, after11_4]
  have hN : t.val < 25 := lt_of_lt_of_eq t.isLt (show cfg11.N = 25 from N_11)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid11.coords t) := fun h => hz (h0.mp h)
    have hc1 : ¬cond2_1 (grid11.coords t) := fun h => hl (h1.mp h)
    obtain ⟨i5, i6, f5, f6⟩ := (idleAt11 t).1 hc1
    simp only [i5, i6, f5, f6]
    rw [outsAt11_pos V c t hz, PhiS11_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid11.coords t) := fun h => hz (h0.mp h)
    have hc1 : cond2_1 (grid11.coords t) := h1.mpr hl
    simp only [((idleAt11 t).2 hc1).1, ((idleAt11 t).2 hc1).2]
    rw [after11_5, after11_6, outsAt11_pos V c t hz, PhiS11_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid11.coords t) := h0.mpr hz
    have hc1 : ¬cond2_1 (grid11.coords t) := fun h => by have := h1.mp h; omega
    obtain ⟨i5, i6, f5, f6⟩ := (idleAt11 t).1 hc1
    simp only [i5, i6, f5, f6]
    rw [outsAt11_zero V c t hz, PhiS11_zero V c _ _ hz, PhiA11_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point11]
    iapply (sound_stats c Set.univ (grid11.coords t) _ _ _ _ _ _ _ _ _ _ _ _ _ _ _ _ _ _ (iblk11 V c 0 t) (iblk11 V c 1 t) _ (iblk11 V c 2 t) (iblk11 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin11 (c : Dev nD) : Pipeline.ΦA spec11 c ⊢ (dat11 V c).Φ 0 := Idealize.SL.BI.Entails.refl _

theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout11 (c : Dev nD) : (dat11 V c).Φ (Fin.last cfg11.N) ⊢ Pipeline.ΦA spec11 c :=
  Phi_out11 V c _ (by rw [Fin.val_last]; have : cfg11.N = 25 := N_11; omega)

end Cert.Kernel.Gen

end
-- ==== Proof.Bits.Reg12.lean ====
import proofs.«101364_j7567732376252_1_alg».proof.Proof.Bits.Reg6

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def bn12 (x0 : Vec F S2000x128 .f32) (x1 x2 x3 x4 : Vec F S1x128 .f32) (x5 : Vec F S2000x128 .f32) : FVec F S2000x128 .f32 :=
  k12_pay1 (View.ld x0 r6_t) (View.ld x2 r6_r) (View.ld x1 r6_r) (View.ld x3 r6_r) (View.ld x4 r6_r) (View.ld x5 r6_t)

def out12_7 (x0 : Vec F S2000x128 .f32) (x1 x2 x3 x4 : Vec F S1x128 .f32) (x5 : Vec F S2000x128 .f32) : Vec F S2000x128 .f32 :=
  View.canon [⟨r6_t, bn12 x0 x1 x2 x3 x4 x5⟩]

def out12_8 (x0 : Vec F S2000x128 .f32) (x1 x2 x3 x4 : Vec F S1x128 .f32) (x5 x6 : Vec F S2000x128 .f32) : Vec F S2000x128 .f32 :=
  View.canon [⟨r6_t, k12_pay2 (View.ld x0 r6_t) (View.ld x2 r6_r) (View.ld x1 r6_r) (View.ld x3 r6_r) (View.ld x4 r6_r) (View.ld x5 r6_t) (View.ld x6 r6_t)⟩]

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t)
    | ⟨8, _⟩ => out12_8 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := rfl

theorem after12_7 (c : Dev nD) (t : Fin cfg12.N) : (dat12 V c).after 7 t
    = out12_7 (iblk12 V c 0 t) (iblk12 V c 1 t) (iblk12 V c 2 t) (iblk12 V c 3 t) (iblk12 V c 4 t) (iblk12 V c 5 t) := by dsimp only [dat12]
theorem after12_8 (c : Dev nD) (t : Fin cfg12.N) : (dat12 V c).after 8 t
    = out12_8 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d
theorem before12_2 (c : Dev nD) (t : Fin cfg12.N) (d) : (dat12 V c).before 2 t d = iblk12 V c 2 t :=
  (dat12 V c).before_in_eq_fetched 2 rfl (fun _ => rfl) (fun _ _ _ => rfl) (fun _ => rfl) t d
theorem before12_3 (c : Dev nD) (t : Fin cfg12.N) (d) : (dat12 V c).before 3 t d = iblk12 V c 3 t :=
  (dat12 V c).before_in_eq_fetched 3 rfl (fun _ => rfl) (fun _ _ _ => rfl) (fun _ => rfl) t d
theorem before12_4 (c : Dev nD) (t : Fin cfg12.N) (d) : (dat12 V c).before 4 t d = iblk12 V c 4 t :=
  (dat12 V c).before_in_eq_fetched 4 rfl (fun _ => rfl) (fun _ _ _ => rfl) (fun _ => rfl) t d
theorem before12_5 (c : Dev nD) (t : Fin cfg12.N) (d) : (dat12 V c).before 5 t d = iblk12 V c 5 t :=
  (dat12 V c).before_in_eq_fetched 5 rfl (fun _ => rfl) (fun _ _ _ => rfl) (fun _ => rfl) t d
theorem before12_6 (c : Dev nD) (t : Fin cfg12.N) (d) : (dat12 V c).before 6 t d = iblk12 V c 6 t :=
  (dat12 V c).before_in_eq_fetched 6 rfl (fun _ => rfl) (fun _ _ _ => rfl) (fun _ => rfl) t d

theorem hin12 (c : Dev nD) : Pipeline.ΦA spec12 c ⊢ (dat12 V c).Φ 0 := .rfl
theorem hout12 (c : Dev nD) : (dat12 V c).Φ (Fin.last cfg12.N) ⊢ Pipeline.ΦA spec12 c := .rfl

set_option maxHeartbeats 1000000 in
theorem body_obligation12 (c : Dev nD) : BodyObligation (dat12 (F := F) V c) (defs₀ (F := F)) Variants.none () Set.univ := fun t => by
  rw [bigSep_W12, bigSep_W12]
  show iprop(_ ∗ _ ∗ (∃ d, owns c.tc (st12_0 t) _ ((dat12 V c).before 0 t d)) ∗ (∃ d, owns c.tc (st12_1 t) _ ((dat12 V c).before 1 t d))
      ∗ (∃ d, owns c.tc (st12_2 t) _ ((dat12 V c).before 2 t d)) ∗ (∃ d, owns c.tc (st12_3 t) _ ((dat12 V c).before 3 t d))
      ∗ (∃ d, owns c.tc (st12_4 t) _ ((dat12 V c).before 4 t d)) ∗ (∃ d, owns c.tc (st12_5 t) _ ((dat12 V c).before 5 t d))
      ∗ (∃ d, owns c.tc (st12_6 t) _ ((dat12 V c).before 6 t d)) ∗ (∃ d, owns c.tc (st12_7 t) _ ((dat12 V c).before 7 t d))
      ∗ (∃ d, owns c.tc (st12_8 t) _ ((dat12 V c).before 8 t d)))
    ⊢ wp frame _ _ (bodyAt12 t) fun _ => iprop(_ ∗ _ ∗ owns c.tc (st12_0 t) _ (iblk12 V c 0 t) ∗ owns c.tc (st12_1 t) _ (iblk12 V c 1 t)
      ∗ owns c.tc (st12_2 t) _ (iblk12 V c 2 t) ∗ owns c.tc (st12_3 t) _ (iblk12 V c 3 t)
      ∗ owns c.tc (st12_4 t) _ (iblk12 V c 4 t) ∗ owns c.tc (st12_5 t) _ (iblk12 V c 5 t)
      ∗ owns c.tc (st12_6 t) _ (iblk12 V c 6 t) ∗ owns c.tc (st12_7 t) _ ((dat12 V c).after 7 t)
      ∗ owns c.tc (st12_8 t) _ ((dat12 V c).after 8 t))
  rw [show (dat12 V c).Φ t.succ = (dat12 V c).Φ t.castSucc from rfl,
    show (dat12 V c).owesAt () t.succ = (dat12 V c).owesAt () t.castSucc from rfl]
  unfold bodyAt12
  simp only [before12_0, before12_1, before12_2, before12_3, before12_4, before12_5, before12_6, after12_7, after12_8, out12_7, bn12, out12_8, cc12_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_bn6 k12_pay1 k12_pay2 c Set.univ _ _ _ _ _ _ _ _ _
    (iblk12 V c 0 t) (iblk12 V c 1 t) (iblk12 V c 2 t) (iblk12 V c 3 t) (iblk12 V c 4 t) (iblk12 V c 5 t) (iblk12 V c 6 t) _)
  iframe H0 H1 H2 H3 H4 H5 H6
  isplitl [H7]; · iexists _; iexact H7
  isplitl [H8]; · iexists _; iexact H8
  iintro ⟨H0, H1, H2, H3, H4, H5, H6, H7, H8⟩
  iframe

end Cert.Kernel.Gen
-- ==== Proof.Bits.Reg13.lean ====
import proofs.«101364_j7567732376252_1_alg».proof.Proof.Gen.Kernel.Launch
import proofs.«101364_j7567732376252_1_alg».proof.Proof.Gen.Kernel.Skeleton
import proofs.«101364_j7567732376252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Kernel
abbrev r13_x : Rect S2000x128 := Rect.unit (s := S2000x128) ![0, 0] S2000x128.size inb_S2000x128_S2000x128_0_0
abbrev r13_w : Rect S128x64 := Rect.unit (s := S128x64) ![0, 0] S128x64.size inb_S128x64_S128x64_0_0
abbrev r13_b : Rect S1x64 := Rect.unit (s := S1x64) ![0, 0] S1x64.size inb_S1x64_S1x64_0_0
abbrev r13_y : Rect S2000x64 := Rect.unit (s := S2000x64) ![0, 0] S2000x64.size inb_S2000x64_S2000x64_0_0

def linear_skel13 (pay : Vec F S2000x128 .f32 → Vec F S128x64 .f32 → Vec F S1x64 .f32 →
      FVec F S2000x64 .f32)
    (arg1 : Memref sig .tc .vmem S2000x128 .f32) (arg2 : Memref sig .tc .vmem S128x64 .f32) (arg3 : Memref sig .tc .vmem S1x64 .f32)
    (arg4 : Memref sig .tc .vmem S2000x64 .f32) :
    Prog (TpuEff nD τ sig (Elt F) Λ₀ .tc) PUnit := do
  let v0 ← Prog.lift (.load arg1 r13_x.toLoadRect (View.loadsAt_vmem h_S2000x128))
  let v2 ← Prog.lift (.load arg2 r13_w.toLoadRect (View.loadsAt_vmem h_S128x64))
  let v5 ← Prog.lift (.load arg3 r13_b.toLoadRect (View.loadsAt_vmem h_S1x64))
  let _ ← Prog.lift (.load arg4 r13_y.toLoadRect (View.loadsAt_vmem h_S2000x64))
  Prog.lift (.store arg4 r13_y (pay v0 v2 v5) Finset.univ (View.stores_vmem_bits_univ h_S2000x64 rfl) (.inl rfl))
  pure ⟨⟩

set_option maxHeartbeats 1000000 in
-- the output is written once over a rectangle that is the whole shape, so every entry of it is the stored value's
theorem sound_linear13 (pay : Vec F S2000x128 .f32 → Vec F S128x64 .f32 → Vec F S1x64 .f32 →
      FVec F S2000x64 .f32)
    (c : Dev nD) (E : Set ℕ)
    (arg1 : Memref sig .tc .vmem S2000x128 .f32) (arg2 : Memref sig .tc .vmem S128x64 .f32) (arg3 : Memref sig .tc .vmem S1x64 .f32)
    (arg4 : Memref sig .tc .vmem S2000x64 .f32)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare
              (View.canon [⟨r13_y, pay (View.ld x0 r13_x) (View.ld x1 r13_w) (View.ld x2 r13_b)⟩])) -∗ K ⟨⟩))
      ⊢ wp frame (wpE (defs₀ (F := F)) Variants.none c none) E (linear_skel13 pay arg1 arg2 arg3 arg4) K := by
  unfold linear_skel13 owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x64.size (by rfl))
end Kernel

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def out13_3 (x0 : Vec F S2000x128 .f32) (x1 : Vec F S128x64 .f32) (x2 : Vec F S1x64 .f32) :
    Vec F S2000x64 .f32 :=
  View.canon [⟨r13_y, k13_pay1 (View.ld x0 r13_x) (View.ld x1 r13_w) (View.ld x2 r13_b)⟩]

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := rfl

theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d
theorem before13_2 (c : Dev nD) (t : Fin cfg13.N) (d) : (dat13 V c).before 2 t d = iblk13 V c 2 t :=
  (dat13 V c).before_in_eq_fetched 2 rfl (fun _ => rfl) (fun _ _ _ => rfl) (fun _ => rfl) t d

theorem body_obligation13 (c : Dev nD) : BodyObligation (dat13 (F := F) V c) (defs₀ (F := F)) Variants.none () Set.univ := fun t => by
  rw [bigSep_W13, bigSep_W13]
  show iprop(_ ∗ _ ∗ (∃ d, owns c.tc (st13_0 t) _ ((dat13 V c).before 0 t d)) ∗ (∃ d, owns c.tc (st13_1 t) _ ((dat13 V c).before 1 t d))
      ∗ (∃ d, owns c.tc (st13_2 t) _ ((dat13 V c).before 2 t d)) ∗ (∃ d, owns c.tc (st13_3 t) _ ((dat13 V c).before 3 t d)))
    ⊢ wp frame _ _ (bodyAt13 t) fun _ => iprop(_ ∗ _ ∗ owns c.tc (st13_0 t) _ (iblk13 V c 0 t) ∗ owns c.tc (st13_1 t) _ (iblk13 V c 1 t)
      ∗ owns c.tc (st13_2 t) _ (iblk13 V c 2 t) ∗ owns c.tc (st13_3 t) _ ((dat13 V c).after 3 t))
  rw [show (dat13 V c).Φ t.succ = (dat13 V c).Φ t.castSucc from rfl,
    show (dat13 V c).owesAt () t.succ = (dat13 V c).owesAt () t.castSucc from rfl]
  unfold bodyAt13
  simp only [before13_0, before13_1, before13_2, after13_3, out13_3, cc13__linear_kernel_eq_skeleton]
  iintro ⟨HΦ, Ho, ⟨%d0, H0⟩, ⟨%d1, H1⟩, ⟨%d2, H2⟩, ⟨%d3, H3⟩⟩
  iapply (sound_linear13 k13_pay1 c Set.univ _ _ _ _ (iblk13 V c 0 t) (iblk13 V c 1 t) (iblk13 V c 2 t) _)
  iframe H0 H1 H2
  isplitl [H3]; · iexists _; iexact H3
  iintro ⟨H0, H1, H2, H3⟩
  iframe

theorem hin13 (c : Dev nD) : Pipeline.ΦA spec13 c ⊢ (dat13 V c).Φ 0 := .rfl
theorem hout13 (c : Dev nD) : (dat13 V c).Φ (Fin.last cfg13.N) ⊢ Pipeline.ΦA spec13 c := .rfl

end Cert.Kernel.Gen
-- ==== Proof.Bits.Fold.lean ====
import proofs.«101364_j7567732376252_1_alg».proof.Proof.Gen.Kernel.Launch
import proofs.«101364_j7567732376252_1_alg».proof.Proof.Gen.Kernel.Skeleton
import proofs.«101364_j7567732376252_1_alg».proof.Proof.Gen.Kernel.Points
import proofs.«101364_j7567732376252_1_alg».proof.Proof.Gen.Kernel.Regions
import proofs.«101364_j7567732376252_1_alg».proof.Proof.Bits.Reg0
import proofs.«101364_j7567732376252_1_alg».proof.Proof.Bits.Reg1
import proofs.«101364_j7567732376252_1_alg».proof.Proof.Bits.Reg2
import proofs.«101364_j7567732376252_1_alg».proof.Proof.Bits.Reg3
import proofs.«101364_j7567732376252_1_alg».proof.Proof.Bits.Reg4
import proofs.«101364_j7567732376252_1_alg».proof.Proof.Bits.Reg5
import proofs.«101364_j7567732376252_1_alg».proof.Proof.Bits.Reg6
import proofs.«101364_j7567732376252_1_alg».proof.Proof.Bits.Reg7
import proofs.«101364_j7567732376252_1_alg».proof.Proof.Bits.Reg8
import proofs.«101364_j7567732376252_1_alg».proof.Proof.Bits.Reg9
import proofs.«101364_j7567732376252_1_alg».proof.Proof.Bits.Reg10
import proofs.«101364_j7567732376252_1_alg».proof.Proof.Bits.Reg11
import proofs.«101364_j7567732376252_1_alg».proof.Proof.Bits.Reg12
import proofs.«101364_j7567732376252_1_alg».proof.Proof.Bits.Reg13
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Tactic
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
section
variable {V U : Valuation τ sig (Elt F)} {a b d r : Ref sig .tc}
/-- An update does not move the valuation off the updated reference. -/
theorem upd_ne (h : r ≠ a) {x} : Function.update V a x r = V r := Function.update_of_ne (StableHlo.devRef_ne_of_ne h) ..
theorem upd1_of (h : r ∉ [a]) {x} : Function.update V a x r = V r := upd_ne (List.ne_of_not_mem_cons h)
theorem upd2_of (h : r ∉ [a, b]) {x y} : Function.update (Function.update V a x) b y r = V r :=
  (upd_ne (List.ne_of_not_mem_cons (List.not_mem_of_not_mem_cons h))).trans (upd_ne (List.ne_of_not_mem_cons h))
theorem upd3_of (h : r ∉ [a, b, d]) {x y z} : Function.update (Function.update (Function.update V a x) b y) d z r = V r :=
  (upd_ne (List.ne_of_not_mem_cons (List.not_mem_of_not_mem_cons (List.not_mem_of_not_mem_cons h)))).trans
    ((upd_ne (List.ne_of_not_mem_cons (List.not_mem_of_not_mem_cons h))).trans (upd_ne (List.ne_of_not_mem_cons h)))
/-- Equal valuations updated at one reference with equal values are equal. -/
theorem upd_congr {x x'} (hV : V = U) (hx : x = x') : Function.update V a x = Function.update U a x' := by rw [hV, hx]
end
variable (m : (ℓ : Loc nD τ sig) → Buf (Elt F) ℓ)
def U1 (c : Dev nD) : Valuation τ sig (Elt F) := StableHlo.after hostOps0 (V0 m c)
def o2_3 (c : Dev nD) : Buf (Elt F) ((c : Thread nD τ).loc main_v33) := (dat0 (fun c b => U1 m c b) c).arrAt 3 cfg0.N
def U2 (c : Dev nD) : Valuation τ sig (Elt F) := Function.update (U1 m c) main_v33 (o2_3 m c)
def U3 (c : Dev nD) : Valuation τ sig (Elt F) := StableHlo.after hostOps1 (U2 m c)
theorem U2_main_v33 (c : Dev nD) : U2 m c main_v33 = o2_3 m c := Function.update_self ..
theorem U2_of (c : Dev nD) (r : Ref sig .tc) (h : r ∉ ([main_v33] : List (Ref sig .tc))) : U2 m c r = U1 m c r := upd1_of h
def o4_3 (c : Dev nD) : Buf (Elt F) ((c : Thread nD τ).loc main_v39) := (dat1 (fun c b => U3 m c b) c).arrAt 3 cfg1.N
def U4 (c : Dev nD) : Valuation τ sig (Elt F) := Function.update (U3 m c) main_v39 (o4_3 m c)
def U5 (c : Dev nD) : Valuation τ sig (Elt F) := StableHlo.after hostOps2 (U4 m c)
theorem U4_main_v39 (c : Dev nD) : U4 m c main_v39 = o4_3 m c := Function.update_self ..
theorem U4_of (c : Dev nD) (r : Ref sig .tc) (h : r ∉ ([main_v39] : List (Ref sig .tc))) : U4 m c r = U3 m c r := upd1_of h
def o6_4 (c : Dev nD) : Buf (Elt F) ((c : Thread nD τ).loc main_v57_0) := (dat2 (fun c b => U5 m c b) c).arrAt 4 cfg2.N
def o6_5 (c : Dev nD) : Buf (Elt F) ((c : Thread nD τ).loc main_v57_1) := (dat2 (fun c b => U5 m c b) c).arrAt 5 cfg2.N
def o6_6 (c : Dev nD) : Buf (Elt F) ((c : Thread nD τ).loc main_v57_2) := (dat2 (fun c b => U5 m c b) c).arrAt 6 cfg2.N
def U6 (c : Dev nD) : Valuation τ sig (Elt F) := Function.update (Function.update (Function.update (U5 m c) main_v57_0 (o6_4 m c)) main_v57_1 (o6_5 m c)) main_v57_2 (o6_6 m c)
def U7 (c : Dev nD) : Valuation τ sig (Elt F) := StableHlo.after hostOps3 (U6 m c)
theorem U6_main_v57_0 (c : Dev nD) : U6 m c main_v57_0 = o6_4 m c := (upd2_of (by decide)).trans (Function.update_self ..)
theorem U6_main_v57_1 (c : Dev nD) : U6 m c main_v57_1 = o6_5 m c := (upd1_of (by decide)).trans (Function.update_self ..)
theorem U6_main_v57_2 (c : Dev nD) : U6 m c main_v57_2 = o6_6 m c := Function.update_self ..
theorem U6_of (c : Dev nD) (r : Ref sig .tc) (h : r ∉ ([main_v57_0, main_v57_1, main_v57_2] : List (Ref sig .tc))) : U6 m c r = U5 m c r := upd3_of h
def o8_6 (c : Dev nD) : Buf (Elt F) ((c : Thread nD τ).loc main_v64_0) := (dat3 (fun c b => U7 m c b) c).arrAt 6 cfg3.N
def o8_7 (c : Dev nD) : Buf (Elt F) ((c : Thread nD τ).loc main_v64_1) := (dat3 (fun c b => U7 m c b) c).arrAt 7 cfg3.N
def U8 (c : Dev nD) : Valuation τ sig (Elt F) := Function.update (Function.update (U7 m c) main_v64_0 (o8_6 m c)) main_v64_1 (o8_7 m c)
def U9 (c : Dev nD) : Valuation τ sig (Elt F) := StableHlo.after hostOps4 (U8 m c)
theorem U8_main_v64_0 (c : Dev nD) : U8 m c main_v64_0 = o8_6 m c := (upd1_of (by decide)).trans (Function.update_self ..)
theorem U8_main_v64_1 (c : Dev nD) : U8 m c main_v64_1 = o8_7 m c := Function.update_self ..
theorem U8_of (c : Dev nD) (r : Ref sig .tc) (h : r ∉ ([main_v64_0, main_v64_1] : List (Ref sig .tc))) : U8 m c r = U7 m c r := upd2_of h
def o10_3 (c : Dev nD) : Buf (Elt F) ((c : Thread nD τ).loc main_v68) := (dat4 (fun c b => U9 m c b) c).arrAt 3 cfg4.N
def U10 (c : Dev nD) : Valuation τ sig (Elt F) := Function.update (U9 m c) main_v68 (o10_3 m c)
def U11 (c : Dev nD) : Valuation τ sig (Elt F) := StableHlo.after hostOps5 (U10 m c)
theorem U10_main_v68 (c : Dev nD) : U10 m c main_v68 = o10_3 m c := Function.update_self ..
theorem U10_of (c : Dev nD) (r : Ref sig .tc) (h : r ∉ ([main_v68] : List (Ref sig .tc))) : U10 m c r = U9 m c r := upd1_of h
def o12_4 (c : Dev nD) : Buf (Elt F) ((c : Thread nD τ).loc main_v86_0) := (dat5 (fun c b => U11 m c b) c).arrAt 4 cfg5.N
def o12_5 (c : Dev nD) : Buf (Elt F) ((c : Thread nD τ).loc main_v86_1) := (dat5 (fun c b => U11 m c b) c).arrAt 5 cfg5.N
def o12_6 (c : Dev nD) : Buf (Elt F) ((c : Thread nD τ).loc main_v86_2) := (dat5 (fun c b => U11 m c b) c).arrAt 6 cfg5.N
def U12 (c : Dev nD) : Valuation τ sig (Elt F) := Function.update (Function.update (Function.update (U11 m c) main_v86_0 (o12_4 m c)) main_v86_1 (o12_5 m c)) main_v86_2 (o12_6 m c)
def U13 (c : Dev nD) : Valuation τ sig (Elt F) := StableHlo.after hostOps6 (U12 m c)
theorem U12_main_v86_0 (c : Dev nD) : U12 m c main_v86_0 = o12_4 m c := (upd2_of (by decide)).trans (Function.update_self ..)
theorem U12_main_v86_1 (c : Dev nD) : U12 m c main_v86_1 = o12_5 m c := (upd1_of (by decide)).trans (Function.update_self ..)
theorem U12_main_v86_2 (c : Dev nD) : U12 m c main_v86_2 = o12_6 m c := Function.update_self ..
theorem U12_of (c : Dev nD) (r : Ref sig .tc) (h : r ∉ ([main_v86_0, main_v86_1, main_v86_2] : List (Ref sig .tc))) : U12 m c r = U11 m c r := upd3_of h
def o14_7 (c : Dev nD) : Buf (Elt F) ((c : Thread nD τ).loc main_v93_0) := (dat6 (fun c b => U13 m c b) c).arrAt 7 cfg6.N
def o14_8 (c : Dev nD) : Buf (Elt F) ((c : Thread nD τ).loc main_v93_1) := (dat6 (fun c b => U13 m c b) c).arrAt 8 cfg6.N
def U14 (c : Dev nD) : Valuation τ sig (Elt F) := Function.update (Function.update (U13 m c) main_v93_0 (o14_7 m c)) main_v93_1 (o14_8 m c)
def U15 (c : Dev nD) : Valuation τ sig (Elt F) := StableHlo.after hostOps7 (U14 m c)
theorem U14_main_v93_0 (c : Dev nD) : U14 m c main_v93_0 = o14_7 m c := (upd1_of (by decide)).trans (Function.update_self ..)
theorem U14_main_v93_1 (c : Dev nD) : U14 m c main_v93_1 = o14_8 m c := Function.update_self ..
theorem U14_of (c : Dev nD) (r : Ref sig .tc) (h : r ∉ ([main_v93_0, main_v93_1] : List (Ref sig .tc))) : U14 m c r = U13 m c r := upd2_of h
def o16_3 (c : Dev nD) : Buf (Elt F) ((c : Thread nD τ).loc main_v97) := (dat7 (fun c b => U15 m c b) c).arrAt 3 cfg7.N
def U16 (c : Dev nD) : Valuation τ sig (Elt F) := Function.update (U15 m c) main_v97 (o16_3 m c)
def U17 (c : Dev nD) : Valuation τ sig (Elt F) := StableHlo.after hostOps8 (U16 m c)
theorem U16_main_v97 (c : Dev nD) : U16 m c main_v97 = o16_3 m c := Function.update_self ..
theorem U16_of (c : Dev nD) (r : Ref sig .tc) (h : r ∉ ([main_v97] : List (Ref sig .tc))) : U16 m c r = U15 m c r := upd1_of h
def o18_4 (c : Dev nD) : Buf (Elt F) ((c : Thread nD τ).loc main_v115_0) := (dat8 (fun c b => U17 m c b) c).arrAt 4 cfg8.N
def o18_5 (c : Dev nD) : Buf (Elt F) ((c : Thread nD τ).loc main_v115_1) := (dat8 (fun c b => U17 m c b) c).arrAt 5 cfg8.N
def o18_6 (c : Dev nD) : Buf (Elt F) ((c : Thread nD τ).loc main_v115_2) := (dat8 (fun c b => U17 m c b) c).arrAt 6 cfg8.N
def U18 (c : Dev nD) : Valuation τ sig (Elt F) := Function.update (Function.update (Function.update (U17 m c) main_v115_0 (o18_4 m c)) main_v115_1 (o18_5 m c)) main_v115_2 (o18_6 m c)
def U19 (c : Dev nD) : Valuation τ sig (Elt F) := StableHlo.after hostOps9 (U18 m c)
theorem U18_main_v115_0 (c : Dev nD) : U18 m c main_v115_0 = o18_4 m c := (upd2_of (by decide)).trans (Function.update_self ..)
theorem U18_main_v115_1 (c : Dev nD) : U18 m c main_v115_1 = o18_5 m c := (upd1_of (by decide)).trans (Function.update_self ..)
theorem U18_main_v115_2 (c : Dev nD) : U18 m c main_v115_2 = o18_6 m c := Function.update_self ..
theorem U18_of (c : Dev nD) (r : Ref sig .tc) (h : r ∉ ([main_v115_0, main_v115_1, main_v115_2] : List (Ref sig .tc))) : U18 m c r = U17 m c r := upd3_of h
def o20_6 (c : Dev nD) : Buf (Elt F) ((c : Thread nD τ).loc main_v122_0) := (dat9 (fun c b => U19 m c b) c).arrAt 6 cfg9.N
def o20_7 (c : Dev nD) : Buf (Elt F) ((c : Thread nD τ).loc main_v122_1) := (dat9 (fun c b => U19 m c b) c).arrAt 7 cfg9.N
def U20 (c : Dev nD) : Valuation τ sig (Elt F) := Function.update (Function.update (U19 m c) main_v122_0 (o20_6 m c)) main_v122_1 (o20_7 m c)
def U21 (c : Dev nD) : Valuation τ sig (Elt F) := StableHlo.after hostOps10 (U20 m c)
theorem U20_main_v122_0 (c : Dev nD) : U20 m c main_v122_0 = o20_6 m c := (upd1_of (by decide)).trans (Function.update_self ..)
theorem U20_main_v122_1 (c : Dev nD) : U20 m c main_v122_1 = o20_7 m c := Function.update_self ..
theorem U20_of (c : Dev nD) (r : Ref sig .tc) (h : r ∉ ([main_v122_0, main_v122_1] : List (Ref sig .tc))) : U20 m c r = U19 m c r := upd2_of h
def o22_3 (c : Dev nD) : Buf (Elt F) ((c : Thread nD τ).loc main_v126) := (dat10 (fun c b => U21 m c b) c).arrAt 3 cfg10.N
def U22 (c : Dev nD) : Valuation τ sig (Elt F) := Function.update (U21 m c) main_v126 (o22_3 m c)
def U23 (c : Dev nD) : Valuation τ sig (Elt F) := StableHlo.after hostOps11 (U22 m c)
theorem U22_main_v126 (c : Dev nD) : U22 m c main_v126 = o22_3 m c := Function.update_self ..
theorem U22_of (c : Dev nD) (r : Ref sig .tc) (h : r ∉ ([main_v126] : List (Ref sig .tc))) : U22 m c r = U21 m c r := upd1_of h
def o24_4 (c : Dev nD) : Buf (Elt F) ((c : Thread nD τ).loc main_v144_0) := (dat11 (fun c b => U23 m c b) c).arrAt 4 cfg11.N
def o24_5 (c : Dev nD) : Buf (Elt F) ((c : Thread nD τ).loc main_v144_1) := (dat11 (fun c b => U23 m c b) c).arrAt 5 cfg11.N
def o24_6 (c : Dev nD) : Buf (Elt F) ((c : Thread nD τ).loc main_v144_2) := (dat11 (fun c b => U23 m c b) c).arrAt 6 cfg11.N
def U24 (c : Dev nD) : Valuation τ sig (Elt F) := Function.update (Function.update (Function.update (U23 m c) main_v144_0 (o24_4 m c)) main_v144_1 (o24_5 m c)) main_v144_2 (o24_6 m c)
def U25 (c : Dev nD) : Valuation τ sig (Elt F) := StableHlo.after hostOps12 (U24 m c)
theorem U24_main_v144_0 (c : Dev nD) : U24 m c main_v144_0 = o24_4 m c := (upd2_of (by decide)).trans (Function.update_self ..)
theorem U24_main_v144_1 (c : Dev nD) : U24 m c main_v144_1 = o24_5 m c := (upd1_of (by decide)).trans (Function.update_self ..)
theorem U24_main_v144_2 (c : Dev nD) : U24 m c main_v144_2 = o24_6 m c := Function.update_self ..
theorem U24_of (c : Dev nD) (r : Ref sig .tc) (h : r ∉ ([main_v144_0, main_v144_1, main_v144_2] : List (Ref sig .tc))) : U24 m c r = U23 m c r := upd3_of h
def o26_7 (c : Dev nD) : Buf (Elt F) ((c : Thread nD τ).loc main_v151_0) := (dat12 (fun c b => U25 m c b) c).arrAt 7 cfg12.N
def o26_8 (c : Dev nD) : Buf (Elt F) ((c : Thread nD τ).loc main_v151_1) := (dat12 (fun c b => U25 m c b) c).arrAt 8 cfg12.N
def U26 (c : Dev nD) : Valuation τ sig (Elt F) := Function.update (Function.update (U25 m c) main_v151_0 (o26_7 m c)) main_v151_1 (o26_8 m c)
def U27 (c : Dev nD) : Valuation τ sig (Elt F) := StableHlo.after hostOps13 (U26 m c)
theorem U26_main_v151_0 (c : Dev nD) : U26 m c main_v151_0 = o26_7 m c := (upd1_of (by decide)).trans (Function.update_self ..)
theorem U26_main_v151_1 (c : Dev nD) : U26 m c main_v151_1 = o26_8 m c := Function.update_self ..
theorem U26_of (c : Dev nD) (r : Ref sig .tc) (h : r ∉ ([main_v151_0, main_v151_1] : List (Ref sig .tc))) : U26 m c r = U25 m c r := upd2_of h
def o28_3 (c : Dev nD) : Buf (Elt F) ((c : Thread nD τ).loc main_v153) := (dat13 (fun c b => U27 m c b) c).arrAt 3 cfg13.N
def U28 (c : Dev nD) : Valuation τ sig (Elt F) := Function.update (U27 m c) main_v153 (o28_3 m c)
theorem U28_main_v153 (c : Dev nD) : U28 m c main_v153 = o28_3 m c := Function.update_self ..
theorem U28_of (c : Dev nD) (r : Ref sig .tc) (h : r ∉ ([main_v153] : List (Ref sig .tc))) : U28 m c r = U27 m c r := upd1_of h
def outs : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | 26 => U26 m c r
  | _ => U28 m c r
theorem V1_eq (c : Dev nD) : V1 m c = U1 m c := rfl
theorem V2_eq (c : Dev nD) : V2 m (outs m) c = U2 m c := upd_congr (V1_eq m c) (U2_main_v33 m c)
theorem V3_eq (c : Dev nD) : V3 m (outs m) c = U3 m c := congrArg (StableHlo.after hostOps1) (V2_eq m c)
theorem V4_eq (c : Dev nD) : V4 m (outs m) c = U4 m c := upd_congr (V3_eq m c) (U4_main_v39 m c)
theorem V5_eq (c : Dev nD) : V5 m (outs m) c = U5 m c := congrArg (StableHlo.after hostOps2) (V4_eq m c)
theorem V6_eq (c : Dev nD) : V6 m (outs m) c = U6 m c := upd_congr (upd_congr (upd_congr (V5_eq m c) (U6_main_v57_0 m c)) (U6_main_v57_1 m c)) (U6_main_v57_2 m c)
theorem V7_eq (c : Dev nD) : V7 m (outs m) c = U7 m c := congrArg (StableHlo.after hostOps3) (V6_eq m c)
theorem V8_eq (c : Dev nD) : V8 m (outs m) c = U8 m c := upd_congr (upd_congr (V7_eq m c) (U8_main_v64_0 m c)) (U8_main_v64_1 m c)
theorem V9_eq (c : Dev nD) : V9 m (outs m) c = U9 m c := congrArg (StableHlo.after hostOps4) (V8_eq m c)
theorem V10_eq (c : Dev nD) : V10 m (outs m) c = U10 m c := upd_congr (V9_eq m c) (U10_main_v68 m c)
theorem V11_eq (c : Dev nD) : V11 m (outs m) c = U11 m c := congrArg (StableHlo.after hostOps5) (V10_eq m c)
theorem V12_eq (c : Dev nD) : V12 m (outs m) c = U12 m c := upd_congr (upd_congr (upd_congr (V11_eq m c) (U12_main_v86_0 m c)) (U12_main_v86_1 m c)) (U12_main_v86_2 m c)
theorem V13_eq (c : Dev nD) : V13 m (outs m) c = U13 m c := congrArg (StableHlo.after hostOps6) (V12_eq m c)
theorem V14_eq (c : Dev nD) : V14 m (outs m) c = U14 m c := upd_congr (upd_congr (V13_eq m c) (U14_main_v93_0 m c)) (U14_main_v93_1 m c)
theorem V15_eq (c : Dev nD) : V15 m (outs m) c = U15 m c := congrArg (StableHlo.after hostOps7) (V14_eq m c)
theorem V16_eq (c : Dev nD) : V16 m (outs m) c = U16 m c := upd_congr (V15_eq m c) (U16_main_v97 m c)
theorem V17_eq (c : Dev nD) : V17 m (outs m) c = U17 m c := congrArg (StableHlo.after hostOps8) (V16_eq m c)
theorem V18_eq (c : Dev nD) : V18 m (outs m) c = U18 m c := upd_congr (upd_congr (upd_congr (V17_eq m c) (U18_main_v115_0 m c)) (U18_main_v115_1 m c)) (U18_main_v115_2 m c)
theorem V19_eq (c : Dev nD) : V19 m (outs m) c = U19 m c := congrArg (StableHlo.after hostOps9) (V18_eq m c)
theorem V20_eq (c : Dev nD) : V20 m (outs m) c = U20 m c := upd_congr (upd_congr (V19_eq m c) (U20_main_v122_0 m c)) (U20_main_v122_1 m c)
theorem V21_eq (c : Dev nD) : V21 m (outs m) c = U21 m c := congrArg (StableHlo.after hostOps10) (V20_eq m c)
theorem V22_eq (c : Dev nD) : V22 m (outs m) c = U22 m c := upd_congr (V21_eq m c) (U22_main_v126 m c)
theorem V23_eq (c : Dev nD) : V23 m (outs m) c = U23 m c := congrArg (StableHlo.after hostOps11) (V22_eq m c)
theorem V24_eq (c : Dev nD) : V24 m (outs m) c = U24 m c := upd_congr (upd_congr (upd_congr (V23_eq m c) (U24_main_v144_0 m c)) (U24_main_v144_1 m c)) (U24_main_v144_2 m c)
theorem V25_eq (c : Dev nD) : V25 m (outs m) c = U25 m c := congrArg (StableHlo.after hostOps12) (V24_eq m c)
theorem V26_eq (c : Dev nD) : V26 m (outs m) c = U26 m c := upd_congr (upd_congr (V25_eq m c) (U26_main_v151_0 m c)) (U26_main_v151_1 m c)
theorem V27_eq (c : Dev nD) : V27 m (outs m) c = U27 m c := congrArg (StableHlo.after hostOps13) (V26_eq m c)
theorem V28_eq (c : Dev nD) : V28 m (outs m) c = U28 m c := upd_congr (V27_eq m c) (U28_main_v153 m c)
def pdats : (p : Fin 14) → (c : Dev nD) → Dat τ (Elt F) Unit ℕ (UR sig nD τ) ℕ (Pipeline.pin (pcfgs (F := F)) adm p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U9 m c b) c
  | ⟨5, _⟩ => fun c => dat5 (fun c b => U11 m c b) c
  | ⟨6, _⟩ => fun c => dat6 (fun c b => U13 m c b) c
  | ⟨7, _⟩ => fun c => dat7 (fun c b => U15 m c b) c
  | ⟨8, _⟩ => fun c => dat8 (fun c b => U17 m c b) c
  | ⟨9, _⟩ => fun c => dat9 (fun c b => U19 m c b) c
  | ⟨10, _⟩ => fun c => dat10 (fun c b => U21 m c b) c
  | ⟨11, _⟩ => fun c => dat11 (fun c b => U23 m c b) c
  | ⟨12, _⟩ => fun c => dat12 (fun c b => U25 m c b) c
  | ⟨13, _⟩ => fun c => dat13 (fun c b => U27 m c b) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
end Cert.Kernel.Gen
end
-- ==== Proof.Bits.SegLib.lean ====
import proofs.«101364_j7567732376252_1_alg».proof.Proof.Bits.Fold

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable {p : Fin 14} (V V' : Dev nD → Valuation τ sig (Elt F)) (O : List (Fin (cfgs p).W))

/-- At the exit an input's array is as entered and an output's array is its final contents; a buffer that is no array of the region is no output's array. -/
theorem exit_vals (c : Dev nD) (hw : Pipeline.WinFacts (cfgs p).spec)
    (hA : ∀ w, (pdats m p c).A w = V c (Pipeline.arrRef (cfgs p).spec w))
    (hI : ∀ w, w ∉ O → ((cfgs p).win w).isOut = false)
    (hO : O.Forall fun w => V' c (Pipeline.arrRef (cfgs p).spec w) = (pdats m p c).arrAt w (cfgs p).N)
    (hV : ∀ r : Ref sig .tc, r ∉ O.map (Pipeline.arrRef (cfgs p).spec) → V' c r = V c r) :
    (∀ w, (pdats m p c).arrAt w (cfgs p).N = V' c (Pipeline.arrRef (cfgs p).spec w))
      ∧ ∀ b, b ∉ Finset.univ.image (Pipeline.arrRef (cfgs p).spec) → V' c b = V c b :=
  ⟨fun w => by
    by_cases h : w ∈ O
    · exact (List.forall_iff_forall_mem.mp hO w h).symm
    · refine ((pdats m p c).arrAt_in w (hI w h) _).trans ((hA w).trans (hV _ fun hm => h ?_).symm)
      obtain ⟨w', hw', e⟩ := List.mem_map.mp hm
      exact hw.arr_inj e ▸ hw',
   fun b hb => hV b fun hm => hb <| by
    obtain ⟨w, -, e⟩ := List.mem_map.mp hm
    exact Finset.mem_image.mpr ⟨w, Finset.mem_univ _, e⟩⟩

/-- A region as an item of the run: the buffers are held at `V` before it and at `V'` after it. -/
def regOf (lf : Pipeline.LaunchFacts (nD := nD) (τ := τ) cfgs p)
    (hb : ∀ c, BodyObligation (pdats m p c) defs₀ 𝒱₀ () Set.univ)
    (hΦ₀ : ∀ c, Pipeline.ΦA (cfgs p).spec c ⊢ (pdats m p c).Φ 0)
    (hΦₙ : ∀ c, (pdats m p c).Φ (Fin.last (cfgs p).N) ⊢ Pipeline.ΦA (cfgs p).spec c)
    (howed : ∀ c t, (pdats m p c).owed t = 0)
    (hrec : ∀ c, (pdats m p c).recorded 0 = Set.univ)
    (hq : ∀ c w, (pdats m p c).q w = fullShare)
    (hA : ∀ c w, (pdats m p c).A w = V c (Pipeline.arrRef (cfgs p).spec w))
    (hI : ∀ w, w ∉ O → ((cfgs p).win w).isOut = false)
    (hO : ∀ c, O.Forall fun w => V' c (Pipeline.arrRef (cfgs p).spec w) = (pdats m p c).arrAt w (cfgs p).N)
    (hV : ∀ c (r : Ref sig .tc), r ∉ O.map (Pipeline.arrRef (cfgs p).spec) → V' c r = V c r) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c ▸ trivial)
      iexact HO
    isplitl [Hp]; · iexact Hp
    iexact Hrest
  hin c := by
    refine .trans ?_ (hΦ₀ c)
    unfold Pipeline.ΦA
    iintro ⟨Hp, -, Hr⟩
    isplitl [Hr]; · iexact Hr
    iexact Hp
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have h := exit_vals m V V' O c lf.win (hA c) hI (hO c) (hV c)
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N)
      h.1 h.2
    rw [Pipeline.unscopedBufs_held c (V' c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

end Cert.Kernel.Gen

end
-- ==== Proof.Bits.Seg0.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg0 : Pipeline.RegionSeg (pcfgs (F := F)) adm (pdats m) () defs₀ 𝒱₀ L lv 0 :=
  regOf m (V1 m) (V2 m (outs m)) [3] launch0 (body_obligation0 (fun c b => U1 m c b)) (hin0 (fun c b => U1 m c b)) (hout0 (fun c b => U1 m c b)) (fun _ _ => rfl) (fun _ => rfl) (fun _ _ => rfl)
    (fun c w => (A_eq0 (fun c b => U1 m c b) c w).trans (congrFun (V1_eq m c).symm _)) (by decide)
    (fun c => by rw [V2_eq]; exact U2_main_v33 m c) (V2_of m (outs m))

end Cert.Kernel.Gen

end
-- ==== Proof.Bits.Seg1.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg1 : Pipeline.RegionSeg (pcfgs (F := F)) adm (pdats m) () defs₀ 𝒱₀ L lv 1 :=
  regOf m (V3 m (outs m)) (V4 m (outs m)) [3] launch1 (body_obligation1 (fun c b => U3 m c b)) (hin1 (fun c b => U3 m c b)) (hout1 (fun c b => U3 m c b)) (fun _ _ => rfl) (fun _ => rfl) (fun _ _ => rfl)
    (fun c w => (A_eq1 (fun c b => U3 m c b) c w).trans (congrFun (V3_eq m c).symm _)) (by decide)
    (fun c => by rw [V4_eq]; exact U4_main_v39 m c) (V4_of m (outs m))

end Cert.Kernel.Gen

end
-- ==== Proof.Bits.Seg2.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg2 : Pipeline.RegionSeg (pcfgs (F := F)) adm (pdats m) () defs₀ 𝒱₀ L lv 2 :=
  regOf m (V5 m (outs m)) (V6 m (outs m)) [4, 5, 6] launch2 (body_obligation2 (fun c b => U5 m c b)) (hin2 (fun c b => U5 m c b)) (hout2 (fun c b => U5 m c b)) (fun _ _ => rfl) (fun _ => rfl) (fun _ _ => rfl)
    (fun c w => (A_eq2 (fun c b => U5 m c b) c w).trans (congrFun (V5_eq m c).symm _)) (by decide)
    (fun c => by rw [V6_eq]; exact ⟨U6_main_v57_0 m c, U6_main_v57_1 m c, U6_main_v57_2 m c⟩) (V6_of m (outs m))

end Cert.Kernel.Gen

end
-- ==== Proof.Bits.Seg3.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg3 : Pipeline.RegionSeg (pcfgs (F := F)) adm (pdats m) () defs₀ 𝒱₀ L lv 3 :=
  regOf m (V7 m (outs m)) (V8 m (outs m)) [6, 7] launch3 (body_obligation3 (fun c b => U7 m c b)) (hin3 (fun c b => U7 m c b)) (hout3 (fun c b => U7 m c b)) (fun _ _ => rfl) (fun _ => rfl) (fun _ _ => rfl)
    (fun c w => (A_eq3 (fun c b => U7 m c b) c w).trans (congrFun (V7_eq m c).symm _)) (by decide)
    (fun c => by rw [V8_eq]; exact ⟨U8_main_v64_0 m c, U8_main_v64_1 m c⟩) (V8_of m (outs m))

end Cert.Kernel.Gen

end
-- ==== Proof.Bits.Seg4.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg4 : Pipeline.RegionSeg (pcfgs (F := F)) adm (pdats m) () defs₀ 𝒱₀ L lv 4 :=
  regOf m (V9 m (outs m)) (V10 m (outs m)) [3] launch4 (body_obligation4 (fun c b => U9 m c b)) (hin4 (fun c b => U9 m c b)) (hout4 (fun c b => U9 m c b)) (fun _ _ => rfl) (fun _ => rfl) (fun _ _ => rfl)
    (fun c w => (A_eq4 (fun c b => U9 m c b) c w).trans (congrFun (V9_eq m c).symm _)) (by decide)
    (fun c => by rw [V10_eq]; exact U10_main_v68 m c) (V10_of m (outs m))

end Cert.Kernel.Gen

end
-- ==== Proof.Bits.Seg5.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg5 : Pipeline.RegionSeg (pcfgs (F := F)) adm (pdats m) () defs₀ 𝒱₀ L lv 5 :=
  regOf m (V11 m (outs m)) (V12 m (outs m)) [4, 5, 6] launch5 (body_obligation5 (fun c b => U11 m c b)) (hin5 (fun c b => U11 m c b)) (hout5 (fun c b => U11 m c b)) (fun _ _ => rfl) (fun _ => rfl) (fun _ _ => rfl)
    (fun c w => (A_eq5 (fun c b => U11 m c b) c w).trans (congrFun (V11_eq m c).symm _)) (by decide)
    (fun c => by rw [V12_eq]; exact ⟨U12_main_v86_0 m c, U12_main_v86_1 m c, U12_main_v86_2 m c⟩) (V12_of m (outs m))

end Cert.Kernel.Gen

end
-- ==== Proof.Bits.Seg6.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg6 : Pipeline.RegionSeg (pcfgs (F := F)) adm (pdats m) () defs₀ 𝒱₀ L lv 6 :=
  regOf m (V13 m (outs m)) (V14 m (outs m)) [7, 8] launch6 (body_obligation6 (fun c b => U13 m c b)) (hin6 (fun c b => U13 m c b)) (hout6 (fun c b => U13 m c b)) (fun _ _ => rfl) (fun _ => rfl) (fun _ _ => rfl)
    (fun c w => (A_eq6 (fun c b => U13 m c b) c w).trans (congrFun (V13_eq m c).symm _)) (by decide)
    (fun c => by rw [V14_eq]; exact ⟨U14_main_v93_0 m c, U14_main_v93_1 m c⟩) (V14_of m (outs m))

end Cert.Kernel.Gen

end
-- ==== Proof.Bits.Seg7.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg7 : Pipeline.RegionSeg (pcfgs (F := F)) adm (pdats m) () defs₀ 𝒱₀ L lv 7 :=
  regOf m (V15 m (outs m)) (V16 m (outs m)) [3] launch7 (body_obligation7 (fun c b => U15 m c b)) (hin7 (fun c b => U15 m c b)) (hout7 (fun c b => U15 m c b)) (fun _ _ => rfl) (fun _ => rfl) (fun _ _ => rfl)
    (fun c w => (A_eq7 (fun c b => U15 m c b) c w).trans (congrFun (V15_eq m c).symm _)) (by decide)
    (fun c => by rw [V16_eq]; exact U16_main_v97 m c) (V16_of m (outs m))

end Cert.Kernel.Gen

end
-- ==== Proof.Bits.Seg8.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg8 : Pipeline.RegionSeg (pcfgs (F := F)) adm (pdats m) () defs₀ 𝒱₀ L lv 8 :=
  regOf m (V17 m (outs m)) (V18 m (outs m)) [4, 5, 6] launch8 (body_obligation8 (fun c b => U17 m c b)) (hin8 (fun c b => U17 m c b)) (hout8 (fun c b => U17 m c b)) (fun _ _ => rfl) (fun _ => rfl) (fun _ _ => rfl)
    (fun c w => (A_eq8 (fun c b => U17 m c b) c w).trans (congrFun (V17_eq m c).symm _)) (by decide)
    (fun c => by rw [V18_eq]; exact ⟨U18_main_v115_0 m c, U18_main_v115_1 m c, U18_main_v115_2 m c⟩) (V18_of m (outs m))

end Cert.Kernel.Gen

end
-- ==== Proof.Bits.Seg9.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg9 : Pipeline.RegionSeg (pcfgs (F := F)) adm (pdats m) () defs₀ 𝒱₀ L lv 9 :=
  regOf m (V19 m (outs m)) (V20 m (outs m)) [6, 7] launch9 (body_obligation9 (fun c b => U19 m c b)) (hin9 (fun c b => U19 m c b)) (hout9 (fun c b => U19 m c b)) (fun _ _ => rfl) (fun _ => rfl) (fun _ _ => rfl)
    (fun c w => (A_eq9 (fun c b => U19 m c b) c w).trans (congrFun (V19_eq m c).symm _)) (by decide)
    (fun c => by rw [V20_eq]; exact ⟨U20_main_v122_0 m c, U20_main_v122_1 m c⟩) (V20_of m (outs m))

end Cert.Kernel.Gen

end
-- ==== Proof.Bits.Seg10.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg10 : Pipeline.RegionSeg (pcfgs (F := F)) adm (pdats m) () defs₀ 𝒱₀ L lv 10 :=
  regOf m (V21 m (outs m)) (V22 m (outs m)) [3] launch10 (body_obligation10 (fun c b => U21 m c b)) (hin10 (fun c b => U21 m c b)) (hout10 (fun c b => U21 m c b)) (fun _ _ => rfl) (fun _ => rfl) (fun _ _ => rfl)
    (fun c w => (A_eq10 (fun c b => U21 m c b) c w).trans (congrFun (V21_eq m c).symm _)) (by decide)
    (fun c => by rw [V22_eq]; exact U22_main_v126 m c) (V22_of m (outs m))

end Cert.Kernel.Gen

end
-- ==== Proof.Bits.Seg11.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg11 : Pipeline.RegionSeg (pcfgs (F := F)) adm (pdats m) () defs₀ 𝒱₀ L lv 11 :=
  regOf m (V23 m (outs m)) (V24 m (outs m)) [4, 5, 6] launch11 (body_obligation11 (fun c b => U23 m c b)) (hin11 (fun c b => U23 m c b)) (hout11 (fun c b => U23 m c b)) (fun _ _ => rfl) (fun _ => rfl) (fun _ _ => rfl)
    (fun c w => (A_eq11 (fun c b => U23 m c b) c w).trans (congrFun (V23_eq m c).symm _)) (by decide)
    (fun c => by rw [V24_eq]; exact ⟨U24_main_v144_0 m c, U24_main_v144_1 m c, U24_main_v144_2 m c⟩) (V24_of m (outs m))

end Cert.Kernel.Gen

end
-- ==== Proof.Bits.Seg12.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg12 : Pipeline.RegionSeg (pcfgs (F := F)) adm (pdats m) () defs₀ 𝒱₀ L lv 12 :=
  regOf m (V25 m (outs m)) (V26 m (outs m)) [7, 8] launch12 (body_obligation12 (fun c b => U25 m c b)) (hin12 (fun c b => U25 m c b)) (hout12 (fun c b => U25 m c b)) (fun _ _ => rfl) (fun _ => rfl) (fun _ _ => rfl)
    (fun c w => (A_eq12 (fun c b => U25 m c b) c w).trans (congrFun (V25_eq m c).symm _)) (by decide)
    (fun c => by rw [V26_eq]; exact ⟨U26_main_v151_0 m c, U26_main_v151_1 m c⟩) (V26_of m (outs m))

end Cert.Kernel.Gen

end
-- ==== Proof.Bits.Seg13.lean ====
import proofs.«101364_j7567732376252_1_alg».proof.Proof.Bits.SegLib

noncomputable section

namespace Cert.Kernel.Gen

open Idealize.ShloMosaic Idealize.ShloMosaic.TcCoe

variable {F : FTy → Type} [FloatOps F] (m : (ℓ : Loc nD τ sig) → Buf (Elt F) ℓ)

def reg13 : Pipeline.RegionSeg (pcfgs (F := F)) adm (pdats m) () defs₀ 𝒱₀ L lv 13 :=
  regOf m (V27 m (outs m)) (V28 m (outs m)) [3] launch13 (body_obligation13 (fun c b => U27 m c b)) (hin13 (fun c b => U27 m c b)) (hout13 (fun c b => U27 m c b)) (fun _ _ => rfl) (fun _ => rfl) (fun _ _ => rfl)
    (fun c w => (A_eq13 (fun c b => U27 m c b) c w).trans (congrFun (V27_eq m c).symm _)) (by decide)
    (fun c => by rw [V28_eq]; exact U28_main_v153 m c) (V28_of m (outs m))

end Cert.Kernel.Gen

end
-- ==== Proof.Bits.Run.lean ====
import proofs.«101364_j7567732376252_1_alg».proof.Proof.Bits.Seg0
import proofs.«101364_j7567732376252_1_alg».proof.Proof.Bits.Seg1
import proofs.«101364_j7567732376252_1_alg».proof.Proof.Bits.Seg2
import proofs.«101364_j7567732376252_1_alg».proof.Proof.Bits.Seg3
import proofs.«101364_j7567732376252_1_alg».proof.Proof.Bits.Seg4
import proofs.«101364_j7567732376252_1_alg».proof.Proof.Bits.Seg5
import proofs.«101364_j7567732376252_1_alg».proof.Proof.Bits.Seg6
import proofs.«101364_j7567732376252_1_alg».proof.Proof.Bits.Seg7
import proofs.«101364_j7567732376252_1_alg».proof.Proof.Bits.Seg8
import proofs.«101364_j7567732376252_1_alg».proof.Proof.Bits.Seg9
import proofs.«101364_j7567732376252_1_alg».proof.Proof.Bits.Seg10
import proofs.«101364_j7567732376252_1_alg».proof.Proof.Bits.Seg11
import proofs.«101364_j7567732376252_1_alg».proof.Proof.Bits.Seg12
import proofs.«101364_j7567732376252_1_alg».proof.Proof.Bits.Seg13
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev E : Fin 15 → Dev nD → sProp 𝕄 := fun _ c => R c
theorem hE14 (c : Dev nD) : E (F := F) 14 c ⊢ (iprop(∃ W, owes (c : Thread nD τ) (0 : CellTallies nD τ sig Unit) W) : sProp 𝕄) := by
  iintro ⟨-, H⟩; iexact H
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = V28 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V28 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE14 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V28 m (outs m) c b)
    (hfin := fun c s' => by
      iintro ⟨Hh, HSI⟩
      unfold StableHlo.held
      imodintro
      iapply (pointsTo_read_all (Pipeline.ucRefs τ sig) (fun b => ((c : Thread nD τ).1, b)) (V28 m (outs m) c) s')
      isplitl [Hh] <;> iassumption)
    (hQ := fun s h => h)
theorem result : θ_run defs (onTc (τ := τ) (main (F := F))) ⟨m, fun _ => 0, ρ⟩ (fun r => ∀ c : Dev nD,
      r.2.mem ((c.tc : Thread nD τ).loc main_v153) = U28 m c main_v153
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v153 (by decide))).trans (congrFun (V28_eq m c) _),
     (h c _ (mem_uc main_arg0 (by decide))).trans (V28_main_arg0 m (outs m) c),
     (h c _ (mem_uc main_arg1 (by decide))).trans (V28_main_arg1 m (outs m) c),
     (h c _ (mem_uc main_arg2 (by decide))).trans (V28_main_arg2 m (outs m) c),
     (h c _ (mem_uc main_arg3 (by decide))).trans (V28_main_arg3 m (outs m) c),
     (h c _ (mem_uc main_arg4 (by decide))).trans (V28_main_arg4 m (outs m) c),
     (h c _ (mem_uc main_arg5 (by decide))).trans (V28_main_arg5 m (outs m) c),
     (h c _ (mem_uc main_arg6 (by decide))).trans (V28_main_arg6 m (outs m) c),
     (h c _ (mem_uc main_arg7 (by decide))).trans (V28_main_arg7 m (outs m) c),
     (h c _ (mem_uc main_arg8 (by decide))).trans (V28_main_arg8 m (outs m) c),
     (h c _ (mem_uc main_arg9 (by decide))).trans (V28_main_arg9 m (outs m) c)⟩) (run_all m ρ)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (result m ρ)
end Cert.Kernel.Gen
end
-- ==== Proof.Ideal.Reg0.lean ====
import proofs.«101364_j7567732376252_1_alg».proof.Proof.Gen.KernelIdeal.Launch
import proofs.«101364_j7567732376252_1_alg».proof.Proof.Gen.KernelIdeal.Skeleton
import proofs.«101364_j7567732376252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Kernel
abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0
abbrev r0_y : Rect S2000x128 := Rect.unit (s := S2000x128) ![0, 0] S2000x128.size inb_S2000x128_S2000x128_0_0

def linear_skel0 (pay : Vec F S2000x128 .f32 → Vec F S128x128 .f32 → Vec F S1x128 .f32 →
      FVec F S2000x128 .f32)
    (arg1 : Memref sig .tc .vmem S2000x128 .f32) (arg2 : Memref sig .tc .vmem S128x128 .f32) (arg3 : Memref sig .tc .vmem S1x128 .f32)
    (arg4 : Memref sig .tc .vmem S2000x128 .f32) :
    Prog (TpuEff nD τ sig (Elt F) Λ₀ .tc) PUnit := do
  let v0 ← Prog.lift (.load arg1 r0_x.toLoadRect (View.loadsAt_vmem h_S2000x128))
  let v2 ← Prog.lift (.load arg2 r0_w.toLoadRect (View.loadsAt_vmem h_S128x128))
  let v5 ← Prog.lift (.load arg3 r0_b.toLoadRect (View.loadsAt_vmem h_S1x128))
  let _ ← Prog.lift (.load arg4 r0_y.toLoadRect (View.loadsAt_vmem h_S2000x128))
  Prog.lift (.store arg4 r0_y (pay v0 v2 v5) Finset.univ (View.stores_vmem_bits_univ h_S2000x128 rfl) (.inl rfl))
  pure ⟨⟩

set_option maxHeartbeats 1000000 in
-- the output is written once over a rectangle that is the whole shape, so every entry of it is the stored value's
theorem sound_linear0 (pay : Vec F S2000x128 .f32 → Vec F S128x128 .f32 → Vec F S1x128 .f32 →
      FVec F S2000x128 .f32)
    (c : Dev nD) (E : Set ℕ)
    (arg1 : Memref sig .tc .vmem S2000x128 .f32) (arg2 : Memref sig .tc .vmem S128x128 .f32) (arg3 : Memref sig .tc .vmem S1x128 .f32)
    (arg4 : Memref sig .tc .vmem S2000x128 .f32)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare
              (View.canon [⟨r0_y, pay (View.ld x0 r0_x) (View.ld x1 r0_w) (View.ld x2 r0_b)⟩])) -∗ K ⟨⟩))
      ⊢ wp frame (wpE (defs₀ (F := F)) Variants.none c none) E (linear_skel0 pay arg1 arg2 arg3 arg4) K := by
  unfold linear_skel0 owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x128.size (by rfl))
end Kernel

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S2000x128 .f32) (x1 : Vec F S128x128 .f32) (x2 : Vec F S1x128 .f32) :
    Vec F S2000x128 .f32 :=
  View.canon [⟨r0_y, k0_pay1 (View.ld x0 r0_x) (View.ld x1 r0_w) (View.ld x2 r0_b)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show iprop(_ ∗ _ ∗ (∃ d, owns c.tc (st0_0 t) _ ((dat0 V c).before 0 t d)) ∗ (∃ d, owns c.tc (st0_1 t) _ ((dat0 V c).before 1 t d))
      ∗ (∃ d, owns c.tc (st0_2 t) _ ((dat0 V c).before 2 t d)) ∗ (∃ d, owns c.tc (st0_3 t) _ ((dat0 V c).before 3 t d)))
    ⊢ wp frame _ _ (bodyAt0 t) fun _ => iprop(_ ∗ _ ∗ owns c.tc (st0_0 t) _ (iblk0 V c 0 t) ∗ owns c.tc (st0_1 t) _ (iblk0 V c 1 t)
      ∗ owns c.tc (st0_2 t) _ (iblk0 V c 2 t) ∗ owns c.tc (st0_3 t) _ ((dat0 V c).after 3 t))
  rw [show (dat0 V c).Φ t.succ = (dat0 V c).Φ t.castSucc from rfl,
    show (dat0 V c).owesAt () t.succ = (dat0 V c).owesAt () t.castSucc from rfl]
  unfold bodyAt0
  simp only [before0_0, before0_1, before0_2, after0_3, out0_3, cc0__linear_kernel_eq_skeleton]
  iintro ⟨HΦ, Ho, ⟨%d0, H0⟩, ⟨%d1, H1⟩, ⟨%d2, H2⟩, ⟨%d3, H3⟩⟩
  iapply (sound_linear0 k0_pay1 c Set.univ _ _ _ _ (iblk0 V c 0 t) (iblk0 V c 1 t) (iblk0 V c 2 t) _)
  iframe H0 H1 H2
  isplitl [H3]; · iexists _; iexact H3
  iintro ⟨H0, H1, H2, H3⟩
  iframe

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Gen
-- ==== Proof.Ideal.Reg1.lean ====
import proofs.«101364_j7567732376252_1_alg».proof.Proof.Ideal.Reg0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S2000x128 .f32) (x1 : Vec F S128x128 .f32) (x2 : Vec F S1x128 .f32) :
    Vec F S2000x128 .f32 :=
  View.canon [⟨r0_y, k1_pay1 (View.ld x0 r0_x) (View.ld x1 r0_w) (View.ld x2 r0_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show iprop(_ ∗ _ ∗ (∃ d, owns c.tc (st1_0 t) _ ((dat1 V c).before 0 t d)) ∗ (∃ d, owns c.tc (st1_1 t) _ ((dat1 V c).before 1 t d))
      ∗ (∃ d, owns c.tc (st1_2 t) _ ((dat1 V c).before 2 t d)) ∗ (∃ d, owns c.tc (st1_3 t) _ ((dat1 V c).before 3 t d)))
    ⊢ wp frame _ _ (bodyAt1 t) fun _ => iprop(_ ∗ _ ∗ owns c.tc (st1_0 t) _ (iblk1 V c 0 t) ∗ owns c.tc (st1_1 t) _ (iblk1 V c 1 t)
      ∗ owns c.tc (st1_2 t) _ (iblk1 V c 2 t) ∗ owns c.tc (st1_3 t) _ ((dat1 V c).after 3 t))
  rw [show (dat1 V c).Φ t.succ = (dat1 V c).Φ t.castSucc from rfl,
    show (dat1 V c).owesAt () t.succ = (dat1 V c).owesAt () t.castSucc from rfl]
  unfold bodyAt1
  simp only [before1_0, before1_1, before1_2, after1_3, out1_3, cc1__linear_kernel_eq_skeleton]
  iintro ⟨HΦ, Ho, ⟨%d0, H0⟩, ⟨%d1, H1⟩, ⟨%d2, H2⟩, ⟨%d3, H3⟩⟩
  iapply (sound_linear0 k1_pay1 c Set.univ _ _ _ _ (iblk1 V c 0 t) (iblk1 V c 1 t) (iblk1 V c 2 t) _)
  iframe H0 H1 H2
  isplitl [H3]; · iexists _; iexact H3
  iintro ⟨H0, H1, H2, H3⟩
  iframe

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.KernelIdeal.Gen
-- ==== Proof.Ideal.Reg2Runs.lean ====
import proofs.«101364_j7567732376252_1_alg».proof.Proof.Gen.KernelIdeal.Launch
import proofs.«101364_j7567732376252_1_alg».proof.Proof.Gen.KernelIdeal.Skeleton
import proofs.«101364_j7567732376252_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- The four statistics launches run one body on one grid.
def statsBody := cc2__agg_stats_kernel (F := F)
theorem stats_eq2 : cc2__agg_stats_kernel (F := F) = statsBody := rfl
theorem stats_eq5 : cc5__agg_stats_kernel (F := F) = statsBody := rfl
theorem stats_eq8 : cc8__agg_stats_kernel (F := F) = statsBody := rfl
theorem stats_eq11 : cc11__agg_stats_kernel (F := F) = statsBody := rfl

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

theorem zero2 : (![0, 0] : Fin 2 → Nat) = fun _ => 0 := funext fun a => by fin_cases a <;> rfl

-- A store over the whole shape, made last, decides what is read, whatever was stored before it.
theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

-- The same for a read through the whole shape of what such stores left.
theorem readCov_whole2 {κ : Kind} {sp : Space} {S : Shape} {e : EltTy} (v : View sig κ sp S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩), View.canon_cons_unit_zero h,
    View.ld_unit_zero h]

section
variable (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)

-- One run of the body: the fused block is stored, each carried row gains the block's column sums (of squares) from zero at the first point, and the last point forms the mean and variance rows from them.
theorem sound_stats (x0 x1 d5 : Vec F S2000x128 .f32) (x2 : Vec F S2000x1 .f32) (x3 d6 d7 d8 d9 : Vec F S1x128 .f32) (K : PUnit → sProp 𝕄) :
    owns (c : Thread nD τ) arg1 fullShare x0 ⊢ iprop(owns (c : Thread nD τ) arg2 fullShare x1 -∗ owns (c : Thread nD τ) arg3 fullShare x2 -∗ owns (c : Thread nD τ) arg4 fullShare x3
        -∗ owns (c : Thread nD τ) arg5 fullShare d5 -∗ owns (c : Thread nD τ) arg6 fullShare d6 -∗ owns (c : Thread nD τ) arg7 fullShare d7 -∗ owns (c : Thread nD τ) arg8 fullShare d8 -∗ owns (c : Thread nD τ) arg9 fullShare d9
        -∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay5 x0 x1 x2 x3)
            ∗ owns (c : Thread nD τ) arg6 fullShare (if cond2_1 i then k2_pay1 (k2_pay6 x0 x1 x2 x3 (if cond2_0 i then k2_pay3 else d8)) else d6)
            ∗ owns (c : Thread nD τ) arg7 fullShare (if cond2_1 i then k2_pay2 (k2_pay6 x0 x1 x2 x3 (if cond2_0 i then k2_pay3 else d8)) (k2_pay7 x0 x1 x2 x3 (if cond2_0 i then k2_pay4 else d9)) else d7)
            ∗ owns (c : Thread nD τ) arg8 fullShare (k2_pay6 x0 x1 x2 x3 (if cond2_0 i then k2_pay3 else d8)) ∗ owns (c : Thread nD τ) arg9 fullShare (k2_pay7 x0 x1 x2 x3 (if cond2_0 i then k2_pay4 else d9))) -∗ K ⟨⟩)
        -∗ wp frame (wpE (defs₀ (F := F)) Variants.none c none) E (statsBody i arg1 harg1 arg2 harg2 arg3 harg3 arg4 harg4 arg5 harg5 arg6 harg6 arg7 harg7 arg8 harg8 arg9 harg9) K) := by
  by_cases hc0 : cond2_0 i <;> by_cases hc1 : cond2_1 i <;>
  ( first | simp only [if_neg hc0, if_neg hc1] | simp only [if_neg hc0, if_pos hc1] | simp only [if_pos hc0, if_neg hc1] | simp only [if_pos hc0, if_pos hc1]
    unfold statsBody; simp only [cc2__agg_stats_kernel_eq_skeleton]; unfold cc2__agg_stats_kernel_skel
    simp only [k2_part1_eq_skeleton]
    unfold owns
    iintro ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ Hk
    subst hf1 hf2 hf3 hf4 hf5 hf6 hf7 hf8 hf9
    sl_exec (disch := first | exact hc0 | exact hc1)
    sl_step
    try sl_unfold_words
    iapply Hk
    isplitl [H1]; iexists _; isplitr; swap; iexact H1; ipureintro; swap
    isplitl [H2]; iexists _; isplitr; swap; iexact H2; ipureintro; swap
    isplitl [H3]; iexists _; isplitr; swap; iexact H3; ipureintro; swap
    isplitl [H4]; iexists _; isplitr; swap; iexact H4; ipureintro; swap
    isplitl [H5]; iexists _; isplitr; swap; iexact H5; ipureintro; swap
    isplitl [H6]; iexists _; isplitr; swap; iexact H6; ipureintro; swap
    isplitl [H7]; iexists _; isplitr; swap; iexact H7; ipureintro; swap
    isplitl [H8]; iexists _; isplitr; swap; iexact H8; ipureintro; swap
    iexists _; isplitr; swap; iexact H9; ipureintro
    all_goals first | rfl | exact (read_writes_whole2 _ _ zero2 _ _ _).trans (by simp only [View.readAt_eq_ld, View.ld_unit_zero (S := S2000x128) zero2, View.ld_unit_zero (S := S2000x1) zero2, View.ld_unit_zero (S := S1x128) zero2, readCov_whole2 (S := S1x128) _ zero2]) )

end

end Cert.KernelIdeal.Gen

end
-- ==== Proof.Ideal.Reg2.lean ====
import proofs.«101364_j7567732376252_1_alg».proof.Proof.Ideal.Reg2Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem idleAt2 : ∀ t : Fin cfg2.N,
    (¬cond2_1 (grid2.coords t) → idle2 5 (grid2.coords t) = true ∧ idle2 6 (grid2.coords t) = true
      ∧ (win2 5).flush t = false ∧ (win2 6).flush t = false)
    ∧ (cond2_1 (grid2.coords t) → idle2 5 (grid2.coords t) = false ∧ idle2 6 (grid2.coords t) = false) := by decide +kernel

abbrev scM2_0 : Memref sig .tc .vmem S1x128 .f32 := Memref.whole cc2_scratch0
abbrev scM2_1 : Memref sig .tc .vmem S1x128 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

def point2 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k2_pay5 b0 b1 b2 b3, k2_pay1 (k2_pay6 b0 b1 b2 b3 s), k2_pay2 (k2_pay6 b0 b1 b2 b3 s) (k2_pay7 b0 b1 b2 b3 q),
    k2_pay6 b0 b1 b2 b3 s, k2_pay7 b0 b1 b2 b3 q)

-- What each point leaves, by recursion on the point: the carried rows start from zero and pass from point to point.
def outsAt2 (c : Dev nD) : (n : ℕ) → n < cfg2.N →
    Vec F S2000x128 .f32 × Vec F S1x128 .f32 × Vec F S1x128 .f32 × Vec F S1x128 .f32 × Vec F S1x128 .f32
  | 0, hn => point2 (iblk2 V c 0 ⟨0, hn⟩) (iblk2 V c 1 ⟨0, hn⟩) (iblk2 V c 2 ⟨0, hn⟩) (iblk2 V c 3 ⟨0, hn⟩) k2_pay3 k2_pay4
  | n + 1, hn => point2 (iblk2 V c 0 ⟨n + 1, hn⟩) (iblk2 V c 1 ⟨n + 1, hn⟩) (iblk2 V c 2 ⟨n + 1, hn⟩) (iblk2 V c 3 ⟨n + 1, hn⟩)
      (outsAt2 c n (Nat.lt_of_succ_lt hn)).2.2.2.1 (outsAt2 c n (Nat.lt_of_succ_lt hn)).2.2.2.2

theorem outsAt2_zero (c : Dev nD) (t : Fin cfg2.N) (hz : t.val = 0) :
    outsAt2 V c t.val t.isLt = point2 (iblk2 V c 0 t) (iblk2 V c 1 t) (iblk2 V c 2 t) (iblk2 V c 3 t) k2_pay3 k2_pay4 := by
  obtain ⟨n, hn⟩ := t
  cases n with
  | zero => rfl
  | succ n => exact absurd hz (Nat.succ_ne_zero n)

theorem outsAt2_pos (c : Dev nD) (t : Fin cfg2.N) (hz : t.val ≠ 0) :
    outsAt2 V c t.val t.isLt = point2 (iblk2 V c 0 t) (iblk2 V c 1 t) (iblk2 V c 2 t) (iblk2 V c 3 t)
      (outsAt2 V c (t.val - 1) (Nat.lt_of_le_of_lt (Nat.sub_le _ _) t.isLt)).2.2.2.1
      (outsAt2 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl

-- The body at any point, by the point's position: the first, the last, or one between.
theorem body_obligation2 (c : Dev nD) : BodyObligation (dat2 (F := F) V c) (defs₀ (F := F)) Variants.none () Set.univ := fun t => by
  rw [bigSep_W2, bigSep_W2]
  change _ ⊢ wp _ _ _ (bodyAt2 t) _
  unfold bodyAt2
  rw [stats_eq2]
  simp only [before2_0, before2_1, before2_2, before2_3]
  rw [show (dat2 V c).Φ t.succ = PhiS2 V c (t.val + 1) t.isLt from rfl, PhiS2, PhiS2_castSucc V c t, after2_4]
  have hN : t.val < 25 := lt_of_lt_of_eq t.isLt (show cfg2.N = 25 from N_2)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid2.coords t) := fun h => hz (h0.mp h)
    have hc1 : ¬cond2_1 (grid2.coords t) := fun h => hl (h1.mp h)
    obtain ⟨i5, i6, f5, f6⟩ := (idleAt2 t).1 hc1
    simp only [i5, i6, f5, f6]
    rw [outsAt2_pos V c t hz, PhiS2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid2.coords t) := fun h => hz (h0.mp h)
    have hc1 : cond2_1 (grid2.coords t) := h1.mpr hl
    simp only [((idleAt2 t).2 hc1).1, ((idleAt2 t).2 hc1).2]
    rw [after2_5, after2_6, outsAt2_pos V c t hz, PhiS2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid2.coords t) := h0.mpr hz
    have hc1 : ¬cond2_1 (grid2.coords t) := fun h => by have := h1.mp h; omega
    obtain ⟨i5, i6, f5, f6⟩ := (idleAt2 t).1 hc1
    simp only [i5, i6, f5, f6]
    rw [outsAt2_zero V c t hz, PhiS2_zero V c _ _ hz, PhiA2_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point2]
    iapply (sound_stats c Set.univ (grid2.coords t) _ _ _ _ _ _ _ _ _ _ _ _ _ _ _ _ _ _ (iblk2 V c 0 t) (iblk2 V c 1 t) _ (iblk2 V c 2 t) (iblk2 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin2 (c : Dev nD) : Pipeline.ΦA spec2 c ⊢ (dat2 V c).Φ 0 := Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Gen

end
-- ==== Proof.Ideal.Reg3.lean ====
import proofs.«101364_j7567732376252_1_alg».proof.Proof.Gen.KernelIdeal.Launch
import proofs.«101364_j7567732376252_1_alg».proof.Proof.Gen.KernelIdeal.Skeleton
import proofs.«101364_j7567732376252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Kernel
abbrev r3_t : Rect S2000x128 := Rect.unit (s := S2000x128) ![0, 0] S2000x128.size inb_S2000x128_S2000x128_0_0
abbrev r3_r : Rect S1x128 := Rect.unit (s := S1x128) ![0, 0] S1x128.size inb_S1x128_S1x128_0_0

def bn_skel3 (pay1 : Vec F S2000x128 .f32 → Vec F S1x128 .f32 → Vec F S1x128 .f32 → Vec F S1x128 .f32 → Vec F S1x128 .f32 →
      FVec F S2000x128 .f32)
    (pay2 : Vec F S2000x128 .f32 → Vec F S1x128 .f32 → Vec F S1x128 .f32 → Vec F S1x128 .f32 → Vec F S1x128 .f32 → Vec F S2000x128 .f32 →
      FVec F S2000x128 .f32)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32) :
    Prog (TpuEff nD τ sig (Elt F) Λ₀ .tc) PUnit := do
  let v0 ← Prog.lift (.load arg1 r3_t.toLoadRect (View.loadsAt_vmem h_S2000x128))
  let v2 ← Prog.lift (.load arg3 r3_r.toLoadRect (View.loadsAt_vmem h_S1x128))
  let v7 ← Prog.lift (.load arg2 r3_r.toLoadRect (View.loadsAt_vmem h_S1x128))
  let v13 ← Prog.lift (.load arg4 r3_r.toLoadRect (View.loadsAt_vmem h_S1x128))
  let v17 ← Prog.lift (.load arg5 r3_r.toLoadRect (View.loadsAt_vmem h_S1x128))
  let _ ← Prog.lift (.load arg7 r3_t.toLoadRect (View.loadsAt_vmem h_S2000x128))
  Prog.lift (.store arg7 r3_t (pay1 v0 v2 v7 v13 v17) Finset.univ (View.stores_vmem_bits_univ h_S2000x128 rfl) (.inl rfl))
  let v24 ← Prog.lift (.load arg6 r3_t.toLoadRect (View.loadsAt_vmem h_S2000x128))
  let _ ← Prog.lift (.load arg8 r3_t.toLoadRect (View.loadsAt_vmem h_S2000x128))
  Prog.lift (.store arg8 r3_t (pay2 v0 v2 v7 v13 v17 v24) Finset.univ (View.stores_vmem_bits_univ h_S2000x128 rfl) (.inl rfl))
  pure ⟨⟩

set_option maxHeartbeats 4000000 in
-- each output is written once over a rectangle that is the whole shape, so every entry of it is the stored value's
theorem sound_bn3 (pay1 : Vec F S2000x128 .f32 → Vec F S1x128 .f32 → Vec F S1x128 .f32 → Vec F S1x128 .f32 → Vec F S1x128 .f32 →
      FVec F S2000x128 .f32)
    (pay2 : Vec F S2000x128 .f32 → Vec F S1x128 .f32 → Vec F S1x128 .f32 → Vec F S1x128 .f32 → Vec F S1x128 .f32 → Vec F S2000x128 .f32 →
      FVec F S2000x128 .f32)
    (c : Dev nD) (E : Set ℕ)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32)
    (x0 : Vec F S2000x128 .f32) (x1 x2 x3 x4 : Vec F S1x128 .f32) (x5 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (View.canon [⟨r3_t, pay1 (View.ld x0 r3_t) (View.ld x2 r3_r) (View.ld x1 r3_r) (View.ld x3 r3_r) (View.ld x4 r3_r)⟩])
            ∗ owns (c : Thread nD τ) arg8 fullShare (View.canon [⟨r3_t, pay2 (View.ld x0 r3_t) (View.ld x2 r3_r) (View.ld x1 r3_r) (View.ld x3 r3_r) (View.ld x4 r3_r) (View.ld x5 r3_t)⟩])) -∗ K ⟨⟩))
      ⊢ wp frame (wpE (defs₀ (F := F)) Variants.none c none) E
          (bn_skel3 pay1 pay2 arg1 arg2 arg3 arg4 arg5 arg6 arg7 arg8) K := by
  unfold bn_skel3 owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (View.cover_of_tiled _ S2000x128.size (by rfl))
  iexists _; isplitr
  swap; · iexact H7
  ipureintro
  exact View.read_writes_eq_canon _ _ _ (View.cover_of_tiled _ S2000x128.size (by rfl))
end Kernel

def bn3 (x0 : Vec F S2000x128 .f32) (x1 x2 x3 x4 : Vec F S1x128 .f32) : FVec F S2000x128 .f32 :=
  k3_pay1 (View.ld x0 r3_t) (View.ld x2 r3_r) (View.ld x1 r3_r) (View.ld x3 r3_r) (View.ld x4 r3_r)

def out3_6 (x0 : Vec F S2000x128 .f32) (x1 x2 x3 x4 : Vec F S1x128 .f32) : Vec F S2000x128 .f32 :=
  View.canon [⟨r3_t, bn3 x0 x1 x2 x3 x4⟩]

def out3_7 (x0 : Vec F S2000x128 .f32) (x1 x2 x3 x4 : Vec F S1x128 .f32) (x5 : Vec F S2000x128 .f32) : Vec F S2000x128 .f32 :=
  View.canon [⟨r3_t, k3_pay2 (View.ld x0 r3_t) (View.ld x2 r3_r) (View.ld x1 r3_r) (View.ld x3 r3_r) (View.ld x4 r3_r) (View.ld x5 r3_t)⟩]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t
    = out3_6 (iblk3 V c 0 t) (iblk3 V c 1 t) (iblk3 V c 2 t) (iblk3 V c 3 t) (iblk3 V c 4 t) := by dsimp only [dat3]
theorem after3_7 (c : Dev nD) (t : Fin cfg3.N) : (dat3 V c).after 7 t
    = out3_7 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

set_option maxHeartbeats 1000000 in
theorem body_obligation3 (c : Dev nD) : BodyObligation (dat3 (F := F) V c) (defs₀ (F := F)) Variants.none () Set.univ := fun t => by
  rw [bigSep_W3, bigSep_W3]
  show iprop(_ ∗ _ ∗ (∃ d, owns c.tc (st3_0 t) _ ((dat3 V c).before 0 t d)) ∗ (∃ d, owns c.tc (st3_1 t) _ ((dat3 V c).before 1 t d))
      ∗ (∃ d, owns c.tc (st3_2 t) _ ((dat3 V c).before 2 t d)) ∗ (∃ d, owns c.tc (st3_3 t) _ ((dat3 V c).before 3 t d))
      ∗ (∃ d, owns c.tc (st3_4 t) _ ((dat3 V c).before 4 t d)) ∗ (∃ d, owns c.tc (st3_5 t) _ ((dat3 V c).before 5 t d))
      ∗ (∃ d, owns c.tc (st3_6 t) _ ((dat3 V c).before 6 t d)) ∗ (∃ d, owns c.tc (st3_7 t) _ ((dat3 V c).before 7 t d)))
    ⊢ wp frame _ _ (bodyAt3 t) fun _ => iprop(_ ∗ _ ∗ owns c.tc (st3_0 t) _ (iblk3 V c 0 t) ∗ owns c.tc (st3_1 t) _ (iblk3 V c 1 t)
      ∗ owns c.tc (st3_2 t) _ (iblk3 V c 2 t) ∗ owns c.tc (st3_3 t) _ (iblk3 V c 3 t)
      ∗ owns c.tc (st3_4 t) _ (iblk3 V c 4 t) ∗ owns c.tc (st3_5 t) _ (iblk3 V c 5 t)
      ∗ owns c.tc (st3_6 t) _ ((dat3 V c).after 6 t) ∗ owns c.tc (st3_7 t) _ ((dat3 V c).after 7 t))
  rw [show (dat3 V c).Φ t.succ = (dat3 V c).Φ t.castSucc from rfl,
    show (dat3 V c).owesAt () t.succ = (dat3 V c).owesAt () t.castSucc from rfl]
  unfold bodyAt3
  simp only [before3_0, before3_1, before3_2, before3_3, before3_4, before3_5, after3_6, after3_7, out3_6, bn3, out3_7, cc3_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_bn3 k3_pay1 k3_pay2 c Set.univ _ _ _ _ _ _ _ _
    (iblk3 V c 0 t) (iblk3 V c 1 t) (iblk3 V c 2 t) (iblk3 V c 3 t) (iblk3 V c 4 t) (iblk3 V c 5 t) _)
  iframe H0 H1 H2 H3 H4 H5
  isplitl [H6]; · iexists _; iexact H6
  isplitl [H7]; · iexists _; iexact H7
  iintro ⟨H0, H1, H2, H3, H4, H5, H6, H7⟩
  iframe

end Cert.KernelIdeal.Gen
-- ==== Proof.Ideal.Reg4.lean ====
import proofs.«101364_j7567732376252_1_alg».proof.Proof.Ideal.Reg0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S2000x128 .f32) (x1 : Vec F S128x128 .f32) (x2 : Vec F S1x128 .f32) :
    Vec F S2000x128 .f32 :=
  View.canon [⟨r0_y, k4_pay1 (View.ld x0 r0_x) (View.ld x1 r0_w) (View.ld x2 r0_b)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show iprop(_ ∗ _ ∗ (∃ d, owns c.tc (st4_0 t) _ ((dat4 V c).before 0 t d)) ∗ (∃ d, owns c.tc (st4_1 t) _ ((dat4 V c).before 1 t d))
      ∗ (∃ d, owns c.tc (st4_2 t) _ ((dat4 V c).before 2 t d)) ∗ (∃ d, owns c.tc (st4_3 t) _ ((dat4 V c).before 3 t d)))
    ⊢ wp frame _ _ (bodyAt4 t) fun _ => iprop(_ ∗ _ ∗ owns c.tc (st4_0 t) _ (iblk4 V c 0 t) ∗ owns c.tc (st4_1 t) _ (iblk4 V c 1 t)
      ∗ owns c.tc (st4_2 t) _ (iblk4 V c 2 t) ∗ owns c.tc (st4_3 t) _ ((dat4 V c).after 3 t))
  rw [show (dat4 V c).Φ t.succ = (dat4 V c).Φ t.castSucc from rfl,
    show (dat4 V c).owesAt () t.succ = (dat4 V c).owesAt () t.castSucc from rfl]
  unfold bodyAt4
  simp only [before4_0, before4_1, before4_2, after4_3, out4_3, cc4__linear_kernel_eq_skeleton]
  iintro ⟨HΦ, Ho, ⟨%d0, H0⟩, ⟨%d1, H1⟩, ⟨%d2, H2⟩, ⟨%d3, H3⟩⟩
  iapply (sound_linear0 k4_pay1 c Set.univ _ _ _ _ (iblk4 V c 0 t) (iblk4 V c 1 t) (iblk4 V c 2 t) _)
  iframe H0 H1 H2
  isplitl [H3]; · iexists _; iexact H3
  iintro ⟨H0, H1, H2, H3⟩
  iframe

theorem hin4 (c : Dev nD) : Pipeline.ΦA spec4 c ⊢ (dat4 V c).Φ 0 := .rfl
theorem hout4 (c : Dev nD) : (dat4 V c).Φ (Fin.last cfg4.N) ⊢ Pipeline.ΦA spec4 c := .rfl

end Cert.KernelIdeal.Gen
-- ==== Proof.Ideal.Reg5.lean ====
import proofs.«101364_j7567732376252_1_alg».proof.Proof.Ideal.Reg2Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem idleAt5 : ∀ t : Fin cfg5.N,
    (¬cond2_1 (grid5.coords t) → idle5 5 (grid5.coords t) = true ∧ idle5 6 (grid5.coords t) = true
      ∧ (win5 5).flush t = false ∧ (win5 6).flush t = false)
    ∧ (cond2_1 (grid5.coords t) → idle5 5 (grid5.coords t) = false ∧ idle5 6 (grid5.coords t) = false) := by decide +kernel

abbrev scM5_0 : Memref sig .tc .vmem S1x128 .f32 := Memref.whole cc5_scratch0
abbrev scM5_1 : Memref sig .tc .vmem S1x128 .f32 := Memref.whole cc5_scratch1

abbrev rest5 (c : Dev nD) : sProp 𝕄 :=
  Pipeline.scopedRestBut (Ix := Unit) (Name := ℕ) (U := UR sig nD τ) (Lvl := ℕ) (Val := Elt F) spec5 c [cc5_scratch0, cc5_scratch1]

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

def point5 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k5_pay5 b0 b1 b2 b3, k5_pay1 (k5_pay6 b0 b1 b2 b3 s), k5_pay2 (k5_pay6 b0 b1 b2 b3 s) (k5_pay7 b0 b1 b2 b3 q),
    k5_pay6 b0 b1 b2 b3 s, k5_pay7 b0 b1 b2 b3 q)

-- What each point leaves, by recursion on the point: the carried rows start from zero and pass from point to point.
def outsAt5 (c : Dev nD) : (n : ℕ) → n < cfg5.N →
    Vec F S2000x128 .f32 × Vec F S1x128 .f32 × Vec F S1x128 .f32 × Vec F S1x128 .f32 × Vec F S1x128 .f32
  | 0, hn => point5 (iblk5 V c 0 ⟨0, hn⟩) (iblk5 V c 1 ⟨0, hn⟩) (iblk5 V c 2 ⟨0, hn⟩) (iblk5 V c 3 ⟨0, hn⟩) k5_pay3 k5_pay4
  | n + 1, hn => point5 (iblk5 V c 0 ⟨n + 1, hn⟩) (iblk5 V c 1 ⟨n + 1, hn⟩) (iblk5 V c 2 ⟨n + 1, hn⟩) (iblk5 V c 3 ⟨n + 1, hn⟩)
      (outsAt5 c n (Nat.lt_of_succ_lt hn)).2.2.2.1 (outsAt5 c n (Nat.lt_of_succ_lt hn)).2.2.2.2

theorem outsAt5_zero (c : Dev nD) (t : Fin cfg5.N) (hz : t.val = 0) :
    outsAt5 V c t.val t.isLt = point5 (iblk5 V c 0 t) (iblk5 V c 1 t) (iblk5 V c 2 t) (iblk5 V c 3 t) k5_pay3 k5_pay4 := by
  obtain ⟨n, hn⟩ := t
  cases n with
  | zero => rfl
  | succ n => exact absurd hz (Nat.succ_ne_zero n)

theorem outsAt5_pos (c : Dev nD) (t : Fin cfg5.N) (hz : t.val ≠ 0) :
    outsAt5 V c t.val t.isLt = point5 (iblk5 V c 0 t) (iblk5 V c 1 t) (iblk5 V c 2 t) (iblk5 V c 3 t)
      (outsAt5 V c (t.val - 1) (Nat.lt_of_le_of_lt (Nat.sub_le _ _) t.isLt)).2.2.2.1
      (outsAt5 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.2.1) ∗ owns (c : Thread nD τ) scM5_1 fullShare ((outsAt5 V c n hn).2.2.2.2)) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.2.1) ∗ owns (c : Thread nD τ) scM5_1 fullShare ((outsAt5 V c (n - 1) (by omega)).2.2.2.2)) ∗ rest5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2.1
    | ⟨6, _⟩ => (outsAt5 V c t.val t.isLt).2.2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2.1 := by dsimp only [dat5]
theorem after5_6 (c : Dev nD) (t : Fin cfg5.N) : (dat5 V c).after 6 t = (outsAt5 V c t.val t.isLt).2.2.1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

-- The body at any point, by the point's position: the first, the last, or one between.
theorem body_obligation5 (c : Dev nD) : BodyObligation (dat5 (F := F) V c) (defs₀ (F := F)) Variants.none () Set.univ := fun t => by
  rw [bigSep_W5, bigSep_W5]
  change _ ⊢ wp _ _ _ (bodyAt5 t) _
  unfold bodyAt5
  rw [stats_eq5]
  simp only [before5_0, before5_1, before5_2, before5_3]
  rw [show (dat5 V c).Φ t.succ = PhiS5 V c (t.val + 1) t.isLt from rfl, PhiS5, PhiS5_castSucc V c t, after5_4]
  have hN : t.val < 25 := lt_of_lt_of_eq t.isLt (show cfg5.N = 25 from N_5)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid5.coords t) := fun h => hz (h0.mp h)
    have hc1 : ¬cond2_1 (grid5.coords t) := fun h => hl (h1.mp h)
    obtain ⟨i5, i6, f5, f6⟩ := (idleAt5 t).1 hc1
    simp only [i5, i6, f5, f6]
    rw [outsAt5_pos V c t hz, PhiS5_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid5.coords t) := fun h => hz (h0.mp h)
    have hc1 : cond2_1 (grid5.coords t) := h1.mpr hl
    simp only [((idleAt5 t).2 hc1).1, ((idleAt5 t).2 hc1).2]
    rw [after5_5, after5_6, outsAt5_pos V c t hz, PhiS5_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid5.coords t) := h0.mpr hz
    have hc1 : ¬cond2_1 (grid5.coords t) := fun h => by have := h1.mp h; omega
    obtain ⟨i5, i6, f5, f6⟩ := (idleAt5 t).1 hc1
    simp only [i5, i6, f5, f6]
    rw [outsAt5_zero V c t hz, PhiS5_zero V c _ _ hz, PhiA5_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point5]
    iapply (sound_stats c Set.univ (grid5.coords t) _ _ _ _ _ _ _ _ _ _ _ _ _ _ _ _ _ _ (iblk5 V c 0 t) (iblk5 V c 1 t) _ (iblk5 V c 2 t) (iblk5 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin5 (c : Dev nD) : Pipeline.ΦA spec5 c ⊢ (dat5 V c).Φ 0 := Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout5 (c : Dev nD) : (dat5 V c).Φ (Fin.last cfg5.N) ⊢ Pipeline.ΦA spec5 c :=
  Phi_out5 V c _ (by rw [Fin.val_last]; have : cfg5.N = 25 := N_5; omega)

end Cert.KernelIdeal.Gen

end
-- ==== Proof.Ideal.Reg6.lean ====
import proofs.«101364_j7567732376252_1_alg».proof.Proof.Gen.KernelIdeal.Launch
import proofs.«101364_j7567732376252_1_alg».proof.Proof.Gen.KernelIdeal.Skeleton
import proofs.«101364_j7567732376252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Kernel
abbrev r6_t : Rect S2000x128 := Rect.unit (s := S2000x128) ![0, 0] S2000x128.size inb_S2000x128_S2000x128_0_0
abbrev r6_r : Rect S1x128 := Rect.unit (s := S1x128) ![0, 0] S1x128.size inb_S1x128_S1x128_0_0

def bn_skel6 (pay1 : Vec F S2000x128 .f32 → Vec F S1x128 .f32 → Vec F S1x128 .f32 → Vec F S1x128 .f32 → Vec F S1x128 .f32 → Vec F S2000x128 .f32 →
      FVec F S2000x128 .f32)
    (pay2 : Vec F S2000x128 .f32 → Vec F S1x128 .f32 → Vec F S1x128 .f32 → Vec F S1x128 .f32 → Vec F S1x128 .f32 → Vec F S2000x128 .f32 → Vec F S2000x128 .f32 →
      FVec F S2000x128 .f32)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32)
    (arg9 : Memref sig .tc .vmem S2000x128 .f32) :
    Prog (TpuEff nD τ sig (Elt F) Λ₀ .tc) PUnit := do
  let v0 ← Prog.lift (.load arg1 r6_t.toLoadRect (View.loadsAt_vmem h_S2000x128))
  let v2 ← Prog.lift (.load arg3 r6_r.toLoadRect (View.loadsAt_vmem h_S1x128))
  let v7 ← Prog.lift (.load arg2 r6_r.toLoadRect (View.loadsAt_vmem h_S1x128))
  let v13 ← Prog.lift (.load arg4 r6_r.toLoadRect (View.loadsAt_vmem h_S1x128))
  let v17 ← Prog.lift (.load arg5 r6_r.toLoadRect (View.loadsAt_vmem h_S1x128))
  let v21 ← Prog.lift (.load arg6 r6_t.toLoadRect (View.loadsAt_vmem h_S2000x128))
  let _ ← Prog.lift (.load arg8 r6_t.toLoadRect (View.loadsAt_vmem h_S2000x128))
  Prog.lift (.store arg8 r6_t (pay1 v0 v2 v7 v13 v17 v21) Finset.univ (View.stores_vmem_bits_univ h_S2000x128 rfl) (.inl rfl))
  let v29 ← Prog.lift (.load arg7 r6_t.toLoadRect (View.loadsAt_vmem h_S2000x128))
  let _ ← Prog.lift (.load arg9 r6_t.toLoadRect (View.loadsAt_vmem h_S2000x128))
  Prog.lift (.store arg9 r6_t (pay2 v0 v2 v7 v13 v17 v21 v29) Finset.univ (View.stores_vmem_bits_univ h_S2000x128 rfl) (.inl rfl))
  pure ⟨⟩

set_option maxHeartbeats 4000000 in
-- each output is written once over a rectangle that is the whole shape, so every entry of it is the stored value's
theorem sound_bn6 (pay1 : Vec F S2000x128 .f32 → Vec F S1x128 .f32 → Vec F S1x128 .f32 → Vec F S1x128 .f32 → Vec F S1x128 .f32 → Vec F S2000x128 .f32 →
      FVec F S2000x128 .f32)
    (pay2 : Vec F S2000x128 .f32 → Vec F S1x128 .f32 → Vec F S1x128 .f32 → Vec F S1x128 .f32 → Vec F S1x128 .f32 → Vec F S2000x128 .f32 → Vec F S2000x128 .f32 →
      FVec F S2000x128 .f32)
    (c : Dev nD) (E : Set ℕ)
    (arg1 : Memref sig .tc .vmem S2000x128 .f32) (arg2 : Memref sig .tc .vmem S1x128 .f32)
    (arg3 : Memref sig .tc .vmem S1x128 .f32) (arg4 : Memref sig .tc .vmem S1x128 .f32)
    (arg5 : Memref sig .tc .vmem S1x128 .f32) (arg6 : Memref sig .tc .vmem S2000x128 .f32)
    (arg7 : Memref sig .tc .vmem S2000x128 .f32) (arg8 : Memref sig .tc .vmem S2000x128 .f32)
    (arg9 : Memref sig .tc .vmem S2000x128 .f32)
    (x0 : Vec F S2000x128 .f32) (x1 x2 x3 x4 : Vec F S1x128 .f32) (x5 x6 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (View.canon [⟨r6_t, pay1 (View.ld x0 r6_t) (View.ld x2 r6_r) (View.ld x1 r6_r) (View.ld x3 r6_r) (View.ld x4 r6_r) (View.ld x5 r6_t)⟩])
            ∗ owns (c : Thread nD τ) arg9 fullShare (View.canon [⟨r6_t, pay2 (View.ld x0 r6_t) (View.ld x2 r6_r) (View.ld x1 r6_r) (View.ld x3 r6_r) (View.ld x4 r6_r) (View.ld x5 r6_t) (View.ld x6 r6_t)⟩])) -∗ K ⟨⟩))
      ⊢ wp frame (wpE (defs₀ (F := F)) Variants.none c none) E
          (bn_skel6 pay1 pay2 arg1 arg2 arg3 arg4 arg5 arg6 arg7 arg8 arg9) K := by
  unfold bn_skel6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S2000x128.size (by rfl))
  iexists _; isplitr
  swap; · iexact H8
  ipureintro
  exact View.read_writes_eq_canon _ _ _ (View.cover_of_tiled _ S2000x128.size (by rfl))
end Kernel

def bn6 (x0 : Vec F S2000x128 .f32) (x1 x2 x3 x4 : Vec F S1x128 .f32) (x5 : Vec F S2000x128 .f32) : FVec F S2000x128 .f32 :=
  k6_pay1 (View.ld x0 r6_t) (View.ld x2 r6_r) (View.ld x1 r6_r) (View.ld x3 r6_r) (View.ld x4 r6_r) (View.ld x5 r6_t)

def out6_7 (x0 : Vec F S2000x128 .f32) (x1 x2 x3 x4 : Vec F S1x128 .f32) (x5 : Vec F S2000x128 .f32) : Vec F S2000x128 .f32 :=
  View.canon [⟨r6_t, bn6 x0 x1 x2 x3 x4 x5⟩]

def out6_8 (x0 : Vec F S2000x128 .f32) (x1 x2 x3 x4 : Vec F S1x128 .f32) (x5 x6 : Vec F S2000x128 .f32) : Vec F S2000x128 .f32 :=
  View.canon [⟨r6_t, k6_pay2 (View.ld x0 r6_t) (View.ld x2 r6_r) (View.ld x1 r6_r) (View.ld x3 r6_r) (View.ld x4 r6_r) (View.ld x5 r6_t) (View.ld x6 r6_t)⟩]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t)
    | ⟨8, _⟩ => out6_8 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := rfl

theorem after6_7 (c : Dev nD) (t : Fin cfg6.N) : (dat6 V c).after 7 t
    = out6_7 (iblk6 V c 0 t) (iblk6 V c 1 t) (iblk6 V c 2 t) (iblk6 V c 3 t) (iblk6 V c 4 t) (iblk6 V c 5 t) := by dsimp only [dat6]
theorem after6_8 (c : Dev nD) (t : Fin cfg6.N) : (dat6 V c).after 8 t
    = out6_8 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d
theorem before6_5 (c : Dev nD) (t : Fin cfg6.N) (d) : (dat6 V c).before 5 t d = iblk6 V c 5 t :=
  (dat6 V c).before_in_eq_fetched 5 rfl (fun _ => rfl) (fun _ _ _ => rfl) (fun _ => rfl) t d
theorem before6_6 (c : Dev nD) (t : Fin cfg6.N) (d) : (dat6 V c).before 6 t d = iblk6 V c 6 t :=
  (dat6 V c).before_in_eq_fetched 6 rfl (fun _ => rfl) (fun _ _ _ => rfl) (fun _ => rfl) t d

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

set_option maxHeartbeats 1000000 in
theorem body_obligation6 (c : Dev nD) : BodyObligation (dat6 (F := F) V c) (defs₀ (F := F)) Variants.none () Set.univ := fun t => by
  rw [bigSep_W6, bigSep_W6]
  show iprop(_ ∗ _ ∗ (∃ d, owns c.tc (st6_0 t) _ ((dat6 V c).before 0 t d)) ∗ (∃ d, owns c.tc (st6_1 t) _ ((dat6 V c).before 1 t d))
      ∗ (∃ d, owns c.tc (st6_2 t) _ ((dat6 V c).before 2 t d)) ∗ (∃ d, owns c.tc (st6_3 t) _ ((dat6 V c).before 3 t d))
      ∗ (∃ d, owns c.tc (st6_4 t) _ ((dat6 V c).before 4 t d)) ∗ (∃ d, owns c.tc (st6_5 t) _ ((dat6 V c).before 5 t d))
      ∗ (∃ d, owns c.tc (st6_6 t) _ ((dat6 V c).before 6 t d)) ∗ (∃ d, owns c.tc (st6_7 t) _ ((dat6 V c).before 7 t d))
      ∗ (∃ d, owns c.tc (st6_8 t) _ ((dat6 V c).before 8 t d)))
    ⊢ wp frame _ _ (bodyAt6 t) fun _ => iprop(_ ∗ _ ∗ owns c.tc (st6_0 t) _ (iblk6 V c 0 t) ∗ owns c.tc (st6_1 t) _ (iblk6 V c 1 t)
      ∗ owns c.tc (st6_2 t) _ (iblk6 V c 2 t) ∗ owns c.tc (st6_3 t) _ (iblk6 V c 3 t)
      ∗ owns c.tc (st6_4 t) _ (iblk6 V c 4 t) ∗ owns c.tc (st6_5 t) _ (iblk6 V c 5 t)
      ∗ owns c.tc (st6_6 t) _ (iblk6 V c 6 t) ∗ owns c.tc (st6_7 t) _ ((dat6 V c).after 7 t)
      ∗ owns c.tc (st6_8 t) _ ((dat6 V c).after 8 t))
  rw [show (dat6 V c).Φ t.succ = (dat6 V c).Φ t.castSucc from rfl,
    show (dat6 V c).owesAt () t.succ = (dat6 V c).owesAt () t.castSucc from rfl]
  unfold bodyAt6
  simp only [before6_0, before6_1, before6_2, before6_3, before6_4, before6_5, before6_6, after6_7, after6_8, out6_7, bn6, out6_8, cc6_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_bn6 k6_pay1 k6_pay2 c Set.univ _ _ _ _ _ _ _ _ _
    (iblk6 V c 0 t) (iblk6 V c 1 t) (iblk6 V c 2 t) (iblk6 V c 3 t) (iblk6 V c 4 t) (iblk6 V c 5 t) (iblk6 V c 6 t) _)
  iframe H0 H1 H2 H3 H4 H5 H6
  isplitl [H7]; · iexists _; iexact H7
  isplitl [H8]; · iexists _; iexact H8
  iintro ⟨H0, H1, H2, H3, H4, H5, H6, H7, H8⟩
  iframe

end Cert.KernelIdeal.Gen
-- ==== Proof.Ideal.Reg7.lean ====
import proofs.«101364_j7567732376252_1_alg».proof.Proof.Ideal.Reg0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_3 (x0 : Vec F S2000x128 .f32) (x1 : Vec F S128x128 .f32) (x2 : Vec F S1x128 .f32) :
    Vec F S2000x128 .f32 :=
  View.canon [⟨r0_y, k7_pay1 (View.ld x0 r0_x) (View.ld x1 r0_w) (View.ld x2 r0_b)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d

theorem body_obligation7 (c : Dev nD) : BodyObligation (dat7 (F := F) V c) (defs₀ (F := F)) Variants.none () Set.univ := fun t => by
  rw [bigSep_W7, bigSep_W7]
  show iprop(_ ∗ _ ∗ (∃ d, owns c.tc (st7_0 t) _ ((dat7 V c).before 0 t d)) ∗ (∃ d, owns c.tc (st7_1 t) _ ((dat7 V c).before 1 t d))
      ∗ (∃ d, owns c.tc (st7_2 t) _ ((dat7 V c).before 2 t d)) ∗ (∃ d, owns c.tc (st7_3 t) _ ((dat7 V c).before 3 t d)))
    ⊢ wp frame _ _ (bodyAt7 t) fun _ => iprop(_ ∗ _ ∗ owns c.tc (st7_0 t) _ (iblk7 V c 0 t) ∗ owns c.tc (st7_1 t) _ (iblk7 V c 1 t)
      ∗ owns c.tc (st7_2 t) _ (iblk7 V c 2 t) ∗ owns c.tc (st7_3 t) _ ((dat7 V c).after 3 t))
  rw [show (dat7 V c).Φ t.succ = (dat7 V c).Φ t.castSucc from rfl,
    show (dat7 V c).owesAt () t.succ = (dat7 V c).owesAt () t.castSucc from rfl]
  unfold bodyAt7
  simp only [before7_0, before7_1, before7_2, after7_3, out7_3, cc7__linear_kernel_eq_skeleton]
  iintro ⟨HΦ, Ho, ⟨%d0, H0⟩, ⟨%d1, H1⟩, ⟨%d2, H2⟩, ⟨%d3, H3⟩⟩
  iapply (sound_linear0 k7_pay1 c Set.univ _ _ _ _ (iblk7 V c 0 t) (iblk7 V c 1 t) (iblk7 V c 2 t) _)
  iframe H0 H1 H2
  isplitl [H3]; · iexists _; iexact H3
  iintro ⟨H0, H1, H2, H3⟩
  iframe

theorem hin7 (c : Dev nD) : Pipeline.ΦA spec7 c ⊢ (dat7 V c).Φ 0 := .rfl
theorem hout7 (c : Dev nD) : (dat7 V c).Φ (Fin.last cfg7.N) ⊢ Pipeline.ΦA spec7 c := .rfl

end Cert.KernelIdeal.Gen
-- ==== Proof.Ideal.Reg8.lean ====
import proofs.«101364_j7567732376252_1_alg».proof.Proof.Ideal.Reg2Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem idleAt8 : ∀ t : Fin cfg8.N,
    (¬cond2_1 (grid8.coords t) → idle8 5 (grid8.coords t) = true ∧ idle8 6 (grid8.coords t) = true
      ∧ (win8 5).flush t = false ∧ (win8 6).flush t = false)
    ∧ (cond2_1 (grid8.coords t) → idle8 5 (grid8.coords t) = false ∧ idle8 6 (grid8.coords t) = false) := by decide +kernel

abbrev scM8_0 : Memref sig .tc .vmem S1x128 .f32 := Memref.whole cc8_scratch0
abbrev scM8_1 : Memref sig .tc .vmem S1x128 .f32 := Memref.whole cc8_scratch1

abbrev rest8 (c : Dev nD) : sProp 𝕄 :=
  Pipeline.scopedRestBut (Ix := Unit) (Name := ℕ) (U := UR sig nD τ) (Lvl := ℕ) (Val := Elt F) spec8 c [cc8_scratch0, cc8_scratch1]

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d)) ∗ rest8 c) ∗ (∃ r, prngReg c r)) := by
  unfold Pipeline.ΦA; rw [scopedRest8_split]; simp only [scM8_0, scM8_1, owns_whole]; try rfl

def point8 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k8_pay5 b0 b1 b2 b3, k8_pay1 (k8_pay6 b0 b1 b2 b3 s), k8_pay2 (k8_pay6 b0 b1 b2 b3 s) (k8_pay7 b0 b1 b2 b3 q),
    k8_pay6 b0 b1 b2 b3 s, k8_pay7 b0 b1 b2 b3 q)

-- What each point leaves, by recursion on the point: the carried rows start from zero and pass from point to point.
def outsAt8 (c : Dev nD) : (n : ℕ) → n < cfg8.N →
    Vec F S2000x128 .f32 × Vec F S1x128 .f32 × Vec F S1x128 .f32 × Vec F S1x128 .f32 × Vec F S1x128 .f32
  | 0, hn => point8 (iblk8 V c 0 ⟨0, hn⟩) (iblk8 V c 1 ⟨0, hn⟩) (iblk8 V c 2 ⟨0, hn⟩) (iblk8 V c 3 ⟨0, hn⟩) k8_pay3 k8_pay4
  | n + 1, hn => point8 (iblk8 V c 0 ⟨n + 1, hn⟩) (iblk8 V c 1 ⟨n + 1, hn⟩) (iblk8 V c 2 ⟨n + 1, hn⟩) (iblk8 V c 3 ⟨n + 1, hn⟩)
      (outsAt8 c n (Nat.lt_of_succ_lt hn)).2.2.2.1 (outsAt8 c n (Nat.lt_of_succ_lt hn)).2.2.2.2

theorem outsAt8_zero (c : Dev nD) (t : Fin cfg8.N) (hz : t.val = 0) :
    outsAt8 V c t.val t.isLt = point8 (iblk8 V c 0 t) (iblk8 V c 1 t) (iblk8 V c 2 t) (iblk8 V c 3 t) k8_pay3 k8_pay4 := by
  obtain ⟨n, hn⟩ := t
  cases n with
  | zero => rfl
  | succ n => exact absurd hz (Nat.succ_ne_zero n)

theorem outsAt8_pos (c : Dev nD) (t : Fin cfg8.N) (hz : t.val ≠ 0) :
    outsAt8 V c t.val t.isLt = point8 (iblk8 V c 0 t) (iblk8 V c 1 t) (iblk8 V c 2 t) (iblk8 V c 3 t)
      (outsAt8 V c (t.val - 1) (Nat.lt_of_le_of_lt (Nat.sub_le _ _) t.isLt)).2.2.2.1
      (outsAt8 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.2.1) ∗ owns (c : Thread nD τ) scM8_1 fullShare ((outsAt8 V c n hn).2.2.2.2)) ∗ rest8 c) ∗ (∃ r, prngReg c r))

theorem PhiS8_zero (c : Dev nD) (n : ℕ) (h : n ≤ cfg8.N) (hz : n = 0) : PhiS8 V c n h = Pipeline.ΦA spec8 c := by
  subst hz; rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.2.1) ∗ owns (c : Thread nD τ) scM8_1 fullShare ((outsAt8 V c (n - 1) (by omega)).2.2.2.2)) ∗ rest8 c) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
    | ⟨5, _⟩ => (outsAt8 V c t.val t.isLt).2.1
    | ⟨6, _⟩ => (outsAt8 V c t.val t.isLt).2.2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_4 (c : Dev nD) (t : Fin cfg8.N) : (dat8 V c).after 4 t = (outsAt8 V c t.val t.isLt).1 := by dsimp only [dat8]
theorem after8_5 (c : Dev nD) (t : Fin cfg8.N) : (dat8 V c).after 5 t = (outsAt8 V c t.val t.isLt).2.1 := by dsimp only [dat8]
theorem after8_6 (c : Dev nD) (t : Fin cfg8.N) : (dat8 V c).after 6 t = (outsAt8 V c t.val t.isLt).2.2.1 := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl

-- The body at any point, by the point's position: the first, the last, or one between.
theorem body_obligation8 (c : Dev nD) : BodyObligation (dat8 (F := F) V c) (defs₀ (F := F)) Variants.none () Set.univ := fun t => by
  rw [bigSep_W8, bigSep_W8]
  change _ ⊢ wp _ _ _ (bodyAt8 t) _
  unfold bodyAt8
  rw [stats_eq8]
  simp only [before8_0, before8_1, before8_2, before8_3]
  rw [show (dat8 V c).Φ t.succ = PhiS8 V c (t.val + 1) t.isLt from rfl, PhiS8, PhiS8_castSucc V c t, after8_4]
  have hN : t.val < 25 := lt_of_lt_of_eq t.isLt (show cfg8.N = 25 from N_8)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid8.coords t) := fun h => hz (h0.mp h)
    have hc1 : ¬cond2_1 (grid8.coords t) := fun h => hl (h1.mp h)
    obtain ⟨i5, i6, f5, f6⟩ := (idleAt8 t).1 hc1
    simp only [i5, i6, f5, f6]
    rw [outsAt8_pos V c t hz, PhiS8_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid8.coords t) := fun h => hz (h0.mp h)
    have hc1 : cond2_1 (grid8.coords t) := h1.mpr hl
    simp only [((idleAt8 t).2 hc1).1, ((idleAt8 t).2 hc1).2]
    rw [after8_5, after8_6, outsAt8_pos V c t hz, PhiS8_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid8.coords t) := h0.mpr hz
    have hc1 : ¬cond2_1 (grid8.coords t) := fun h => by have := h1.mp h; omega
    obtain ⟨i5, i6, f5, f6⟩ := (idleAt8 t).1 hc1
    simp only [i5, i6, f5, f6]
    rw [outsAt8_zero V c t hz, PhiS8_zero V c _ _ hz, PhiA8_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point8]
    iapply (sound_stats c Set.univ (grid8.coords t) _ _ _ _ _ _ _ _ _ _ _ _ _ _ _ _ _ _ (iblk8 V c 0 t) (iblk8 V c 1 t) _ (iblk8 V c 2 t) (iblk8 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin8 (c : Dev nD) : Pipeline.ΦA spec8 c ⊢ (dat8 V c).Φ 0 := Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout8 (c : Dev nD) : (dat8 V c).Φ (Fin.last cfg8.N) ⊢ Pipeline.ΦA spec8 c :=
  Phi_out8 V c _ (by rw [Fin.val_last]; have : cfg8.N = 25 := N_8; omega)

end Cert.KernelIdeal.Gen

end
-- ==== Proof.Ideal.Reg9.lean ====
import proofs.«101364_j7567732376252_1_alg».proof.Proof.Ideal.Reg3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

def bn9 (x0 : Vec F S2000x128 .f32) (x1 x2 x3 x4 : Vec F S1x128 .f32) : FVec F S2000x128 .f32 :=
  k9_pay1 (View.ld x0 r3_t) (View.ld x2 r3_r) (View.ld x1 r3_r) (View.ld x3 r3_r) (View.ld x4 r3_r)

def out9_6 (x0 : Vec F S2000x128 .f32) (x1 x2 x3 x4 : Vec F S1x128 .f32) : Vec F S2000x128 .f32 :=
  View.canon [⟨r3_t, bn9 x0 x1 x2 x3 x4⟩]

def out9_7 (x0 : Vec F S2000x128 .f32) (x1 x2 x3 x4 : Vec F S1x128 .f32) (x5 : Vec F S2000x128 .f32) : Vec F S2000x128 .f32 :=
  View.canon [⟨r3_t, k9_pay2 (View.ld x0 r3_t) (View.ld x2 r3_r) (View.ld x1 r3_r) (View.ld x3 r3_r) (View.ld x4 r3_r) (View.ld x5 r3_t)⟩]

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t)
    | ⟨7, _⟩ => out9_7 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := rfl

theorem after9_6 (c : Dev nD) (t : Fin cfg9.N) : (dat9 V c).after 6 t
    = out9_6 (iblk9 V c 0 t) (iblk9 V c 1 t) (iblk9 V c 2 t) (iblk9 V c 3 t) (iblk9 V c 4 t) := by dsimp only [dat9]
theorem after9_7 (c : Dev nD) (t : Fin cfg9.N) : (dat9 V c).after 7 t
    = out9_7 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  (dat9 V c).before_in_eq_fetched 0 rfl (fun _ => rfl) (fun _ _ _ => rfl) (fun _ => rfl) t d
theorem before9_1 (c : Dev nD) (t : Fin cfg9.N) (d) : (dat9 V c).before 1 t d = iblk9 V c 1 t :=
  (dat9 V c).before_in_eq_fetched 1 rfl (fun _ => rfl) (fun _ _ _ => rfl) (fun _ => rfl) t d
theorem before9_2 (c : Dev nD) (t : Fin cfg9.N) (d) : (dat9 V c).before 2 t d = iblk9 V c 2 t :=
  (dat9 V c).before_in_eq_fetched 2 rfl (fun _ => rfl) (fun _ _ _ => rfl) (fun _ => rfl) t d
theorem before9_3 (c : Dev nD) (t : Fin cfg9.N) (d) : (dat9 V c).before 3 t d = iblk9 V c 3 t :=
  (dat9 V c).before_in_eq_fetched 3 rfl (fun _ => rfl) (fun _ _ _ => rfl) (fun _ => rfl) t d
theorem before9_4 (c : Dev nD) (t : Fin cfg9.N) (d) : (dat9 V c).before 4 t d = iblk9 V c 4 t :=
  (dat9 V c).before_in_eq_fetched 4 rfl (fun _ => rfl) (fun _ _ _ => rfl) (fun _ => rfl) t d
theorem before9_5 (c : Dev nD) (t : Fin cfg9.N) (d) : (dat9 V c).before 5 t d = iblk9 V c 5 t :=
  (dat9 V c).before_in_eq_fetched 5 rfl (fun _ => rfl) (fun _ _ _ => rfl) (fun _ => rfl) t d

theorem hin9 (c : Dev nD) : Pipeline.ΦA spec9 c ⊢ (dat9 V c).Φ 0 := .rfl
theorem hout9 (c : Dev nD) : (dat9 V c).Φ (Fin.last cfg9.N) ⊢ Pipeline.ΦA spec9 c := .rfl

set_option maxHeartbeats 1000000 in
theorem body_obligation9 (c : Dev nD) : BodyObligation (dat9 (F := F) V c) (defs₀ (F := F)) Variants.none () Set.univ := fun t => by
  rw [bigSep_W9, bigSep_W9]
  show iprop(_ ∗ _ ∗ (∃ d, owns c.tc (st9_0 t) _ ((dat9 V c).before 0 t d)) ∗ (∃ d, owns c.tc (st9_1 t) _ ((dat9 V c).before 1 t d))
      ∗ (∃ d, owns c.tc (st9_2 t) _ ((dat9 V c).before 2 t d)) ∗ (∃ d, owns c.tc (st9_3 t) _ ((dat9 V c).before 3 t d))
      ∗ (∃ d, owns c.tc (st9_4 t) _ ((dat9 V c).before 4 t d)) ∗ (∃ d, owns c.tc (st9_5 t) _ ((dat9 V c).before 5 t d))
      ∗ (∃ d, owns c.tc (st9_6 t) _ ((dat9 V c).before 6 t d)) ∗ (∃ d, owns c.tc (st9_7 t) _ ((dat9 V c).before 7 t d)))
    ⊢ wp frame _ _ (bodyAt9 t) fun _ => iprop(_ ∗ _ ∗ owns c.tc (st9_0 t) _ (iblk9 V c 0 t) ∗ owns c.tc (st9_1 t) _ (iblk9 V c 1 t)
      ∗ owns c.tc (st9_2 t) _ (iblk9 V c 2 t) ∗ owns c.tc (st9_3 t) _ (iblk9 V c 3 t)
      ∗ owns c.tc (st9_4 t) _ (iblk9 V c 4 t) ∗ owns c.tc (st9_5 t) _ (iblk9 V c 5 t)
      ∗ owns c.tc (st9_6 t) _ ((dat9 V c).after 6 t) ∗ owns c.tc (st9_7 t) _ ((dat9 V c).after 7 t))
  rw [show (dat9 V c).Φ t.succ = (dat9 V c).Φ t.castSucc from rfl,
    show (dat9 V c).owesAt () t.succ = (dat9 V c).owesAt () t.castSucc from rfl]
  unfold bodyAt9
  simp only [before9_0, before9_1, before9_2, before9_3, before9_4, before9_5, after9_6, after9_7, out9_6, bn9, out9_7, cc9_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_bn3 k9_pay1 k9_pay2 c Set.univ _ _ _ _ _ _ _ _
    (iblk9 V c 0 t) (iblk9 V c 1 t) (iblk9 V c 2 t) (iblk9 V c 3 t) (iblk9 V c 4 t) (iblk9 V c 5 t) _)
  iframe H0 H1 H2 H3 H4 H5
  isplitl [H6]; · iexists _; iexact H6
  isplitl [H7]; · iexists _; iexact H7
  iintro ⟨H0, H1, H2, H3, H4, H5, H6, H7⟩
  iframe

end Cert.KernelIdeal.Gen
-- ==== Proof.Ideal.Reg10.lean ====
import proofs.«101364_j7567732376252_1_alg».proof.Proof.Ideal.Reg0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def out10_3 (x0 : Vec F S2000x128 .f32) (x1 : Vec F S128x128 .f32) (x2 : Vec F S1x128 .f32) :
    Vec F S2000x128 .f32 :=
  View.canon [⟨r0_y, k10_pay1 (View.ld x0 r0_x) (View.ld x1 r0_w) (View.ld x2 r0_b)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := rfl

theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  (dat10 V c).before_in_eq_fetched 0 rfl (fun _ => rfl) (fun _ _ _ => rfl) (fun _ => rfl) t d
theorem before10_1 (c : Dev nD) (t : Fin cfg10.N) (d) : (dat10 V c).before 1 t d = iblk10 V c 1 t :=
  (dat10 V c).before_in_eq_fetched 1 rfl (fun _ => rfl) (fun _ _ _ => rfl) (fun _ => rfl) t d
theorem before10_2 (c : Dev nD) (t : Fin cfg10.N) (d) : (dat10 V c).before 2 t d = iblk10 V c 2 t :=
  (dat10 V c).before_in_eq_fetched 2 rfl (fun _ => rfl) (fun _ _ _ => rfl) (fun _ => rfl) t d

theorem body_obligation10 (c : Dev nD) : BodyObligation (dat10 (F := F) V c) (defs₀ (F := F)) Variants.none () Set.univ := fun t => by
  rw [bigSep_W10, bigSep_W10]
  show iprop(_ ∗ _ ∗ (∃ d, owns c.tc (st10_0 t) _ ((dat10 V c).before 0 t d)) ∗ (∃ d, owns c.tc (st10_1 t) _ ((dat10 V c).before 1 t d))
      ∗ (∃ d, owns c.tc (st10_2 t) _ ((dat10 V c).before 2 t d)) ∗ (∃ d, owns c.tc (st10_3 t) _ ((dat10 V c).before 3 t d)))
    ⊢ wp frame _ _ (bodyAt10 t) fun _ => iprop(_ ∗ _ ∗ owns c.tc (st10_0 t) _ (iblk10 V c 0 t) ∗ owns c.tc (st10_1 t) _ (iblk10 V c 1 t)
      ∗ owns c.tc (st10_2 t) _ (iblk10 V c 2 t) ∗ owns c.tc (st10_3 t) _ ((dat10 V c).after 3 t))
  rw [show (dat10 V c).Φ t.succ = (dat10 V c).Φ t.castSucc from rfl,
    show (dat10 V c).owesAt () t.succ = (dat10 V c).owesAt () t.castSucc from rfl]
  unfold bodyAt10
  simp only [before10_0, before10_1, before10_2, after10_3, out10_3, cc10__linear_kernel_eq_skeleton]
  iintro ⟨HΦ, Ho, ⟨%d0, H0⟩, ⟨%d1, H1⟩, ⟨%d2, H2⟩, ⟨%d3, H3⟩⟩
  iapply (sound_linear0 k10_pay1 c Set.univ _ _ _ _ (iblk10 V c 0 t) (iblk10 V c 1 t) (iblk10 V c 2 t) _)
  iframe H0 H1 H2
  isplitl [H3]; · iexists _; iexact H3
  iintro ⟨H0, H1, H2, H3⟩
  iframe

theorem hin10 (c : Dev nD) : Pipeline.ΦA spec10 c ⊢ (dat10 V c).Φ 0 := .rfl
theorem hout10 (c : Dev nD) : (dat10 V c).Φ (Fin.last cfg10.N) ⊢ Pipeline.ΦA spec10 c := .rfl

end Cert.KernelIdeal.Gen
-- ==== Proof.Ideal.Reg11.lean ====
import proofs.«101364_j7567732376252_1_alg».proof.Proof.Ideal.Reg2Runs

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem idleAt11 : ∀ t : Fin cfg11.N,
    (¬cond2_1 (grid11.coords t) → idle11 5 (grid11.coords t) = true ∧ idle11 6 (grid11.coords t) = true
      ∧ (win11 5).flush t = false ∧ (win11 6).flush t = false)
    ∧ (cond2_1 (grid11.coords t) → idle11 5 (grid11.coords t) = false ∧ idle11 6 (grid11.coords t) = false) := by decide +kernel

abbrev scM11_0 : Memref sig .tc .vmem S1x128 .f32 := Memref.whole cc11_scratch0
abbrev scM11_1 : Memref sig .tc .vmem S1x128 .f32 := Memref.whole cc11_scratch1

abbrev rest11 (c : Dev nD) : sProp 𝕄 :=
  Pipeline.scopedRestBut (Ix := Unit) (Name := ℕ) (U := UR sig nD τ) (Lvl := ℕ) (Val := Elt F) spec11 c [cc11_scratch0, cc11_scratch1]

theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d)) ∗ rest11 c) ∗ (∃ r, prngReg c r)) := by
  unfold Pipeline.ΦA; rw [scopedRest11_split]; simp only [scM11_0, scM11_1, owns_whole]; try rfl

def point11 (b0 b1 : Vec F S2000x128 .f32) (b2 : Vec F S2000x1 .f32) (b3 : Vec F S1x128 .f32) (s q : Vec F S1x128 .f32) :
    Vec F S2000x128 .f32 × Vec F S1x128 .f32 × Vec F S1x128 .f32 × Vec F S1x128 .f32 × Vec F S1x128 .f32 :=
  (k11_pay5 b0 b1 b2 b3, k11_pay1 (k11_pay6 b0 b1 b2 b3 s), k11_pay2 (k11_pay6 b0 b1 b2 b3 s) (k11_pay7 b0 b1 b2 b3 q),
    k11_pay6 b0 b1 b2 b3 s, k11_pay7 b0 b1 b2 b3 q)

-- What each point leaves, by recursion on the point: the carried rows start from zero and pass from point to point.
def outsAt11 (c : Dev nD) : (n : ℕ) → n < cfg11.N →
    Vec F S2000x128 .f32 × Vec F S1x128 .f32 × Vec F S1x128 .f32 × Vec F S1x128 .f32 × Vec F S1x128 .f32
  | 0, hn => point11 (iblk11 V c 0 ⟨0, hn⟩) (iblk11 V c 1 ⟨0, hn⟩) (iblk11 V c 2 ⟨0, hn⟩) (iblk11 V c 3 ⟨0, hn⟩) k11_pay3 k11_pay4
  | n + 1, hn => point11 (iblk11 V c 0 ⟨n + 1, hn⟩) (iblk11 V c 1 ⟨n + 1, hn⟩) (iblk11 V c 2 ⟨n + 1, hn⟩) (iblk11 V c 3 ⟨n + 1, hn⟩)
      (outsAt11 c n (Nat.lt_of_succ_lt hn)).2.2.2.1 (outsAt11 c n (Nat.lt_of_succ_lt hn)).2.2.2.2

theorem outsAt11_zero (c : Dev nD) (t : Fin cfg11.N) (hz : t.val = 0) :
    outsAt11 V c t.val t.isLt = point11 (iblk11 V c 0 t) (iblk11 V c 1 t) (iblk11 V c 2 t) (iblk11 V c 3 t) k11_pay3 k11_pay4 := by
  obtain ⟨n, hn⟩ := t
  cases n with
  | zero => rfl
  | succ n => exact absurd hz (Nat.succ_ne_zero n)

theorem outsAt11_pos (c : Dev nD) (t : Fin cfg11.N) (hz : t.val ≠ 0) :
    outsAt11 V c t.val t.isLt = point11 (iblk11 V c 0 t) (iblk11 V c 1 t) (iblk11 V c 2 t) (iblk11 V c 3 t)
      (outsAt11 V c (t.val - 1) (Nat.lt_of_le_of_lt (Nat.sub_le _ _) t.isLt)).2.2.2.1
      (outsAt11 V c (t.val - 1) (Nat.lt_of_le_of_lt (Nat.sub_le _ _) t.isLt)).2.2.2.2 := by
  obtain ⟨n, hn⟩ := t
  cases n with
  | zero => exact absurd rfl hz
  | succ n => rfl

-- Between points the two carried rows hold what the point before left; before the first point, anything.
def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2.2.2.1) ∗ owns (c : Thread nD τ) scM11_1 fullShare ((outsAt11 V c n hn).2.2.2.2)) ∗ rest11 c) ∗ (∃ r, prngReg c r))

theorem PhiS11_zero (c : Dev nD) (n : ℕ) (h : n ≤ cfg11.N) (hz : n = 0) : PhiS11 V c n h = Pipeline.ΦA spec11 c := by
  subst hz; rfl

theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2.2.2.1) ∗ owns (c : Thread nD τ) scM11_1 fullShare ((outsAt11 V c (n - 1) (by omega)).2.2.2.2)) ∗ rest11 c) ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => (outsAt11 V c t.val t.isLt).1
    | ⟨5, _⟩ => (outsAt11 V c t.val t.isLt).2.1
    | ⟨6, _⟩ => (outsAt11 V c t.val t.isLt).2.2.1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_4 (c : Dev nD) (t : Fin cfg11.N) : (dat11 V c).after 4 t = (outsAt11 V c t.val t.isLt).1 := by dsimp only [dat11]
theorem after11_5 (c : Dev nD) (t : Fin cfg11.N) : (dat11 V c).after 5 t = (outsAt11 V c t.val t.isLt).2.1 := by dsimp only [dat11]
theorem after11_6 (c : Dev nD) (t : Fin cfg11.N) : (dat11 V c).after 6 t = (outsAt11 V c t.val t.isLt).2.2.1 := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl
theorem before11_2 (c : Dev nD) (t : Fin cfg11.N) (d) : (dat11 V c).before 2 t d = iblk11 V c 2 t :=
  ((dat11 V c).before_in_eq_fetched 2 rfl (fun _ => rfl) (fun _ _ _ => rfl) (fun _ => rfl) t d).trans rfl
theorem before11_3 (c : Dev nD) (t : Fin cfg11.N) (d) : (dat11 V c).before 3 t d = iblk11 V c 3 t :=
  ((dat11 V c).before_in_eq_fetched 3 rfl (fun _ => rfl) (fun _ _ _ => rfl) (fun _ => rfl) t d).trans rfl

-- The body at any point, by the point's position: the first, the last, or one between.
theorem body_obligation11 (c : Dev nD) : BodyObligation (dat11 (F := F) V c) (defs₀ (F := F)) Variants.none () Set.univ := fun t => by
  rw [bigSep_W11, bigSep_W11]
  change _ ⊢ wp _ _ _ (bodyAt11 t) _
  unfold bodyAt11
  rw [stats_eq11]
  simp only [before11_0, before11_1, before11_2, before11_3]
  rw [show (dat11 V c).Φ t.succ = PhiS11 V c (t.val + 1) t.isLt from rfl, PhiS11, PhiS11_castSucc V c t, after11_4]
  have hN : t.val < 25 := lt_of_lt_of_eq t.isLt (show cfg11.N = 25 from N_11)
  have h0 := hcond2_0 t
  have h1 := hcond2_1 t
  rcases (show t.val = 0 ∨ t.val = 24 ∨ (t.val ≠ 0 ∧ t.val ≠ 24) by omega) with hz | hl | ⟨hz, hl⟩
  on_goal 3 =>
    have hc0 : ¬cond2_0 (grid11.coords t) := fun h => hz (h0.mp h)
    have hc1 : ¬cond2_1 (grid11.coords t) := fun h => hl (h1.mp h)
    obtain ⟨i5, i6, f5, f6⟩ := (idleAt11 t).1 hc1
    simp only [i5, i6, f5, f6]
    rw [outsAt11_pos V c t hz, PhiS11_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 2 =>
    have hz : t.val ≠ 0 := by omega
    have hc0 : ¬cond2_0 (grid11.coords t) := fun h => hz (h0.mp h)
    have hc1 : cond2_1 (grid11.coords t) := h1.mpr hl
    simp only [((idleAt11 t).2 hc1).1, ((idleAt11 t).2 hc1).2]
    rw [after11_5, after11_6, outsAt11_pos V c t hz, PhiS11_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
  on_goal 1 =>
    have hc0 : cond2_0 (grid11.coords t) := h0.mpr hz
    have hc1 : ¬cond2_1 (grid11.coords t) := fun h => by have := h1.mp h; omega
    obtain ⟨i5, i6, f5, f6⟩ := (idleAt11 t).1 hc1
    simp only [i5, i6, f5, f6]
    rw [outsAt11_zero V c t hz, PhiS11_zero V c _ _ hz, PhiA11_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, ⟨%d6, H6⟩⟩
  all_goals
    dsimp only [point11]
    iapply (sound_stats c Set.univ (grid11.coords t) _ _ _ _ _ _ _ _ _ _ _ _ _ _ _ _ _ _ (iblk11 V c 0 t) (iblk11 V c 1 t) _ (iblk11 V c 2 t) (iblk11 V c 3 t) _ _ _ _ _) $$ H0 H1 H2 H3 H4 H5 H6 HS0 HS1
    first | simp only [if_neg hc0, if_neg hc1] | simp only [if_neg hc0, if_pos hc1] | simp only [if_pos hc0, if_neg hc1]
    iintro ⟨H0, H1, H2, H3, H4, H5, H6, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · first | iexact H5 | (iexists _; iexact H5)
    first | iexact H6 | (iexists _; iexact H6)

theorem hin11 (c : Dev nD) : Pipeline.ΦA spec11 c ⊢ (dat11 V c).Φ 0 := Idealize.SL.BI.Entails.refl _

theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem hout11 (c : Dev nD) : (dat11 V c).Φ (Fin.last cfg11.N) ⊢ Pipeline.ΦA spec11 c :=
  Phi_out11 V c _ (by rw [Fin.val_last]; have : cfg11.N = 25 := N_11; omega)

end Cert.KernelIdeal.Gen

end
-- ==== Proof.Ideal.Reg12.lean ====
import proofs.«101364_j7567732376252_1_alg».proof.Proof.Ideal.Reg6

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

def bn12 (x0 : Vec F S2000x128 .f32) (x1 x2 x3 x4 : Vec F S1x128 .f32) (x5 : Vec F S2000x128 .f32) : FVec F S2000x128 .f32 :=
  k12_pay1 (View.ld x0 r6_t) (View.ld x2 r6_r) (View.ld x1 r6_r) (View.ld x3 r6_r) (View.ld x4 r6_r) (View.ld x5 r6_t)

def out12_7 (x0 : Vec F S2000x128 .f32) (x1 x2 x3 x4 : Vec F S1x128 .f32) (x5 : Vec F S2000x128 .f32) : Vec F S2000x128 .f32 :=
  View.canon [⟨r6_t, bn12 x0 x1 x2 x3 x4 x5⟩]

def out12_8 (x0 : Vec F S2000x128 .f32) (x1 x2 x3 x4 : Vec F S1x128 .f32) (x5 x6 : Vec F S2000x128 .f32) : Vec F S2000x128 .f32 :=
  View.canon [⟨r6_t, k12_pay2 (View.ld x0 r6_t) (View.ld x2 r6_r) (View.ld x1 r6_r) (View.ld x3 r6_r) (View.ld x4 r6_r) (View.ld x5 r6_t) (View.ld x6 r6_t)⟩]

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t)
    | ⟨8, _⟩ => out12_8 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := rfl

theorem after12_7 (c : Dev nD) (t : Fin cfg12.N) : (dat12 V c).after 7 t
    = out12_7 (iblk12 V c 0 t) (iblk12 V c 1 t) (iblk12 V c 2 t) (iblk12 V c 3 t) (iblk12 V c 4 t) (iblk12 V c 5 t) := by dsimp only [dat12]
theorem after12_8 (c : Dev nD) (t : Fin cfg12.N) : (dat12 V c).after 8 t
    = out12_8 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  (dat12 V c).before_in_eq_fetched 0 rfl (fun _ => rfl) (fun _ _ _ => rfl) (fun _ => rfl) t d
theorem before12_1 (c : Dev nD) (t : Fin cfg12.N) (d) : (dat12 V c).before 1 t d = iblk12 V c 1 t :=
  (dat12 V c).before_in_eq_fetched 1 rfl (fun _ => rfl) (fun _ _ _ => rfl) (fun _ => rfl) t d
theorem before12_2 (c : Dev nD) (t : Fin cfg12.N) (d) : (dat12 V c).before 2 t d = iblk12 V c 2 t :=
  (dat12 V c).before_in_eq_fetched 2 rfl (fun _ => rfl) (fun _ _ _ => rfl) (fun _ => rfl) t d
theorem before12_3 (c : Dev nD) (t : Fin cfg12.N) (d) : (dat12 V c).before 3 t d = iblk12 V c 3 t :=
  (dat12 V c).before_in_eq_fetched 3 rfl (fun _ => rfl) (fun _ _ _ => rfl) (fun _ => rfl) t d
theorem before12_4 (c : Dev nD) (t : Fin cfg12.N) (d) : (dat12 V c).before 4 t d = iblk12 V c 4 t :=
  (dat12 V c).before_in_eq_fetched 4 rfl (fun _ => rfl) (fun _ _ _ => rfl) (fun _ => rfl) t d
theorem before12_5 (c : Dev nD) (t : Fin cfg12.N) (d) : (dat12 V c).before 5 t d = iblk12 V c 5 t :=
  (dat12 V c).before_in_eq_fetched 5 rfl (fun _ => rfl) (fun _ _ _ => rfl) (fun _ => rfl) t d
theorem before12_6 (c : Dev nD) (t : Fin cfg12.N) (d) : (dat12 V c).before 6 t d = iblk12 V c 6 t :=
  (dat12 V c).before_in_eq_fetched 6 rfl (fun _ => rfl) (fun _ _ _ => rfl) (fun _ => rfl) t d

theorem hin12 (c : Dev nD) : Pipeline.ΦA spec12 c ⊢ (dat12 V c).Φ 0 := .rfl
theorem hout12 (c : Dev nD) : (dat12 V c).Φ (Fin.last cfg12.N) ⊢ Pipeline.ΦA spec12 c := .rfl

set_option maxHeartbeats 1000000 in
theorem body_obligation12 (c : Dev nD) : BodyObligation (dat12 (F := F) V c) (defs₀ (F := F)) Variants.none () Set.univ := fun t => by
  rw [bigSep_W12, bigSep_W12]
  show iprop(_ ∗ _ ∗ (∃ d, owns c.tc (st12_0 t) _ ((dat12 V c).before 0 t d)) ∗ (∃ d, owns c.tc (st12_1 t) _ ((dat12 V c).before 1 t d))
      ∗ (∃ d, owns c.tc (st12_2 t) _ ((dat12 V c).before 2 t d)) ∗ (∃ d, owns c.tc (st12_3 t) _ ((dat12 V c).before 3 t d))
      ∗ (∃ d, owns c.tc (st12_4 t) _ ((dat12 V c).before 4 t d)) ∗ (∃ d, owns c.tc (st12_5 t) _ ((dat12 V c).before 5 t d))
      ∗ (∃ d, owns c.tc (st12_6 t) _ ((dat12 V c).before 6 t d)) ∗ (∃ d, owns c.tc (st12_7 t) _ ((dat12 V c).before 7 t d))
      ∗ (∃ d, owns c.tc (st12_8 t) _ ((dat12 V c).before 8 t d)))
    ⊢ wp frame _ _ (bodyAt12 t) fun _ => iprop(_ ∗ _ ∗ owns c.tc (st12_0 t) _ (iblk12 V c 0 t) ∗ owns c.tc (st12_1 t) _ (iblk12 V c 1 t)
      ∗ owns c.tc (st12_2 t) _ (iblk12 V c 2 t) ∗ owns c.tc (st12_3 t) _ (iblk12 V c 3 t)
      ∗ owns c.tc (st12_4 t) _ (iblk12 V c 4 t) ∗ owns c.tc (st12_5 t) _ (iblk12 V c 5 t)
      ∗ owns c.tc (st12_6 t) _ (iblk12 V c 6 t) ∗ owns c.tc (st12_7 t) _ ((dat12 V c).after 7 t)
      ∗ owns c.tc (st12_8 t) _ ((dat12 V c).after 8 t))
  rw [show (dat12 V c).Φ t.succ = (dat12 V c).Φ t.castSucc from rfl,
    show (dat12 V c).owesAt () t.succ = (dat12 V c).owesAt () t.castSucc from rfl]
  unfold bodyAt12
  simp only [before12_0, before12_1, before12_2, before12_3, before12_4, before12_5, before12_6, after12_7, after12_8, out12_7, bn12, out12_8, cc12_k_eq_skeleton]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_bn6 k12_pay1 k12_pay2 c Set.univ _ _ _ _ _ _ _ _ _
    (iblk12 V c 0 t) (iblk12 V c 1 t) (iblk12 V c 2 t) (iblk12 V c 3 t) (iblk12 V c 4 t) (iblk12 V c 5 t) (iblk12 V c 6 t) _)
  iframe H0 H1 H2 H3 H4 H5 H6
  isplitl [H7]; · iexists _; iexact H7
  isplitl [H8]; · iexists _; iexact H8
  iintro ⟨H0, H1, H2, H3, H4, H5, H6, H7, H8⟩
  iframe

end Cert.KernelIdeal.Gen
-- ==== Proof.Ideal.Reg13.lean ====
import proofs.«101364_j7567732376252_1_alg».proof.Proof.Gen.KernelIdeal.Launch
import proofs.«101364_j7567732376252_1_alg».proof.Proof.Gen.KernelIdeal.Skeleton
import proofs.«101364_j7567732376252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Kernel
abbrev r13_x : Rect S2000x128 := Rect.unit (s := S2000x128) ![0, 0] S2000x128.size inb_S2000x128_S2000x128_0_0
abbrev r13_w : Rect S128x64 := Rect.unit (s := S128x64) ![0, 0] S128x64.size inb_S128x64_S128x64_0_0
abbrev r13_b : Rect S1x64 := Rect.unit (s := S1x64) ![0, 0] S1x64.size inb_S1x64_S1x64_0_0
abbrev r13_y : Rect S2000x64 := Rect.unit (s := S2000x64) ![0, 0] S2000x64.size inb_S2000x64_S2000x64_0_0

def linear_skel13 (pay : Vec F S2000x128 .f32 → Vec F S128x64 .f32 → Vec F S1x64 .f32 →
      FVec F S2000x64 .f32)
    (arg1 : Memref sig .tc .vmem S2000x128 .f32) (arg2 : Memref sig .tc .vmem S128x64 .f32) (arg3 : Memref sig .tc .vmem S1x64 .f32)
    (arg4 : Memref sig .tc .vmem S2000x64 .f32) :
    Prog (TpuEff nD τ sig (Elt F) Λ₀ .tc) PUnit := do
  let v0 ← Prog.lift (.load arg1 r13_x.toLoadRect (View.loadsAt_vmem h_S2000x128))
  let v2 ← Prog.lift (.load arg2 r13_w.toLoadRect (View.loadsAt_vmem h_S128x64))
  let v5 ← Prog.lift (.load arg3 r13_b.toLoadRect (View.loadsAt_vmem h_S1x64))
  let _ ← Prog.lift (.load arg4 r13_y.toLoadRect (View.loadsAt_vmem h_S2000x64))
  Prog.lift (.store arg4 r13_y (pay v0 v2 v5) Finset.univ (View.stores_vmem_bits_univ h_S2000x64 rfl) (.inl rfl))
  pure ⟨⟩

set_option maxHeartbeats 1000000 in
-- the output is written once over a rectangle that is the whole shape, so every entry of it is the stored value's
theorem sound_linear13 (pay : Vec F S2000x128 .f32 → Vec F S128x64 .f32 → Vec F S1x64 .f32 →
      FVec F S2000x64 .f32)
    (c : Dev nD) (E : Set ℕ)
    (arg1 : Memref sig .tc .vmem S2000x128 .f32) (arg2 : Memref sig .tc .vmem S128x64 .f32) (arg3 : Memref sig .tc .vmem S1x64 .f32)
    (arg4 : Memref sig .tc .vmem S2000x64 .f32)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare
              (View.canon [⟨r13_y, pay (View.ld x0 r13_x) (View.ld x1 r13_w) (View.ld x2 r13_b)⟩])) -∗ K ⟨⟩))
      ⊢ wp frame (wpE (defs₀ (F := F)) Variants.none c none) E (linear_skel13 pay arg1 arg2 arg3 arg4) K := by
  unfold linear_skel13 owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x64.size (by rfl))
end Kernel

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def out13_3 (x0 : Vec F S2000x128 .f32) (x1 : Vec F S128x64 .f32) (x2 : Vec F S1x64 .f32) :
    Vec F S2000x64 .f32 :=
  View.canon [⟨r13_y, k13_pay1 (View.ld x0 r13_x) (View.ld x1 r13_w) (View.ld x2 r13_b)⟩]

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := rfl

theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  (dat13 V c).before_in_eq_fetched 0 rfl (fun _ => rfl) (fun _ _ _ => rfl) (fun _ => rfl) t d
theorem before13_1 (c : Dev nD) (t : Fin cfg13.N) (d) : (dat13 V c).before 1 t d = iblk13 V c 1 t :=
  (dat13 V c).before_in_eq_fetched 1 rfl (fun _ => rfl) (fun _ _ _ => rfl) (fun _ => rfl) t d
theorem before13_2 (c : Dev nD) (t : Fin cfg13.N) (d) : (dat13 V c).before 2 t d = iblk13 V c 2 t :=
  (dat13 V c).before_in_eq_fetched 2 rfl (fun _ => rfl) (fun _ _ _ => rfl) (fun _ => rfl) t d

theorem body_obligation13 (c : Dev nD) : BodyObligation (dat13 (F := F) V c) (defs₀ (F := F)) Variants.none () Set.univ := fun t => by
  rw [bigSep_W13, bigSep_W13]
  show iprop(_ ∗ _ ∗ (∃ d, owns c.tc (st13_0 t) _ ((dat13 V c).before 0 t d)) ∗ (∃ d, owns c.tc (st13_1 t) _ ((dat13 V c).before 1 t d))
      ∗ (∃ d, owns c.tc (st13_2 t) _ ((dat13 V c).before 2 t d)) ∗ (∃ d, owns c.tc (st13_3 t) _ ((dat13 V c).before 3 t d)))
    ⊢ wp frame _ _ (bodyAt13 t) fun _ => iprop(_ ∗ _ ∗ owns c.tc (st13_0 t) _ (iblk13 V c 0 t) ∗ owns c.tc (st13_1 t) _ (iblk13 V c 1 t)
      ∗ owns c.tc (st13_2 t) _ (iblk13 V c 2 t) ∗ owns c.tc (st13_3 t) _ ((dat13 V c).after 3 t))
  rw [show (dat13 V c).Φ t.succ = (dat13 V c).Φ t.castSucc from rfl,
    show (dat13 V c).owesAt () t.succ = (dat13 V c).owesAt () t.castSucc from rfl]
  unfold bodyAt13
  simp only [before13_0, before13_1, before13_2, after13_3, out13_3, cc13__linear_kernel_eq_skeleton]
  iintro ⟨HΦ, Ho, ⟨%d0, H0⟩, ⟨%d1, H1⟩, ⟨%d2, H2⟩, ⟨%d3, H3⟩⟩
  iapply (sound_linear13 k13_pay1 c Set.univ _ _ _ _ (iblk13 V c 0 t) (iblk13 V c 1 t) (iblk13 V c 2 t) _)
  iframe H0 H1 H2
  isplitl [H3]; · iexists _; iexact H3
  iintro ⟨H0, H1, H2, H3⟩
  iframe

theorem hin13 (c : Dev nD) : Pipeline.ΦA spec13 c ⊢ (dat13 V c).Φ 0 := .rfl
theorem hout13 (c : Dev nD) : (dat13 V c).Φ (Fin.last cfg13.N) ⊢ Pipeline.ΦA spec13 c := .rfl

end Cert.KernelIdeal.Gen
-- ==== Proof.Ideal.Fold.lean ====
import proofs.«101364_j7567732376252_1_alg».proof.Proof.Gen.KernelIdeal.Launch
import proofs.«101364_j7567732376252_1_alg».proof.Proof.Gen.KernelIdeal.Skeleton
import proofs.«101364_j7567732376252_1_alg».proof.Proof.Gen.KernelIdeal.Points
import proofs.«101364_j7567732376252_1_alg».proof.Proof.Gen.KernelIdeal.Regions
import proofs.«101364_j7567732376252_1_alg».proof.Proof.Ideal.Reg0
import proofs.«101364_j7567732376252_1_alg».proof.Proof.Ideal.Reg1
import proofs.«101364_j7567732376252_1_alg».proof.Proof.Ideal.Reg2
import proofs.«101364_j7567732376252_1_alg».proof.Proof.Ideal.Reg3
import proofs.«101364_j7567732376252_1_alg».proof.Proof.Ideal.Reg4
import proofs.«101364_j7567732376252_1_alg».proof.Proof.Ideal.Reg5
import proofs.«101364_j7567732376252_1_alg».proof.Proof.Ideal.Reg6
import proofs.«101364_j7567732376252_1_alg».proof.Proof.Ideal.Reg7
import proofs.«101364_j7567732376252_1_alg».proof.Proof.Ideal.Reg8
import proofs.«101364_j7567732376252_1_alg».proof.Proof.Ideal.Reg9
import proofs.«101364_j7567732376252_1_alg».proof.Proof.Ideal.Reg10
import proofs.«101364_j7567732376252_1_alg».proof.Proof.Ideal.Reg11
import proofs.«101364_j7567732376252_1_alg».proof.Proof.Ideal.Reg12
import proofs.«101364_j7567732376252_1_alg».proof.Proof.Ideal.Reg13
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Tactic
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F] [Named F]
local notation "𝕄" => MT nD τ sig Unit (Elt F) ℕ (UR sig nD τ) ℕ
section
variable {V U : Valuation τ sig (Elt F)} {a b d r : Ref sig .tc}
/-- An update does not move the valuation off the updated reference. -/
theorem upd_ne (h : r ≠ a) {x} : Function.update V a x r = V r := Function.update_of_ne (StableHlo.devRef_ne_of_ne h) ..
theorem upd1_of (h : r ∉ [a]) {x} : Function.update V a x r = V r := upd_ne (List.ne_of_not_mem_cons h)
theorem upd2_of (h : r ∉ [a, b]) {x y} : Function.update (Function.update V a x) b y r = V r :=
  (upd_ne (List.ne_of_not_mem_cons (List.not_mem_of_not_mem_cons h))).trans (upd_ne (List.ne_of_not_mem_cons h))
theorem upd3_of (h : r ∉ [a, b, d]) {x y z} : Function.update (Function.update (Function.update V a x) b y) d z r = V r :=
  (upd_ne (List.ne_of_not_mem_cons (List.not_mem_of_not_mem_cons (List.not_mem_of_not_mem_cons h)))).trans
    ((upd_ne (List.ne_of_not_mem_cons (List.not_mem_of_not_mem_cons h))).trans (upd_ne (List.ne_of_not_mem_cons h)))
/-- Equal valuations updated at one reference with equal values are equal. -/
theorem upd_congr {x x'} (hV : V = U) (hx : x = x') : Function.update V a x = Function.update U a x' := by rw [hV, hx]
end
variable (m : (ℓ : Loc nD τ sig) → Buf (Elt F) ℓ)
def U1 (c : Dev nD) : Valuation τ sig (Elt F) := StableHlo.after hostOps0 (V0 m c)
def o2_3 (c : Dev nD) : Buf (Elt F) ((c : Thread nD τ).loc main_v33) := (dat0 (fun c b => U1 m c b) c).arrAt 3 cfg0.N
def U2 (c : Dev nD) : Valuation τ sig (Elt F) := Function.update (U1 m c) main_v33 (o2_3 m c)
def U3 (c : Dev nD) : Valuation τ sig (Elt F) := StableHlo.after hostOps1 (U2 m c)
theorem U2_main_v33 (c : Dev nD) : U2 m c main_v33 = o2_3 m c := Function.update_self ..
theorem U2_of (c : Dev nD) (r : Ref sig .tc) (h : r ∉ ([main_v33] : List (Ref sig .tc))) : U2 m c r = U1 m c r := upd1_of h
def o4_3 (c : Dev nD) : Buf (Elt F) ((c : Thread nD τ).loc main_v39) := (dat1 (fun c b => U3 m c b) c).arrAt 3 cfg1.N
def U4 (c : Dev nD) : Valuation τ sig (Elt F) := Function.update (U3 m c) main_v39 (o4_3 m c)
def U5 (c : Dev nD) : Valuation τ sig (Elt F) := StableHlo.after hostOps2 (U4 m c)
theorem U4_main_v39 (c : Dev nD) : U4 m c main_v39 = o4_3 m c := Function.update_self ..
theorem U4_of (c : Dev nD) (r : Ref sig .tc) (h : r ∉ ([main_v39] : List (Ref sig .tc))) : U4 m c r = U3 m c r := upd1_of h
def o6_4 (c : Dev nD) : Buf (Elt F) ((c : Thread nD τ).loc main_v57_0) := (dat2 (fun c b => U5 m c b) c).arrAt 4 cfg2.N
def o6_5 (c : Dev nD) : Buf (Elt F) ((c : Thread nD τ).loc main_v57_1) := (dat2 (fun c b => U5 m c b) c).arrAt 5 cfg2.N
def o6_6 (c : Dev nD) : Buf (Elt F) ((c : Thread nD τ).loc main_v57_2) := (dat2 (fun c b => U5 m c b) c).arrAt 6 cfg2.N
def U6 (c : Dev nD) : Valuation τ sig (Elt F) := Function.update (Function.update (Function.update (U5 m c) main_v57_0 (o6_4 m c)) main_v57_1 (o6_5 m c)) main_v57_2 (o6_6 m c)
def U7 (c : Dev nD) : Valuation τ sig (Elt F) := StableHlo.after hostOps3 (U6 m c)
theorem U6_main_v57_0 (c : Dev nD) : U6 m c main_v57_0 = o6_4 m c := (upd2_of (by decide)).trans (Function.update_self ..)
theorem U6_main_v57_1 (c : Dev nD) : U6 m c main_v57_1 = o6_5 m c := (upd1_of (by decide)).trans (Function.update_self ..)
theorem U6_main_v57_2 (c : Dev nD) : U6 m c main_v57_2 = o6_6 m c := Function.update_self ..
theorem U6_of (c : Dev nD) (r : Ref sig .tc) (h : r ∉ ([main_v57_0, main_v57_1, main_v57_2] : List (Ref sig .tc))) : U6 m c r = U5 m c r := upd3_of h
def o8_6 (c : Dev nD) : Buf (Elt F) ((c : Thread nD τ).loc main_v64_0) := (dat3 (fun c b => U7 m c b) c).arrAt 6 cfg3.N
def o8_7 (c : Dev nD) : Buf (Elt F) ((c : Thread nD τ).loc main_v64_1) := (dat3 (fun c b => U7 m c b) c).arrAt 7 cfg3.N
def U8 (c : Dev nD) : Valuation τ sig (Elt F) := Function.update (Function.update (U7 m c) main_v64_0 (o8_6 m c)) main_v64_1 (o8_7 m c)
def U9 (c : Dev nD) : Valuation τ sig (Elt F) := StableHlo.after hostOps4 (U8 m c)
theorem U8_main_v64_0 (c : Dev nD) : U8 m c main_v64_0 = o8_6 m c := (upd1_of (by decide)).trans (Function.update_self ..)
theorem U8_main_v64_1 (c : Dev nD) : U8 m c main_v64_1 = o8_7 m c := Function.update_self ..
theorem U8_of (c : Dev nD) (r : Ref sig .tc) (h : r ∉ ([main_v64_0, main_v64_1] : List (Ref sig .tc))) : U8 m c r = U7 m c r := upd2_of h
def o10_3 (c : Dev nD) : Buf (Elt F) ((c : Thread nD τ).loc main_v68) := (dat4 (fun c b => U9 m c b) c).arrAt 3 cfg4.N
def U10 (c : Dev nD) : Valuation τ sig (Elt F) := Function.update (U9 m c) main_v68 (o10_3 m c)
def U11 (c : Dev nD) : Valuation τ sig (Elt F) := StableHlo.after hostOps5 (U10 m c)
theorem U10_main_v68 (c : Dev nD) : U10 m c main_v68 = o10_3 m c := Function.update_self ..
theorem U10_of (c : Dev nD) (r : Ref sig .tc) (h : r ∉ ([main_v68] : List (Ref sig .tc))) : U10 m c r = U9 m c r := upd1_of h
def o12_4 (c : Dev nD) : Buf (Elt F) ((c : Thread nD τ).loc main_v86_0) := (dat5 (fun c b => U11 m c b) c).arrAt 4 cfg5.N
def o12_5 (c : Dev nD) : Buf (Elt F) ((c : Thread nD τ).loc main_v86_1) := (dat5 (fun c b => U11 m c b) c).arrAt 5 cfg5.N
def o12_6 (c : Dev nD) : Buf (Elt F) ((c : Thread nD τ).loc main_v86_2) := (dat5 (fun c b => U11 m c b) c).arrAt 6 cfg5.N
def U12 (c : Dev nD) : Valuation τ sig (Elt F) := Function.update (Function.update (Function.update (U11 m c) main_v86_0 (o12_4 m c)) main_v86_1 (o12_5 m c)) main_v86_2 (o12_6 m c)
def U13 (c : Dev nD) : Valuation τ sig (Elt F) := StableHlo.after hostOps6 (U12 m c)
theorem U12_main_v86_0 (c : Dev nD) : U12 m c main_v86_0 = o12_4 m c := (upd2_of (by decide)).trans (Function.update_self ..)
theorem U12_main_v86_1 (c : Dev nD) : U12 m c main_v86_1 = o12_5 m c := (upd1_of (by decide)).trans (Function.update_self ..)
theorem U12_main_v86_2 (c : Dev nD) : U12 m c main_v86_2 = o12_6 m c := Function.update_self ..
theorem U12_of (c : Dev nD) (r : Ref sig .tc) (h : r ∉ ([main_v86_0, main_v86_1, main_v86_2] : List (Ref sig .tc))) : U12 m c r = U11 m c r := upd3_of h
def o14_7 (c : Dev nD) : Buf (Elt F) ((c : Thread nD τ).loc main_v93_0) := (dat6 (fun c b => U13 m c b) c).arrAt 7 cfg6.N
def o14_8 (c : Dev nD) : Buf (Elt F) ((c : Thread nD τ).loc main_v93_1) := (dat6 (fun c b => U13 m c b) c).arrAt 8 cfg6.N
def U14 (c : Dev nD) : Valuation τ sig (Elt F) := Function.update (Function.update (U13 m c) main_v93_0 (o14_7 m c)) main_v93_1 (o14_8 m c)
def U15 (c : Dev nD) : Valuation τ sig (Elt F) := StableHlo.after hostOps7 (U14 m c)
theorem U14_main_v93_0 (c : Dev nD) : U14 m c main_v93_0 = o14_7 m c := (upd1_of (by decide)).trans (Function.update_self ..)
theorem U14_main_v93_1 (c : Dev nD) : U14 m c main_v93_1 = o14_8 m c := Function.update_self ..
theorem U14_of (c : Dev nD) (r : Ref sig .tc) (h : r ∉ ([main_v93_0, main_v93_1] : List (Ref sig .tc))) : U14 m c r = U13 m c r := upd2_of h
def o16_3 (c : Dev nD) : Buf (Elt F) ((c : Thread nD τ).loc main_v97) := (dat7 (fun c b => U15 m c b) c).arrAt 3 cfg7.N
def U16 (c : Dev nD) : Valuation τ sig (Elt F) := Function.update (U15 m c) main_v97 (o16_3 m c)
def U17 (c : Dev nD) : Valuation τ sig (Elt F) := StableHlo.after hostOps8 (U16 m c)
theorem U16_main_v97 (c : Dev nD) : U16 m c main_v97 = o16_3 m c := Function.update_self ..
theorem U16_of (c : Dev nD) (r : Ref sig .tc) (h : r ∉ ([main_v97] : List (Ref sig .tc))) : U16 m c r = U15 m c r := upd1_of h
def o18_4 (c : Dev nD) : Buf (Elt F) ((c : Thread nD τ).loc main_v115_0) := (dat8 (fun c b => U17 m c b) c).arrAt 4 cfg8.N
def o18_5 (c : Dev nD) : Buf (Elt F) ((c : Thread nD τ).loc main_v115_1) := (dat8 (fun c b => U17 m c b) c).arrAt 5 cfg8.N
def o18_6 (c : Dev nD) : Buf (Elt F) ((c : Thread nD τ).loc main_v115_2) := (dat8 (fun c b => U17 m c b) c).arrAt 6 cfg8.N
def U18 (c : Dev nD) : Valuation τ sig (Elt F) := Function.update (Function.update (Function.update (U17 m c) main_v115_0 (o18_4 m c)) main_v115_1 (o18_5 m c)) main_v115_2 (o18_6 m c)
def U19 (c : Dev nD) : Valuation τ sig (Elt F) := StableHlo.after hostOps9 (U18 m c)
theorem U18_main_v115_0 (c : Dev nD) : U18 m c main_v115_0 = o18_4 m c := (upd2_of (by decide)).trans (Function.update_self ..)
theorem U18_main_v115_1 (c : Dev nD) : U18 m c main_v115_1 = o18_5 m c := (upd1_of (by decide)).trans (Function.update_self ..)
theorem U18_main_v115_2 (c : Dev nD) : U18 m c main_v115_2 = o18_6 m c := Function.update_self ..
theorem U18_of (c : Dev nD) (r : Ref sig .tc) (h : r ∉ ([main_v115_0, main_v115_1, main_v115_2] : List (Ref sig .tc))) : U18 m c r = U17 m c r := upd3_of h
def o20_6 (c : Dev nD) : Buf (Elt F) ((c : Thread nD τ).loc main_v122_0) := (dat9 (fun c b => U19 m c b) c).arrAt 6 cfg9.N
def o20_7 (c : Dev nD) : Buf (Elt F) ((c : Thread nD τ).loc main_v122_1) := (dat9 (fun c b => U19 m c b) c).arrAt 7 cfg9.N
def U20 (c : Dev nD) : Valuation τ sig (Elt F) := Function.update (Function.update (U19 m c) main_v122_0 (o20_6 m c)) main_v122_1 (o20_7 m c)
def U21 (c : Dev nD) : Valuation τ sig (Elt F) := StableHlo.after hostOps10 (U20 m c)
theorem U20_main_v122_0 (c : Dev nD) : U20 m c main_v122_0 = o20_6 m c := (upd1_of (by decide)).trans (Function.update_self ..)
theorem U20_main_v122_1 (c : Dev nD) : U20 m c main_v122_1 = o20_7 m c := Function.update_self ..
theorem U20_of (c : Dev nD) (r : Ref sig .tc) (h : r ∉ ([main_v122_0, main_v122_1] : List (Ref sig .tc))) : U20 m c r = U19 m c r := upd2_of h
def o22_3 (c : Dev nD) : Buf (Elt F) ((c : Thread nD τ).loc main_v126) := (dat10 (fun c b => U21 m c b) c).arrAt 3 cfg10.N
def U22 (c : Dev nD) : Valuation τ sig (Elt F) := Function.update (U21 m c) main_v126 (o22_3 m c)
def U23 (c : Dev nD) : Valuation τ sig (Elt F) := StableHlo.after hostOps11 (U22 m c)
theorem U22_main_v126 (c : Dev nD) : U22 m c main_v126 = o22_3 m c := Function.update_self ..
theorem U22_of (c : Dev nD) (r : Ref sig .tc) (h : r ∉ ([main_v126] : List (Ref sig .tc))) : U22 m c r = U21 m c r := upd1_of h
def o24_4 (c : Dev nD) : Buf (Elt F) ((c : Thread nD τ).loc main_v144_0) := (dat11 (fun c b => U23 m c b) c).arrAt 4 cfg11.N
def o24_5 (c : Dev nD) : Buf (Elt F) ((c : Thread nD τ).loc main_v144_1) := (dat11 (fun c b => U23 m c b) c).arrAt 5 cfg11.N
def o24_6 (c : Dev nD) : Buf (Elt F) ((c : Thread nD τ).loc main_v144_2) := (dat11 (fun c b => U23 m c b) c).arrAt 6 cfg11.N
def U24 (c : Dev nD) : Valuation τ sig (Elt F) := Function.update (Function.update (Function.update (U23 m c) main_v144_0 (o24_4 m c)) main_v144_1 (o24_5 m c)) main_v144_2 (o24_6 m c)
def U25 (c : Dev nD) : Valuation τ sig (Elt F) := StableHlo.after hostOps12 (U24 m c)
theorem U24_main_v144_0 (c : Dev nD) : U24 m c main_v144_0 = o24_4 m c := (upd2_of (by decide)).trans (Function.update_self ..)
theorem U24_main_v144_1 (c : Dev nD) : U24 m c main_v144_1 = o24_5 m c := (upd1_of (by decide)).trans (Function.update_self ..)
theorem U24_main_v144_2 (c : Dev nD) : U24 m c main_v144_2 = o24_6 m c := Function.update_self ..
theorem U24_of (c : Dev nD) (r : Ref sig .tc) (h : r ∉ ([main_v144_0, main_v144_1, main_v144_2] : List (Ref sig .tc))) : U24 m c r = U23 m c r := upd3_of h
def o26_7 (c : Dev nD) : Buf (Elt F) ((c : Thread nD τ).loc main_v151_0) := (dat12 (fun c b => U25 m c b) c).arrAt 7 cfg12.N
def o26_8 (c : Dev nD) : Buf (Elt F) ((c : Thread nD τ).loc main_v151_1) := (dat12 (fun c b => U25 m c b) c).arrAt 8 cfg12.N
def U26 (c : Dev nD) : Valuation τ sig (Elt F) := Function.update (Function.update (U25 m c) main_v151_0 (o26_7 m c)) main_v151_1 (o26_8 m c)
def U27 (c : Dev nD) : Valuation τ sig (Elt F) := StableHlo.after hostOps13 (U26 m c)
theorem U26_main_v151_0 (c : Dev nD) : U26 m c main_v151_0 = o26_7 m c := (upd1_of (by decide)).trans (Function.update_self ..)
theorem U26_main_v151_1 (c : Dev nD) : U26 m c main_v151_1 = o26_8 m c := Function.update_self ..
theorem U26_of (c : Dev nD) (r : Ref sig .tc) (h : r ∉ ([main_v151_0, main_v151_1] : List (Ref sig .tc))) : U26 m c r = U25 m c r := upd2_of h
def o28_3 (c : Dev nD) : Buf (Elt F) ((c : Thread nD τ).loc main_v153) := (dat13 (fun c b => U27 m c b) c).arrAt 3 cfg13.N
def U28 (c : Dev nD) : Valuation τ sig (Elt F) := Function.update (U27 m c) main_v153 (o28_3 m c)
theorem U28_main_v153 (c : Dev nD) : U28 m c main_v153 = o28_3 m c := Function.update_self ..
theorem U28_of (c : Dev nD) (r : Ref sig .tc) (h : r ∉ ([main_v153] : List (Ref sig .tc))) : U28 m c r = U27 m c r := upd1_of h
def outs : Outs (F := F) := fun J r c =>
  match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | 26 => U26 m c r
  | _ => U28 m c r
theorem V1_eq (c : Dev nD) : V1 m c = U1 m c := rfl
theorem V2_eq (c : Dev nD) : V2 m (outs m) c = U2 m c := upd_congr (V1_eq m c) (U2_main_v33 m c)
theorem V3_eq (c : Dev nD) : V3 m (outs m) c = U3 m c := congrArg (StableHlo.after hostOps1) (V2_eq m c)
theorem V4_eq (c : Dev nD) : V4 m (outs m) c = U4 m c := upd_congr (V3_eq m c) (U4_main_v39 m c)
theorem V5_eq (c : Dev nD) : V5 m (outs m) c = U5 m c := congrArg (StableHlo.after hostOps2) (V4_eq m c)
theorem V6_eq (c : Dev nD) : V6 m (outs m) c = U6 m c := upd_congr (upd_congr (upd_congr (V5_eq m c) (U6_main_v57_0 m c)) (U6_main_v57_1 m c)) (U6_main_v57_2 m c)
theorem V7_eq (c : Dev nD) : V7 m (outs m) c = U7 m c := congrArg (StableHlo.after hostOps3) (V6_eq m c)
theorem V8_eq (c : Dev nD) : V8 m (outs m) c = U8 m c := upd_congr (upd_congr (V7_eq m c) (U8_main_v64_0 m c)) (U8_main_v64_1 m c)
theorem V9_eq (c : Dev nD) : V9 m (outs m) c = U9 m c := congrArg (StableHlo.after hostOps4) (V8_eq m c)
theorem V10_eq (c : Dev nD) : V10 m (outs m) c = U10 m c := upd_congr (V9_eq m c) (U10_main_v68 m c)
theorem V11_eq (c : Dev nD) : V11 m (outs m) c = U11 m c := congrArg (StableHlo.after hostOps5) (V10_eq m c)
theorem V12_eq (c : Dev nD) : V12 m (outs m) c = U12 m c := upd_congr (upd_congr (upd_congr (V11_eq m c) (U12_main_v86_0 m c)) (U12_main_v86_1 m c)) (U12_main_v86_2 m c)
theorem V13_eq (c : Dev nD) : V13 m (outs m) c = U13 m c := congrArg (StableHlo.after hostOps6) (V12_eq m c)
theorem V14_eq (c : Dev nD) : V14 m (outs m) c = U14 m c := upd_congr (upd_congr (V13_eq m c) (U14_main_v93_0 m c)) (U14_main_v93_1 m c)
theorem V15_eq (c : Dev nD) : V15 m (outs m) c = U15 m c := congrArg (StableHlo.after hostOps7) (V14_eq m c)
theorem V16_eq (c : Dev nD) : V16 m (outs m) c = U16 m c := upd_congr (V15_eq m c) (U16_main_v97 m c)
theorem V17_eq (c : Dev nD) : V17 m (outs m) c = U17 m c := congrArg (StableHlo.after hostOps8) (V16_eq m c)
theorem V18_eq (c : Dev nD) : V18 m (outs m) c = U18 m c := upd_congr (upd_congr (upd_congr (V17_eq m c) (U18_main_v115_0 m c)) (U18_main_v115_1 m c)) (U18_main_v115_2 m c)
theorem V19_eq (c : Dev nD) : V19 m (outs m) c = U19 m c := congrArg (StableHlo.after hostOps9) (V18_eq m c)
theorem V20_eq (c : Dev nD) : V20 m (outs m) c = U20 m c := upd_congr (upd_congr (V19_eq m c) (U20_main_v122_0 m c)) (U20_main_v122_1 m c)
theorem V21_eq (c : Dev nD) : V21 m (outs m) c = U21 m c := congrArg (StableHlo.after hostOps10) (V20_eq m c)
theorem V22_eq (c : Dev nD) : V22 m (outs m) c = U22 m c := upd_congr (V21_eq m c) (U22_main_v126 m c)
theorem V23_eq (c : Dev nD) : V23 m (outs m) c = U23 m c := congrArg (StableHlo.after hostOps11) (V22_eq m c)
theorem V24_eq (c : Dev nD) : V24 m (outs m) c = U24 m c := upd_congr (upd_congr (upd_congr (V23_eq m c) (U24_main_v144_0 m c)) (U24_main_v144_1 m c)) (U24_main_v144_2 m c)
theorem V25_eq (c : Dev nD) : V25 m (outs m) c = U25 m c := congrArg (StableHlo.after hostOps12) (V24_eq m c)
theorem V26_eq (c : Dev nD) : V26 m (outs m) c = U26 m c := upd_congr (upd_congr (V25_eq m c) (U26_main_v151_0 m c)) (U26_main_v151_1 m c)
theorem V27_eq (c : Dev nD) : V27 m (outs m) c = U27 m c := congrArg (StableHlo.after hostOps13) (V26_eq m c)
theorem V28_eq (c : Dev nD) : V28 m (outs m) c = U28 m c := upd_congr (V27_eq m c) (U28_main_v153 m c)
def pdats : (p : Fin 14) → (c : Dev nD) → Dat τ (Elt F) Unit ℕ (UR sig nD τ) ℕ (Pipeline.pin (pcfgs (F := F)) adm p) c
  | ⟨0, _⟩ => fun c => dat0 (fun c b => U1 m c b) c
  | ⟨1, _⟩ => fun c => dat1 (fun c b => U3 m c b) c
  | ⟨2, _⟩ => fun c => dat2 (fun c b => U5 m c b) c
  | ⟨3, _⟩ => fun c => dat3 (fun c b => U7 m c b) c
  | ⟨4, _⟩ => fun c => dat4 (fun c b => U9 m c b) c
  | ⟨5, _⟩ => fun c => dat5 (fun c b => U11 m c b) c
  | ⟨6, _⟩ => fun c => dat6 (fun c b => U13 m c b) c
  | ⟨7, _⟩ => fun c => dat7 (fun c b => U15 m c b) c
  | ⟨8, _⟩ => fun c => dat8 (fun c b => U17 m c b) c
  | ⟨9, _⟩ => fun c => dat9 (fun c b => U19 m c b) c
  | ⟨10, _⟩ => fun c => dat10 (fun c b => U21 m c b) c
  | ⟨11, _⟩ => fun c => dat11 (fun c b => U23 m c b) c
  | ⟨12, _⟩ => fun c => dat12 (fun c b => U25 m c b) c
  | ⟨13, _⟩ => fun c => dat13 (fun c b => U27 m c b) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
end Cert.KernelIdeal.Gen
end
-- ==== Proof.Ideal.SegLib.lean ====
import proofs.«101364_j7567732376252_1_alg».proof.Proof.Ideal.Fold

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

variable {p : Fin 14} (V V' : Dev nD → Valuation τ sig (Elt F)) (O : List (Fin (cfgs p).W))

/-- At the exit an input's array is as entered and an output's array is its final contents; a buffer that is no array of the region is no output's array. -/
theorem exit_vals (c : Dev nD) (hw : Pipeline.WinFacts (cfgs p).spec)
    (hA : ∀ w, (pdats m p c).A w = V c (Pipeline.arrRef (cfgs p).spec w))
    (hI : ∀ w, w ∉ O → ((cfgs p).win w).isOut = false)
    (hO : O.Forall fun w => V' c (Pipeline.arrRef (cfgs p).spec w) = (pdats m p c).arrAt w (cfgs p).N)
    (hV : ∀ r : Ref sig .tc, r ∉ O.map (Pipeline.arrRef (cfgs p).spec) → V' c r = V c r) :
    (∀ w, (pdats m p c).arrAt w (cfgs p).N = V' c (Pipeline.arrRef (cfgs p).spec w))
      ∧ ∀ b, b ∉ Finset.univ.image (Pipeline.arrRef (cfgs p).spec) → V' c b = V c b :=
  ⟨fun w => by
    by_cases h : w ∈ O
    · exact (List.forall_iff_forall_mem.mp hO w h).symm
    · refine ((pdats m p c).arrAt_in w (hI w h) _).trans ((hA w).trans (hV _ fun hm => h ?_).symm)
      obtain ⟨w', hw', e⟩ := List.mem_map.mp hm
      exact hw.arr_inj e ▸ hw',
   fun b hb => hV b fun hm => hb <| by
    obtain ⟨w, -, e⟩ := List.mem_map.mp hm
    exact Finset.mem_image.mpr ⟨w, Finset.mem_univ _, e⟩⟩

/-- A region as an item of the run: the buffers are held at `V` before it and at `V'` after it. -/
def regOf (lf : Pipeline.LaunchFacts (nD := nD) (τ := τ) cfgs p)
    (hb : ∀ c, BodyObligation (pdats m p c) defs₀ 𝒱₀ () Set.univ)
    (hΦ₀ : ∀ c, Pipeline.ΦA (cfgs p).spec c ⊢ (pdats m p c).Φ 0)
    (hΦₙ : ∀ c, (pdats m p c).Φ (Fin.last (cfgs p).N) ⊢ Pipeline.ΦA (cfgs p).spec c)
    (howed : ∀ c t, (pdats m p c).owed t = 0)
    (hrec : ∀ c, (pdats m p c).recorded 0 = Set.univ)
    (hq : ∀ c w, (pdats m p c).q w = fullShare)
    (hA : ∀ c w, (pdats m p c).A w = V c (Pipeline.arrRef (cfgs p).spec w))
    (hI : ∀ w, w ∉ O → ((cfgs p).win w).isOut = false)
    (hO : ∀ c, O.Forall fun w => V' c (Pipeline.arrRef (cfgs p).spec w) = (pdats m p c).arrAt w (cfgs p).N)
    (hV : ∀ c (r : Ref sig .tc), r ∉ O.map (Pipeline.arrRef (cfgs p).spec) → V' c r = V c r) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c ▸ trivial)
      iexact HO
    isplitl [Hp]; · iexact Hp
    iexact Hrest
  hin c := by
    refine .trans ?_ (hΦ₀ c)
    unfold Pipeline.ΦA
    iintro ⟨Hp, -, Hr⟩
    isplitl [Hr]; · iexact Hr
    iexact Hp
  hout c := by
    rw [Pipeline.ownSems0_none]
    refine (hΦₙ c).trans ?_
    unfold Pipeline.ΦA
    iintro ⟨Hr, Hp⟩
    isplitl [Hp]; · iexact Hp
    isplitr; · iempintro
    iexact Hr
  hexit c := by
    have h := exit_vals m V V' O c lf.win (hA c) hI (hO c) (hV c)
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N)
      h.1 h.2
    rw [Pipeline.unscopedBufs_held c (V' c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

end Cert.KernelIdeal.Gen

end
-- ==== Proof.Ideal.Seg0.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg0 : Pipeline.RegionSeg (pcfgs (F := F)) adm (pdats m) () defs₀ 𝒱₀ L lv 0 :=
  regOf m (V1 m) (V2 m (outs m)) [3] launch0 (body_obligation0 (fun c b => U1 m c b)) (hin0 (fun c b => U1 m c b)) (hout0 (fun c b => U1 m c b)) (fun _ _ => rfl) (fun _ => rfl) (fun _ _ => rfl)
    (fun c w => (A_eq0 (fun c b => U1 m c b) c w).trans (congrFun (V1_eq m c).symm _)) (by decide)
    (fun c => by rw [V2_eq]; exact U2_main_v33 m c) (V2_of m (outs m))

end Cert.KernelIdeal.Gen

end
-- ==== Proof.Ideal.Seg1.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg1 : Pipeline.RegionSeg (pcfgs (F := F)) adm (pdats m) () defs₀ 𝒱₀ L lv 1 :=
  regOf m (V3 m (outs m)) (V4 m (outs m)) [3] launch1 (body_obligation1 (fun c b => U3 m c b)) (hin1 (fun c b => U3 m c b)) (hout1 (fun c b => U3 m c b)) (fun _ _ => rfl) (fun _ => rfl) (fun _ _ => rfl)
    (fun c w => (A_eq1 (fun c b => U3 m c b) c w).trans (congrFun (V3_eq m c).symm _)) (by decide)
    (fun c => by rw [V4_eq]; exact U4_main_v39 m c) (V4_of m (outs m))

end Cert.KernelIdeal.Gen

end
-- ==== Proof.Ideal.Seg2.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg2 : Pipeline.RegionSeg (pcfgs (F := F)) adm (pdats m) () defs₀ 𝒱₀ L lv 2 :=
  regOf m (V5 m (outs m)) (V6 m (outs m)) [4, 5, 6] launch2 (body_obligation2 (fun c b => U5 m c b)) (hin2 (fun c b => U5 m c b)) (hout2 (fun c b => U5 m c b)) (fun _ _ => rfl) (fun _ => rfl) (fun _ _ => rfl)
    (fun c w => (A_eq2 (fun c b => U5 m c b) c w).trans (congrFun (V5_eq m c).symm _)) (by decide)
    (fun c => by rw [V6_eq]; exact ⟨U6_main_v57_0 m c, U6_main_v57_1 m c, U6_main_v57_2 m c⟩) (V6_of m (outs m))

end Cert.KernelIdeal.Gen

end
-- ==== Proof.Ideal.Seg3.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg3 : Pipeline.RegionSeg (pcfgs (F := F)) adm (pdats m) () defs₀ 𝒱₀ L lv 3 :=
  regOf m (V7 m (outs m)) (V8 m (outs m)) [6, 7] launch3 (body_obligation3 (fun c b => U7 m c b)) (hin3 (fun c b => U7 m c b)) (hout3 (fun c b => U7 m c b)) (fun _ _ => rfl) (fun _ => rfl) (fun _ _ => rfl)
    (fun c w => (A_eq3 (fun c b => U7 m c b) c w).trans (congrFun (V7_eq m c).symm _)) (by decide)
    (fun c => by rw [V8_eq]; exact ⟨U8_main_v64_0 m c, U8_main_v64_1 m c⟩) (V8_of m (outs m))

end Cert.KernelIdeal.Gen

end
-- ==== Proof.Ideal.Seg4.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg4 : Pipeline.RegionSeg (pcfgs (F := F)) adm (pdats m) () defs₀ 𝒱₀ L lv 4 :=
  regOf m (V9 m (outs m)) (V10 m (outs m)) [3] launch4 (body_obligation4 (fun c b => U9 m c b)) (hin4 (fun c b => U9 m c b)) (hout4 (fun c b => U9 m c b)) (fun _ _ => rfl) (fun _ => rfl) (fun _ _ => rfl)
    (fun c w => (A_eq4 (fun c b => U9 m c b) c w).trans (congrFun (V9_eq m c).symm _)) (by decide)
    (fun c => by rw [V10_eq]; exact U10_main_v68 m c) (V10_of m (outs m))

end Cert.KernelIdeal.Gen

end
-- ==== Proof.Ideal.Seg5.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg5 : Pipeline.RegionSeg (pcfgs (F := F)) adm (pdats m) () defs₀ 𝒱₀ L lv 5 :=
  regOf m (V11 m (outs m)) (V12 m (outs m)) [4, 5, 6] launch5 (body_obligation5 (fun c b => U11 m c b)) (hin5 (fun c b => U11 m c b)) (hout5 (fun c b => U11 m c b)) (fun _ _ => rfl) (fun _ => rfl) (fun _ _ => rfl)
    (fun c w => (A_eq5 (fun c b => U11 m c b) c w).trans (congrFun (V11_eq m c).symm _)) (by decide)
    (fun c => by rw [V12_eq]; exact ⟨U12_main_v86_0 m c, U12_main_v86_1 m c, U12_main_v86_2 m c⟩) (V12_of m (outs m))

end Cert.KernelIdeal.Gen

end
-- ==== Proof.Ideal.Seg6.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg6 : Pipeline.RegionSeg (pcfgs (F := F)) adm (pdats m) () defs₀ 𝒱₀ L lv 6 :=
  regOf m (V13 m (outs m)) (V14 m (outs m)) [7, 8] launch6 (body_obligation6 (fun c b => U13 m c b)) (hin6 (fun c b => U13 m c b)) (hout6 (fun c b => U13 m c b)) (fun _ _ => rfl) (fun _ => rfl) (fun _ _ => rfl)
    (fun c w => (A_eq6 (fun c b => U13 m c b) c w).trans (congrFun (V13_eq m c).symm _)) (by decide)
    (fun c => by rw [V14_eq]; exact ⟨U14_main_v93_0 m c, U14_main_v93_1 m c⟩) (V14_of m (outs m))

end Cert.KernelIdeal.Gen

end
-- ==== Proof.Ideal.Seg7.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg7 : Pipeline.RegionSeg (pcfgs (F := F)) adm (pdats m) () defs₀ 𝒱₀ L lv 7 :=
  regOf m (V15 m (outs m)) (V16 m (outs m)) [3] launch7 (body_obligation7 (fun c b => U15 m c b)) (hin7 (fun c b => U15 m c b)) (hout7 (fun c b => U15 m c b)) (fun _ _ => rfl) (fun _ => rfl) (fun _ _ => rfl)
    (fun c w => (A_eq7 (fun c b => U15 m c b) c w).trans (congrFun (V15_eq m c).symm _)) (by decide)
    (fun c => by rw [V16_eq]; exact U16_main_v97 m c) (V16_of m (outs m))

end Cert.KernelIdeal.Gen

end
-- ==== Proof.Ideal.Seg8.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg8 : Pipeline.RegionSeg (pcfgs (F := F)) adm (pdats m) () defs₀ 𝒱₀ L lv 8 :=
  regOf m (V17 m (outs m)) (V18 m (outs m)) [4, 5, 6] launch8 (body_obligation8 (fun c b => U17 m c b)) (hin8 (fun c b => U17 m c b)) (hout8 (fun c b => U17 m c b)) (fun _ _ => rfl) (fun _ => rfl) (fun _ _ => rfl)
    (fun c w => (A_eq8 (fun c b => U17 m c b) c w).trans (congrFun (V17_eq m c).symm _)) (by decide)
    (fun c => by rw [V18_eq]; exact ⟨U18_main_v115_0 m c, U18_main_v115_1 m c, U18_main_v115_2 m c⟩) (V18_of m (outs m))

end Cert.KernelIdeal.Gen

end
-- ==== Proof.Ideal.Seg9.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg9 : Pipeline.RegionSeg (pcfgs (F := F)) adm (pdats m) () defs₀ 𝒱₀ L lv 9 :=
  regOf m (V19 m (outs m)) (V20 m (outs m)) [6, 7] launch9 (body_obligation9 (fun c b => U19 m c b)) (hin9 (fun c b => U19 m c b)) (hout9 (fun c b => U19 m c b)) (fun _ _ => rfl) (fun _ => rfl) (fun _ _ => rfl)
    (fun c w => (A_eq9 (fun c b => U19 m c b) c w).trans (congrFun (V19_eq m c).symm _)) (by decide)
    (fun c => by rw [V20_eq]; exact ⟨U20_main_v122_0 m c, U20_main_v122_1 m c⟩) (V20_of m (outs m))

end Cert.KernelIdeal.Gen

end
-- ==== Proof.Ideal.Seg10.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg10 : Pipeline.RegionSeg (pcfgs (F := F)) adm (pdats m) () defs₀ 𝒱₀ L lv 10 :=
  regOf m (V21 m (outs m)) (V22 m (outs m)) [3] launch10 (body_obligation10 (fun c b => U21 m c b)) (hin10 (fun c b => U21 m c b)) (hout10 (fun c b => U21 m c b)) (fun _ _ => rfl) (fun _ => rfl) (fun _ _ => rfl)
    (fun c w => (A_eq10 (fun c b => U21 m c b) c w).trans (congrFun (V21_eq m c).symm _)) (by decide)
    (fun c => by rw [V22_eq]; exact U22_main_v126 m c) (V22_of m (outs m))

end Cert.KernelIdeal.Gen

end
-- ==== Proof.Ideal.Seg11.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg11 : Pipeline.RegionSeg (pcfgs (F := F)) adm (pdats m) () defs₀ 𝒱₀ L lv 11 :=
  regOf m (V23 m (outs m)) (V24 m (outs m)) [4, 5, 6] launch11 (body_obligation11 (fun c b => U23 m c b)) (hin11 (fun c b => U23 m c b)) (hout11 (fun c b => U23 m c b)) (fun _ _ => rfl) (fun _ => rfl) (fun _ _ => rfl)
    (fun c w => (A_eq11 (fun c b => U23 m c b) c w).trans (congrFun (V23_eq m c).symm _)) (by decide)
    (fun c => by rw [V24_eq]; exact ⟨U24_main_v144_0 m c, U24_main_v144_1 m c, U24_main_v144_2 m c⟩) (V24_of m (outs m))

end Cert.KernelIdeal.Gen

end
-- ==== Proof.Ideal.Seg12.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg12 : Pipeline.RegionSeg (pcfgs (F := F)) adm (pdats m) () defs₀ 𝒱₀ L lv 12 :=
  regOf m (V25 m (outs m)) (V26 m (outs m)) [7, 8] launch12 (body_obligation12 (fun c b => U25 m c b)) (hin12 (fun c b => U25 m c b)) (hout12 (fun c b => U25 m c b)) (fun _ _ => rfl) (fun _ => rfl) (fun _ _ => rfl)
    (fun c w => (A_eq12 (fun c b => U25 m c b) c w).trans (congrFun (V25_eq m c).symm _)) (by decide)
    (fun c => by rw [V26_eq]; exact ⟨U26_main_v151_0 m c, U26_main_v151_1 m c⟩) (V26_of m (outs m))

end Cert.KernelIdeal.Gen

end
-- ==== Proof.Ideal.Seg13.lean ====
import proofs.«101364_j7567732376252_1_alg».proof.Proof.Ideal.SegLib

noncomputable section

namespace Cert.KernelIdeal.Gen

open Idealize.ShloMosaic Idealize.ShloMosaic.TcCoe

variable {F : FTy → Type} [FloatOps F] [Named F] (m : (ℓ : Loc nD τ sig) → Buf (Elt F) ℓ)

def reg13 : Pipeline.RegionSeg (pcfgs (F := F)) adm (pdats m) () defs₀ 𝒱₀ L lv 13 :=
  regOf m (V27 m (outs m)) (V28 m (outs m)) [3] launch13 (body_obligation13 (fun c b => U27 m c b)) (hin13 (fun c b => U27 m c b)) (hout13 (fun c b => U27 m c b)) (fun _ _ => rfl) (fun _ => rfl) (fun _ _ => rfl)
    (fun c w => (A_eq13 (fun c b => U27 m c b) c w).trans (congrFun (V27_eq m c).symm _)) (by decide)
    (fun c => by rw [V28_eq]; exact U28_main_v153 m c) (V28_of m (outs m))

end Cert.KernelIdeal.Gen

end
-- ==== Proof.Ideal.Run.lean ====
import proofs.«101364_j7567732376252_1_alg».proof.Proof.Ideal.Seg0
import proofs.«101364_j7567732376252_1_alg».proof.Proof.Ideal.Seg1
import proofs.«101364_j7567732376252_1_alg».proof.Proof.Ideal.Seg2
import proofs.«101364_j7567732376252_1_alg».proof.Proof.Ideal.Seg3
import proofs.«101364_j7567732376252_1_alg».proof.Proof.Ideal.Seg4
import proofs.«101364_j7567732376252_1_alg».proof.Proof.Ideal.Seg5
import proofs.«101364_j7567732376252_1_alg».proof.Proof.Ideal.Seg6
import proofs.«101364_j7567732376252_1_alg».proof.Proof.Ideal.Seg7
import proofs.«101364_j7567732376252_1_alg».proof.Proof.Ideal.Seg8
import proofs.«101364_j7567732376252_1_alg».proof.Proof.Ideal.Seg9
import proofs.«101364_j7567732376252_1_alg».proof.Proof.Ideal.Seg10
import proofs.«101364_j7567732376252_1_alg».proof.Proof.Ideal.Seg11
import proofs.«101364_j7567732376252_1_alg».proof.Proof.Ideal.Seg12
import proofs.«101364_j7567732376252_1_alg».proof.Proof.Ideal.Seg13
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)
abbrev E : Fin 15 → Dev nD → sProp 𝕄 := fun _ c => R c
theorem hE14 (c : Dev nD) : E (F := F) 14 c ⊢ (iprop(∃ W, owes (c : Thread nD τ) (0 : CellTallies nD τ sig Unit) W) : sProp 𝕄) := by
  iintro ⟨-, H⟩; iexact H
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = V28 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V28 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE14 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V28 m (outs m) c b)
    (hfin := fun c s' => by
      iintro ⟨Hh, HSI⟩
      unfold StableHlo.held
      imodintro
      iapply (pointsTo_read_all (Pipeline.ucRefs τ sig) (fun b => ((c : Thread nD τ).1, b)) (V28 m (outs m) c) s')
      isplitl [Hh] <;> iassumption)
    (hQ := fun s h => h)
theorem result : θ_run defs (onTc (τ := τ) (main (F := F))) ⟨m, fun _ => 0, ρ⟩ (fun r => ∀ c : Dev nD,
      r.2.mem ((c.tc : Thread nD τ).loc main_v153) = U28 m c main_v153
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v153 (by decide))).trans (congrFun (V28_eq m c) _),
     (h c _ (mem_uc main_arg0 (by decide))).trans (V28_main_arg0 m (outs m) c),
     (h c _ (mem_uc main_arg1 (by decide))).trans (V28_main_arg1 m (outs m) c),
     (h c _ (mem_uc main_arg2 (by decide))).trans (V28_main_arg2 m (outs m) c),
     (h c _ (mem_uc main_arg3 (by decide))).trans (V28_main_arg3 m (outs m) c),
     (h c _ (mem_uc main_arg4 (by decide))).trans (V28_main_arg4 m (outs m) c),
     (h c _ (mem_uc main_arg5 (by decide))).trans (V28_main_arg5 m (outs m) c),
     (h c _ (mem_uc main_arg6 (by decide))).trans (V28_main_arg6 m (outs m) c),
     (h c _ (mem_uc main_arg7 (by decide))).trans (V28_main_arg7 m (outs m) c),
     (h c _ (mem_uc main_arg8 (by decide))).trans (V28_main_arg8 m (outs m) c),
     (h c _ (mem_uc main_arg9 (by decide))).trans (V28_main_arg9 m (outs m) c)⟩) (run_all m ρ)
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (result m ρ)
end Cert.KernelIdeal.Gen
end
-- ==== Proof.Ref.OpsList.lean ====
import proofs.«101364_j7567732376252_1_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- The edge prelude: the two index rows, the degree count and the edge and self-loop weights. (41 operations.) -/
def P0 : List (HloOp τ sig (Elt F)) :=
  [ unary main_arg9 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg9 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S600000 ![] bcast_S_S600000 : (⟨S_, .i32⟩ : BufTy).Contents (Elt F) → (⟨S600000, .i32⟩ : BufTy).Contents (Elt F)),
    binary main_v3 main_v5 main_v6 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v7 (broadcastInDim S600000 ![] bcast_S_S600000 : (⟨S_, .i32⟩ : BufTy).Contents (Elt F) → (⟨S600000, .i32⟩ : BufTy).Contents (Elt F)),
    binary main_v3 main_v7 main_v8 (addi : (⟨S600000, .i32⟩ : BufTy).Contents (Elt F) → (⟨S600000, .i32⟩ : BufTy).Contents (Elt F) → (⟨S600000, .i32⟩ : BufTy).Contents (Elt F)),
    ternary main_v6 main_v8 main_v3 main_v9 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v9 main_v10 (broadcastInDim S600000x1 ![0] bcast_S600000_S600000x1_0 : (⟨S600000, .i32⟩ : BufTy).Contents (Elt F) → (⟨S600000x1, .i32⟩ : BufTy).Contents (Elt F)),
    nullary main_cst_1 (constant S_ .f32 0x3F800000#32),
    unary main_cst_1 main_v11 (broadcastInDim S600000 ![] bcast_S_S600000 : (⟨S_, .f32⟩ : BufTy).Contents (Elt F) → (⟨S600000, .f32⟩ : BufTy).Contents (Elt F)),
    ternary main_v4 main_v10 main_v11 main_v12 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S600000 ![] bcast_S_S600000 : (⟨S_, .i32⟩ : BufTy).Contents (Elt F) → (⟨S600000, .i32⟩ : BufTy).Contents (Elt F)),
    binary main_v1 main_v16 main_v17 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v18 (broadcastInDim S600000 ![] bcast_S_S600000 : (⟨S_, .i32⟩ : BufTy).Contents (Elt F) → (⟨S600000, .i32⟩ : BufTy).Contents (Elt F)),
    binary main_v1 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_v15 main_v21 main_v22 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v23 (broadcastInDim S600000 ![] bcast_S_S600000 : (⟨S_, .i32⟩ : BufTy).Contents (Elt F) → (⟨S600000, .i32⟩ : BufTy).Contents (Elt F)),
    binary main_v3 main_v23 main_v24 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v25 (broadcastInDim S600000 ![] bcast_S_S600000 : (⟨S_, .i32⟩ : BufTy).Contents (Elt F) → (⟨S600000, .i32⟩ : BufTy).Contents (Elt F)),
    binary main_v3 main_v25 main_v26 (addi : (⟨S600000, .i32⟩ : BufTy).Contents (Elt F) → (⟨S600000, .i32⟩ : BufTy).Contents (Elt F) → (⟨S600000, .i32⟩ : BufTy).Contents (Elt F)),
    ternary main_v24 main_v26 main_v3 main_v27 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v27 main_v28 (broadcastInDim S600000x1 ![0] bcast_S600000_S600000x1_0 : (⟨S600000, .i32⟩ : BufTy).Contents (Elt F) → (⟨S600000x1, .i32⟩ : BufTy).Contents (Elt F)),
    binary main_v15 main_v28 main_v29 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v22 main_v29 main_v30 (mulf : (⟨S600000, .f32⟩ : BufTy).Contents (Elt F) → (⟨S600000, .f32⟩ : BufTy).Contents (Elt F) → (⟨S600000, .f32⟩ : BufTy).Contents (Elt F)),
    binary main_v15 main_v15 main_v31 (mulf : (⟨S50000, .f32⟩ : BufTy).Contents (Elt F) → (⟨S50000, .f32⟩ : BufTy).Contents (Elt F) → (⟨S50000, .f32⟩ : BufTy).Contents (Elt F)) ]

/-- The references `P0`'s operations write, in order. -/
abbrev P0_W : List (Ref sig .tc) :=
  [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31]

/-- Every operation of `P0` touches TensorCore references only. -/
theorem P0_sub : (P0 : List (HloOp τ sig (Elt F))).Forall fun op => op.bufs ⊆ tcRefs τ sig := by
  unfold P0
  exact ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- Every operation of `P0` determines its results. -/
theorem P0_fresh : (P0 : List (HloOp τ sig (Elt F))).Forall fun op => op.fresh = ∅ := by
  unfold P0
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The input layer: the product with the input weights plus the bias, and the zero the running sum starts from. (6 operations.) -/
def P1 : List (HloOp τ sig (Elt F)) :=
  [ binary main_arg0 main_arg1 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    unary main_cst_7 main_v36 (broadcastInDim S50000x128 ![] bcast_S_S50000x128 : (⟨S_, .f32⟩ : BufTy).Contents (Elt F) → (⟨S50000x128, .f32⟩ : BufTy).Contents (Elt F)) ]

/-- The references `P1`'s operations write, in order. -/
abbrev P1_W : List (Ref sig .tc) :=
  [main_v32, main_v33, main_v34, main_v35, main_cst_7, main_v36]

/-- Every operation of `P1` touches TensorCore references only. -/
theorem P1_sub : (P1 : List (HloOp τ sig (Elt F))).Forall fun op => op.bufs ⊆ tcRefs τ sig := by
  unfold P1
  exact ⟨binary_bufs_sub .., unary_bufs_sub .., unary_bufs_sub .., binary_bufs_sub .., nullary_bufs_sub .., unary_bufs_sub ..⟩

/-- Every operation of `P1` determines its results. -/
theorem P1_fresh : (P1 : List (HloOp τ sig (Elt F))).Forall fun op => op.fresh = ∅ := by
  unfold P1
  exact ⟨rfl, rfl, rfl, rfl, rfl, rfl⟩

/-- Layer 0: the product with the layer's weights, the neighbours' weighted sum, the batch normalisation, the clip at zero, the running sum. (66 operations.) -/
def L0 : List (HloOp τ sig (Elt F)) :=
  [ unary main_arg3 main_v37 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v37 main_v38 rfl shapeCasts_S1x128x128_S128x128,
    binary main_v35 main_v38 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_8 (constantI S_ 32 0#32),
    unary main_c_8 main_v40 (broadcastInDim S600000 ![] bcast_S_S600000 : (⟨S_, .i32⟩ : BufTy).Contents (Elt F) → (⟨S600000, .i32⟩ : BufTy).Contents (Elt F)),
    binary main_v1 main_v40 main_v41 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v42 (broadcastInDim S600000 ![] bcast_S_S600000 : (⟨S_, .i32⟩ : BufTy).Contents (Elt F) → (⟨S600000, .i32⟩ : BufTy).Contents (Elt F)),
    binary main_v1 main_v42 main_v43 (addi : (⟨S600000, .i32⟩ : BufTy).Contents (Elt F) → (⟨S600000, .i32⟩ : BufTy).Contents (Elt F) → (⟨S600000, .i32⟩ : BufTy).Contents (Elt F)),
    ternary main_v41 main_v43 main_v1 main_v44 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v44 main_v45 (broadcastInDim S600000x1 ![0] bcast_S600000_S600000x1_0 : (⟨S600000, .i32⟩ : BufTy).Contents (Elt F) → (⟨S600000x1, .i32⟩ : BufTy).Contents (Elt F)),
    binary main_v39 main_v45 main_v46 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v30 main_v47 (broadcastInDim S600000x1 ![0] bcast_S600000_S600000x1_0 : (⟨S600000, .f32⟩ : BufTy).Contents (Elt F) → (⟨S600000x1, .f32⟩ : BufTy).Contents (Elt F)),
    unary main_v47 main_v48 (broadcastInDim S600000x128 ![0, 1] bcast_S600000x1_S600000x128_0_1 : (⟨S600000x1, .f32⟩ : BufTy).Contents (Elt F) → (⟨S600000x128, .f32⟩ : BufTy).Contents (Elt F)),
    binary main_v46 main_v48 main_v49 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v50 (broadcastInDim S50000x128 ![] bcast_S_S50000x128 : (⟨S_, .f32⟩ : BufTy).Contents (Elt F) → (⟨S50000x128, .f32⟩ : BufTy).Contents (Elt F)),
    unary main_v3 main_v51 (broadcastInDim S600000x1 ![0] bcast_S600000_S600000x1_0 : (⟨S600000, .i32⟩ : BufTy).Contents (Elt F) → (⟨S600000x1, .i32⟩ : BufTy).Contents (Elt F)),
    ternary main_v50 main_v51 main_v49 main_v52 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v31 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x128 ![0, 1] bcast_S50000x1_S50000x128_0_1 : (⟨S50000x1, .f32⟩ : BufTy).Contents (Elt F) → (⟨S50000x128, .f32⟩ : BufTy).Contents (Elt F)),
    binary main_v39 main_v54 main_v55 (mulf : (⟨S50000x128, .f32⟩ : BufTy).Contents (Elt F) → (⟨S50000x128, .f32⟩ : BufTy).Contents (Elt F) → (⟨S50000x128, .f32⟩ : BufTy).Contents (Elt F)),
    binary main_v52 main_v55 main_v56 (addf : (⟨S50000x128, .f32⟩ : BufTy).Contents (Elt F) → (⟨S50000x128, .f32⟩ : BufTy).Contents (Elt F) → (⟨S50000x128, .f32⟩ : BufTy).Contents (Elt F)),
    unary main_arg4 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v56 main_v60 main_v61 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v61 main_cst_11 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v63 (broadcastInDim S128 ![] bcast_S_S128 : (⟨S_, .f32⟩ : BufTy).Contents (Elt F) → (⟨S128, .f32⟩ : BufTy).Contents (Elt F)),
    binary main_v62 main_v63 main_v64 (Host.divf : (⟨S128, .f32⟩ : BufTy).Contents (Elt F) → (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v61 main_v66 main_v67 (subf : (⟨S50000x128, .f32⟩ : BufTy).Contents (Elt F) → (⟨S50000x128, .f32⟩ : BufTy).Contents (Elt F) → (⟨S50000x128, .f32⟩ : BufTy).Contents (Elt F)),
    binary main_v67 main_v67 main_v68 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v68 main_cst_13 main_v69 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_14 (constant S_ .f32 0x47435000#32),
    unary main_cst_14 main_v70 (broadcastInDim S128 ![] bcast_S_S128 : (⟨S_, .f32⟩ : BufTy).Contents (Elt F) → (⟨S128, .f32⟩ : BufTy).Contents (Elt F)),
    binary main_v69 main_v70 main_v71 (Host.divf : (⟨S128, .f32⟩ : BufTy).Contents (Elt F) → (⟨S128, .f32⟩ : BufTy).Contents (Elt F) → (⟨S128, .f32⟩ : BufTy).Contents (Elt F)),
    unary main_v64 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v61 main_v73 main_v74 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v75 (broadcastInDim S128 ![] bcast_S_S128 : (⟨S_, .f32⟩ : BufTy).Contents (Elt F) → (⟨S128, .f32⟩ : BufTy).Contents (Elt F)),
    binary main_v71 main_v75 main_v76 (addf : (⟨S128, .f32⟩ : BufTy).Contents (Elt F) → (⟨S128, .f32⟩ : BufTy).Contents (Elt F) → (⟨S128, .f32⟩ : BufTy).Contents (Elt F)),
    unary main_v76 main_v77 (Host.rsqrt : (⟨S128, .f32⟩ : BufTy).Contents (Elt F) → (⟨S128, .f32⟩ : BufTy).Contents (Elt F)),
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v74 main_v79 main_v80 (mulf : (⟨S50000x128, .f32⟩ : BufTy).Contents (Elt F) → (⟨S50000x128, .f32⟩ : BufTy).Contents (Elt F) → (⟨S50000x128, .f32⟩ : BufTy).Contents (Elt F)),
    unary main_arg5 main_v81 ((extractStridedSlice S1x128 ![0, 0] · slices_S4x128_S1x128_0_0) : (⟨S4x128, .f32⟩ : BufTy).Contents (Elt F) → (⟨S1x128, .f32⟩ : BufTy).Contents (Elt F)),
    reshape main_v81 main_v82 rfl shapeCasts_S1x128_S128,
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v80 main_v84 main_v85 (mulf : (⟨S50000x128, .f32⟩ : BufTy).Contents (Elt F) → (⟨S50000x128, .f32⟩ : BufTy).Contents (Elt F) → (⟨S50000x128, .f32⟩ : BufTy).Contents (Elt F)),
    unary main_arg6 main_v86 ((extractStridedSlice S1x128 ![0, 0] · slices_S4x128_S1x128_0_0) : (⟨S4x128, .f32⟩ : BufTy).Contents (Elt F) → (⟨S1x128, .f32⟩ : BufTy).Contents (Elt F)),
    reshape main_v86 main_v87 rfl shapeCasts_S1x128_S128,
    unary main_v87 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v85 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v90) (TRef.of (T := ⟨S50000x128, .f32⟩) main_call0_v0) (TRef.of (T := ⟨S50000x128, .f32⟩) main_v91) maximumf,
    binary main_v36 main_v91 main_v92 (addf : (⟨S50000x128, .f32⟩ : BufTy).Contents (Elt F) → (⟨S50000x128, .f32⟩ : BufTy).Contents (Elt F) → (⟨S50000x128, .f32⟩ : BufTy).Contents (Elt F)) ]

/-- The references `L0`'s operations write, in order. -/
abbrev L0_W : List (Ref sig .tc) :=
  [main_v37, main_v38, main_v39, main_c_8, main_v40, main_v41, main_c_9, main_v42, main_v43, main_v44, main_v45, main_v46, main_v47, main_v48, main_v49, main_cst_10, main_v50, main_v51, main_v52, main_v53, main_v54, main_v55, main_v56, main_v57, main_v58, main_v59, main_v60, main_v61, main_cst_11, main_v62, main_cst_12, main_v63, main_v64, main_v65, main_v66, main_v67, main_v68, main_cst_13, main_v69, main_cst_14, main_v70, main_v71, main_v72, main_v73, main_v74, main_cst_15, main_v75, main_v76, main_v77, main_v78, main_v79, main_v80, main_v81, main_v82, main_v83, main_v84, main_v85, main_v86, main_v87, main_v88, main_v89, main_v90, main_call0_cst, main_call0_v0, main_v91, main_v92]

/-- Every operation of `L0` touches TensorCore references only. -/
theorem L0_sub : (L0 : List (HloOp τ sig (Elt F))).Forall fun op => op.bufs ⊆ tcRefs τ sig := by
  unfold L0
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

/-- Every operation of `L0` determines its results. -/
theorem L0_fresh : (L0 : List (HloOp τ sig (Elt F))).Forall fun op => op.fresh = ∅ := by
  unfold L0
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1, with the half-weighted skip. (70 operations.) -/
def L1 : List (HloOp τ sig (Elt F)) :=
  [ unary main_arg3 main_v93 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v93 main_v94 rfl shapeCasts_S1x128x128_S128x128,
    binary main_v91 main_v94 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_16 (constantI S_ 32 0#32),
    unary main_c_16 main_v96 (broadcastInDim S600000 ![] bcast_S_S600000 : (⟨S_, .i32⟩ : BufTy).Contents (Elt F) → (⟨S600000, .i32⟩ : BufTy).Contents (Elt F)),
    binary main_v1 main_v96 main_v97 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v98 (broadcastInDim S600000 ![] bcast_S_S600000 : (⟨S_, .i32⟩ : BufTy).Contents (Elt F) → (⟨S600000, .i32⟩ : BufTy).Contents (Elt F)),
    binary main_v1 main_v98 main_v99 (addi : (⟨S600000, .i32⟩ : BufTy).Contents (Elt F) → (⟨S600000, .i32⟩ : BufTy).Contents (Elt F) → (⟨S600000, .i32⟩ : BufTy).Contents (Elt F)),
    ternary main_v97 main_v99 main_v1 main_v100 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v100 main_v101 (broadcastInDim S600000x1 ![0] bcast_S600000_S600000x1_0 : (⟨S600000, .i32⟩ : BufTy).Contents (Elt F) → (⟨S600000x1, .i32⟩ : BufTy).Contents (Elt F)),
    binary main_v95 main_v101 main_v102 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v30 main_v103 (broadcastInDim S600000x1 ![0] bcast_S600000_S600000x1_0 : (⟨S600000, .f32⟩ : BufTy).Contents (Elt F) → (⟨S600000x1, .f32⟩ : BufTy).Contents (Elt F)),
    unary main_v103 main_v104 (broadcastInDim S600000x128 ![0, 1] bcast_S600000x1_S600000x128_0_1 : (⟨S600000x1, .f32⟩ : BufTy).Contents (Elt F) → (⟨S600000x128, .f32⟩ : BufTy).Contents (Elt F)),
    binary main_v102 main_v104 main_v105 (mulf : (⟨S600000x128, .f32⟩ : BufTy).Contents (Elt F) → (⟨S600000x128, .f32⟩ : BufTy).Contents (Elt F) → (⟨S600000x128, .f32⟩ : BufTy).Contents (Elt F)),
    nullary main_cst_18 (constant S_ .f32 0x00000000#32),
    unary main_cst_18 main_v106 (broadcastInDim S50000x128 ![] bcast_S_S50000x128 : (⟨S_, .f32⟩ : BufTy).Contents (Elt F) → (⟨S50000x128, .f32⟩ : BufTy).Contents (Elt F)),
    unary main_v3 main_v107 (broadcastInDim S600000x1 ![0] bcast_S600000_S600000x1_0 : (⟨S600000, .i32⟩ : BufTy).Contents (Elt F) → (⟨S600000x1, .i32⟩ : BufTy).Contents (Elt F)),
    ternary main_v106 main_v107 main_v105 main_v108 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v31 main_v109 (broadcastInDim S50000x1 ![0] bcast_S50000_S50000x1_0 : (⟨S50000, .f32⟩ : BufTy).Contents (Elt F) → (⟨S50000x1, .f32⟩ : BufTy).Contents (Elt F)),
    unary main_v109 main_v110 (broadcastInDim S50000x128 ![0, 1] bcast_S50000x1_S50000x128_0_1 : (⟨S50000x1, .f32⟩ : BufTy).Contents (Elt F) → (⟨S50000x128, .f32⟩ : BufTy).Contents (Elt F)),
    binary main_v95 main_v110 main_v111 (mulf : (⟨S50000x128, .f32⟩ : BufTy).Contents (Elt F) → (⟨S50000x128, .f32⟩ : BufTy).Contents (Elt F) → (⟨S50000x128, .f32⟩ : BufTy).Contents (Elt F)),
    binary main_v108 main_v111 main_v112 (addf : (⟨S50000x128, .f32⟩ : BufTy).Contents (Elt F) → (⟨S50000x128, .f32⟩ : BufTy).Contents (Elt F) → (⟨S50000x128, .f32⟩ : BufTy).Contents (Elt F)),
    unary main_arg4 main_v113 ((extractStridedSlice S1x128 ![1, 0] · slices_S4x128_S1x128_1_0) : (⟨S4x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v112 main_v116 main_v117 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v117 main_cst_19 main_v118 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v119 (broadcastInDim S128 ![] bcast_S_S128 : (⟨S_, .f32⟩ : BufTy).Contents (Elt F) → (⟨S128, .f32⟩ : BufTy).Contents (Elt F)),
    binary main_v118 main_v119 main_v120 (Host.divf : (⟨S128, .f32⟩ : BufTy).Contents (Elt F) → (⟨S128, .f32⟩ : BufTy).Contents (Elt F) → (⟨S128, .f32⟩ : BufTy).Contents (Elt F)),
    unary main_v120 main_v121 (broadcastInDim S1x128 ![1] bcast_S128_S1x128_1 : (⟨S128, .f32⟩ : BufTy).Contents (Elt F) → (⟨S1x128, .f32⟩ : BufTy).Contents (Elt F)),
    unary main_v121 main_v122 (broadcastInDim S50000x128 ![0, 1] bcast_S1x128_S50000x128_0_1 : (⟨S1x128, .f32⟩ : BufTy).Contents (Elt F) → (⟨S50000x128, .f32⟩ : BufTy).Contents (Elt F)),
    binary main_v117 main_v122 main_v123 (subf : (⟨S50000x128, .f32⟩ : BufTy).Contents (Elt F) → (⟨S50000x128, .f32⟩ : BufTy).Contents (Elt F) → (⟨S50000x128, .f32⟩ : BufTy).Contents (Elt F)),
    binary main_v123 main_v123 main_v124 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x00000000#32),
    binary main_v124 main_cst_21 main_v125 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_22 (constant S_ .f32 0x47435000#32),
    unary main_cst_22 main_v126 (broadcastInDim S128 ![] bcast_S_S128 : (⟨S_, .f32⟩ : BufTy).Contents (Elt F) → (⟨S128, .f32⟩ : BufTy).Contents (Elt F)),
    binary main_v125 main_v126 main_v127 (Host.divf : (⟨S128, .f32⟩ : BufTy).Contents (Elt F) → (⟨S128, .f32⟩ : BufTy).Contents (Elt F) → (⟨S128, .f32⟩ : BufTy).Contents (Elt F)),
    unary main_v120 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v117 main_v129 main_v130 (subf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3727C5AC#32),
    unary main_cst_23 main_v131 (broadcastInDim S128 ![] bcast_S_S128 : (⟨S_, .f32⟩ : BufTy).Contents (Elt F) → (⟨S128, .f32⟩ : BufTy).Contents (Elt F)),
    binary main_v127 main_v131 main_v132 (addf : (⟨S128, .f32⟩ : BufTy).Contents (Elt F) → (⟨S128, .f32⟩ : BufTy).Contents (Elt F) → (⟨S128, .f32⟩ : BufTy).Contents (Elt F)),
    unary main_v132 main_v133 (Host.rsqrt : (⟨S128, .f32⟩ : BufTy).Contents (Elt F) → (⟨S128, .f32⟩ : BufTy).Contents (Elt F)),
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v130 main_v135 main_v136 (mulf : (⟨S50000x128, .f32⟩ : BufTy).Contents (Elt F) → (⟨S50000x128, .f32⟩ : BufTy).Contents (Elt F) → (⟨S50000x128, .f32⟩ : BufTy).Contents (Elt F)),
    unary main_arg5 main_v137 ((extractStridedSlice S1x128 ![1, 0] · slices_S4x128_S1x128_1_0) : (⟨S4x128, .f32⟩ : BufTy).Contents (Elt F) → (⟨S1x128, .f32⟩ : BufTy).Contents (Elt F)),
    reshape main_v137 main_v138 rfl shapeCasts_S1x128_S128,
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v136 main_v140 main_v141 (mulf : (⟨S50000x128, .f32⟩ : BufTy).Contents (Elt F) → (⟨S50000x128, .f32⟩ : BufTy).Contents (Elt F) → (⟨S50000x128, .f32⟩ : BufTy).Contents (Elt F)),
    unary main_arg6 main_v142 ((extractStridedSlice S1x128 ![1, 0] · slices_S4x128_S1x128_1_0) : (⟨S4x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v141 main_v145 main_v146 (addf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x3F000000#32),
    unary main_cst_24 main_v147 (broadcastInDim S50000x128 ![] bcast_S_S50000x128 : (⟨S_, .f32⟩ : BufTy).Contents (Elt F) → (⟨S50000x128, .f32⟩ : BufTy).Contents (Elt F)),
    binary main_v147 main_v35 main_v148 (mulf : (⟨S50000x128, .f32⟩ : BufTy).Contents (Elt F) → (⟨S50000x128, .f32⟩ : BufTy).Contents (Elt F) → (⟨S50000x128, .f32⟩ : BufTy).Contents (Elt F)),
    binary main_v146 main_v148 main_v149 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v149) (TRef.of (T := ⟨S50000x128, .f32⟩) main_call1_v0) (TRef.of (T := ⟨S50000x128, .f32⟩) main_v150) maximumf,
    binary main_v92 main_v150 main_v151 (addf : (⟨S50000x128, .f32⟩ : BufTy).Contents (Elt F) → (⟨S50000x128, .f32⟩ : BufTy).Contents (Elt F) → (⟨S50000x128, .f32⟩ : BufTy).Contents (Elt F)) ]

/-- The references `L1`'s operations write, in order. -/
abbrev L1_W : List (Ref sig .tc) :=
  [main_v93, main_v94, main_v95, main_c_16, main_v96, main_v97, main_c_17, main_v98, main_v99, main_v100, main_v101, main_v102, main_v103, main_v104, main_v105, main_cst_18, main_v106, main_v107, main_v108, main_v109, main_v110, main_v111, main_v112, main_v113, main_v114, main_v115, main_v116, main_v117, main_cst_19, main_v118, main_cst_20, main_v119, main_v120, main_v121, main_v122, main_v123, main_v124, main_cst_21, main_v125, main_cst_22, main_v126, main_v127, main_v128, main_v129, main_v130, main_cst_23, main_v131, main_v132, main_v133, main_v134, main_v135, main_v136, main_v137, main_v138, main_v139, main_v140, main_v141, main_v142, main_v143, main_v144, main_v145, main_v146, main_cst_24, main_v147, main_v148, main_v149, main_call1_cst, main_call1_v0, main_v150, main_v151]

/-- Every operation of `L1` touches TensorCore references only. -/
theorem L1_sub : (L1 : List (HloOp τ sig (Elt F))).Forall fun op => op.bufs ⊆ tcRefs τ sig := by
  unfold L1
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

/-- Every operation of `L1` determines its results. -/
theorem L1_fresh : (L1 : List (HloOp τ sig (Elt F))).Forall fun op => op.fresh = ∅ := by
  unfold L1
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 2. (66 operations.) -/
def L2 : List (HloOp τ sig (Elt F)) :=
  [ unary main_arg3 main_v152 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v152 main_v153 rfl shapeCasts_S1x128x128_S128x128,
    binary main_v150 main_v153 main_v154 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_25 (constantI S_ 32 0#32),
    unary main_c_25 main_v155 (broadcastInDim S600000 ![] bcast_S_S600000 : (⟨S_, .i32⟩ : BufTy).Contents (Elt F) → (⟨S600000, .i32⟩ : BufTy).Contents (Elt F)),
    binary main_v1 main_v155 main_v156 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v157 (broadcastInDim S600000 ![] bcast_S_S600000 : (⟨S_, .i32⟩ : BufTy).Contents (Elt F) → (⟨S600000, .i32⟩ : BufTy).Contents (Elt F)),
    binary main_v1 main_v157 main_v158 (addi : (⟨S600000, .i32⟩ : BufTy).Contents (Elt F) → (⟨S600000, .i32⟩ : BufTy).Contents (Elt F) → (⟨S600000, .i32⟩ : BufTy).Contents (Elt F)),
    ternary main_v156 main_v158 main_v1 main_v159 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v159 main_v160 (broadcastInDim S600000x1 ![0] bcast_S600000_S600000x1_0 : (⟨S600000, .i32⟩ : BufTy).Contents (Elt F) → (⟨S600000x1, .i32⟩ : BufTy).Contents (Elt F)),
    binary main_v154 main_v160 main_v161 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v30 main_v162 (broadcastInDim S600000x1 ![0] bcast_S600000_S600000x1_0 : (⟨S600000, .f32⟩ : BufTy).Contents (Elt F) → (⟨S600000x1, .f32⟩ : BufTy).Contents (Elt F)),
    unary main_v162 main_v163 (broadcastInDim S600000x128 ![0, 1] bcast_S600000x1_S600000x128_0_1 : (⟨S600000x1, .f32⟩ : BufTy).Contents (Elt F) → (⟨S600000x128, .f32⟩ : BufTy).Contents (Elt F)),
    binary main_v161 main_v163 main_v164 (mulf : (⟨S600000x128, .f32⟩ : BufTy).Contents (Elt F) → (⟨S600000x128, .f32⟩ : BufTy).Contents (Elt F) → (⟨S600000x128, .f32⟩ : BufTy).Contents (Elt F)),
    nullary main_cst_27 (constant S_ .f32 0x00000000#32),
    unary main_cst_27 main_v165 (broadcastInDim S50000x128 ![] bcast_S_S50000x128 : (⟨S_, .f32⟩ : BufTy).Contents (Elt F) → (⟨S50000x128, .f32⟩ : BufTy).Contents (Elt F)),
    unary main_v3 main_v166 (broadcastInDim S600000x1 ![0] bcast_S600000_S600000x1_0 : (⟨S600000, .i32⟩ : BufTy).Contents (Elt F) → (⟨S600000x1, .i32⟩ : BufTy).Contents (Elt F)),
    ternary main_v165 main_v166 main_v164 main_v167 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v31 main_v168 (broadcastInDim S50000x1 ![0] bcast_S50000_S50000x1_0 : (⟨S50000, .f32⟩ : BufTy).Contents (Elt F) → (⟨S50000x1, .f32⟩ : BufTy).Contents (Elt F)),
    unary main_v168 main_v169 (broadcastInDim S50000x128 ![0, 1] bcast_S50000x1_S50000x128_0_1 : (⟨S50000x1, .f32⟩ : BufTy).Contents (Elt F) → (⟨S50000x128, .f32⟩ : BufTy).Contents (Elt F)),
    binary main_v154 main_v169 main_v170 (mulf : (⟨S50000x128, .f32⟩ : BufTy).Contents (Elt F) → (⟨S50000x128, .f32⟩ : BufTy).Contents (Elt F) → (⟨S50000x128, .f32⟩ : BufTy).Contents (Elt F)),
    binary main_v167 main_v170 main_v171 (addf : (⟨S50000x128, .f32⟩ : BufTy).Contents (Elt F) → (⟨S50000x128, .f32⟩ : BufTy).Contents (Elt F) → (⟨S50000x128, .f32⟩ : BufTy).Contents (Elt F)),
    unary main_arg4 main_v172 ((extractStridedSlice S1x128 ![2, 0] · slices_S4x128_S1x128_2_0) : (⟨S4x128, .f32⟩ : BufTy).Contents (Elt F) → (⟨S1x128, .f32⟩ : BufTy).Contents (Elt F)),
    reshape main_v172 main_v173 rfl shapeCasts_S1x128_S128,
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S50000x128 ![0, 1] bcast_S1x128_S50000x128_0_1 : (⟨S1x128, .f32⟩ : BufTy).Contents (Elt F) → (⟨S50000x128, .f32⟩ : BufTy).Contents (Elt F)),
    binary main_v171 main_v175 main_v176 (addf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    binary main_v176 main_cst_28 main_v177 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_29 (constant S_ .f32 0x47435000#32),
    unary main_cst_29 main_v178 (broadcastInDim S128 ![] bcast_S_S128 : (⟨S_, .f32⟩ : BufTy).Contents (Elt F) → (⟨S128, .f32⟩ : BufTy).Contents (Elt F)),
    binary main_v177 main_v178 main_v179 (Host.divf : (⟨S128, .f32⟩ : BufTy).Contents (Elt F) → (⟨S128, .f32⟩ : BufTy).Contents (Elt F) → (⟨S128, .f32⟩ : BufTy).Contents (Elt F)),
    unary main_v179 main_v180 (broadcastInDim S1x128 ![1] bcast_S128_S1x128_1 : (⟨S128, .f32⟩ : BufTy).Contents (Elt F) → (⟨S1x128, .f32⟩ : BufTy).Contents (Elt F)),
    unary main_v180 main_v181 (broadcastInDim S50000x128 ![0, 1] bcast_S1x128_S50000x128_0_1 : (⟨S1x128, .f32⟩ : BufTy).Contents (Elt F) → (⟨S50000x128, .f32⟩ : BufTy).Contents (Elt F)),
    binary main_v176 main_v181 main_v182 (subf : (⟨S50000x128, .f32⟩ : BufTy).Contents (Elt F) → (⟨S50000x128, .f32⟩ : BufTy).Contents (Elt F) → (⟨S50000x128, .f32⟩ : BufTy).Contents (Elt F)),
    binary main_v182 main_v182 main_v183 (mulf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x00000000#32),
    binary main_v183 main_cst_30 main_v184 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_31 (constant S_ .f32 0x47435000#32),
    unary main_cst_31 main_v185 (broadcastInDim S128 ![] bcast_S_S128 : (⟨S_, .f32⟩ : BufTy).Contents (Elt F) → (⟨S128, .f32⟩ : BufTy).Contents (Elt F)),
    binary main_v184 main_v185 main_v186 (Host.divf : (⟨S128, .f32⟩ : BufTy).Contents (Elt F) → (⟨S128, .f32⟩ : BufTy).Contents (Elt F) → (⟨S128, .f32⟩ : BufTy).Contents (Elt F)),
    unary main_v179 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v176 main_v188 main_v189 (subf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x3727C5AC#32),
    unary main_cst_32 main_v190 (broadcastInDim S128 ![] bcast_S_S128 : (⟨S_, .f32⟩ : BufTy).Contents (Elt F) → (⟨S128, .f32⟩ : BufTy).Contents (Elt F)),
    binary main_v186 main_v190 main_v191 (addf : (⟨S128, .f32⟩ : BufTy).Contents (Elt F) → (⟨S128, .f32⟩ : BufTy).Contents (Elt F) → (⟨S128, .f32⟩ : BufTy).Contents (Elt F)),
    unary main_v191 main_v192 (Host.rsqrt : (⟨S128, .f32⟩ : BufTy).Contents (Elt F) → (⟨S128, .f32⟩ : BufTy).Contents (Elt F)),
    unary main_v192 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v189 main_v194 main_v195 (mulf : (⟨S50000x128, .f32⟩ : BufTy).Contents (Elt F) → (⟨S50000x128, .f32⟩ : BufTy).Contents (Elt F) → (⟨S50000x128, .f32⟩ : BufTy).Contents (Elt F)),
    unary main_arg5 main_v196 ((extractStridedSlice S1x128 ![2, 0] · slices_S4x128_S1x128_2_0) : (⟨S4x128, .f32⟩ : BufTy).Contents (Elt F) → (⟨S1x128, .f32⟩ : BufTy).Contents (Elt F)),
    reshape main_v196 main_v197 rfl shapeCasts_S1x128_S128,
    unary main_v197 main_v198 (broadcastInDim S1x128 ![1] bcast_S128_S1x128_1 : (⟨S128, .f32⟩ : BufTy).Contents (Elt F) → (⟨S1x128, .f32⟩ : BufTy).Contents (Elt F)),
    unary main_v198 main_v199 (broadcastInDim S50000x128 ![0, 1] bcast_S1x128_S50000x128_0_1 : (⟨S1x128, .f32⟩ : BufTy).Contents (Elt F) → (⟨S50000x128, .f32⟩ : BufTy).Contents (Elt F)),
    binary main_v195 main_v199 main_v200 (mulf : (⟨S50000x128, .f32⟩ : BufTy).Contents (Elt F) → (⟨S50000x128, .f32⟩ : BufTy).Contents (Elt F) → (⟨S50000x128, .f32⟩ : BufTy).Contents (Elt F)),
    unary main_arg6 main_v201 ((extractStridedSlice S1x128 ![2, 0] · slices_S4x128_S1x128_2_0) : (⟨S4x128, .f32⟩ : BufTy).Contents (Elt F) → (⟨S1x128, .f32⟩ : BufTy).Contents (Elt F)),
    reshape main_v201 main_v202 rfl shapeCasts_S1x128_S128,
    unary main_v202 main_v203 (broadcastInDim S1x128 ![1] bcast_S128_S1x128_1 : (⟨S128, .f32⟩ : BufTy).Contents (Elt F) → (⟨S1x128, .f32⟩ : BufTy).Contents (Elt F)),
    unary main_v203 main_v204 (broadcastInDim S50000x128 ![0, 1] bcast_S1x128_S50000x128_0_1 : (⟨S1x128, .f32⟩ : BufTy).Contents (Elt F) → (⟨S50000x128, .f32⟩ : BufTy).Contents (Elt F)),
    binary main_v200 main_v204 main_v205 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v205) (TRef.of (T := ⟨S50000x128, .f32⟩) main_call2_v0) (TRef.of (T := ⟨S50000x128, .f32⟩) main_v206) maximumf,
    binary main_v151 main_v206 main_v207 (addf : (⟨S50000x128, .f32⟩ : BufTy).Contents (Elt F) → (⟨S50000x128, .f32⟩ : BufTy).Contents (Elt F) → (⟨S50000x128, .f32⟩ : BufTy).Contents (Elt F)) ]

/-- The references `L2`'s operations write, in order. -/
abbrev L2_W : List (Ref sig .tc) :=
  [main_v152, main_v153, main_v154, main_c_25, main_v155, main_v156, main_c_26, main_v157, main_v158, main_v159, main_v160, main_v161, main_v162, main_v163, main_v164, main_cst_27, main_v165, main_v166, main_v167, main_v168, main_v169, main_v170, main_v171, main_v172, main_v173, main_v174, main_v175, main_v176, main_cst_28, main_v177, main_cst_29, main_v178, main_v179, main_v180, main_v181, main_v182, main_v183, main_cst_30, main_v184, main_cst_31, main_v185, main_v186, main_v187, main_v188, main_v189, main_cst_32, main_v190, main_v191, main_v192, main_v193, main_v194, main_v195, main_v196, main_v197, main_v198, main_v199, main_v200, main_v201, main_v202, main_v203, main_v204, main_v205, main_call2_cst, main_call2_v0, main_v206, main_v207]

/-- Every operation of `L2` touches TensorCore references only. -/
theorem L2_sub : (L2 : List (HloOp τ sig (Elt F))).Forall fun op => op.bufs ⊆ tcRefs τ sig := by
  unfold L2
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

/-- Every operation of `L2` determines its results. -/
theorem L2_fresh : (L2 : List (HloOp τ sig (Elt F))).Forall fun op => op.fresh = ∅ := by
  unfold L2
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 3, with the half-weighted skip. (70 operations.) -/
def L3 : List (HloOp τ sig (Elt F)) :=
  [ unary main_arg3 main_v208 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v208 main_v209 rfl shapeCasts_S1x128x128_S128x128,
    binary main_v206 main_v209 main_v210 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_33 (constantI S_ 32 0#32),
    unary main_c_33 main_v211 (broadcastInDim S600000 ![] bcast_S_S600000 : (⟨S_, .i32⟩ : BufTy).Contents (Elt F) → (⟨S600000, .i32⟩ : BufTy).Contents (Elt F)),
    binary main_v1 main_v211 main_v212 (cmpi .slt : (⟨S600000, .i32⟩ : BufTy).Contents (Elt F) → (⟨S600000, .i32⟩ : BufTy).Contents (Elt F) → (⟨S600000, .i1⟩ : BufTy).Contents (Elt F)),
    nullary main_c_34 (constantI S_ 32 50000#32),
    unary main_c_34 main_v213 (broadcastInDim S600000 ![] bcast_S_S600000 : (⟨S_, .i32⟩ : BufTy).Contents (Elt F) → (⟨S600000, .i32⟩ : BufTy).Contents (Elt F)),
    binary main_v1 main_v213 main_v214 (addi : (⟨S600000, .i32⟩ : BufTy).Contents (Elt F) → (⟨S600000, .i32⟩ : BufTy).Contents (Elt F) → (⟨S600000, .i32⟩ : BufTy).Contents (Elt F)),
    ternary main_v212 main_v214 main_v1 main_v215 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v215 main_v216 (broadcastInDim S600000x1 ![0] bcast_S600000_S600000x1_0 : (⟨S600000, .i32⟩ : BufTy).Contents (Elt F) → (⟨S600000x1, .i32⟩ : BufTy).Contents (Elt F)),
    binary main_v210 main_v216 main_v217 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v30 main_v218 (broadcastInDim S600000x1 ![0] bcast_S600000_S600000x1_0 : (⟨S600000, .f32⟩ : BufTy).Contents (Elt F) → (⟨S600000x1, .f32⟩ : BufTy).Contents (Elt F)),
    unary main_v218 main_v219 (broadcastInDim S600000x128 ![0, 1] bcast_S600000x1_S600000x128_0_1 : (⟨S600000x1, .f32⟩ : BufTy).Contents (Elt F) → (⟨S600000x128, .f32⟩ : BufTy).Contents (Elt F)),
    binary main_v217 main_v219 main_v220 (mulf : (⟨S600000x128, .f32⟩ : BufTy).Contents (Elt F) → (⟨S600000x128, .f32⟩ : BufTy).Contents (Elt F) → (⟨S600000x128, .f32⟩ : BufTy).Contents (Elt F)),
    nullary main_cst_35 (constant S_ .f32 0x00000000#32),
    unary main_cst_35 main_v221 (broadcastInDim S50000x128 ![] bcast_S_S50000x128 : (⟨S_, .f32⟩ : BufTy).Contents (Elt F) → (⟨S50000x128, .f32⟩ : BufTy).Contents (Elt F)),
    unary main_v3 main_v222 (broadcastInDim S600000x1 ![0] bcast_S600000_S600000x1_0 : (⟨S600000, .i32⟩ : BufTy).Contents (Elt F) → (⟨S600000x1, .i32⟩ : BufTy).Contents (Elt F)),
    ternary main_v221 main_v222 main_v220 main_v223 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v31 main_v224 (broadcastInDim S50000x1 ![0] bcast_S50000_S50000x1_0 : (⟨S50000, .f32⟩ : BufTy).Contents (Elt F) → (⟨S50000x1, .f32⟩ : BufTy).Contents (Elt F)),
    unary main_v224 main_v225 (broadcastInDim S50000x128 ![0, 1] bcast_S50000x1_S50000x128_0_1 : (⟨S50000x1, .f32⟩ : BufTy).Contents (Elt F) → (⟨S50000x128, .f32⟩ : BufTy).Contents (Elt F)),
    binary main_v210 main_v225 main_v226 (mulf : (⟨S50000x128, .f32⟩ : BufTy).Contents (Elt F) → (⟨S50000x128, .f32⟩ : BufTy).Contents (Elt F) → (⟨S50000x128, .f32⟩ : BufTy).Contents (Elt F)),
    binary main_v223 main_v226 main_v227 (addf : (⟨S50000x128, .f32⟩ : BufTy).Contents (Elt F) → (⟨S50000x128, .f32⟩ : BufTy).Contents (Elt F) → (⟨S50000x128, .f32⟩ : BufTy).Contents (Elt F)),
    unary main_arg4 main_v228 ((extractStridedSlice S1x128 ![3, 0] · slices_S4x128_S1x128_3_0) : (⟨S4x128, .f32⟩ : BufTy).Contents (Elt F) → (⟨S1x128, .f32⟩ : BufTy).Contents (Elt F)),
    reshape main_v228 main_v229 rfl shapeCasts_S1x128_S128,
    unary main_v229 main_v230 (broadcastInDim S1x128 ![1] bcast_S128_S1x128_1 : (⟨S128, .f32⟩ : BufTy).Contents (Elt F) → (⟨S1x128, .f32⟩ : BufTy).Contents (Elt F)),
    unary main_v230 main_v231 (broadcastInDim S50000x128 ![0, 1] bcast_S1x128_S50000x128_0_1 : (⟨S1x128, .f32⟩ : BufTy).Contents (Elt F) → (⟨S50000x128, .f32⟩ : BufTy).Contents (Elt F)),
    binary main_v227 main_v231 main_v232 (addf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x00000000#32),
    binary main_v232 main_cst_36 main_v233 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_37 (constant S_ .f32 0x47435000#32),
    unary main_cst_37 main_v234 (broadcastInDim S128 ![] bcast_S_S128 : (⟨S_, .f32⟩ : BufTy).Contents (Elt F) → (⟨S128, .f32⟩ : BufTy).Contents (Elt F)),
    binary main_v233 main_v234 main_v235 (Host.divf : (⟨S128, .f32⟩ : BufTy).Contents (Elt F) → (⟨S128, .f32⟩ : BufTy).Contents (Elt F) → (⟨S128, .f32⟩ : BufTy).Contents (Elt F)),
    unary main_v235 main_v236 (broadcastInDim S1x128 ![1] bcast_S128_S1x128_1 : (⟨S128, .f32⟩ : BufTy).Contents (Elt F) → (⟨S1x128, .f32⟩ : BufTy).Contents (Elt F)),
    unary main_v236 main_v237 (broadcastInDim S50000x128 ![0, 1] bcast_S1x128_S50000x128_0_1 : (⟨S1x128, .f32⟩ : BufTy).Contents (Elt F) → (⟨S50000x128, .f32⟩ : BufTy).Contents (Elt F)),
    binary main_v232 main_v237 main_v238 (subf : (⟨S50000x128, .f32⟩ : BufTy).Contents (Elt F) → (⟨S50000x128, .f32⟩ : BufTy).Contents (Elt F) → (⟨S50000x128, .f32⟩ : BufTy).Contents (Elt F)),
    binary main_v238 main_v238 main_v239 (mulf : (⟨S50000x128, .f32⟩ : BufTy).Contents (Elt F) → (⟨S50000x128, .f32⟩ : BufTy).Contents (Elt F) → (⟨S50000x128, .f32⟩ : BufTy).Contents (Elt F)),
    nullary main_cst_38 (constant S_ .f32 0x00000000#32),
    binary main_v239 main_cst_38 main_v240 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_39 (constant S_ .f32 0x47435000#32),
    unary main_cst_39 main_v241 (broadcastInDim S128 ![] bcast_S_S128 : (⟨S_, .f32⟩ : BufTy).Contents (Elt F) → (⟨S128, .f32⟩ : BufTy).Contents (Elt F)),
    binary main_v240 main_v241 main_v242 (Host.divf : (⟨S128, .f32⟩ : BufTy).Contents (Elt F) → (⟨S128, .f32⟩ : BufTy).Contents (Elt F) → (⟨S128, .f32⟩ : BufTy).Contents (Elt F)),
    unary main_v235 main_v243 (broadcastInDim S1x128 ![1] bcast_S128_S1x128_1 : (⟨S128, .f32⟩ : BufTy).Contents (Elt F) → (⟨S1x128, .f32⟩ : BufTy).Contents (Elt F)),
    unary main_v243 main_v244 (broadcastInDim S50000x128 ![0, 1] bcast_S1x128_S50000x128_0_1 : (⟨S1x128, .f32⟩ : BufTy).Contents (Elt F) → (⟨S50000x128, .f32⟩ : BufTy).Contents (Elt F)),
    binary main_v232 main_v244 main_v245 (subf : (⟨S50000x128, .f32⟩ : BufTy).Contents (Elt F) → (⟨S50000x128, .f32⟩ : BufTy).Contents (Elt F) → (⟨S50000x128, .f32⟩ : BufTy).Contents (Elt F)),
    nullary main_cst_40 (constant S_ .f32 0x3727C5AC#32),
    unary main_cst_40 main_v246 (broadcastInDim S128 ![] bcast_S_S128 : (⟨S_, .f32⟩ : BufTy).Contents (Elt F) → (⟨S128, .f32⟩ : BufTy).Contents (Elt F)),
    binary main_v242 main_v246 main_v247 (addf : (⟨S128, .f32⟩ : BufTy).Contents (Elt F) → (⟨S128, .f32⟩ : BufTy).Contents (Elt F) → (⟨S128, .f32⟩ : BufTy).Contents (Elt F)),
    unary main_v247 main_v248 (Host.rsqrt : (⟨S128, .f32⟩ : BufTy).Contents (Elt F) → (⟨S128, .f32⟩ : BufTy).Contents (Elt F)),
    unary main_v248 main_v249 (broadcastInDim S1x128 ![1] bcast_S128_S1x128_1 : (⟨S128, .f32⟩ : BufTy).Contents (Elt F) → (⟨S1x128, .f32⟩ : BufTy).Contents (Elt F)),
    unary main_v249 main_v250 (broadcastInDim S50000x128 ![0, 1] bcast_S1x128_S50000x128_0_1 : (⟨S1x128, .f32⟩ : BufTy).Contents (Elt F) → (⟨S50000x128, .f32⟩ : BufTy).Contents (Elt F)),
    binary main_v245 main_v250 main_v251 (mulf : (⟨S50000x128, .f32⟩ : BufTy).Contents (Elt F) → (⟨S50000x128, .f32⟩ : BufTy).Contents (Elt F) → (⟨S50000x128, .f32⟩ : BufTy).Contents (Elt F)),
    unary main_arg5 main_v252 ((extractStridedSlice S1x128 ![3, 0] · slices_S4x128_S1x128_3_0) : (⟨S4x128, .f32⟩ : BufTy).Contents (Elt F) → (⟨S1x128, .f32⟩ : BufTy).Contents (Elt F)),
    reshape main_v252 main_v253 rfl shapeCasts_S1x128_S128,
    unary main_v253 main_v254 (broadcastInDim S1x128 ![1] bcast_S128_S1x128_1 : (⟨S128, .f32⟩ : BufTy).Contents (Elt F) → (⟨S1x128, .f32⟩ : BufTy).Contents (Elt F)),
    unary main_v254 main_v255 (broadcastInDim S50000x128 ![0, 1] bcast_S1x128_S50000x128_0_1 : (⟨S1x128, .f32⟩ : BufTy).Contents (Elt F) → (⟨S50000x128, .f32⟩ : BufTy).Contents (Elt F)),
    binary main_v251 main_v255 main_v256 (mulf : (⟨S50000x128, .f32⟩ : BufTy).Contents (Elt F) → (⟨S50000x128, .f32⟩ : BufTy).Contents (Elt F) → (⟨S50000x128, .f32⟩ : BufTy).Contents (Elt F)),
    unary main_arg6 main_v257 ((extractStridedSlice S1x128 ![3, 0] · slices_S4x128_S1x128_3_0) : (⟨S4x128, .f32⟩ : BufTy).Contents (Elt F) → (⟨S1x128, .f32⟩ : BufTy).Contents (Elt F)),
    reshape main_v257 main_v258 rfl shapeCasts_S1x128_S128,
    unary main_v258 main_v259 (broadcastInDim S1x128 ![1] bcast_S128_S1x128_1 : (⟨S128, .f32⟩ : BufTy).Contents (Elt F) → (⟨S1x128, .f32⟩ : BufTy).Contents (Elt F)),
    unary main_v259 main_v260 (broadcastInDim S50000x128 ![0, 1] bcast_S1x128_S50000x128_0_1 : (⟨S1x128, .f32⟩ : BufTy).Contents (Elt F) → (⟨S50000x128, .f32⟩ : BufTy).Contents (Elt F)),
    binary main_v256 main_v260 main_v261 (addf : (⟨S50000x128, .f32⟩ : BufTy).Contents (Elt F) → (⟨S50000x128, .f32⟩ : BufTy).Contents (Elt F) → (⟨S50000x128, .f32⟩ : BufTy).Contents (Elt F)),
    nullary main_cst_41 (constant S_ .f32 0x3F000000#32),
    unary main_cst_41 main_v262 (broadcastInDim S50000x128 ![] bcast_S_S50000x128 : (⟨S_, .f32⟩ : BufTy).Contents (Elt F) → (⟨S50000x128, .f32⟩ : BufTy).Contents (Elt F)),
    binary main_v262 main_v35 main_v263 (mulf : (⟨S50000x128, .f32⟩ : BufTy).Contents (Elt F) → (⟨S50000x128, .f32⟩ : BufTy).Contents (Elt F) → (⟨S50000x128, .f32⟩ : BufTy).Contents (Elt F)),
    binary main_v261 main_v263 main_v264 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v264) (TRef.of (T := ⟨S50000x128, .f32⟩) main_call3_v0) (TRef.of (T := ⟨S50000x128, .f32⟩) main_v265) maximumf,
    binary main_v207 main_v265 main_v266 (addf : (⟨S50000x128, .f32⟩ : BufTy).Contents (Elt F) → (⟨S50000x128, .f32⟩ : BufTy).Contents (Elt F) → (⟨S50000x128, .f32⟩ : BufTy).Contents (Elt F)) ]

/-- The references `L3`'s operations write, in order. -/
abbrev L3_W : List (Ref sig .tc) :=
  [main_v208, main_v209, main_v210, main_c_33, main_v211, main_v212, main_c_34, main_v213, main_v214, main_v215, main_v216, main_v217, main_v218, main_v219, main_v220, main_cst_35, main_v221, main_v222, main_v223, main_v224, main_v225, main_v226, main_v227, main_v228, main_v229, main_v230, main_v231, main_v232, main_cst_36, main_v233, main_cst_37, main_v234, main_v235, main_v236, main_v237, main_v238, main_v239, main_cst_38, main_v240, main_cst_39, main_v241, main_v242, main_v243, main_v244, main_v245, main_cst_40, main_v246, main_v247, main_v248, main_v249, main_v250, main_v251, main_v252, main_v253, main_v254, main_v255, main_v256, main_v257, main_v258, main_v259, main_v260, main_v261, main_cst_41, main_v262, main_v263, main_v264, main_call3_cst, main_call3_v0, main_v265, main_v266]

/-- Every operation of `L3` touches TensorCore references only. -/
theorem L3_sub : (L3 : List (HloOp τ sig (Elt F))).Forall fun op => op.bufs ⊆ tcRefs τ sig := by
  unfold L3
  exact ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

/-- Every operation of `L3` determines its results. -/
theorem L3_fresh : (L3 : List (HloOp τ sig (Elt F))).Forall fun op => op.fresh = ∅ := by
  unfold L3
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The output layer: the product with the output weights plus the bias. (4 operations.) -/
def P2 : List (HloOp τ sig (Elt F)) :=
  [ binary main_v266 main_arg7 main_v267 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg8 main_v268 (broadcastInDim S1x64 ![1] bcast_S64_S1x64_1 : (⟨S64, .f32⟩ : BufTy).Contents (Elt F) → (⟨S1x64, .f32⟩ : BufTy).Contents (Elt F)),
    unary main_v268 main_v269 (broadcastInDim S50000x64 ![0, 1] bcast_S1x64_S50000x64_0_1 : (⟨S1x64, .f32⟩ : BufTy).Contents (Elt F) → (⟨S50000x64, .f32⟩ : BufTy).Contents (Elt F)),
    binary main_v267 main_v269 main_v270 (addf : (⟨S50000x64, .f32⟩ : BufTy).Contents (Elt F) → (⟨S50000x64, .f32⟩ : BufTy).Contents (Elt F) → (⟨S50000x64, .f32⟩ : BufTy).Contents (Elt F)) ]

/-- The references `P2`'s operations write, in order. -/
abbrev P2_W : List (Ref sig .tc) :=
  [main_v267, main_v268, main_v269, main_v270]

/-- Every operation of `P2` touches TensorCore references only. -/
theorem P2_sub : (P2 : List (HloOp τ sig (Elt F))).Forall fun op => op.bufs ⊆ tcRefs τ sig := by
  unfold P2
  exact ⟨binary_bufs_sub .., unary_bufs_sub .., unary_bufs_sub .., binary_bufs_sub ..⟩

/-- Every operation of `P2` determines its results. -/
theorem P2_fresh : (P2 : List (HloOp τ sig (Elt F))).Forall fun op => op.fresh = ∅ := by
  unfold P2
  exact ⟨rfl, rfl, rfl, rfl⟩

end Cert.ReferenceIdeal.RunHand

end
-- ==== Proof.Ref.Ops.lean ====
import proofs.«101364_j7567732376252_1_alg».proof.Proof.Ref.OpsList
import Idealize.ShloMosaic.Lib.Pipeline.Frame
import Idealize.ShloMosaic.Lib.Pipeline.Regions

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = StableHlo.seq (P0 ++ P1 ++ L0 ++ L1 ++ L2 ++ L3 ++ P2) := by
  chain_rfl

theorem scopedRefs_eq : (Finset.univ.filter fun b : Ref sig .tc => b.isScoped) = ∅ := by decide
theorem scopedSems_eq : (Finset.univ.filter fun sm : SemLoc sig => sm.isScoped .tc) = ∅ := by decide

theorem all_sub :
    (P0 ++ P1 ++ L0 ++ L1 ++ L2 ++ L3 ++ P2 : List (HloOp τ sig (Elt F))).Forall fun op => op.bufs ⊆ tcRefs τ sig :=
  List.forall_append.2 ⟨List.forall_append.2 ⟨List.forall_append.2 ⟨List.forall_append.2 ⟨List.forall_append.2
    ⟨List.forall_append.2 ⟨P0_sub, P1_sub⟩, L0_sub⟩, L1_sub⟩, L2_sub⟩, L3_sub⟩, P2_sub⟩

theorem all_fresh :
    (P0 ++ P1 ++ L0 ++ L1 ++ L2 ++ L3 ++ P2 : List (HloOp τ sig (Elt F))).Forall fun op => op.fresh = ∅ :=
  List.forall_append.2 ⟨List.forall_append.2 ⟨List.forall_append.2 ⟨List.forall_append.2 ⟨List.forall_append.2
    ⟨List.forall_append.2 ⟨P0_fresh, P1_fresh⟩, L0_fresh⟩, L1_fresh⟩, L2_fresh⟩, L3_fresh⟩, P2_fresh⟩

theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = StableHlo.after (P0 ++ P1 ++ L0 ++ L1 ++ L2 ++ L3 ++ P2) (launchContents m c) (Proc.devRef .tc b) :=
  run_seq scopedRefs_eq scopedSems_eq defs main (fun _ => P0 ++ P1 ++ L0 ++ L1 ++ L2 ++ L3 ++ P2) main_eq
    (fun _ => all_sub) m ρ (fun _ => List.forall_iff_forall_mem.1 all_fresh)

section Keep

variable (V : Valuation τ sig (Elt F)) {r : Ref sig .tc}

def WritesIn (ops : List (HloOp τ sig (Elt F))) (W : List (Ref sig .tc)) : Prop :=
  ops.Forall fun op => op.writes ⊆ (W.map (Proc.devRef (τ := τ) .tc)).toFinset

theorem all_writes : WritesIn (F := F) P0 P0_W ∧ WritesIn (F := F) P1 P1_W ∧ WritesIn (F := F) L0 L0_W ∧ WritesIn (F := F) L1 L1_W ∧ WritesIn (F := F) L2 L2_W ∧ WritesIn (F := F) L3 L3_W ∧ WritesIn (F := F) P2 P2_W := by
  unfold WritesIn P0 P1 L0 L1 L2 L3 P2
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem P0_keep (h : r ∉ P0_W) : StableHlo.after P0 V (Proc.devRef .tc r) = V (Proc.devRef .tc r) :=
  StableHlo.after_of_writes_sub P0 V all_writes.1 h
theorem P1_keep (h : r ∉ P1_W) : StableHlo.after P1 V (Proc.devRef .tc r) = V (Proc.devRef .tc r) :=
  StableHlo.after_of_writes_sub P1 V all_writes.2.1 h
theorem L0_keep (h : r ∉ L0_W) : StableHlo.after L0 V (Proc.devRef .tc r) = V (Proc.devRef .tc r) :=
  StableHlo.after_of_writes_sub L0 V all_writes.2.2.1 h
theorem L1_keep (h : r ∉ L1_W) : StableHlo.after L1 V (Proc.devRef .tc r) = V (Proc.devRef .tc r) :=
  StableHlo.after_of_writes_sub L1 V all_writes.2.2.2.1 h
theorem L2_keep (h : r ∉ L2_W) : StableHlo.after L2 V (Proc.devRef .tc r) = V (Proc.devRef .tc r) :=
  StableHlo.after_of_writes_sub L2 V all_writes.2.2.2.2.1 h
theorem L3_keep (h : r ∉ L3_W) : StableHlo.after L3 V (Proc.devRef .tc r) = V (Proc.devRef .tc r) :=
  StableHlo.after_of_writes_sub L3 V all_writes.2.2.2.2.2.1 h
theorem P2_keep (h : r ∉ P2_W) : StableHlo.after P2 V (Proc.devRef .tc r) = V (Proc.devRef .tc r) :=
  StableHlo.after_of_writes_sub P2 V all_writes.2.2.2.2.2.2 h

end Keep

section Stages

variable (V : Valuation τ sig (Elt F))

abbrev W1 : Valuation τ sig (Elt F) := StableHlo.after P0 V
abbrev W2 : Valuation τ sig (Elt F) := StableHlo.after P1 (W1 V)
abbrev W3 : Valuation τ sig (Elt F) := StableHlo.after L0 (W2 V)
abbrev W4 : Valuation τ sig (Elt F) := StableHlo.after L1 (W3 V)
abbrev W5 : Valuation τ sig (Elt F) := StableHlo.after L2 (W4 V)
abbrev W6 : Valuation τ sig (Elt F) := StableHlo.after L3 (W5 V)
abbrev W7 : Valuation τ sig (Elt F) := StableHlo.after P2 (W6 V)

theorem after_all : StableHlo.after (P0 ++ P1 ++ L0 ++ L1 ++ L2 ++ L3 ++ P2) V = W7 V := by
  simp only [StableHlo.after_append]

theorem W7_keep {r : Ref sig .tc} (h : r ∉ P0_W ++ P1_W ++ L0_W ++ L1_W ++ L2_W ++ L3_W ++ P2_W) :
    W7 V (Proc.devRef .tc r) = V (Proc.devRef .tc r) := by
  simp only [List.mem_append, not_or] at h
  rw [W7, P2_keep _ h.2, W6, L3_keep _ h.1.2, W5, L2_keep _ h.1.1.2, W4, L1_keep _ h.1.1.1.2, W3, L0_keep _ h.1.1.1.1.2, W2,
    P1_keep _ h.1.1.1.1.1.2, W1, P0_keep _ h.1.1.1.1.1.1]

end Stages

end Cert.ReferenceIdeal.RunHand

end
-- ==== Proof.RefRead.lean ====
import proofs.«101364_j7567732376252_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws
noncomputable section
namespace Cert.ReferenceIdeal.ReadP
open Cert.ReferenceIdeal Cert.ReferenceIdeal.Gen Idealize.ShloMosaic Idealize.ShloMosaic.TcCoe Idealize.SL.Sem Idealize.ShloMosaic.StableHlo
variable {F : FTy → Type} [FloatOps F]
def val_main_v0 (x9 : (⟨S2x600000, .i32⟩ : BufTy).Contents (Elt F)) : (⟨S1x600000, .i32⟩ : BufTy).Contents (Elt F) :=
  extractStridedSlice S1x600000 ![0, 0] (x9) slices_S2x600000_S1x600000_0_0
def val_main_v1 (x9 : (⟨S2x600000, .i32⟩ : BufTy).Contents (Elt F)) : (⟨S600000, .i32⟩ : BufTy).Contents (Elt F) :=
  shapeCast _ (val_main_v0 (F := F) x9) shapeCasts_S1x600000_S600000
def val_main_v2 (x9 : (⟨S2x600000, .i32⟩ : BufTy).Contents (Elt F)) : (⟨S1x600000, .i32⟩ : BufTy).Contents (Elt F) :=
  extractStridedSlice S1x600000 ![1, 0] (x9) slices_S2x600000_S1x600000_1_0
def val_main_v3 (x9 : (⟨S2x600000, .i32⟩ : BufTy).Contents (Elt F)) : (⟨S600000, .i32⟩ : BufTy).Contents (Elt F) :=
  shapeCast _ (val_main_v2 (F := F) x9) shapeCasts_S1x600000_S600000
def val_main_cst : (⟨S_, .f32⟩ : BufTy).Contents (Elt F) :=
  constant S_ .f32 0x00000000#32
def val_main_v4 : (⟨S50000, .f32⟩ : BufTy).Contents (Elt F) :=
  broadcastInDim S50000 ![] bcast_S_S50000 (val_main_cst (F := F))
def val_main_c : (⟨S_, .i32⟩ : BufTy).Contents (Elt F) :=
  constantI S_ 32 0#32
def val_main_v5 : (⟨S600000, .i32⟩ : BufTy).Contents (Elt F) :=
  broadcastInDim S600000 ![] bcast_S_S600000 (val_main_c (F := F))
def val_main_v6 (x9 : (⟨S2x600000, .i32⟩ : BufTy).Contents (Elt F)) : (⟨S600000, .i1⟩ : BufTy).Contents (Elt F) :=
  cmpi .slt (val_main_v3 (F := F) x9) (val_main_v5 (F := F))
def val_main_c_0 : (⟨S_, .i32⟩ : BufTy).Contents (Elt F) :=
  constantI S_ 32 50000#32
def val_main_v7 : (⟨S600000, .i32⟩ : BufTy).Contents (Elt F) :=
  broadcastInDim S600000 ![] bcast_S_S600000 (val_main_c_0 (F := F))
def val_main_v8 (x9 : (⟨S2x600000, .i32⟩ : BufTy).Contents (Elt F)) : (⟨S600000, .i32⟩ : BufTy).Contents (Elt F) :=
  addi (val_main_v3 (F := F) x9) (val_main_v7 (F := F))
def val_main_v9 (x9 : (⟨S2x600000, .i32⟩ : BufTy).Contents (Elt F)) : (⟨S600000, .i32⟩ : BufTy).Contents (Elt F) :=
  select (val_main_v6 (F := F) x9) (val_main_v8 (F := F) x9) (val_main_v3 (F := F) x9)
def val_main_v10 (x9 : (⟨S2x600000, .i32⟩ : BufTy).Contents (Elt F)) : (⟨S600000x1, .i32⟩ : BufTy).Contents (Elt F) :=
  broadcastInDim S600000x1 ![0] bcast_S600000_S600000x1_0 (val_main_v9 (F := F) x9)
def val_main_cst_1 : (⟨S_, .f32⟩ : BufTy).Contents (Elt F) :=
  constant S_ .f32 0x3F800000#32
def val_main_v11 : (⟨S600000, .f32⟩ : BufTy).Contents (Elt F) :=
  broadcastInDim S600000 ![] bcast_S_S600000 (val_main_cst_1 (F := F))
def val_main_v12 (x9 : (⟨S2x600000, .i32⟩ : BufTy).Contents (Elt F)) : (⟨S50000, .f32⟩ : BufTy).Contents (Elt F) :=
  Host.scatterAdd scatter_S50000_S600000x1_S600000_n_0_0_1 (val_main_v4 (F := F)) (val_main_v10 (F := F) x9) (val_main_v11 (F := F))
def val_main_cst_2 : (⟨S_, .f32⟩ : BufTy).Contents (Elt F) :=
  constant S_ .f32 0x3F800000#32
def val_main_v13 : (⟨S50000, .f32⟩ : BufTy).Contents (Elt F) :=
  broadcastInDim S50000 ![] bcast_S_S50000 (val_main_cst_2 (F := F))
def val_main_v14 (x9 : (⟨S2x600000, .i32⟩ : BufTy).Contents (Elt F)) : (⟨S50000, .f32⟩ : BufTy).Contents (Elt F) :=
  addf (val_main_v12 (F := F) x9) (val_main_v13 (F := F))
def val_main_v15 (x9 : (⟨S2x600000, .i32⟩ : BufTy).Contents (Elt F)) : (⟨S50000, .f32⟩ : BufTy).Contents (Elt F) :=
  Host.rsqrt (val_main_v14 (F := F) x9)
def val_main_c_3 : (⟨S_, .i32⟩ : BufTy).Contents (Elt F) :=
  constantI S_ 32 0#32
def val_main_v16 : (⟨S600000, .i32⟩ : BufTy).Contents (Elt F) :=
  broadcastInDim S600000 ![] bcast_S_S600000 (val_main_c_3 (F := F))
def val_main_v17 (x9 : (⟨S2x600000, .i32⟩ : BufTy).Contents (Elt F)) : (⟨S600000, .i1⟩ : BufTy).Contents (Elt F) :=
  cmpi .slt (val_main_v1 (F := F) x9) (val_main_v16 (F := F))
def val_main_c_4 : (⟨S_, .i32⟩ : BufTy).Contents (Elt F) :=
  constantI S_ 32 50000#32
def val_main_v18 : (⟨S600000, .i32⟩ : BufTy).Contents (Elt F) :=
  broadcastInDim S600000 ![] bcast_S_S600000 (val_main_c_4 (F := F))
def val_main_v19 (x9 : (⟨S2x600000, .i32⟩ : BufTy).Contents (Elt F)) : (⟨S600000, .i32⟩ : BufTy).Contents (Elt F) :=
  addi (val_main_v1 (F := F) x9) (val_main_v18 (F := F))
def val_main_v20 (x9 : (⟨S2x600000, .i32⟩ : BufTy).Contents (Elt F)) : (⟨S600000, .i32⟩ : BufTy).Contents (Elt F) :=
  select (val_main_v17 (F := F) x9) (val_main_v19 (F := F) x9) (val_main_v1 (F := F) x9)
def val_main_v21 (x9 : (⟨S2x600000, .i32⟩ : BufTy).Contents (Elt F)) : (⟨S600000x1, .i32⟩ : BufTy).Contents (Elt F) :=
  broadcastInDim S600000x1 ![0] bcast_S600000_S600000x1_0 (val_main_v20 (F := F) x9)
def val_main_v22 (x9 : (⟨S2x600000, .i32⟩ : BufTy).Contents (Elt F)) : (⟨S600000, .f32⟩ : BufTy).Contents (Elt F) :=
  Host.gather gather_S50000_S600000x1_S600000_n_0_n_n_0_1_1 (val_main_v15 (F := F) x9) (val_main_v21 (F := F) x9)
def val_main_c_5 : (⟨S_, .i32⟩ : BufTy).Contents (Elt F) :=
  constantI S_ 32 0#32
def val_main_v23 : (⟨S600000, .i32⟩ : BufTy).Contents (Elt F) :=
  broadcastInDim S600000 ![] bcast_S_S600000 (val_main_c_5 (F := F))
def val_main_v24 (x9 : (⟨S2x600000, .i32⟩ : BufTy).Contents (Elt F)) : (⟨S600000, .i1⟩ : BufTy).Contents (Elt F) :=
  cmpi .slt (val_main_v3 (F := F) x9) (val_main_v23 (F := F))
def val_main_c_6 : (⟨S_, .i32⟩ : BufTy).Contents (Elt F) :=
  constantI S_ 32 50000#32
def val_main_v25 : (⟨S600000, .i32⟩ : BufTy).Contents (Elt F) :=
  broadcastInDim S600000 ![] bcast_S_S600000 (val_main_c_6 (F := F))
def val_main_v26 (x9 : (⟨S2x600000, .i32⟩ : BufTy).Contents (Elt F)) : (⟨S600000, .i32⟩ : BufTy).Contents (Elt F) :=
  addi (val_main_v3 (F := F) x9) (val_main_v25 (F := F))
def val_main_v27 (x9 : (⟨S2x600000, .i32⟩ : BufTy).Contents (Elt F)) : (⟨S600000, .i32⟩ : BufTy).Contents (Elt F) :=
  select (val_main_v24 (F := F) x9) (val_main_v26 (F := F) x9) (val_main_v3 (F := F) x9)
def val_main_v28 (x9 : (⟨S2x600000, .i32⟩ : BufTy).Contents (Elt F)) : (⟨S600000x1, .i32⟩ : BufTy).Contents (Elt F) :=
  broadcastInDim S600000x1 ![0] bcast_S600000_S600000x1_0 (val_main_v27 (F := F) x9)
def val_main_v29 (x9 : (⟨S2x600000, .i32⟩ : BufTy).Contents (Elt F)) : (⟨S600000, .f32⟩ : BufTy).Contents (Elt F) :=
  Host.gather gather_S50000_S600000x1_S600000_n_0_n_n_0_1_1 (val_main_v15 (F := F) x9) (val_main_v28 (F := F) x9)
def val_main_v30 (x9 : (⟨S2x600000, .i32⟩ : BufTy).Contents (Elt F)) : (⟨S600000, .f32⟩ : BufTy).Contents (Elt F) :=
  mulf (val_main_v22 (F := F) x9) (val_main_v29 (F := F) x9)
def val_main_v31 (x9 : (⟨S2x600000, .i32⟩ : BufTy).Contents (Elt F)) : (⟨S50000, .f32⟩ : BufTy).Contents (Elt F) :=
  mulf (val_main_v15 (F := F) x9) (val_main_v15 (F := F) x9)
def val_main_v32 (x0 : (⟨S50000x128, .f32⟩ : BufTy).Contents (Elt F)) (x1 : (⟨S128x128, .f32⟩ : BufTy).Contents (Elt F)) : (⟨S50000x128, .f32⟩ : BufTy).Contents (Elt F) :=
  Host.dotGeneral dot_S50000x128_S128x128_S50000x128_1_0_0_1_n_n none (x0) (x1)
theorem lhs_main_v32_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v32_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v32_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v32_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v32 (i : S50000x128.Idx) (k : Fin 128) : S50000x128.Idx := fun a => match a with
  | ⟨0, _⟩ => ⟨(i 0).val, (i 0).isLt⟩
  | ⟨1, _⟩ => ⟨k.val, k.isLt⟩
abbrev ridx_main_v32 (i : S50000x128.Idx) (k : Fin 128) : S128x128.Idx := fun a => match a with
  | ⟨0, _⟩ => ⟨k.val, k.isLt⟩
  | ⟨1, _⟩ => ⟨(i 1).val, (i 1).isLt⟩
theorem val_main_v32_apply (x0 : (⟨S50000x128, .f32⟩ : BufTy).Contents (Elt Ideal)) (x1 : (⟨S128x128, .f32⟩ : BufTy).Contents (Elt Ideal)) (i : S50000x128.Idx) :
    val_main_v32 (F := Ideal) x0 x1 i = ∑ k : Fin 128, x0 (lidx_main_v32 i k) * x1 (ridx_main_v32 i k) := by
  unfold val_main_v32
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v32 i k := funext fun a => Fin.ext (by
    match a with
    | ⟨0, _⟩ => exact lhs_main_v32_0 _ _
    | ⟨1, _⟩ => exact (lhs_main_v32_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v32 i k := funext fun a => Fin.ext (by
    match a with
    | ⟨0, _⟩ => exact (rhs_main_v32_0 _ _).trans hk
    | ⟨1, _⟩ => exact rhs_main_v32_1 _ _)
  rw [el, er]
def val_main_v33 (x2 : (⟨S128, .f32⟩ : BufTy).Contents (Elt F)) : (⟨S1x128, .f32⟩ : BufTy).Contents (Elt F) :=
  broadcastInDim S1x128 ![1] bcast_S128_S1x128_1 (x2)
def val_main_v34 (x2 : (⟨S128, .f32⟩ : BufTy).Contents (Elt F)) : (⟨S50000x128, .f32⟩ : BufTy).Contents (Elt F) :=
  broadcastInDim S50000x128 ![0, 1] bcast_S1x128_S50000x128_0_1 (val_main_v33 (F := F) x2)
def val_main_v35 (x0 : (⟨S50000x128, .f32⟩ : BufTy).Contents (Elt F)) (x1 : (⟨S128x128, .f32⟩ : BufTy).Contents (Elt F)) (x2 : (⟨S128, .f32⟩ : BufTy).Contents (Elt F)) : (⟨S50000x128, .f32⟩ : BufTy).Contents (Elt F) :=
  addf (val_main_v32 (F := F) x0 x1) (val_main_v34 (F := F) x2)
def val_main_cst_7 : (⟨S_, .f32⟩ : BufTy).Contents (Elt F) :=
  constant S_ .f32 0x00000000#32
def val_main_v36 : (⟨S50000x128, .f32⟩ : BufTy).Contents (Elt F) :=
  broadcastInDim S50000x128 ![] bcast_S_S50000x128 (val_main_cst_7 (F := F))
def val_main_v37 (x3 : (⟨S4x128x128, .f32⟩ : BufTy).Contents (Elt F)) : (⟨S1x128x128, .f32⟩ : BufTy).Contents (Elt F) :=
  extractStridedSlice S1x128x128 ![0, 0, 0] (x3) slices_S4x128x128_S1x128x128_0_0_0
def val_main_v38 (x3 : (⟨S4x128x128, .f32⟩ : BufTy).Contents (Elt F)) : (⟨S128x128, .f32⟩ : BufTy).Contents (Elt F) :=
  shapeCast _ (val_main_v37 (F := F) x3) shapeCasts_S1x128x128_S128x128
def val_main_v39 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) : (⟨S50000x128, .f32⟩ : BufTy).Contents (Elt F) :=
  Host.dotGeneral dot_S50000x128_S128x128_S50000x128_1_0_0_1_n_n none (val_main_v35 (F := F) x0 x1 x2) (val_main_v38 (F := F) x3)
def val_main_c_8 : (⟨S_, .i32⟩ : BufTy).Contents (Elt F) :=
  constantI S_ 32 0#32
def val_main_v40 : (⟨S600000, .i32⟩ : BufTy).Contents (Elt F) :=
  broadcastInDim S600000 ![] bcast_S_S600000 (val_main_c_8 (F := F))
def val_main_v41 (x9 : (⟨S2x600000, .i32⟩ : BufTy).Contents (Elt F)) : (⟨S600000, .i1⟩ : BufTy).Contents (Elt F) :=
  cmpi .slt (val_main_v1 (F := F) x9) (val_main_v40 (F := F))
def val_main_c_9 : (⟨S_, .i32⟩ : BufTy).Contents (Elt F) :=
  constantI S_ 32 50000#32
def val_main_v42 : (⟨S600000, .i32⟩ : BufTy).Contents (Elt F) :=
  broadcastInDim S600000 ![] bcast_S_S600000 (val_main_c_9 (F := F))
def val_main_v43 (x9 : (⟨S2x600000, .i32⟩ : BufTy).Contents (Elt F)) : (⟨S600000, .i32⟩ : BufTy).Contents (Elt F) :=
  addi (val_main_v1 (F := F) x9) (val_main_v42 (F := F))
def val_main_v44 (x9 : (⟨S2x600000, .i32⟩ : BufTy).Contents (Elt F)) : (⟨S600000, .i32⟩ : BufTy).Contents (Elt F) :=
  select (val_main_v41 (F := F) x9) (val_main_v43 (F := F) x9) (val_main_v1 (F := F) x9)
def val_main_v45 (x9 : (⟨S2x600000, .i32⟩ : BufTy).Contents (Elt F)) : (⟨S600000x1, .i32⟩ : BufTy).Contents (Elt F) :=
  broadcastInDim S600000x1 ![0] bcast_S600000_S600000x1_0 (val_main_v44 (F := F) x9)
def val_main_v46 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x9 : (⟨S2x600000, .i32⟩ : BufTy).Contents (Elt F)) : (⟨S600000x128, .f32⟩ : BufTy).Contents (Elt F) :=
  Host.gather gather_S50000x128_S600000x1_S600000x128_1_0_n_n_0_1_1128 (val_main_v39 (F := F) x0 x1 x2 x3) (val_main_v45 (F := F) x9)
def val_main_v47 (x9 : (⟨S2x600000, .i32⟩ : BufTy).Contents (Elt F)) : (⟨S600000x1, .f32⟩ : BufTy).Contents (Elt F) :=
  broadcastInDim S600000x1 ![0] bcast_S600000_S600000x1_0 (val_main_v30 (F := F) x9)
def val_main_v48 (x9 : (⟨S2x600000, .i32⟩ : BufTy).Contents (Elt F)) : (⟨S600000x128, .f32⟩ : BufTy).Contents (Elt F) :=
  broadcastInDim S600000x128 ![0, 1] bcast_S600000x1_S600000x128_0_1 (val_main_v47 (F := F) x9)
def val_main_v49 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x9 : (⟨S2x600000, .i32⟩ : BufTy).Contents (Elt F)) : (⟨S600000x128, .f32⟩ : BufTy).Contents (Elt F) :=
  mulf (val_main_v46 (F := F) x0 x1 x2 x3 x9) (val_main_v48 (F := F) x9)
def val_main_cst_10 : (⟨S_, .f32⟩ : BufTy).Contents (Elt F) :=
  constant S_ .f32 0x00000000#32
def val_main_v50 : (⟨S50000x128, .f32⟩ : BufTy).Contents (Elt F) :=
  broadcastInDim S50000x128 ![] bcast_S_S50000x128 (val_main_cst_10 (F := F))
def val_main_v51 (x9 : (⟨S2x600000, .i32⟩ : BufTy).Contents (Elt F)) : (⟨S600000x1, .i32⟩ : BufTy).Contents (Elt F) :=
  broadcastInDim S600000x1 ![0] bcast_S600000_S600000x1_0 (val_main_v3 (F := F) x9)
def val_main_v52 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x9 : (⟨S2x600000, .i32⟩ : BufTy).Contents (Elt F)) : (⟨S50000x128, .f32⟩ : BufTy).Contents (Elt F) :=
  Host.scatterAdd scatter_S50000x128_S600000x1_S600000x128_1_0_0_1 (val_main_v50 (F := F)) (val_main_v51 (F := F) x9) (val_main_v49 (F := F) x0 x1 x2 x3 x9)
def val_main_v53 (x9 : (⟨S2x600000, .i32⟩ : BufTy).Contents (Elt F)) : (⟨S50000x1, .f32⟩ : BufTy).Contents (Elt F) :=
  broadcastInDim S50000x1 ![0] bcast_S50000_S50000x1_0 (val_main_v31 (F := F) x9)
def val_main_v54 (x9 : (⟨S2x600000, .i32⟩ : BufTy).Contents (Elt F)) : (⟨S50000x128, .f32⟩ : BufTy).Contents (Elt F) :=
  broadcastInDim S50000x128 ![0, 1] bcast_S50000x1_S50000x128_0_1 (val_main_v53 (F := F) x9)
def val_main_v55 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x9 : (⟨S2x600000, .i32⟩ : BufTy).Contents (Elt F)) : (⟨S50000x128, .f32⟩ : BufTy).Contents (Elt F) :=
  mulf (val_main_v39 (F := F) x0 x1 x2 x3) (val_main_v54 (F := F) x9)
def val_main_v56 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x9 : (⟨S2x600000, .i32⟩ : BufTy).Contents (Elt F)) : (⟨S50000x128, .f32⟩ : BufTy).Contents (Elt F) :=
  addf (val_main_v52 (F := F) x0 x1 x2 x3 x9) (val_main_v55 (F := F) x0 x1 x2 x3 x9)
def val_main_v57 (x4 : (⟨S4x128, .f32⟩ : BufTy).Contents (Elt F)) : (⟨S1x128, .f32⟩ : BufTy).Contents (Elt F) :=
  extractStridedSlice S1x128 ![0, 0] (x4) slices_S4x128_S1x128_0_0
def val_main_v58 (x4 : (⟨S4x128, .f32⟩ : BufTy).Contents (Elt F)) : (⟨S128, .f32⟩ : BufTy).Contents (Elt F) :=
  shapeCast _ (val_main_v57 (F := F) x4) shapeCasts_S1x128_S128
def val_main_v59 (x4 : (⟨S4x128, .f32⟩ : BufTy).Contents (Elt F)) : (⟨S1x128, .f32⟩ : BufTy).Contents (Elt F) :=
  broadcastInDim S1x128 ![1] bcast_S128_S1x128_1 (val_main_v58 (F := F) x4)
def val_main_v60 (x4 : (⟨S4x128, .f32⟩ : BufTy).Contents (Elt F)) : (⟨S50000x128, .f32⟩ : BufTy).Contents (Elt F) :=
  broadcastInDim S50000x128 ![0, 1] bcast_S1x128_S50000x128_0_1 (val_main_v59 (F := F) x4)
def val_main_v61 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  addf (val_main_v56 (F := F) x0 x1 x2 x3 x9) (val_main_v60 (F := F) x4)
def val_main_cst_11 : (⟨S_, .f32⟩ : BufTy).Contents (Elt F) :=
  constant S_ .f32 0x00000000#32
def val_main_v62 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S128, .f32⟩ : BufTy).Contents (Elt F) :=
  Host.reduceAdd (val_main_v61 (F := F) x0 x1 x2 x3 x4 x9) (val_main_cst_11 (F := F)) reducesTo_S50000x128_S128_d0 h_S_
def val_main_cst_12 : (⟨S_, .f32⟩ : BufTy).Contents (Elt F) :=
  constant S_ .f32 0x47435000#32
def val_main_v63 : (⟨S128, .f32⟩ : BufTy).Contents (Elt F) :=
  broadcastInDim S128 ![] bcast_S_S128 (val_main_cst_12 (F := F))
def val_main_v64 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S128, .f32⟩ : BufTy).Contents (Elt F) :=
  Host.divf (val_main_v62 (F := F) x0 x1 x2 x3 x4 x9) (val_main_v63 (F := F))
def val_main_v65 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v64 (F := F) x0 x1 x2 x3 x4 x9)
def val_main_v66 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v65 (F := F) x0 x1 x2 x3 x4 x9)
def val_main_v67 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  subf (val_main_v61 (F := F) x0 x1 x2 x3 x4 x9) (val_main_v66 (F := F) x0 x1 x2 x3 x4 x9)
def val_main_v68 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  mulf (val_main_v67 (F := F) x0 x1 x2 x3 x4 x9) (val_main_v67 (F := F) x0 x1 x2 x3 x4 x9)
def val_main_cst_13 : (⟨S_, .f32⟩ : BufTy).Contents (Elt F) :=
  constant S_ .f32 0x00000000#32
def val_main_v69 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S128, .f32⟩ : BufTy).Contents (Elt F) :=
  Host.reduceAdd (val_main_v68 (F := F) x0 x1 x2 x3 x4 x9) (val_main_cst_13 (F := F)) reducesTo_S50000x128_S128_d0 h_S_
def val_main_cst_14 : (⟨S_, .f32⟩ : BufTy).Contents (Elt F) :=
  constant S_ .f32 0x47435000#32
def val_main_v70 : (⟨S128, .f32⟩ : BufTy).Contents (Elt F) :=
  broadcastInDim S128 ![] bcast_S_S128 (val_main_cst_14 (F := F))
def val_main_v71 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S128, .f32⟩ : BufTy).Contents (Elt F) :=
  Host.divf (val_main_v69 (F := F) x0 x1 x2 x3 x4 x9) (val_main_v70 (F := F))
def val_main_v72 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v64 (F := F) x0 x1 x2 x3 x4 x9)
def val_main_v73 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v72 (F := F) x0 x1 x2 x3 x4 x9)
def val_main_v74 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  subf (val_main_v61 (F := F) x0 x1 x2 x3 x4 x9) (val_main_v73 (F := F) x0 x1 x2 x3 x4 x9)
def val_main_cst_15 : (⟨S_, .f32⟩ : BufTy).Contents (Elt F) :=
  constant S_ .f32 0x3727C5AC#32
def val_main_v75 : (⟨S128, .f32⟩ : BufTy).Contents (Elt F) :=
  broadcastInDim S128 ![] bcast_S_S128 (val_main_cst_15 (F := F))
def val_main_v76 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S128, .f32⟩ : BufTy).Contents (Elt F) :=
  addf (val_main_v71 (F := F) x0 x1 x2 x3 x4 x9) (val_main_v75 (F := F))
def val_main_v77 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S128, .f32⟩ : BufTy).Contents (Elt F) :=
  Host.rsqrt (val_main_v76 (F := F) x0 x1 x2 x3 x4 x9)
def val_main_v78 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v77 (F := F) x0 x1 x2 x3 x4 x9)
def val_main_v79 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v78 (F := F) x0 x1 x2 x3 x4 x9)
def val_main_v80 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 : (⟨S4x128, .f32⟩ : BufTy).Contents (Elt F)) (x9 : (⟨S2x600000, .i32⟩ : BufTy).Contents (Elt F)) : (⟨S50000x128, .f32⟩ : BufTy).Contents (Elt F) :=
  mulf (val_main_v74 (F := F) x0 x1 x2 x3 x4 x9) (val_main_v79 (F := F) x0 x1 x2 x3 x4 x9)
def val_main_v81 (x5 : (⟨S4x128, .f32⟩ : BufTy).Contents (Elt F)) : (⟨S1x128, .f32⟩ : BufTy).Contents (Elt F) :=
  extractStridedSlice S1x128 ![0, 0] (x5) slices_S4x128_S1x128_0_0
def val_main_v82 (x5 : (⟨S4x128, .f32⟩ : BufTy).Contents (Elt F)) : (⟨S128, .f32⟩ : BufTy).Contents (Elt F) :=
  shapeCast _ (val_main_v81 (F := F) x5) shapeCasts_S1x128_S128
def val_main_v83 (x5 : (⟨S4x128, .f32⟩ : BufTy).Contents (Elt F)) : (⟨S1x128, .f32⟩ : BufTy).Contents (Elt F) :=
  broadcastInDim S1x128 ![1] bcast_S128_S1x128_1 (val_main_v82 (F := F) x5)
def val_main_v84 (x5 : (⟨S4x128, .f32⟩ : BufTy).Contents (Elt F)) : (⟨S50000x128, .f32⟩ : BufTy).Contents (Elt F) :=
  broadcastInDim S50000x128 ![0, 1] bcast_S1x128_S50000x128_0_1 (val_main_v83 (F := F) x5)
def val_main_v85 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 : (⟨S4x128, .f32⟩ : BufTy).Contents (Elt F)) (x9 : (⟨S2x600000, .i32⟩ : BufTy).Contents (Elt F)) : (⟨S50000x128, .f32⟩ : BufTy).Contents (Elt F) :=
  mulf (val_main_v80 (F := F) x0 x1 x2 x3 x4 x9) (val_main_v84 (F := F) x5)
def val_main_v86 (x6 : (⟨S4x128, .f32⟩ : BufTy).Contents (Elt F)) : (⟨S1x128, .f32⟩ : BufTy).Contents (Elt F) :=
  extractStridedSlice S1x128 ![0, 0] (x6) slices_S4x128_S1x128_0_0
def val_main_v87 (x6 : (⟨S4x128, .f32⟩ : BufTy).Contents (Elt F)) : (⟨S128, .f32⟩ : BufTy).Contents (Elt F) :=
  shapeCast _ (val_main_v86 (F := F) x6) shapeCasts_S1x128_S128
def val_main_v88 (x6 : (⟨S4x128, .f32⟩ : BufTy).Contents (Elt F)) : (⟨S1x128, .f32⟩ : BufTy).Contents (Elt F) :=
  broadcastInDim S1x128 ![1] bcast_S128_S1x128_1 (val_main_v87 (F := F) x6)
def val_main_v89 (x6 : (⟨S4x128, .f32⟩ : BufTy).Contents (Elt F)) : (⟨S50000x128, .f32⟩ : BufTy).Contents (Elt F) :=
  broadcastInDim S50000x128 ![0, 1] bcast_S1x128_S50000x128_0_1 (val_main_v88 (F := F) x6)
def val_main_v90 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v85 (F := F) x0 x1 x2 x3 x4 x5 x9) (val_main_v89 (F := F) x6)
def val_main_call0_cst : (⟨S_, .f32⟩ : BufTy).Contents (Elt F) :=
  constant S_ .f32 0x00000000#32
def val_main_call0_v0 : (⟨S50000x128, .f32⟩ : BufTy).Contents (Elt F) :=
  broadcastInDim S50000x128 ![] bcast_S_S50000x128 (val_main_call0_cst (F := F))
def val_main_v91 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  maximumf (val_main_v90 (F := F) x0 x1 x2 x3 x4 x5 x6 x9) (val_main_call0_v0 (F := F))
def val_main_v92 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v36 (F := F)) (val_main_v91 (F := F) x0 x1 x2 x3 x4 x5 x6 x9)
def val_main_v93 (x3 : (⟨S4x128x128, .f32⟩ : BufTy).Contents (Elt F)) : (⟨S1x128x128, .f32⟩ : BufTy).Contents (Elt F) :=
  extractStridedSlice S1x128x128 ![1, 0, 0] (x3) slices_S4x128x128_S1x128x128_1_0_0
def val_main_v94 (x3 : (⟨S4x128x128, .f32⟩ : BufTy).Contents (Elt F)) : (⟨S128x128, .f32⟩ : BufTy).Contents (Elt F) :=
  shapeCast _ (val_main_v93 (F := F) x3) shapeCasts_S1x128x128_S128x128
def val_main_v95 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  Host.dotGeneral dot_S50000x128_S128x128_S50000x128_1_0_0_1_n_n none (val_main_v91 (F := F) x0 x1 x2 x3 x4 x5 x6 x9) (val_main_v94 (F := F) x3)
def val_main_c_16 : (⟨S_, .i32⟩ : BufTy).Contents (Elt F) :=
  constantI S_ 32 0#32
def val_main_v96 : (⟨S600000, .i32⟩ : BufTy).Contents (Elt F) :=
  broadcastInDim S600000 ![] bcast_S_S600000 (val_main_c_16 (F := F))
def val_main_v97 (x9 : (⟨S2x600000, .i32⟩ : BufTy).Contents (Elt F)) : (⟨S600000, .i1⟩ : BufTy).Contents (Elt F) :=
  cmpi .slt (val_main_v1 (F := F) x9) (val_main_v96 (F := F))
def val_main_c_17 : (⟨S_, .i32⟩ : BufTy).Contents (Elt F) :=
  constantI S_ 32 50000#32
def val_main_v98 : (⟨S600000, .i32⟩ : BufTy).Contents (Elt F) :=
  broadcastInDim S600000 ![] bcast_S_S600000 (val_main_c_17 (F := F))
def val_main_v99 (x9 : (⟨S2x600000, .i32⟩ : BufTy).Contents (Elt F)) : (⟨S600000, .i32⟩ : BufTy).Contents (Elt F) :=
  addi (val_main_v1 (F := F) x9) (val_main_v98 (F := F))
def val_main_v100 (x9 : (⟨S2x600000, .i32⟩ : BufTy).Contents (Elt F)) : (⟨S600000, .i32⟩ : BufTy).Contents (Elt F) :=
  select (val_main_v97 (F := F) x9) (val_main_v99 (F := F) x9) (val_main_v1 (F := F) x9)
def val_main_v101 (x9 : (⟨S2x600000, .i32⟩ : BufTy).Contents (Elt F)) : (⟨S600000x1, .i32⟩ : BufTy).Contents (Elt F) :=
  broadcastInDim S600000x1 ![0] bcast_S600000_S600000x1_0 (val_main_v100 (F := F) x9)
def val_main_v102 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S600000x128, .f32⟩ : BufTy).Contents (Elt F) :=
  Host.gather gather_S50000x128_S600000x1_S600000x128_1_0_n_n_0_1_1128 (val_main_v95 (F := F) x0 x1 x2 x3 x4 x5 x6 x9) (val_main_v101 (F := F) x9)
def val_main_v103 (x9 : (⟨S2x600000, .i32⟩ : BufTy).Contents (Elt F)) : (⟨S600000x1, .f32⟩ : BufTy).Contents (Elt F) :=
  broadcastInDim S600000x1 ![0] bcast_S600000_S600000x1_0 (val_main_v30 (F := F) x9)
def val_main_v104 (x9 : (⟨S2x600000, .i32⟩ : BufTy).Contents (Elt F)) : (⟨S600000x128, .f32⟩ : BufTy).Contents (Elt F) :=
  broadcastInDim S600000x128 ![0, 1] bcast_S600000x1_S600000x128_0_1 (val_main_v103 (F := F) x9)
def val_main_v105 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S600000x128, .f32⟩ : BufTy).Contents (Elt F) :=
  mulf (val_main_v102 (F := F) x0 x1 x2 x3 x4 x5 x6 x9) (val_main_v104 (F := F) x9)
def val_main_cst_18 : (⟨S_, .f32⟩ : BufTy).Contents (Elt F) :=
  constant S_ .f32 0x00000000#32
def val_main_v106 : (⟨S50000x128, .f32⟩ : BufTy).Contents (Elt F) :=
  broadcastInDim S50000x128 ![] bcast_S_S50000x128 (val_main_cst_18 (F := F))
def val_main_v107 (x9 : (⟨S2x600000, .i32⟩ : BufTy).Contents (Elt F)) : (⟨S600000x1, .i32⟩ : BufTy).Contents (Elt F) :=
  broadcastInDim S600000x1 ![0] bcast_S600000_S600000x1_0 (val_main_v3 (F := F) x9)
def val_main_v108 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  Host.scatterAdd scatter_S50000x128_S600000x1_S600000x128_1_0_0_1 (val_main_v106 (F := F)) (val_main_v107 (F := F) x9) (val_main_v105 (F := F) x0 x1 x2 x3 x4 x5 x6 x9)
def val_main_v109 (x9 : (⟨S2x600000, .i32⟩ : BufTy).Contents (Elt F)) : (⟨S50000x1, .f32⟩ : BufTy).Contents (Elt F) :=
  broadcastInDim S50000x1 ![0] bcast_S50000_S50000x1_0 (val_main_v31 (F := F) x9)
def val_main_v110 (x9 : (⟨S2x600000, .i32⟩ : BufTy).Contents (Elt F)) : (⟨S50000x128, .f32⟩ : BufTy).Contents (Elt F) :=
  broadcastInDim S50000x128 ![0, 1] bcast_S50000x1_S50000x128_0_1 (val_main_v109 (F := F) x9)
def val_main_v111 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v95 (F := F) x0 x1 x2 x3 x4 x5 x6 x9) (val_main_v110 (F := F) x9)
def val_main_v112 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v108 (F := F) x0 x1 x2 x3 x4 x5 x6 x9) (val_main_v111 (F := F) x0 x1 x2 x3 x4 x5 x6 x9)
def val_main_v113 (x4 : (⟨S4x128, .f32⟩ : BufTy).Contents (Elt F)) : (⟨S1x128, .f32⟩ : BufTy).Contents (Elt F) :=
  extractStridedSlice S1x128 ![1, 0] (x4) slices_S4x128_S1x128_1_0
def val_main_v114 (x4 : (⟨S4x128, .f32⟩ : BufTy).Contents (Elt F)) : (⟨S128, .f32⟩ : BufTy).Contents (Elt F) :=
  shapeCast _ (val_main_v113 (F := F) x4) shapeCasts_S1x128_S128
def val_main_v115 (x4 : (⟨S4x128, .f32⟩ : BufTy).Contents (Elt F)) : (⟨S1x128, .f32⟩ : BufTy).Contents (Elt F) :=
  broadcastInDim S1x128 ![1] bcast_S128_S1x128_1 (val_main_v114 (F := F) x4)
def val_main_v116 (x4 : (⟨S4x128, .f32⟩ : BufTy).Contents (Elt F)) : (⟨S50000x128, .f32⟩ : BufTy).Contents (Elt F) :=
  broadcastInDim S50000x128 ![0, 1] bcast_S1x128_S50000x128_0_1 (val_main_v115 (F := F) x4)
def val_main_v117 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v112 (F := F) x0 x1 x2 x3 x4 x5 x6 x9) (val_main_v116 (F := F) x4)
def val_main_cst_19 : (⟨S_, .f32⟩ : BufTy).Contents (Elt F) :=
  constant S_ .f32 0x00000000#32
def val_main_v118 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.reduceAdd (val_main_v117 (F := F) x0 x1 x2 x3 x4 x5 x6 x9) (val_main_cst_19 (F := F)) reducesTo_S50000x128_S128_d0 h_S_
def val_main_cst_20 : (⟨S_, .f32⟩ : BufTy).Contents (Elt F) :=
  constant S_ .f32 0x47435000#32
def val_main_v119 : (⟨S128, .f32⟩ : BufTy).Contents (Elt F) :=
  broadcastInDim S128 ![] bcast_S_S128 (val_main_cst_20 (F := F))
def val_main_v120 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.divf (val_main_v118 (F := F) x0 x1 x2 x3 x4 x5 x6 x9) (val_main_v119 (F := F))
def val_main_v121 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v120 (F := F) x0 x1 x2 x3 x4 x5 x6 x9)
def val_main_v122 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v121 (F := F) x0 x1 x2 x3 x4 x5 x6 x9)
def val_main_v123 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  subf (val_main_v117 (F := F) x0 x1 x2 x3 x4 x5 x6 x9) (val_main_v122 (F := F) x0 x1 x2 x3 x4 x5 x6 x9)
def val_main_v124 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v123 (F := F) x0 x1 x2 x3 x4 x5 x6 x9) (val_main_v123 (F := F) x0 x1 x2 x3 x4 x5 x6 x9)
def val_main_cst_21 : (⟨S_, .f32⟩ : BufTy).Contents (Elt F) :=
  constant S_ .f32 0x00000000#32
def val_main_v125 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.reduceAdd (val_main_v124 (F := F) x0 x1 x2 x3 x4 x5 x6 x9) (val_main_cst_21 (F := F)) reducesTo_S50000x128_S128_d0 h_S_
def val_main_cst_22 : (⟨S_, .f32⟩ : BufTy).Contents (Elt F) :=
  constant S_ .f32 0x47435000#32
def val_main_v126 : (⟨S128, .f32⟩ : BufTy).Contents (Elt F) :=
  broadcastInDim S128 ![] bcast_S_S128 (val_main_cst_22 (F := F))
def val_main_v127 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.divf (val_main_v125 (F := F) x0 x1 x2 x3 x4 x5 x6 x9) (val_main_v126 (F := F))
def val_main_v128 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v120 (F := F) x0 x1 x2 x3 x4 x5 x6 x9)
def val_main_v129 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v128 (F := F) x0 x1 x2 x3 x4 x5 x6 x9)
def val_main_v130 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  subf (val_main_v117 (F := F) x0 x1 x2 x3 x4 x5 x6 x9) (val_main_v129 (F := F) x0 x1 x2 x3 x4 x5 x6 x9)
def val_main_cst_23 : (⟨S_, .f32⟩ : BufTy).Contents (Elt F) :=
  constant S_ .f32 0x3727C5AC#32
def val_main_v131 : (⟨S128, .f32⟩ : BufTy).Contents (Elt F) :=
  broadcastInDim S128 ![] bcast_S_S128 (val_main_cst_23 (F := F))
def val_main_v132 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  addf (val_main_v127 (F := F) x0 x1 x2 x3 x4 x5 x6 x9) (val_main_v131 (F := F))
def val_main_v133 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.rsqrt (val_main_v132 (F := F) x0 x1 x2 x3 x4 x5 x6 x9)
def val_main_v134 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v133 (F := F) x0 x1 x2 x3 x4 x5 x6 x9)
def val_main_v135 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v134 (F := F) x0 x1 x2 x3 x4 x5 x6 x9)
def val_main_v136 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v130 (F := F) x0 x1 x2 x3 x4 x5 x6 x9) (val_main_v135 (F := F) x0 x1 x2 x3 x4 x5 x6 x9)
def val_main_v137 (x5 : (⟨S4x128, .f32⟩ : BufTy).Contents (Elt F)) : (⟨S1x128, .f32⟩ : BufTy).Contents (Elt F) :=
  extractStridedSlice S1x128 ![1, 0] (x5) slices_S4x128_S1x128_1_0
def val_main_v138 (x5 : (⟨S4x128, .f32⟩ : BufTy).Contents (Elt F)) : (⟨S128, .f32⟩ : BufTy).Contents (Elt F) :=
  shapeCast _ (val_main_v137 (F := F) x5) shapeCasts_S1x128_S128
def val_main_v139 (x5 : (⟨S4x128, .f32⟩ : BufTy).Contents (Elt F)) : (⟨S1x128, .f32⟩ : BufTy).Contents (Elt F) :=
  broadcastInDim S1x128 ![1] bcast_S128_S1x128_1 (val_main_v138 (F := F) x5)
def val_main_v140 (x5 : (⟨S4x128, .f32⟩ : BufTy).Contents (Elt F)) : (⟨S50000x128, .f32⟩ : BufTy).Contents (Elt F) :=
  broadcastInDim S50000x128 ![0, 1] bcast_S1x128_S50000x128_0_1 (val_main_v139 (F := F) x5)
def val_main_v141 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v136 (F := F) x0 x1 x2 x3 x4 x5 x6 x9) (val_main_v140 (F := F) x5)
def val_main_v142 (x6 : (⟨S4x128, .f32⟩ : BufTy).Contents (Elt F)) : (⟨S1x128, .f32⟩ : BufTy).Contents (Elt F) :=
  extractStridedSlice S1x128 ![1, 0] (x6) slices_S4x128_S1x128_1_0
def val_main_v143 (x6 : (⟨S4x128, .f32⟩ : BufTy).Contents (Elt F)) : (⟨S128, .f32⟩ : BufTy).Contents (Elt F) :=
  shapeCast _ (val_main_v142 (F := F) x6) shapeCasts_S1x128_S128
def val_main_v144 (x6 : (⟨S4x128, .f32⟩ : BufTy).Contents (Elt F)) : (⟨S1x128, .f32⟩ : BufTy).Contents (Elt F) :=
  broadcastInDim S1x128 ![1] bcast_S128_S1x128_1 (val_main_v143 (F := F) x6)
def val_main_v145 (x6 : (⟨S4x128, .f32⟩ : BufTy).Contents (Elt F)) : (⟨S50000x128, .f32⟩ : BufTy).Contents (Elt F) :=
  broadcastInDim S50000x128 ![0, 1] bcast_S1x128_S50000x128_0_1 (val_main_v144 (F := F) x6)
def val_main_v146 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v141 (F := F) x0 x1 x2 x3 x4 x5 x6 x9) (val_main_v145 (F := F) x6)
def val_main_cst_24 : (⟨S_, .f32⟩ : BufTy).Contents (Elt F) :=
  constant S_ .f32 0x3F000000#32
def val_main_v147 : (⟨S50000x128, .f32⟩ : BufTy).Contents (Elt F) :=
  broadcastInDim S50000x128 ![] bcast_S_S50000x128 (val_main_cst_24 (F := F))
def val_main_v148 (x0 : (⟨S50000x128, .f32⟩ : BufTy).Contents (Elt F)) (x1 : (⟨S128x128, .f32⟩ : BufTy).Contents (Elt F)) (x2 : (⟨S128, .f32⟩ : BufTy).Contents (Elt F)) : (⟨S50000x128, .f32⟩ : BufTy).Contents (Elt F) :=
  mulf (val_main_v147 (F := F)) (val_main_v35 (F := F) x0 x1 x2)
def val_main_v149 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v146 (F := F) x0 x1 x2 x3 x4 x5 x6 x9) (val_main_v148 (F := F) x0 x1 x2)
def val_main_call1_cst : (⟨S_, .f32⟩ : BufTy).Contents (Elt F) :=
  constant S_ .f32 0x00000000#32
def val_main_call1_v0 : (⟨S50000x128, .f32⟩ : BufTy).Contents (Elt F) :=
  broadcastInDim S50000x128 ![] bcast_S_S50000x128 (val_main_call1_cst (F := F))
def val_main_v150 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  maximumf (val_main_v149 (F := F) x0 x1 x2 x3 x4 x5 x6 x9) (val_main_call1_v0 (F := F))
def val_main_v151 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v92 (F := F) x0 x1 x2 x3 x4 x5 x6 x9) (val_main_v150 (F := F) x0 x1 x2 x3 x4 x5 x6 x9)
def val_main_v152 (x3 : (⟨S4x128x128, .f32⟩ : BufTy).Contents (Elt F)) : (⟨S1x128x128, .f32⟩ : BufTy).Contents (Elt F) :=
  extractStridedSlice S1x128x128 ![2, 0, 0] (x3) slices_S4x128x128_S1x128x128_2_0_0
def val_main_v153 (x3 : (⟨S4x128x128, .f32⟩ : BufTy).Contents (Elt F)) : (⟨S128x128, .f32⟩ : BufTy).Contents (Elt F) :=
  shapeCast _ (val_main_v152 (F := F) x3) shapeCasts_S1x128x128_S128x128
def val_main_v154 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  Host.dotGeneral dot_S50000x128_S128x128_S50000x128_1_0_0_1_n_n none (val_main_v150 (F := F) x0 x1 x2 x3 x4 x5 x6 x9) (val_main_v153 (F := F) x3)
def val_main_c_25 : (⟨S_, .i32⟩ : BufTy).Contents (Elt F) :=
  constantI S_ 32 0#32
def val_main_v155 : (⟨S600000, .i32⟩ : BufTy).Contents (Elt F) :=
  broadcastInDim S600000 ![] bcast_S_S600000 (val_main_c_25 (F := F))
def val_main_v156 (x9 : (⟨S2x600000, .i32⟩ : BufTy).Contents (Elt F)) : (⟨S600000, .i1⟩ : BufTy).Contents (Elt F) :=
  cmpi .slt (val_main_v1 (F := F) x9) (val_main_v155 (F := F))
def val_main_c_26 : (⟨S_, .i32⟩ : BufTy).Contents (Elt F) :=
  constantI S_ 32 50000#32
def val_main_v157 : (⟨S600000, .i32⟩ : BufTy).Contents (Elt F) :=
  broadcastInDim S600000 ![] bcast_S_S600000 (val_main_c_26 (F := F))
def val_main_v158 (x9 : (⟨S2x600000, .i32⟩ : BufTy).Contents (Elt F)) : (⟨S600000, .i32⟩ : BufTy).Contents (Elt F) :=
  addi (val_main_v1 (F := F) x9) (val_main_v157 (F := F))
def val_main_v159 (x9 : (⟨S2x600000, .i32⟩ : BufTy).Contents (Elt F)) : (⟨S600000, .i32⟩ : BufTy).Contents (Elt F) :=
  select (val_main_v156 (F := F) x9) (val_main_v158 (F := F) x9) (val_main_v1 (F := F) x9)
def val_main_v160 (x9 : (⟨S2x600000, .i32⟩ : BufTy).Contents (Elt F)) : (⟨S600000x1, .i32⟩ : BufTy).Contents (Elt F) :=
  broadcastInDim S600000x1 ![0] bcast_S600000_S600000x1_0 (val_main_v159 (F := F) x9)
def val_main_v161 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S600000x128, .f32⟩ : BufTy).Contents (Elt F) :=
  Host.gather gather_S50000x128_S600000x1_S600000x128_1_0_n_n_0_1_1128 (val_main_v154 (F := F) x0 x1 x2 x3 x4 x5 x6 x9) (val_main_v160 (F := F) x9)
def val_main_v162 (x9 : (⟨S2x600000, .i32⟩ : BufTy).Contents (Elt F)) : (⟨S600000x1, .f32⟩ : BufTy).Contents (Elt F) :=
  broadcastInDim S600000x1 ![0] bcast_S600000_S600000x1_0 (val_main_v30 (F := F) x9)
def val_main_v163 (x9 : (⟨S2x600000, .i32⟩ : BufTy).Contents (Elt F)) : (⟨S600000x128, .f32⟩ : BufTy).Contents (Elt F) :=
  broadcastInDim S600000x128 ![0, 1] bcast_S600000x1_S600000x128_0_1 (val_main_v162 (F := F) x9)
def val_main_v164 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S600000x128, .f32⟩ : BufTy).Contents (Elt F) :=
  mulf (val_main_v161 (F := F) x0 x1 x2 x3 x4 x5 x6 x9) (val_main_v163 (F := F) x9)
def val_main_cst_27 : (⟨S_, .f32⟩ : BufTy).Contents (Elt F) :=
  constant S_ .f32 0x00000000#32
def val_main_v165 : (⟨S50000x128, .f32⟩ : BufTy).Contents (Elt F) :=
  broadcastInDim S50000x128 ![] bcast_S_S50000x128 (val_main_cst_27 (F := F))
def val_main_v166 (x9 : (⟨S2x600000, .i32⟩ : BufTy).Contents (Elt F)) : (⟨S600000x1, .i32⟩ : BufTy).Contents (Elt F) :=
  broadcastInDim S600000x1 ![0] bcast_S600000_S600000x1_0 (val_main_v3 (F := F) x9)
def val_main_v167 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  Host.scatterAdd scatter_S50000x128_S600000x1_S600000x128_1_0_0_1 (val_main_v165 (F := F)) (val_main_v166 (F := F) x9) (val_main_v164 (F := F) x0 x1 x2 x3 x4 x5 x6 x9)
def val_main_v168 (x9 : (⟨S2x600000, .i32⟩ : BufTy).Contents (Elt F)) : (⟨S50000x1, .f32⟩ : BufTy).Contents (Elt F) :=
  broadcastInDim S50000x1 ![0] bcast_S50000_S50000x1_0 (val_main_v31 (F := F) x9)
def val_main_v169 (x9 : (⟨S2x600000, .i32⟩ : BufTy).Contents (Elt F)) : (⟨S50000x128, .f32⟩ : BufTy).Contents (Elt F) :=
  broadcastInDim S50000x128 ![0, 1] bcast_S50000x1_S50000x128_0_1 (val_main_v168 (F := F) x9)
def val_main_v170 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v154 (F := F) x0 x1 x2 x3 x4 x5 x6 x9) (val_main_v169 (F := F) x9)
def val_main_v171 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v167 (F := F) x0 x1 x2 x3 x4 x5 x6 x9) (val_main_v170 (F := F) x0 x1 x2 x3 x4 x5 x6 x9)
def val_main_v172 (x4 : (⟨S4x128, .f32⟩ : BufTy).Contents (Elt F)) : (⟨S1x128, .f32⟩ : BufTy).Contents (Elt F) :=
  extractStridedSlice S1x128 ![2, 0] (x4) slices_S4x128_S1x128_2_0
def val_main_v173 (x4 : (⟨S4x128, .f32⟩ : BufTy).Contents (Elt F)) : (⟨S128, .f32⟩ : BufTy).Contents (Elt F) :=
  shapeCast _ (val_main_v172 (F := F) x4) shapeCasts_S1x128_S128
def val_main_v174 (x4 : (⟨S4x128, .f32⟩ : BufTy).Contents (Elt F)) : (⟨S1x128, .f32⟩ : BufTy).Contents (Elt F) :=
  broadcastInDim S1x128 ![1] bcast_S128_S1x128_1 (val_main_v173 (F := F) x4)
def val_main_v175 (x4 : (⟨S4x128, .f32⟩ : BufTy).Contents (Elt F)) : (⟨S50000x128, .f32⟩ : BufTy).Contents (Elt F) :=
  broadcastInDim S50000x128 ![0, 1] bcast_S1x128_S50000x128_0_1 (val_main_v174 (F := F) x4)
def val_main_v176 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v171 (F := F) x0 x1 x2 x3 x4 x5 x6 x9) (val_main_v175 (F := F) x4)
def val_main_cst_28 : (⟨S_, .f32⟩ : BufTy).Contents (Elt F) :=
  constant S_ .f32 0x00000000#32
def val_main_v177 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.reduceAdd (val_main_v176 (F := F) x0 x1 x2 x3 x4 x5 x6 x9) (val_main_cst_28 (F := F)) reducesTo_S50000x128_S128_d0 h_S_
def val_main_cst_29 : (⟨S_, .f32⟩ : BufTy).Contents (Elt F) :=
  constant S_ .f32 0x47435000#32
def val_main_v178 : (⟨S128, .f32⟩ : BufTy).Contents (Elt F) :=
  broadcastInDim S128 ![] bcast_S_S128 (val_main_cst_29 (F := F))
def val_main_v179 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.divf (val_main_v177 (F := F) x0 x1 x2 x3 x4 x5 x6 x9) (val_main_v178 (F := F))
def val_main_v180 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v179 (F := F) x0 x1 x2 x3 x4 x5 x6 x9)
def val_main_v181 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v180 (F := F) x0 x1 x2 x3 x4 x5 x6 x9)
def val_main_v182 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  subf (val_main_v176 (F := F) x0 x1 x2 x3 x4 x5 x6 x9) (val_main_v181 (F := F) x0 x1 x2 x3 x4 x5 x6 x9)
def val_main_v183 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v182 (F := F) x0 x1 x2 x3 x4 x5 x6 x9) (val_main_v182 (F := F) x0 x1 x2 x3 x4 x5 x6 x9)
def val_main_cst_30 : (⟨S_, .f32⟩ : BufTy).Contents (Elt F) :=
  constant S_ .f32 0x00000000#32
def val_main_v184 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.reduceAdd (val_main_v183 (F := F) x0 x1 x2 x3 x4 x5 x6 x9) (val_main_cst_30 (F := F)) reducesTo_S50000x128_S128_d0 h_S_
def val_main_cst_31 : (⟨S_, .f32⟩ : BufTy).Contents (Elt F) :=
  constant S_ .f32 0x47435000#32
def val_main_v185 : (⟨S128, .f32⟩ : BufTy).Contents (Elt F) :=
  broadcastInDim S128 ![] bcast_S_S128 (val_main_cst_31 (F := F))
def val_main_v186 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.divf (val_main_v184 (F := F) x0 x1 x2 x3 x4 x5 x6 x9) (val_main_v185 (F := F))
def val_main_v187 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v179 (F := F) x0 x1 x2 x3 x4 x5 x6 x9)
def val_main_v188 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v187 (F := F) x0 x1 x2 x3 x4 x5 x6 x9)
def val_main_v189 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  subf (val_main_v176 (F := F) x0 x1 x2 x3 x4 x5 x6 x9) (val_main_v188 (F := F) x0 x1 x2 x3 x4 x5 x6 x9)
def val_main_cst_32 : (⟨S_, .f32⟩ : BufTy).Contents (Elt F) :=
  constant S_ .f32 0x3727C5AC#32
def val_main_v190 : (⟨S128, .f32⟩ : BufTy).Contents (Elt F) :=
  broadcastInDim S128 ![] bcast_S_S128 (val_main_cst_32 (F := F))
def val_main_v191 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  addf (val_main_v186 (F := F) x0 x1 x2 x3 x4 x5 x6 x9) (val_main_v190 (F := F))
def val_main_v192 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.rsqrt (val_main_v191 (F := F) x0 x1 x2 x3 x4 x5 x6 x9)
def val_main_v193 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v192 (F := F) x0 x1 x2 x3 x4 x5 x6 x9)
def val_main_v194 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v193 (F := F) x0 x1 x2 x3 x4 x5 x6 x9)
def val_main_v195 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v189 (F := F) x0 x1 x2 x3 x4 x5 x6 x9) (val_main_v194 (F := F) x0 x1 x2 x3 x4 x5 x6 x9)
def val_main_v196 (x5 : (⟨S4x128, .f32⟩ : BufTy).Contents (Elt F)) : (⟨S1x128, .f32⟩ : BufTy).Contents (Elt F) :=
  extractStridedSlice S1x128 ![2, 0] (x5) slices_S4x128_S1x128_2_0
def val_main_v197 (x5 : (⟨S4x128, .f32⟩ : BufTy).Contents (Elt F)) : (⟨S128, .f32⟩ : BufTy).Contents (Elt F) :=
  shapeCast _ (val_main_v196 (F := F) x5) shapeCasts_S1x128_S128
def val_main_v198 (x5 : (⟨S4x128, .f32⟩ : BufTy).Contents (Elt F)) : (⟨S1x128, .f32⟩ : BufTy).Contents (Elt F) :=
  broadcastInDim S1x128 ![1] bcast_S128_S1x128_1 (val_main_v197 (F := F) x5)
def val_main_v199 (x5 : (⟨S4x128, .f32⟩ : BufTy).Contents (Elt F)) : (⟨S50000x128, .f32⟩ : BufTy).Contents (Elt F) :=
  broadcastInDim S50000x128 ![0, 1] bcast_S1x128_S50000x128_0_1 (val_main_v198 (F := F) x5)
def val_main_v200 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v195 (F := F) x0 x1 x2 x3 x4 x5 x6 x9) (val_main_v199 (F := F) x5)
def val_main_v201 (x6 : (⟨S4x128, .f32⟩ : BufTy).Contents (Elt F)) : (⟨S1x128, .f32⟩ : BufTy).Contents (Elt F) :=
  extractStridedSlice S1x128 ![2, 0] (x6) slices_S4x128_S1x128_2_0
def val_main_v202 (x6 : (⟨S4x128, .f32⟩ : BufTy).Contents (Elt F)) : (⟨S128, .f32⟩ : BufTy).Contents (Elt F) :=
  shapeCast _ (val_main_v201 (F := F) x6) shapeCasts_S1x128_S128
def val_main_v203 (x6 : (⟨S4x128, .f32⟩ : BufTy).Contents (Elt F)) : (⟨S1x128, .f32⟩ : BufTy).Contents (Elt F) :=
  broadcastInDim S1x128 ![1] bcast_S128_S1x128_1 (val_main_v202 (F := F) x6)
def val_main_v204 (x6 : (⟨S4x128, .f32⟩ : BufTy).Contents (Elt F)) : (⟨S50000x128, .f32⟩ : BufTy).Contents (Elt F) :=
  broadcastInDim S50000x128 ![0, 1] bcast_S1x128_S50000x128_0_1 (val_main_v203 (F := F) x6)
def val_main_v205 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v200 (F := F) x0 x1 x2 x3 x4 x5 x6 x9) (val_main_v204 (F := F) x6)
def val_main_call2_cst : (⟨S_, .f32⟩ : BufTy).Contents (Elt F) :=
  constant S_ .f32 0x00000000#32
def val_main_call2_v0 : (⟨S50000x128, .f32⟩ : BufTy).Contents (Elt F) :=
  broadcastInDim S50000x128 ![] bcast_S_S50000x128 (val_main_call2_cst (F := F))
def val_main_v206 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  maximumf (val_main_v205 (F := F) x0 x1 x2 x3 x4 x5 x6 x9) (val_main_call2_v0 (F := F))
def val_main_v207 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v151 (F := F) x0 x1 x2 x3 x4 x5 x6 x9) (val_main_v206 (F := F) x0 x1 x2 x3 x4 x5 x6 x9)
def val_main_v208 (x3 : (⟨S4x128x128, .f32⟩ : BufTy).Contents (Elt F)) : (⟨S1x128x128, .f32⟩ : BufTy).Contents (Elt F) :=
  extractStridedSlice S1x128x128 ![3, 0, 0] (x3) slices_S4x128x128_S1x128x128_3_0_0
def val_main_v209 (x3 : (⟨S4x128x128, .f32⟩ : BufTy).Contents (Elt F)) : (⟨S128x128, .f32⟩ : BufTy).Contents (Elt F) :=
  shapeCast _ (val_main_v208 (F := F) x3) shapeCasts_S1x128x128_S128x128
def val_main_v210 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  Host.dotGeneral dot_S50000x128_S128x128_S50000x128_1_0_0_1_n_n none (val_main_v206 (F := F) x0 x1 x2 x3 x4 x5 x6 x9) (val_main_v209 (F := F) x3)
def val_main_c_33 : (⟨S_, .i32⟩ : BufTy).Contents (Elt F) :=
  constantI S_ 32 0#32
def val_main_v211 : (⟨S600000, .i32⟩ : BufTy).Contents (Elt F) :=
  broadcastInDim S600000 ![] bcast_S_S600000 (val_main_c_33 (F := F))
def val_main_v212 (x9 : (⟨S2x600000, .i32⟩ : BufTy).Contents (Elt F)) : (⟨S600000, .i1⟩ : BufTy).Contents (Elt F) :=
  cmpi .slt (val_main_v1 (F := F) x9) (val_main_v211 (F := F))
def val_main_c_34 : (⟨S_, .i32⟩ : BufTy).Contents (Elt F) :=
  constantI S_ 32 50000#32
def val_main_v213 : (⟨S600000, .i32⟩ : BufTy).Contents (Elt F) :=
  broadcastInDim S600000 ![] bcast_S_S600000 (val_main_c_34 (F := F))
def val_main_v214 (x9 : (⟨S2x600000, .i32⟩ : BufTy).Contents (Elt F)) : (⟨S600000, .i32⟩ : BufTy).Contents (Elt F) :=
  addi (val_main_v1 (F := F) x9) (val_main_v213 (F := F))
def val_main_v215 (x9 : (⟨S2x600000, .i32⟩ : BufTy).Contents (Elt F)) : (⟨S600000, .i32⟩ : BufTy).Contents (Elt F) :=
  select (val_main_v212 (F := F) x9) (val_main_v214 (F := F) x9) (val_main_v1 (F := F) x9)
def val_main_v216 (x9 : (⟨S2x600000, .i32⟩ : BufTy).Contents (Elt F)) : (⟨S600000x1, .i32⟩ : BufTy).Contents (Elt F) :=
  broadcastInDim S600000x1 ![0] bcast_S600000_S600000x1_0 (val_main_v215 (F := F) x9)
def val_main_v217 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S600000x128, .f32⟩ : BufTy).Contents (Elt F) :=
  Host.gather gather_S50000x128_S600000x1_S600000x128_1_0_n_n_0_1_1128 (val_main_v210 (F := F) x0 x1 x2 x3 x4 x5 x6 x9) (val_main_v216 (F := F) x9)
def val_main_v218 (x9 : (⟨S2x600000, .i32⟩ : BufTy).Contents (Elt F)) : (⟨S600000x1, .f32⟩ : BufTy).Contents (Elt F) :=
  broadcastInDim S600000x1 ![0] bcast_S600000_S600000x1_0 (val_main_v30 (F := F) x9)
def val_main_v219 (x9 : (⟨S2x600000, .i32⟩ : BufTy).Contents (Elt F)) : (⟨S600000x128, .f32⟩ : BufTy).Contents (Elt F) :=
  broadcastInDim S600000x128 ![0, 1] bcast_S600000x1_S600000x128_0_1 (val_main_v218 (F := F) x9)
def val_main_v220 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S600000x128, .f32⟩ : BufTy).Contents (Elt F) :=
  mulf (val_main_v217 (F := F) x0 x1 x2 x3 x4 x5 x6 x9) (val_main_v219 (F := F) x9)
def val_main_cst_35 : (⟨S_, .f32⟩ : BufTy).Contents (Elt F) :=
  constant S_ .f32 0x00000000#32
def val_main_v221 : (⟨S50000x128, .f32⟩ : BufTy).Contents (Elt F) :=
  broadcastInDim S50000x128 ![] bcast_S_S50000x128 (val_main_cst_35 (F := F))
def val_main_v222 (x9 : (⟨S2x600000, .i32⟩ : BufTy).Contents (Elt F)) : (⟨S600000x1, .i32⟩ : BufTy).Contents (Elt F) :=
  broadcastInDim S600000x1 ![0] bcast_S600000_S600000x1_0 (val_main_v3 (F := F) x9)
def val_main_v223 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  Host.scatterAdd scatter_S50000x128_S600000x1_S600000x128_1_0_0_1 (val_main_v221 (F := F)) (val_main_v222 (F := F) x9) (val_main_v220 (F := F) x0 x1 x2 x3 x4 x5 x6 x9)
def val_main_v224 (x9 : (⟨S2x600000, .i32⟩ : BufTy).Contents (Elt F)) : (⟨S50000x1, .f32⟩ : BufTy).Contents (Elt F) :=
  broadcastInDim S50000x1 ![0] bcast_S50000_S50000x1_0 (val_main_v31 (F := F) x9)
def val_main_v225 (x9 : (⟨S2x600000, .i32⟩ : BufTy).Contents (Elt F)) : (⟨S50000x128, .f32⟩ : BufTy).Contents (Elt F) :=
  broadcastInDim S50000x128 ![0, 1] bcast_S50000x1_S50000x128_0_1 (val_main_v224 (F := F) x9)
def val_main_v226 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v210 (F := F) x0 x1 x2 x3 x4 x5 x6 x9) (val_main_v225 (F := F) x9)
def val_main_v227 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v223 (F := F) x0 x1 x2 x3 x4 x5 x6 x9) (val_main_v226 (F := F) x0 x1 x2 x3 x4 x5 x6 x9)
def val_main_v228 (x4 : (⟨S4x128, .f32⟩ : BufTy).Contents (Elt F)) : (⟨S1x128, .f32⟩ : BufTy).Contents (Elt F) :=
  extractStridedSlice S1x128 ![3, 0] (x4) slices_S4x128_S1x128_3_0
def val_main_v229 (x4 : (⟨S4x128, .f32⟩ : BufTy).Contents (Elt F)) : (⟨S128, .f32⟩ : BufTy).Contents (Elt F) :=
  shapeCast _ (val_main_v228 (F := F) x4) shapeCasts_S1x128_S128
def val_main_v230 (x4 : (⟨S4x128, .f32⟩ : BufTy).Contents (Elt F)) : (⟨S1x128, .f32⟩ : BufTy).Contents (Elt F) :=
  broadcastInDim S1x128 ![1] bcast_S128_S1x128_1 (val_main_v229 (F := F) x4)
def val_main_v231 (x4 : (⟨S4x128, .f32⟩ : BufTy).Contents (Elt F)) : (⟨S50000x128, .f32⟩ : BufTy).Contents (Elt F) :=
  broadcastInDim S50000x128 ![0, 1] bcast_S1x128_S50000x128_0_1 (val_main_v230 (F := F) x4)
def val_main_v232 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v227 (F := F) x0 x1 x2 x3 x4 x5 x6 x9) (val_main_v231 (F := F) x4)
def val_main_cst_36 : (⟨S_, .f32⟩ : BufTy).Contents (Elt F) :=
  constant S_ .f32 0x00000000#32
def val_main_v233 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.reduceAdd (val_main_v232 (F := F) x0 x1 x2 x3 x4 x5 x6 x9) (val_main_cst_36 (F := F)) reducesTo_S50000x128_S128_d0 h_S_
def val_main_cst_37 : (⟨S_, .f32⟩ : BufTy).Contents (Elt F) :=
  constant S_ .f32 0x47435000#32
def val_main_v234 : (⟨S128, .f32⟩ : BufTy).Contents (Elt F) :=
  broadcastInDim S128 ![] bcast_S_S128 (val_main_cst_37 (F := F))
def val_main_v235 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.divf (val_main_v233 (F := F) x0 x1 x2 x3 x4 x5 x6 x9) (val_main_v234 (F := F))
def val_main_v236 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v235 (F := F) x0 x1 x2 x3 x4 x5 x6 x9)
def val_main_v237 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v236 (F := F) x0 x1 x2 x3 x4 x5 x6 x9)
def val_main_v238 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  subf (val_main_v232 (F := F) x0 x1 x2 x3 x4 x5 x6 x9) (val_main_v237 (F := F) x0 x1 x2 x3 x4 x5 x6 x9)
def val_main_v239 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v238 (F := F) x0 x1 x2 x3 x4 x5 x6 x9) (val_main_v238 (F := F) x0 x1 x2 x3 x4 x5 x6 x9)
def val_main_cst_38 : (⟨S_, .f32⟩ : BufTy).Contents (Elt F) :=
  constant S_ .f32 0x00000000#32
def val_main_v240 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.reduceAdd (val_main_v239 (F := F) x0 x1 x2 x3 x4 x5 x6 x9) (val_main_cst_38 (F := F)) reducesTo_S50000x128_S128_d0 h_S_
def val_main_cst_39 : (⟨S_, .f32⟩ : BufTy).Contents (Elt F) :=
  constant S_ .f32 0x47435000#32
def val_main_v241 : (⟨S128, .f32⟩ : BufTy).Contents (Elt F) :=
  broadcastInDim S128 ![] bcast_S_S128 (val_main_cst_39 (F := F))
def val_main_v242 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.divf (val_main_v240 (F := F) x0 x1 x2 x3 x4 x5 x6 x9) (val_main_v241 (F := F))
def val_main_v243 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v235 (F := F) x0 x1 x2 x3 x4 x5 x6 x9)
def val_main_v244 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v243 (F := F) x0 x1 x2 x3 x4 x5 x6 x9)
def val_main_v245 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  subf (val_main_v232 (F := F) x0 x1 x2 x3 x4 x5 x6 x9) (val_main_v244 (F := F) x0 x1 x2 x3 x4 x5 x6 x9)
def val_main_cst_40 : (⟨S_, .f32⟩ : BufTy).Contents (Elt F) :=
  constant S_ .f32 0x3727C5AC#32
def val_main_v246 : (⟨S128, .f32⟩ : BufTy).Contents (Elt F) :=
  broadcastInDim S128 ![] bcast_S_S128 (val_main_cst_40 (F := F))
def val_main_v247 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  addf (val_main_v242 (F := F) x0 x1 x2 x3 x4 x5 x6 x9) (val_main_v246 (F := F))
def val_main_v248 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S128, .f32⟩ : BufTy).Contents (Elt F) :=
  Host.rsqrt (val_main_v247 (F := F) x0 x1 x2 x3 x4 x5 x6 x9)
def val_main_v249 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S1x128, .f32⟩ : BufTy).Contents (Elt F) :=
  broadcastInDim S1x128 ![1] bcast_S128_S1x128_1 (val_main_v248 (F := F) x0 x1 x2 x3 x4 x5 x6 x9)
def val_main_v250 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  broadcastInDim S50000x128 ![0, 1] bcast_S1x128_S50000x128_0_1 (val_main_v249 (F := F) x0 x1 x2 x3 x4 x5 x6 x9)
def val_main_v251 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v245 (F := F) x0 x1 x2 x3 x4 x5 x6 x9) (val_main_v250 (F := F) x0 x1 x2 x3 x4 x5 x6 x9)
def val_main_v252 (x5 : (⟨S4x128, .f32⟩ : BufTy).Contents (Elt F)) : (⟨S1x128, .f32⟩ : BufTy).Contents (Elt F) :=
  extractStridedSlice S1x128 ![3, 0] (x5) slices_S4x128_S1x128_3_0
def val_main_v253 (x5 : (⟨S4x128, .f32⟩ : BufTy).Contents (Elt F)) : (⟨S128, .f32⟩ : BufTy).Contents (Elt F) :=
  shapeCast _ (val_main_v252 (F := F) x5) shapeCasts_S1x128_S128
def val_main_v254 (x5 : (⟨S4x128, .f32⟩ : BufTy).Contents (Elt F)) : (⟨S1x128, .f32⟩ : BufTy).Contents (Elt F) :=
  broadcastInDim S1x128 ![1] bcast_S128_S1x128_1 (val_main_v253 (F := F) x5)
def val_main_v255 (x5 : (⟨S4x128, .f32⟩ : BufTy).Contents (Elt F)) : (⟨S50000x128, .f32⟩ : BufTy).Contents (Elt F) :=
  broadcastInDim S50000x128 ![0, 1] bcast_S1x128_S50000x128_0_1 (val_main_v254 (F := F) x5)
def val_main_v256 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  mulf (val_main_v251 (F := F) x0 x1 x2 x3 x4 x5 x6 x9) (val_main_v255 (F := F) x5)
def val_main_v257 (x6 : (⟨S4x128, .f32⟩ : BufTy).Contents (Elt F)) : (⟨S1x128, .f32⟩ : BufTy).Contents (Elt F) :=
  extractStridedSlice S1x128 ![3, 0] (x6) slices_S4x128_S1x128_3_0
def val_main_v258 (x6 : (⟨S4x128, .f32⟩ : BufTy).Contents (Elt F)) : (⟨S128, .f32⟩ : BufTy).Contents (Elt F) :=
  shapeCast _ (val_main_v257 (F := F) x6) shapeCasts_S1x128_S128
def val_main_v259 (x6 : (⟨S4x128, .f32⟩ : BufTy).Contents (Elt F)) : (⟨S1x128, .f32⟩ : BufTy).Contents (Elt F) :=
  broadcastInDim S1x128 ![1] bcast_S128_S1x128_1 (val_main_v258 (F := F) x6)
def val_main_v260 (x6 : (⟨S4x128, .f32⟩ : BufTy).Contents (Elt F)) : (⟨S50000x128, .f32⟩ : BufTy).Contents (Elt F) :=
  broadcastInDim S50000x128 ![0, 1] bcast_S1x128_S50000x128_0_1 (val_main_v259 (F := F) x6)
def val_main_v261 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v256 (F := F) x0 x1 x2 x3 x4 x5 x6 x9) (val_main_v260 (F := F) x6)
def val_main_cst_41 : (⟨S_, .f32⟩ : BufTy).Contents (Elt F) :=
  constant S_ .f32 0x3F000000#32
def val_main_v262 : (⟨S50000x128, .f32⟩ : BufTy).Contents (Elt F) :=
  broadcastInDim S50000x128 ![] bcast_S_S50000x128 (val_main_cst_41 (F := F))
def val_main_v263 (x0 : (⟨S50000x128, .f32⟩ : BufTy).Contents (Elt F)) (x1 : (⟨S128x128, .f32⟩ : BufTy).Contents (Elt F)) (x2 : (⟨S128, .f32⟩ : BufTy).Contents (Elt F)) : (⟨S50000x128, .f32⟩ : BufTy).Contents (Elt F) :=
  mulf (val_main_v262 (F := F)) (val_main_v35 (F := F) x0 x1 x2)
def val_main_v264 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v261 (F := F) x0 x1 x2 x3 x4 x5 x6 x9) (val_main_v263 (F := F) x0 x1 x2)
def val_main_call3_cst : (⟨S_, .f32⟩ : BufTy).Contents (Elt F) :=
  constant S_ .f32 0x00000000#32
def val_main_call3_v0 : (⟨S50000x128, .f32⟩ : BufTy).Contents (Elt F) :=
  broadcastInDim S50000x128 ![] bcast_S_S50000x128 (val_main_call3_cst (F := F))
def val_main_v265 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  maximumf (val_main_v264 (F := F) x0 x1 x2 x3 x4 x5 x6 x9) (val_main_call3_v0 (F := F))
def val_main_v266 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x9 : (⟨S2x600000, .i32⟩ : BufTy).Contents (Elt F)) : (⟨S50000x128, .f32⟩ : BufTy).Contents (Elt F) :=
  addf (val_main_v207 (F := F) x0 x1 x2 x3 x4 x5 x6 x9) (val_main_v265 (F := F) x0 x1 x2 x3 x4 x5 x6 x9)
def val_main_v267 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x7 : (⟨S128x64, .f32⟩ : BufTy).Contents (Elt F)) (x9 : (⟨S2x600000, .i32⟩ : BufTy).Contents (Elt F)) : (⟨S50000x64, .f32⟩ : BufTy).Contents (Elt F) :=
  Host.dotGeneral dot_S50000x128_S128x64_S50000x64_1_0_0_1_n_n none (val_main_v266 (F := F) x0 x1 x2 x3 x4 x5 x6 x9) (x7)
theorem lhs_main_v267_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_main_v267_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs_main_v267_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs_main_v267_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl
abbrev lidx_main_v267 (i : S50000x64.Idx) (k : Fin 128) : S50000x128.Idx := fun a => match a with
  | ⟨0, _⟩ => ⟨(i 0).val, (i 0).isLt⟩
  | ⟨1, _⟩ => ⟨k.val, k.isLt⟩
abbrev ridx_main_v267 (i : S50000x64.Idx) (k : Fin 128) : S128x64.Idx := fun a => match a with
  | ⟨0, _⟩ => ⟨k.val, k.isLt⟩
  | ⟨1, _⟩ => ⟨(i 1).val, (i 1).isLt⟩
theorem val_main_v267_apply (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S4x128x128, .f32⟩ : BufTy).Contents (Elt Ideal)) (x4 x5 x6 : (⟨S4x128, .f32⟩ : BufTy).Contents (Elt Ideal)) (x7 : (⟨S128x64, .f32⟩ : BufTy).Contents (Elt Ideal)) (x9 : (⟨S2x600000, .i32⟩ : BufTy).Contents (Elt Ideal)) (i : S50000x64.Idx) :
    val_main_v267 (F := Ideal) x0 x1 x2 x3 x4 x5 x6 x7 x9 i = ∑ k : Fin 128, (val_main_v266 (F := Ideal) x0 x1 x2 x3 x4 x5 x6 x9) (lidx_main_v267 i k) * x7 (ridx_main_v267 i k) := by
  unfold val_main_v267
  generalize val_main_v266 (F := Ideal) x0 x1 x2 x3 x4 x5 x6 x9 = y0
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v267 i k := funext fun a => Fin.ext (by
    match a with
    | ⟨0, _⟩ => exact lhs_main_v267_0 _ _
    | ⟨1, _⟩ => exact (lhs_main_v267_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v267 i k := funext fun a => Fin.ext (by
    match a with
    | ⟨0, _⟩ => exact (rhs_main_v267_0 _ _).trans hk
    | ⟨1, _⟩ => exact rhs_main_v267_1 _ _)
  rw [el, er]
def val_main_v268 (x8 : (⟨S64, .f32⟩ : BufTy).Contents (Elt F)) : (⟨S1x64, .f32⟩ : BufTy).Contents (Elt F) :=
  broadcastInDim S1x64 ![1] bcast_S64_S1x64_1 (x8)
abbrev idx_main_v268 (i : S1x64.Idx) : S64.Idx := fun a => match a with
  | ⟨0, _⟩ => ⟨(i 1).val, (i 1).isLt⟩
theorem val_main_v268_apply (x8 : (⟨S64, .f32⟩ : BufTy).Contents (Elt F)) (i : S1x64.Idx) :
    val_main_v268 (F := F) x8 i = x8 (idx_main_v268 i) := by
  unfold val_main_v268
  exact broadcastInDim_apply _ bcast_S64_S1x64_1 x8 i (idx_main_v268 i) (fun a => match a with
    | ⟨0, _⟩ => by show (i 1).val = if (64 : Nat) = 1 then 0 else (i 1).val; rw [if_neg (by decide)])
def val_main_v269 (x8 : (⟨S64, .f32⟩ : BufTy).Contents (Elt F)) : (⟨S50000x64, .f32⟩ : BufTy).Contents (Elt F) :=
  broadcastInDim S50000x64 ![0, 1] bcast_S1x64_S50000x64_0_1 (val_main_v268 (F := F) x8)
abbrev idx_main_v269 (i : S50000x64.Idx) : S1x64.Idx := fun a => match a with
  | ⟨0, _⟩ => ⟨0, Nat.one_pos⟩
  | ⟨1, _⟩ => ⟨(i 1).val, (i 1).isLt⟩
theorem val_main_v269_apply (x8 : (⟨S64, .f32⟩ : BufTy).Contents (Elt F)) (i : S50000x64.Idx) :
    val_main_v269 (F := F) x8 i = val_main_v268 (F := F) x8 (idx_main_v269 i) := by
  unfold val_main_v269
  generalize val_main_v268 (F := F) x8 = y
  exact broadcastInDim_apply _ bcast_S1x64_S50000x64_0_1 y i (idx_main_v269 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])
def val_main_v270 (x0 : (⟨S50000x128, .f32⟩ : BufTy).Contents (Elt F)) (x1 : (⟨S128x128, .f32⟩ : BufTy).Contents (Elt F)) (x2 : (⟨S128, .f32⟩ : BufTy).Contents (Elt F)) (x3 : (⟨S4x128x128, .f32⟩ : BufTy).Contents (Elt F)) (x4 x5 x6 : (⟨S4x128, .f32⟩ : BufTy).Contents (Elt F)) (x7 : (⟨S128x64, .f32⟩ : BufTy).Contents (Elt F)) (x8 : (⟨S64, .f32⟩ : BufTy).Contents (Elt F)) (x9 : (⟨S2x600000, .i32⟩ : BufTy).Contents (Elt F)) : (⟨S50000x64, .f32⟩ : BufTy).Contents (Elt F) :=
  addf (val_main_v267 (F := F) x0 x1 x2 x3 x4 x5 x6 x7 x9) (val_main_v269 (F := F) x8)
end Cert.ReferenceIdeal.ReadP
end
-- ==== Proof.Ref.StagesA.lean ====
import proofs.«101364_j7567732376252_1_alg».proof.Proof.Ref.Ops
import proofs.«101364_j7567732376252_1_alg».proof.Proof.RefRead

noncomputable section

namespace Cert.ReferenceIdeal.RunHand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F] (V : Valuation τ sig (Elt F))

theorem P0_vals (x9 : (⟨S2x600000, .i32⟩ : BufTy).Contents (Elt F)) (a9 : V (Proc.devRef .tc main_arg9) = x9) :
    StableHlo.after P0 V (Proc.devRef .tc main_v1) = val_main_v1 (F := F) x9 ∧ StableHlo.after P0 V (Proc.devRef .tc main_v3) = val_main_v3 (F := F) x9
      ∧ StableHlo.after P0 V (Proc.devRef .tc main_v30) = val_main_v30 (F := F) x9 ∧ StableHlo.after P0 V (Proc.devRef .tc main_v31) = val_main_v31 (F := F) x9 := by
  unfold P0
  after_results_simp
  rw [a9]
  exact ⟨rfl, rfl, rfl, rfl⟩

theorem P1_vals (x0 : (⟨S50000x128, .f32⟩ : BufTy).Contents (Elt F)) (x1 : (⟨S128x128, .f32⟩ : BufTy).Contents (Elt F)) (x2 : (⟨S128, .f32⟩ : BufTy).Contents (Elt F))
    (a0 : V (Proc.devRef .tc main_arg0) = x0) (a1 : V (Proc.devRef .tc main_arg1) = x1) (a2 : V (Proc.devRef .tc main_arg2) = x2) :
    StableHlo.after P1 V (Proc.devRef .tc main_v35) = val_main_v35 (F := F) x0 x1 x2 ∧ StableHlo.after P1 V (Proc.devRef .tc main_v36) = val_main_v36 (F := F) := by
  unfold P1
  after_results_simp
  rw [a0, a1, a2]
  exact ⟨rfl, rfl⟩

variable (x0 : (⟨S50000x128, .f32⟩ : BufTy).Contents (Elt F)) (x1 : (⟨S128x128, .f32⟩ : BufTy).Contents (Elt F)) (x2 : (⟨S128, .f32⟩ : BufTy).Contents (Elt F))
  (x3 : (⟨S4x128x128, .f32⟩ : BufTy).Contents (Elt F)) (x4 x5 x6 : (⟨S4x128, .f32⟩ : BufTy).Contents (Elt F)) (x9 : (⟨S2x600000, .i32⟩ : BufTy).Contents (Elt F))
  (a3 : V (Proc.devRef .tc main_arg3) = x3) (a4 : V (Proc.devRef .tc main_arg4) = x4)
  (a5 : V (Proc.devRef .tc main_arg5) = x5) (a6 : V (Proc.devRef .tc main_arg6) = x6)
  (h1 : V (Proc.devRef .tc main_v1) = val_main_v1 (F := F) x9) (h3 : V (Proc.devRef .tc main_v3) = val_main_v3 (F := F) x9)
  (h30 : V (Proc.devRef .tc main_v30) = val_main_v30 (F := F) x9) (h31 : V (Proc.devRef .tc main_v31) = val_main_v31 (F := F) x9)
include a3 a4 a5 a6 h1 h3 h30 h31

theorem L0_vals (h35 : V (Proc.devRef .tc main_v35) = val_main_v35 (F := F) x0 x1 x2) (h36 : V (Proc.devRef .tc main_v36) = val_main_v36 (F := F)) :
    StableHlo.after L0 V (Proc.devRef .tc main_v91) = val_main_v91 (F := F) x0 x1 x2 x3 x4 x5 x6 x9 ∧ StableHlo.after L0 V (Proc.devRef .tc main_v92) = val_main_v92 (F := F) x0 x1 x2 x3 x4 x5 x6 x9 := by
  unfold L0
  after_results_simp
  rw [a3, a4, a5, a6, h1, h3, h30, h31, h35, h36]
  exact ⟨rfl, rfl⟩

end Cert.ReferenceIdeal.RunHand

end
-- ==== Proof.Ref.StagesB.lean ====
import proofs.«101364_j7567732376252_1_alg».proof.Proof.Ref.OpsList
import proofs.«101364_j7567732376252_1_alg».proof.Proof.RefRead

noncomputable section

namespace Cert.ReferenceIdeal.RunHand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F] (V : Valuation τ sig (Elt F))

theorem P2_v270 (x0 : (⟨S50000x128, .f32⟩ : BufTy).Contents (Elt F)) (x1 : (⟨S128x128, .f32⟩ : BufTy).Contents (Elt F)) (x2 : (⟨S128, .f32⟩ : BufTy).Contents (Elt F))
    (x3 : (⟨S4x128x128, .f32⟩ : BufTy).Contents (Elt F)) (x4 x5 x6 : (⟨S4x128, .f32⟩ : BufTy).Contents (Elt F)) (x7 : (⟨S128x64, .f32⟩ : BufTy).Contents (Elt F)) (x8 : (⟨S64, .f32⟩ : BufTy).Contents (Elt F))
    (x9 : (⟨S2x600000, .i32⟩ : BufTy).Contents (Elt F)) (a7 : V (Proc.devRef .tc main_arg7) = x7) (a8 : V (Proc.devRef .tc main_arg8) = x8)
    (h266 : V (Proc.devRef .tc main_v266) = val_main_v266 (F := F) x0 x1 x2 x3 x4 x5 x6 x9) :
    StableHlo.after P2 V (Proc.devRef .tc main_v270) = val_main_v270 (F := F) x0 x1 x2 x3 x4 x5 x6 x7 x8 x9 := by
  unfold P2
  after_results_simp
  rw [a7, a8, h266]
  rfl

variable (x0 : (⟨S50000x128, .f32⟩ : BufTy).Contents (Elt F)) (x1 : (⟨S128x128, .f32⟩ : BufTy).Contents (Elt F)) (x2 : (⟨S128, .f32⟩ : BufTy).Contents (Elt F))
  (x3 : (⟨S4x128x128, .f32⟩ : BufTy).Contents (Elt F)) (x4 x5 x6 : (⟨S4x128, .f32⟩ : BufTy).Contents (Elt F)) (x9 : (⟨S2x600000, .i32⟩ : BufTy).Contents (Elt F))
  (a3 : V (Proc.devRef .tc main_arg3) = x3) (a4 : V (Proc.devRef .tc main_arg4) = x4)
  (a5 : V (Proc.devRef .tc main_arg5) = x5) (a6 : V (Proc.devRef .tc main_arg6) = x6)
  (h1 : V (Proc.devRef .tc main_v1) = val_main_v1 (F := F) x9) (h3 : V (Proc.devRef .tc main_v3) = val_main_v3 (F := F) x9)
  (h30 : V (Proc.devRef .tc main_v30) = val_main_v30 (F := F) x9) (h31 : V (Proc.devRef .tc main_v31) = val_main_v31 (F := F) x9)
include a3 a4 a5 a6 h1 h3 h30 h31

theorem L1_both (h35 : V (Proc.devRef .tc main_v35) = val_main_v35 (F := F) x0 x1 x2) (h91 : V (Proc.devRef .tc main_v91) = val_main_v91 (F := F) x0 x1 x2 x3 x4 x5 x6 x9) (h92 : V (Proc.devRef .tc main_v92) = val_main_v92 (F := F) x0 x1 x2 x3 x4 x5 x6 x9) :
    StableHlo.after L1 V (Proc.devRef .tc main_v150) = val_main_v150 (F := F) x0 x1 x2 x3 x4 x5 x6 x9 ∧ StableHlo.after L1 V (Proc.devRef .tc main_v151) = val_main_v151 (F := F) x0 x1 x2 x3 x4 x5 x6 x9 := by
  unfold L1
  after_results_simp
  rw [a3, a4, a5, a6, h1, h3, h30, h31, h35, h91, h92]
  exact ⟨rfl, rfl⟩

theorem L2_both (h150 : V (Proc.devRef .tc main_v150) = val_main_v150 (F := F) x0 x1 x2 x3 x4 x5 x6 x9) (h151 : V (Proc.devRef .tc main_v151) = val_main_v151 (F := F) x0 x1 x2 x3 x4 x5 x6 x9) :
    StableHlo.after L2 V (Proc.devRef .tc main_v206) = val_main_v206 (F := F) x0 x1 x2 x3 x4 x5 x6 x9 ∧ StableHlo.after L2 V (Proc.devRef .tc main_v207) = val_main_v207 (F := F) x0 x1 x2 x3 x4 x5 x6 x9 := by
  unfold L2
  after_results_simp
  rw [a3, a4, a5, a6, h1, h3, h30, h31, h150, h151]
  exact ⟨rfl, rfl⟩

theorem L3_v266 (h35 : V (Proc.devRef .tc main_v35) = val_main_v35 (F := F) x0 x1 x2) (h206 : V (Proc.devRef .tc main_v206) = val_main_v206 (F := F) x0 x1 x2 x3 x4 x5 x6 x9) (h207 : V (Proc.devRef .tc main_v207) = val_main_v207 (F := F) x0 x1 x2 x3 x4 x5 x6 x9) :
    StableHlo.after L3 V (Proc.devRef .tc main_v266) = val_main_v266 (F := F) x0 x1 x2 x3 x4 x5 x6 x9 := by
  unfold L3
  after_results_simp
  rw [a3, a4, a5, a6, h1, h3, h30, h31, h35, h206, h207]
  rfl

end Cert.ReferenceIdeal.RunHand

end
-- ==== Proof.Ref.Run.lean ====
import proofs.«101364_j7567732376252_1_alg».proof.Proof.Ref.StagesA
import proofs.«101364_j7567732376252_1_alg».proof.Proof.Ref.StagesB

noncomputable section

namespace Cert.ReferenceIdeal.RunHand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

section Result

variable (V : Valuation τ sig (Elt F))

theorem stages_keep {r : Ref sig .tc} (h : r ∉ P0_W ++ P1_W ++ L0_W ++ L1_W ++ L2_W ++ L3_W) :
    W1 V (Proc.devRef .tc r) = V (Proc.devRef .tc r) ∧ W2 V (Proc.devRef .tc r) = V (Proc.devRef .tc r)
      ∧ W3 V (Proc.devRef .tc r) = V (Proc.devRef .tc r) ∧ W4 V (Proc.devRef .tc r) = V (Proc.devRef .tc r)
      ∧ W5 V (Proc.devRef .tc r) = V (Proc.devRef .tc r) ∧ W6 V (Proc.devRef .tc r) = V (Proc.devRef .tc r) := by
  simp only [List.mem_append, not_or] at h
  have e1 : W1 V (Proc.devRef .tc r) = V (Proc.devRef .tc r) := P0_keep V h.1.1.1.1.1
  have e2 : W2 V (Proc.devRef .tc r) = V (Proc.devRef .tc r) := (P1_keep (W1 V) h.1.1.1.1.2).trans e1
  have e3 : W3 V (Proc.devRef .tc r) = V (Proc.devRef .tc r) := (L0_keep (W2 V) h.1.1.1.2).trans e2
  have e4 : W4 V (Proc.devRef .tc r) = V (Proc.devRef .tc r) := (L1_keep (W3 V) h.1.1.2).trans e3
  have e5 : W5 V (Proc.devRef .tc r) = V (Proc.devRef .tc r) := (L2_keep (W4 V) h.1.2).trans e4
  exact ⟨e1, e2, e3, e4, e5, (L3_keep (W5 V) h.2).trans e5⟩

theorem carry_prelude {r : Ref sig .tc} (h : r ∉ P1_W ++ L0_W ++ L1_W ++ L2_W) :
    W2 V (Proc.devRef .tc r) = W1 V (Proc.devRef .tc r) ∧ W3 V (Proc.devRef .tc r) = W1 V (Proc.devRef .tc r)
      ∧ W4 V (Proc.devRef .tc r) = W1 V (Proc.devRef .tc r) ∧ W5 V (Proc.devRef .tc r) = W1 V (Proc.devRef .tc r) := by
  simp only [List.mem_append, not_or] at h
  have e2 : W2 V (Proc.devRef .tc r) = W1 V (Proc.devRef .tc r) := P1_keep (W1 V) h.1.1.1
  have e3 : W3 V (Proc.devRef .tc r) = W1 V (Proc.devRef .tc r) := (L0_keep (W2 V) h.1.1.2).trans e2
  have e4 : W4 V (Proc.devRef .tc r) = W1 V (Proc.devRef .tc r) := (L1_keep (W3 V) h.1.2).trans e3
  exact ⟨e2, e3, e4, (L2_keep (W4 V) h.2).trans e4⟩

theorem carry_input {r : Ref sig .tc} (h : r ∉ L0_W ++ L1_W ++ L2_W) :
    W3 V (Proc.devRef .tc r) = W2 V (Proc.devRef .tc r) ∧ W4 V (Proc.devRef .tc r) = W2 V (Proc.devRef .tc r)
      ∧ W5 V (Proc.devRef .tc r) = W2 V (Proc.devRef .tc r) := by
  simp only [List.mem_append, not_or] at h
  have e3 : W3 V (Proc.devRef .tc r) = W2 V (Proc.devRef .tc r) := L0_keep (W2 V) h.1.1
  have e4 : W4 V (Proc.devRef .tc r) = W2 V (Proc.devRef .tc r) := (L1_keep (W3 V) h.1.2).trans e3
  exact ⟨e3, e4, (L2_keep (W4 V) h.2).trans e4⟩

theorem result_eq :
    W7 V (Proc.devRef .tc main_v270)
      = val_main_v270 (F := F) (V (Proc.devRef .tc main_arg0)) (V (Proc.devRef .tc main_arg1))
          (V (Proc.devRef .tc main_arg2)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)) := by

  have k0 := stages_keep V (r := main_arg0) (by decide)
  have k1 := stages_keep V (r := main_arg1) (by decide)
  have k2 := stages_keep V (r := main_arg2) (by decide)
  have k3 := stages_keep V (r := main_arg3) (by decide)
  have k4 := stages_keep V (r := main_arg4) (by decide)
  have k5 := stages_keep V (r := main_arg5) (by decide)
  have k6 := stages_keep V (r := main_arg6) (by decide)
  have k7 := stages_keep V (r := main_arg7) (by decide)
  have k8 := stages_keep V (r := main_arg8) (by decide)

  have c1 := carry_prelude V (r := main_v1) (by decide)
  have c3 := carry_prelude V (r := main_v3) (by decide)
  have c30 := carry_prelude V (r := main_v30) (by decide)
  have c31 := carry_prelude V (r := main_v31) (by decide)
  have c35 := carry_input V (r := main_v35) (by decide)

  obtain ⟨h1, h3, h30, h31⟩ := P0_vals V _ rfl
  obtain ⟨h35, h36⟩ := P1_vals (W1 V) _ _ _ k0.1 k1.1 k2.1

  obtain ⟨h91, h92⟩ := L0_vals (W2 V) _ _ _ _ _ _ _ _ k3.2.1 k4.2.1 k5.2.1 k6.2.1 (c1.1.trans h1) (c3.1.trans h3)
    (c30.1.trans h30) (c31.1.trans h31) h35 h36

  obtain ⟨h150, h151⟩ := L1_both (W3 V) _ _ _ _ _ _ _ _ k3.2.2.1 k4.2.2.1 k5.2.2.1 k6.2.2.1 (c1.2.1.trans h1)
    (c3.2.1.trans h3) (c30.2.1.trans h30) (c31.2.1.trans h31) (c35.1.trans h35) h91 h92

  obtain ⟨h206, h207⟩ := L2_both (W4 V) _ _ _ _ _ _ _ _ k3.2.2.2.1 k4.2.2.2.1 k5.2.2.2.1 k6.2.2.2.1 (c1.2.2.1.trans h1)
    (c3.2.2.1.trans h3) (c30.2.2.1.trans h30) (c31.2.2.1.trans h31) h150 h151

  have h266 := L3_v266 (W5 V) _ _ _ _ _ _ _ _ k3.2.2.2.2.1 k4.2.2.2.2.1 k5.2.2.2.2.1 k6.2.2.2.2.1 (c1.2.2.2.trans h1)
    (c3.2.2.2.trans h3) (c30.2.2.2.trans h30) (c31.2.2.2.trans h31) (c35.2.2.trans h35) h206 h207

  exact P2_v270 (W6 V) _ _ _ _ _ _ _ _ _ _ k7.2.2.2.2.2 k8.2.2.2.2.2 h266

end Result

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v270)
          = val_main_v270 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun s h c => ?_) (run_raw m ρ)
  have e : ∀ b : Ref sig .tc, StableHlo.after (P0 ++ P1 ++ L0 ++ L1 ++ L2 ++ L3 ++ P2) (launchContents m c) (Proc.devRef .tc b)
      = W7 (launchContents m c) (Proc.devRef .tc b) := fun b => congrFun (after_all (launchContents m c)) _
  have keep : ∀ b : Ref sig .tc, b ∉ P0_W ++ P1_W ++ L0_W ++ L1_W ++ L2_W ++ L3_W ++ P2_W →
      s.2.mem ((c.tc : Thread nD τ).loc b) = m ((c.tc : Thread nD τ).loc b) :=
    fun b hb => (h c b).trans ((e b).trans (W7_keep (launchContents m c) hb))
  exact ⟨(h c main_v270).trans ((e main_v270).trans (result_eq (launchContents m c))), keep main_arg0 (by decide),
    keep main_arg1 (by decide), keep main_arg2 (by decide), keep main_arg3 (by decide), keep main_arg4 (by decide),
    keep main_arg5 (by decide), keep main_arg6 (by decide), keep main_arg7 (by decide), keep main_arg8 (by decide),
    keep main_arg9 (by decide)⟩

end Cert.ReferenceIdeal.RunHand

end
-- ==== Proof.RefFrame.lean ====
import proofs.«101364_j7567732376252_1_alg».proof.Defs
import proofs.«101364_j7567732376252_1_alg».proof.Proof.Ref.Run
import proofs.«101364_j7567732376252_1_alg».proof.Proof.Gen.ReferenceIdeal
import proofs.«101364_j7567732376252_1_alg».proof.Proof.Gen.Pre_finite_inputs

noncomputable section

namespace Cert.Proof

open Idealize.ShloMosaic Idealize.SL.Sem

/-- The reference's frame is its run with the statement about the result dropped. -/
theorem frame_reference : Cert.frame_ReferenceIdeal := fun m ρ _ =>
  (θ_run Cert.ReferenceIdeal.defs _ _).mono (fun _ h c => (h c).2) (Cert.ReferenceIdeal.RunHand.run (F := Ideal) m ρ)

end Cert.Proof

end
-- ==== Proof.Preserves.lean ====
import proofs.«101364_j7567732376252_1_alg».proof.Defs

noncomputable section

namespace Cert.Proof

open Idealize.ShloMosaic

/-- The table of named constants gives `"inv_50000"` the value `1/50000`. -/
theorem inv_50000_site :
    IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

theorem preserves : Cert.preserves_Kernel_KernelIdeal :=
  ⟨inv_50000_site, inv_50000_site, inv_50000_site, inv_50000_site, inv_50000_site, inv_50000_site, inv_50000_site,
    inv_50000_site⟩

end Cert.Proof

end
-- ==== Proof.Value.HostFns.lean ====
import Idealize.ShloMosaic.PureOps

noncomputable section

namespace GcnHost

open Idealize.ShloMosaic

variable {F : FTy → Type} [FloatOps F]

abbrev S0 : Shape := ⟨0, ![]⟩
abbrev SE : Shape := ⟨1, ![600000]⟩
abbrev SE1 : Shape := ⟨2, ![600000, 1]⟩
abbrev S1E : Shape := ⟨2, ![1, 600000]⟩
abbrev S2E : Shape := ⟨2, ![2, 600000]⟩
abbrev SN : Shape := ⟨1, ![50000]⟩
abbrev SN1 : Shape := ⟨2, ![50000, 1]⟩
abbrev SND : Shape := ⟨2, ![50000, 128]⟩
abbrev SED : Shape := ⟨2, ![600000, 128]⟩
abbrev SD : Shape := ⟨1, ![128]⟩
abbrev S1D : Shape := ⟨2, ![1, 128]⟩
abbrev SC : Shape := ⟨1, ![64]⟩
abbrev S1C : Shape := ⟨2, ![1, 64]⟩
abbrev S4D : Shape := ⟨2, ![4, 128]⟩
abbrev S4DD : Shape := ⟨3, ![4, 128, 128]⟩
abbrev S1DD : Shape := ⟨3, ![1, 128, 128]⟩
abbrev SDD : Shape := ⟨2, ![128, 128]⟩

def scatNodes : ScatterDims SN SE1 SE where
  updateWindowDims := []
  insertedWindowDims := [0]
  scatterDimsToOperandDims := [0]
  indexVectorDim := 1

def gathNodes : GatherDims SN SE1 SE where
  offsetDims := []
  collapsedSliceDims := [0]
  operandBatchingDims := []
  startIndicesBatchingDims := []
  startIndexMap := [0]
  indexVectorDim := 1
  sliceSizes := ![1]

def gathRows : GatherDims SND SE1 SED where
  offsetDims := [1]
  collapsedSliceDims := [0]
  operandBatchingDims := []
  startIndicesBatchingDims := []
  startIndexMap := [0]
  indexVectorDim := 1
  sliceSizes := ![1, 128]

def scatRows : ScatterDims SND SE1 SED where
  updateWindowDims := [1]
  insertedWindowDims := [0]
  scatterDimsToOperandDims := [0]
  indexVectorDim := 1

def srcOf (ei : Vec F S2E .i32) : Vec F SE .i32 := shapeCast SE (extractStridedSlice S1E ![0, 0] ei)

def dstOf (ei : Vec F S2E .i32) : Vec F SE .i32 := shapeCast SE (extractStridedSlice S1E ![1, 0] ei)

def wrapIdx (s : Vec F SE .i32) : Vec F SE .i32 :=
  select (cmpi .slt s (broadcastInDim SE ![] (by decide) (constantI S0 32 0#32)))
    (addi s (broadcastInDim SE ![] (by decide) (constantI S0 32 50000#32))) s

def colE {α : Type} (s : SE.Idx → α) : SE1.Idx → α := broadcastInDim SE1 ![0] (by decide) s

def degInv (dst : Vec F SE .i32) : Vec F SN .f32 :=
  Host.rsqrt
    (addf
      (Host.scatterAdd scatNodes (broadcastInDim SN ![] (by decide) (constant (F := F) S0 .f32 0x00000000#32))
        (colE (wrapIdx (F := F) dst)) (broadcastInDim SE ![] (by decide) (constant (F := F) S0 .f32 0x3F800000#32)))
      (broadcastInDim SN ![] (by decide) (constant (F := F) S0 .f32 0x3F800000#32)))

def edgeNormOf (src dst : Vec F SE .i32) : Vec F SE .f32 :=
  mulf (Host.gather gathNodes (degInv (F := F) dst) (colE (wrapIdx (F := F) src)))
    (Host.gather gathNodes (degInv (F := F) dst) (colE (wrapIdx (F := F) dst)))

def selfNormOf (dst : Vec F SE .i32) : Vec F SN .f32 := mulf (degInv (F := F) dst) (degInv (F := F) dst)

def edgeNorm (ei : Vec F S2E .i32) : Vec F SE .f32 := edgeNormOf (F := F) (srcOf (F := F) ei) (dstOf (F := F) ei)

def selfNorm (ei : Vec F S2E .i32) : Vec F SN .f32 := selfNormOf (F := F) (dstOf (F := F) ei)

def colN (v : Vec F SN .f32) : Vec F SN1 .f32 := shapeCast SN1 v

def aggOf (t : Vec F SND .f32) (src dst : Vec F SE .i32) (en : Vec F SE .f32) : Vec F SND .f32 :=
  Host.scatterAdd scatRows (broadcastInDim SND ![] (by decide) (constant (F := F) S0 .f32 0x00000000#32))
    (colE dst)
    (mulf (Host.gather gathRows t (colE (wrapIdx (F := F) src)))
      (broadcastInDim SED ![0, 1] (by decide) (colE en)))

def agg (t : Vec F SND .f32) (ei : Vec F S2E .i32) : Vec F SND .f32 :=
  aggOf t (srcOf (F := F) ei) (dstOf (F := F) ei) (edgeNorm (F := F) ei)

def rowD (b : Vec F SD .f32) : Vec F S1D .f32 := shapeCast S1D b

def rowC (b : Vec F SC .f32) : Vec F S1C .f32 := shapeCast S1C b

def layerRow (k : Nat) (p : Vec F S4D .f32) (h : S4D.Slices ![k, 0] S1D := by decide) : Vec F S1D .f32 :=
  shapeCast S1D (shapeCast SD (extractStridedSlice S1D ![k, 0] p h))

def layerMat (k : Nat) (w : Vec F S4DD .f32) (h : S4DD.Slices ![k, 0, 0] S1DD := by decide) : Vec F SDD .f32 :=
  shapeCast SDD (extractStridedSlice S1DD ![k, 0, 0] w h)

def zerosND : Vec F SND .f32 := broadcastInDim SND ![] (by decide) (constant (F := F) S0 .f32 0x00000000#32)

def zerosD : Vec F SD .f32 := broadcastInDim SD ![] (by decide) (constant (F := F) S0 .f32 0x00000000#32)

def zeroRowD : Vec F S1D .f32 := rowD (F := F) zerosD

end GcnHost
-- ==== Proof.Value.HostK0.lean ====
import proofs.«101364_j7567732376252_1_alg».proof.Proof.Gen.KernelIdeal.Launch
import proofs.«101364_j7567732376252_1_alg».proof.Proof.Value.HostFns
import Idealize.ShloMosaic.Lib.StableHlo.Run

/-! The first host stretch of the program, read as terms.

Before the first kernel the program splits the edge list into its sources and destinations, counts the degrees,
takes their rsqrt, and forms the edge weights and the self-loop weights; it also lays the input bias out as a row.
Each result a later step reads is stated here, for ANY contents `V` of the buffers when the stretch starts, as the
named function of the arguments it is computed from. -/

noncomputable section

namespace Cert.KernelIdeal.Gen

open Idealize.ShloMosaic Idealize.ShloMosaic.TcCoe

variable {F : FTy → Type} [FloatOps F] [Named F]

/-- The sources: row 0 of the edge list. -/
theorem hostOps0_main_v1 (V : Valuation τ sig (Elt F)) :
    StableHlo.after hostOps0 V (Proc.devRef .tc main_v1) = GcnHost.srcOf (F := F) (V (Proc.devRef .tc main_arg9)) := by
  simp only [hostOps0]; after_results_simp; rfl

/-- The destinations: row 1 of the edge list. -/
theorem hostOps0_main_v3 (V : Valuation τ sig (Elt F)) :
    StableHlo.after hostOps0 V (Proc.devRef .tc main_v3) = GcnHost.dstOf (F := F) (V (Proc.devRef .tc main_arg9)) := by
  simp only [hostOps0]; after_results_simp; rfl

set_option maxHeartbeats 4000000 in
/-- The edge weights. -/
theorem hostOps0_main_v30 (V : Valuation τ sig (Elt F)) :
    StableHlo.after hostOps0 V (Proc.devRef .tc main_v30) = GcnHost.edgeNorm (F := F) (V (Proc.devRef .tc main_arg9)) := by
  simp only [hostOps0]; after_results_simp; rfl

set_option maxHeartbeats 4000000 in
/-- The self-loop weights. -/
theorem hostOps0_main_v31 (V : Valuation τ sig (Elt F)) :
    StableHlo.after hostOps0 V (Proc.devRef .tc main_v31) = GcnHost.selfNorm (F := F) (V (Proc.devRef .tc main_arg9)) := by
  simp only [hostOps0]; after_results_simp; rfl

/-- The input bias as a row. -/
theorem hostOps0_main_v32 (V : Valuation τ sig (Elt F)) :
    StableHlo.after hostOps0 V (Proc.devRef .tc main_v32) = GcnHost.rowD (F := F) (V (Proc.devRef .tc main_arg2)) := by
  simp only [hostOps0]; after_results_simp; rfl

/-- The stretch writes neither the node features nor the input weights. -/
theorem hostOps0_main_arg0 (V : Valuation τ sig (Elt F)) :
    StableHlo.after hostOps0 V (Proc.devRef .tc main_arg0) = V (Proc.devRef .tc main_arg0) := by
  simp only [hostOps0]; after_results_simp

theorem hostOps0_main_arg1 (V : Valuation τ sig (Elt F)) :
    StableHlo.after hostOps0 V (Proc.devRef .tc main_arg1) = V (Proc.devRef .tc main_arg1) := by
  simp only [hostOps0]; after_results_simp

end Cert.KernelIdeal.Gen
-- ==== Proof.Value.HostKAgg.lean ====
import proofs.«101364_j7567732376252_1_alg».proof.Proof.Gen.KernelIdeal.Launch
import proofs.«101364_j7567732376252_1_alg».proof.Proof.Value.HostFns
import Idealize.ShloMosaic.Lib.StableHlo.Run

/-! The host stretches before the four aggregation kernels, read as terms.

Before each layer's statistics kernel the program gathers the rows of the layer's table at the sources, scales each
by its edge weight, and adds them into zeros at the destinations; it also lays the self-loop weights out as a column
and the layer's bias as a row. For ANY contents `V` of the buffers when the stretch starts, each result is the named
function of the buffers it reads: the layer's table, the sources, the destinations, the edge weights. -/

noncomputable section

namespace Cert.KernelIdeal.Gen

open Idealize.ShloMosaic Idealize.ShloMosaic.TcCoe

variable {F : FTy → Type} [FloatOps F] [Named F]

/-! ### Layer 0 -/

/-- The aggregation of layer 0's table. -/
theorem hostOps2_main_v52 (V : Valuation τ sig (Elt F)) :
    StableHlo.after hostOps2 V (Proc.devRef .tc main_v52) = GcnHost.aggOf (F := F) (V (Proc.devRef .tc main_v39)) (V (Proc.devRef .tc main_v1)) (V (Proc.devRef .tc main_v3)) (V (Proc.devRef .tc main_v30)) := by
  simp only [hostOps2]; after_results_simp; rfl

/-- The self-loop weights as a column. -/
theorem hostOps2_main_v55 (V : Valuation τ sig (Elt F)) :
    StableHlo.after hostOps2 V (Proc.devRef .tc main_v55) = GcnHost.colN (F := F) (V (Proc.devRef .tc main_v31)) := by
  simp only [hostOps2]; after_results_simp; rfl

/-- The bias of layer 0 as a row. -/
theorem hostOps2_main_v56 (V : Valuation τ sig (Elt F)) :
    StableHlo.after hostOps2 V (Proc.devRef .tc main_v56) = GcnHost.layerRow (F := F) 0 (V (Proc.devRef .tc main_arg4)) := by
  simp only [hostOps2]; after_results_simp; rfl

/-! ### Layer 1 -/

/-- The aggregation of layer 1's table. -/
theorem hostOps5_main_v81 (V : Valuation τ sig (Elt F)) :
    StableHlo.after hostOps5 V (Proc.devRef .tc main_v81) = GcnHost.aggOf (F := F) (V (Proc.devRef .tc main_v68)) (V (Proc.devRef .tc main_v1)) (V (Proc.devRef .tc main_v3)) (V (Proc.devRef .tc main_v30)) := by
  simp only [hostOps5]; after_results_simp; rfl

/-- The self-loop weights as a column. -/
theorem hostOps5_main_v84 (V : Valuation τ sig (Elt F)) :
    StableHlo.after hostOps5 V (Proc.devRef .tc main_v84) = GcnHost.colN (F := F) (V (Proc.devRef .tc main_v31)) := by
  simp only [hostOps5]; after_results_simp; rfl

/-- The bias of layer 1 as a row. -/
theorem hostOps5_main_v85 (V : Valuation τ sig (Elt F)) :
    StableHlo.after hostOps5 V (Proc.devRef .tc main_v85) = GcnHost.layerRow (F := F) 1 (V (Proc.devRef .tc main_arg4)) := by
  simp only [hostOps5]; after_results_simp; rfl

/-! ### Layer 2 -/

/-- The aggregation of layer 2's table. -/
theorem hostOps8_main_v110 (V : Valuation τ sig (Elt F)) :
    StableHlo.after hostOps8 V (Proc.devRef .tc main_v110) = GcnHost.aggOf (F := F) (V (Proc.devRef .tc main_v97)) (V (Proc.devRef .tc main_v1)) (V (Proc.devRef .tc main_v3)) (V (Proc.devRef .tc main_v30)) := by
  simp only [hostOps8]; after_results_simp; rfl

/-- The self-loop weights as a column. -/
theorem hostOps8_main_v113 (V : Valuation τ sig (Elt F)) :
    StableHlo.after hostOps8 V (Proc.devRef .tc main_v113) = GcnHost.colN (F := F) (V (Proc.devRef .tc main_v31)) := by
  simp only [hostOps8]; after_results_simp; rfl

/-- The bias of layer 2 as a row. -/
theorem hostOps8_main_v114 (V : Valuation τ sig (Elt F)) :
    StableHlo.after hostOps8 V (Proc.devRef .tc main_v114) = GcnHost.layerRow (F := F) 2 (V (Proc.devRef .tc main_arg4)) := by
  simp only [hostOps8]; after_results_simp; rfl

/-! ### Layer 3 -/

/-- The aggregation of layer 3's table. -/
theorem hostOps11_main_v139 (V : Valuation τ sig (Elt F)) :
    StableHlo.after hostOps11 V (Proc.devRef .tc main_v139) = GcnHost.aggOf (F := F) (V (Proc.devRef .tc main_v126)) (V (Proc.devRef .tc main_v1)) (V (Proc.devRef .tc main_v3)) (V (Proc.devRef .tc main_v30)) := by
  simp only [hostOps11]; after_results_simp; rfl

/-- The self-loop weights as a column. -/
theorem hostOps11_main_v142 (V : Valuation τ sig (Elt F)) :
    StableHlo.after hostOps11 V (Proc.devRef .tc main_v142) = GcnHost.colN (F := F) (V (Proc.devRef .tc main_v31)) := by
  simp only [hostOps11]; after_results_simp; rfl

/-- The bias of layer 3 as a row. -/
theorem hostOps11_main_v143 (V : Valuation τ sig (Elt F)) :
    StableHlo.after hostOps11 V (Proc.devRef .tc main_v143) = GcnHost.layerRow (F := F) 3 (V (Proc.devRef .tc main_arg4)) := by
  simp only [hostOps11]; after_results_simp; rfl

end Cert.KernelIdeal.Gen
-- ==== Proof.Value.HostKPar.lean ====
import proofs.«101364_j7567732376252_1_alg».proof.Proof.Gen.KernelIdeal.Launch
import proofs.«101364_j7567732376252_1_alg».proof.Proof.Value.HostFns
import Idealize.ShloMosaic.Lib.StableHlo.Run

/-! The short host stretches, read as terms.

Between the kernels the program cuts one layer's parameters out of the stacked tables (a weight matrix, a scale row,
a shift row), lays the zero bias of the layer's linear map out as a row, and before the first layer forms the zero
table the running sum starts from; before the last kernel it lays the output bias out as a row. For ANY contents `V`
of the buffers when the stretch starts, each result is the named function of the buffer it reads. -/

noncomputable section

namespace Cert.KernelIdeal.Gen

open Idealize.ShloMosaic Idealize.ShloMosaic.TcCoe

variable {F : FTy → Type} [FloatOps F] [Named F]

/-! ### Before the first layer's linear map -/

/-- The zero table the running sum of the layers starts from. -/
theorem hostOps1_main_v34 (V : Valuation τ sig (Elt F)) :
    StableHlo.after hostOps1 V (Proc.devRef .tc main_v34) = GcnHost.zerosND (F := F) := by
  simp only [hostOps1]; after_results_simp; rfl

/-- The vector of zeros every layer's linear map takes as its bias. -/
theorem hostOps1_main_v35 (V : Valuation τ sig (Elt F)) :
    StableHlo.after hostOps1 V (Proc.devRef .tc main_v35) = GcnHost.zerosD (F := F) := by
  simp only [hostOps1]; after_results_simp; rfl

/-- The weights of layer 0. -/
theorem hostOps1_main_v37 (V : Valuation τ sig (Elt F)) :
    StableHlo.after hostOps1 V (Proc.devRef .tc main_v37) = GcnHost.layerMat (F := F) 0 (V (Proc.devRef .tc main_arg3)) := by
  simp only [hostOps1]; after_results_simp; rfl

/-- The zero bias as a row. -/
theorem hostOps1_main_v38 (V : Valuation τ sig (Elt F)) :
    StableHlo.after hostOps1 V (Proc.devRef .tc main_v38) = GcnHost.zeroRowD (F := F) := by
  simp only [hostOps1]; after_results_simp; rfl

/-! ### The scale and shift of layer 0 -/

/-- The scale of layer 0 as a row. -/
theorem hostOps3_main_v62 (V : Valuation τ sig (Elt F)) :
    StableHlo.after hostOps3 V (Proc.devRef .tc main_v62) = GcnHost.layerRow (F := F) 0 (V (Proc.devRef .tc main_arg5)) := by
  simp only [hostOps3]; after_results_simp; rfl

/-- The shift of layer 0 as a row. -/
theorem hostOps3_main_v63 (V : Valuation τ sig (Elt F)) :
    StableHlo.after hostOps3 V (Proc.devRef .tc main_v63) = GcnHost.layerRow (F := F) 0 (V (Proc.devRef .tc main_arg6)) := by
  simp only [hostOps3]; after_results_simp; rfl

/-! ### Before the linear map of layer 1 -/

/-- The weights of layer 1. -/
theorem hostOps4_main_v66 (V : Valuation τ sig (Elt F)) :
    StableHlo.after hostOps4 V (Proc.devRef .tc main_v66) = GcnHost.layerMat (F := F) 1 (V (Proc.devRef .tc main_arg3)) := by
  simp only [hostOps4]; after_results_simp; rfl

/-- The zero bias as a row: the vector of zeros, which an earlier stretch wrote, re-laid. -/
theorem hostOps4_main_v67 (V : Valuation τ sig (Elt F)) :
    StableHlo.after hostOps4 V (Proc.devRef .tc main_v67) = GcnHost.rowD (F := F) (V (Proc.devRef .tc main_v35)) := by
  simp only [hostOps4]; after_results_simp; rfl

/-! ### The scale and shift of layer 1 -/

/-- The scale of layer 1 as a row. -/
theorem hostOps6_main_v91 (V : Valuation τ sig (Elt F)) :
    StableHlo.after hostOps6 V (Proc.devRef .tc main_v91) = GcnHost.layerRow (F := F) 1 (V (Proc.devRef .tc main_arg5)) := by
  simp only [hostOps6]; after_results_simp; rfl

/-- The shift of layer 1 as a row. -/
theorem hostOps6_main_v92 (V : Valuation τ sig (Elt F)) :
    StableHlo.after hostOps6 V (Proc.devRef .tc main_v92) = GcnHost.layerRow (F := F) 1 (V (Proc.devRef .tc main_arg6)) := by
  simp only [hostOps6]; after_results_simp; rfl

/-! ### Before the linear map of layer 2 -/

/-- The weights of layer 2. -/
theorem hostOps7_main_v95 (V : Valuation τ sig (Elt F)) :
    StableHlo.after hostOps7 V (Proc.devRef .tc main_v95) = GcnHost.layerMat (F := F) 2 (V (Proc.devRef .tc main_arg3)) := by
  simp only [hostOps7]; after_results_simp; rfl

/-- The zero bias as a row: the vector of zeros, which an earlier stretch wrote, re-laid. -/
theorem hostOps7_main_v96 (V : Valuation τ sig (Elt F)) :
    StableHlo.after hostOps7 V (Proc.devRef .tc main_v96) = GcnHost.rowD (F := F) (V (Proc.devRef .tc main_v35)) := by
  simp only [hostOps7]; after_results_simp; rfl

/-! ### The scale and shift of layer 2 -/

/-- The scale of layer 2 as a row. -/
theorem hostOps9_main_v120 (V : Valuation τ sig (Elt F)) :
    StableHlo.after hostOps9 V (Proc.devRef .tc main_v120) = GcnHost.layerRow (F := F) 2 (V (Proc.devRef .tc main_arg5)) := by
  simp only [hostOps9]; after_results_simp; rfl

/-- The shift of layer 2 as a row. -/
theorem hostOps9_main_v121 (V : Valuation τ sig (Elt F)) :
    StableHlo.after hostOps9 V (Proc.devRef .tc main_v121) = GcnHost.layerRow (F := F) 2 (V (Proc.devRef .tc main_arg6)) := by
  simp only [hostOps9]; after_results_simp; rfl

/-! ### Before the linear map of layer 3 -/

/-- The weights of layer 3. -/
theorem hostOps10_main_v124 (V : Valuation τ sig (Elt F)) :
    StableHlo.after hostOps10 V (Proc.devRef .tc main_v124) = GcnHost.layerMat (F := F) 3 (V (Proc.devRef .tc main_arg3)) := by
  simp only [hostOps10]; after_results_simp; rfl

/-- The zero bias as a row: the vector of zeros, which an earlier stretch wrote, re-laid. -/
theorem hostOps10_main_v125 (V : Valuation τ sig (Elt F)) :
    StableHlo.after hostOps10 V (Proc.devRef .tc main_v125) = GcnHost.rowD (F := F) (V (Proc.devRef .tc main_v35)) := by
  simp only [hostOps10]; after_results_simp; rfl

/-! ### The scale and shift of layer 3 -/

/-- The scale of layer 3 as a row. -/
theorem hostOps12_main_v149 (V : Valuation τ sig (Elt F)) :
    StableHlo.after hostOps12 V (Proc.devRef .tc main_v149) = GcnHost.layerRow (F := F) 3 (V (Proc.devRef .tc main_arg5)) := by
  simp only [hostOps12]; after_results_simp; rfl

/-- The shift of layer 3 as a row. -/
theorem hostOps12_main_v150 (V : Valuation τ sig (Elt F)) :
    StableHlo.after hostOps12 V (Proc.devRef .tc main_v150) = GcnHost.layerRow (F := F) 3 (V (Proc.devRef .tc main_arg6)) := by
  simp only [hostOps12]; after_results_simp; rfl

/-! ### Before the output map -/

/-- The output bias as a row. -/
theorem hostOps13_main_v152 (V : Valuation τ sig (Elt F)) :
    StableHlo.after hostOps13 V (Proc.devRef .tc main_v152) = GcnHost.rowC (F := F) (V (Proc.devRef .tc main_arg8)) := by
  simp only [hostOps13]; after_results_simp; rfl

end Cert.KernelIdeal.Gen
-- ==== Proof.Spec.lean ====
import Idealize.ShloMosaic.PureOps.Ideal
import Idealize.ShloMosaic.Lib.ValueIdx

noncomputable section

namespace GcnSpec

open Idealize.ShloMosaic
open scoped BigOperators

abbrev Mat (r c : ℕ) := Fin r → Fin c → EReal

def toMat {r c : ℕ} (v : (⟨2, ![r, c]⟩ : Shape).Idx → EReal) : Mat r c := fun i j => v (ValueIdx.ix2 i j)

def toVec {n : ℕ} (v : (⟨1, ![n]⟩ : Shape).Idx → EReal) : Fin n → EReal := fun i => v (ValueIdx.ix1 i)

def rowOf {c : ℕ} (v : (⟨2, ![1, c]⟩ : Shape).Idx → EReal) : Fin c → EReal := fun j => v (ValueIdx.ix2 0 j)

def colOf {r : ℕ} (v : (⟨2, ![r, 1]⟩ : Shape).Idx → EReal) : Fin r → EReal := fun i => v (ValueIdx.ix2 i 0)

def slab {n r c : ℕ} (k : Fin n) (v : (⟨3, ![n, r, c]⟩ : Shape).Idx → EReal) : Mat r c :=
  fun l j => v (ValueIdx.ix3 k l j)

def rowAt {n c : ℕ} (k : Fin n) (v : (⟨2, ![n, c]⟩ : Shape).Idx → EReal) : Fin c → EReal :=
  fun j => v (ValueIdx.ix2 k j)

def zeroMat {r c : ℕ} : Mat r c := fun _ _ => 0

def zeroRow {c : ℕ} : Fin c → EReal := fun _ => 0

def lin {r k c : ℕ} (x : Mat r k) (W : Mat k c) (b : Fin c → EReal) : Mat r c :=
  fun i j => (∑ l : Fin k, x i l * W l j) + b j

def mul {r k c : ℕ} (x : Mat r k) (W : Mat k c) : Mat r c := fun i j => ∑ l : Fin k, x i l * W l j

def full {r c : ℕ} (agg t : Mat r c) (sn : Fin r → EReal) (b : Fin c → EReal) : Mat r c :=
  fun i j => agg i j + t i j * sn i + b j

def invN : EReal := ((1 / 50000 : ℝ) : EReal)

def batchN : EReal := Ideal.ofBits .f32 0x47435000#32

def eps : EReal := Ideal.ofBits .f32 0x3727C5AC#32

def half : EReal := Ideal.ofBits .f32 0x3F000000#32

def meanK {r c : ℕ} (a : Mat r c) : Fin c → EReal := fun j => (∑ i : Fin r, a i j) * invN

def varK {r c : ℕ} (a : Mat r c) : Fin c → EReal :=
  fun j => (∑ i : Fin r, a i j * a i j) * invN - meanK a j * meanK a j

def meanR {r c : ℕ} (a : Mat r c) : Fin c → EReal := fun j => Ideal.div (0 + ∑ i : Fin r, a i j) batchN

def varR {r c : ℕ} (a : Mat r c) : Fin c → EReal :=
  fun j => Ideal.div (0 + ∑ i : Fin r, (a i j - meanR a j) * (a i j - meanR a j)) batchN

def norm {r c : ℕ} (a : Mat r c) (mean var gamma beta : Fin c → EReal) : Mat r c :=
  fun i j => ((a i j - mean j) * Ideal.rsqrt (var j + eps)) * gamma j + beta j

def withSkip {r c : ℕ} (a xs : Mat r c) : Mat r c := fun i j => a i j + half * xs i j

def relu {r c : ℕ} (a : Mat r c) : Mat r c := fun i j => max (a i j) 0

def accum {r c : ℕ} (acc h : Mat r c) : Mat r c := fun i j => acc i j + h i j

end GcnSpec

end
-- ==== Proof.Value.HostRead.lean ====
import proofs.«101364_j7567732376252_1_alg».proof.Proof.Value.HostFns
import proofs.«101364_j7567732376252_1_alg».proof.Proof.Spec
import Idealize.ShloMosaic.PureOps.Ideal.Laws
import Idealize.ShloMosaic.Lib.Pipeline.Value

noncomputable section

namespace GcnHost

open Idealize.ShloMosaic Idealize.ShloMosaic.ValueIdx

theorem rowOf_shapeCast {n : ℕ} (b : (⟨1, ![n]⟩ : Shape).Idx → EReal) (h : (⟨1, ![n]⟩ : Shape).ShapeCasts ⟨2, ![1, n]⟩) :
    GcnSpec.rowOf (shapeCast ⟨2, ![1, n]⟩ b h) = GcnSpec.toVec b := by
  funext j
  refine shapeCast_apply b h (ix2 0 j) (ix1 j) ?_
  rw [Shape.rowMajor_val_one, Shape.rowMajor_val_two]
  show j.val = 0 * n + j.val
  omega

theorem rowOf_rowD (b : Vec Ideal SD .f32) : GcnSpec.rowOf (rowD (F := Ideal) b) = GcnSpec.toVec b := rowOf_shapeCast b _

theorem rowOf_rowC (b : Vec Ideal SC .f32) : GcnSpec.rowOf (rowC (F := Ideal) b) = GcnSpec.toVec b := rowOf_shapeCast b _

theorem colOf_colN (v : Vec Ideal SN .f32) : GcnSpec.colOf (colN (F := Ideal) v) = GcnSpec.toVec v := by
  funext i
  show shapeCast SN1 v _ (ix2 i 0) = v (ix1 i)
  refine shapeCast_apply v _ (ix2 i 0) (ix1 i) ?_
  rw [Shape.rowMajor_val_one, Shape.rowMajor_val_two]
  show i.val = i.val * 1 + 0
  omega

theorem rowOf_layerRow (k : Fin 4) (p : Vec Ideal S4D .f32) (h : S4D.Slices ![k.val, 0] S1D) :
    GcnSpec.rowOf (layerRow (F := Ideal) k.val p h) = GcnSpec.rowAt k p := by
  refine (rowOf_shapeCast _ _).trans (funext fun j => ?_)
  refine (shapeCast_apply _ _ (ix1 j) (ix2 0 j) ?_).trans ?_
  · rw [Shape.rowMajor_val_one, Shape.rowMajor_val_two]
    show 0 * 128 + j.val = j.val
    omega
  refine extractStridedSlice_apply _ p h (ix2 0 j) (ix2 k j) fun a => ?_
  match a with
  | ⟨0, _⟩ => show k.val = k.val + 0; omega
  | ⟨1, _⟩ => show j.val = 0 + j.val; omega

theorem toMat_layerMat (k : Fin 4) (w : Vec Ideal S4DD .f32) (h : S4DD.Slices ![k.val, 0, 0] S1DD) :
    GcnSpec.toMat (layerMat (F := Ideal) k.val w h) = GcnSpec.slab k w := by
  funext l j
  show shapeCast SDD (extractStridedSlice S1DD ![k.val, 0, 0] w h) _ (ix2 l j) = w (ix3 k l j)
  refine (shapeCast_apply _ _ (ix2 l j) (ix3 0 l j) ?_).trans ?_
  · rw [Shape.rowMajor_val_two, Shape.rowMajor_val_three]
    show (0 * 128 + l.val) * 128 + j.val = l.val * 128 + j.val
    omega
  refine extractStridedSlice_apply _ w h (ix3 0 l j) (ix3 k l j) fun a => ?_
  match a with
  | ⟨0, _⟩ => show k.val = k.val + 0; omega
  | ⟨1, _⟩ => show l.val = 0 + l.val; omega
  | ⟨2, _⟩ => show j.val = 0 + j.val; omega

theorem toMat_zerosND : GcnSpec.toMat (zerosND (F := Ideal)) = GcnSpec.zeroMat := by
  funext i j
  show Ideal.ofBits .f32 0x00000000#32 = 0
  exact Ideal.ofBits_zero_f32

theorem toVec_zerosD : GcnSpec.toVec (zerosD (F := Ideal)) = GcnSpec.zeroRow := by
  funext j
  show Ideal.ofBits .f32 0x00000000#32 = 0
  exact Ideal.ofBits_zero_f32

theorem rowOf_zeroRowD : GcnSpec.rowOf (zeroRowD (F := Ideal)) = GcnSpec.zeroRow :=
  (rowOf_rowD _).trans toVec_zerosD

end GcnHost
-- ==== Proof.LibRealValued.lean ====
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

def IsReal {ι : Type*} (v : ι → EReal) : Prop := ∀ i, ∃ r : ℝ, v i = (r : EReal)

theorem isReal_of_abs_lt_top {ι : Type*} {x : ι → EReal} (h : ∀ i, max (x i) (-(x i)) < ⊤) : IsReal x := by
  refine fun i => ⟨(x i).toReal, (EReal.coe_toReal ?_ ?_).symm⟩ <;>
  · intro e; have := h i; rw [e] at this; simp at this

theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

theorem real_max {a b : EReal} (ha : ∃ r : ℝ, a = (r : EReal)) (hb : ∃ r : ℝ, b = (r : EReal)) :
    ∃ r : ℝ, max a b = (r : EReal) := by
  rcases max_choice a b with h | h <;> rw [h] <;> assumption

theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

section Elementwise
variable {s : Shape} {φ : FTy}

theorem isReal_mulf {x y : FVec Ideal s φ} (hx : IsReal x) (hy : IsReal y) : IsReal (mulf (F := Ideal) x y) :=
  fun i => real_mul (hx i) (hy i)

end Elementwise

section Reindex
variable {s t : Shape}

theorem isReal_broadcastInDim {dims : Fin s.rank → Fin t.rank} {h : s.BroadcastsInDim t dims} {x : s.Idx → EReal}
    (hx : IsReal x) : IsReal (broadcastInDim t dims h x) :=
  fun _ => hx _

theorem isReal_gather {si : Shape} {w : Nat} (d : GatherDims s si t) {x : s.Idx → EReal} (idx : IVec si w)
    (hx : IsReal x) : IsReal (Host.gather d x idx) :=
  fun _ => hx _

end Reindex

section Sums
variable {s : Shape} {φ : FTy}

theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

end Sums

section Degree
variable {s : Shape} {φ : FTy}

def IsPos {ι : Type*} (v : ι → EReal) : Prop := ∀ i, ∃ r : ℝ, 0 < r ∧ v i = (r : EReal)

theorem IsPos.isReal {ι : Type*} {v : ι → EReal} (h : IsPos v) : IsReal v :=
  fun i => let ⟨r, _, hr⟩ := h i; ⟨r, hr⟩

theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

theorem isPos_rsqrt {x : FVec Ideal s φ} (hx : IsPos x) : IsPos (Host.rsqrt (F := Ideal) x) :=
  fun i => rsqrt_of_pos (hx i)

theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

theorem isPos_gather {t si : Shape} {w : Nat} (d : GatherDims s si t) {x : s.Idx → EReal} (idx : IVec si w)
    (hx : IsPos x) : IsPos (Host.gather d x idx) :=
  fun _ => hx _

end Degree

end RealValued
-- ==== Proof.StatsLaw.lean ====
import Mathlib.Tactic.Ring
import Mathlib.Tactic.FieldSimp
import Mathlib.Tactic.Positivity
import Mathlib.Tactic.Linarith
import Mathlib.Logic.Equiv.Fin.Basic
import Mathlib.Algebra.BigOperators.Fin
import Mathlib.Algebra.BigOperators.Ring.Finset
import Mathlib.Algebra.Order.BigOperators.Group.Finset
import Mathlib.Data.EReal.Inv
import Idealize.ShloMosaic.PureOps.Ideal
import Idealize.ShloMosaic.PureOps.Ideal.Laws
import proofs.«101364_j7567732376252_1_alg».proof.Proof.LibRealValued

namespace StatsLaw

open Idealize.ShloMosaic
open RealValued
open scoped BigOperators

theorem coe_finset_sum {κ : Type*} (s : Finset κ) (f : κ → ℝ) :
    ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

theorem eq_coe_toReal {κ : Type*} {s : Finset κ} {a : κ → EReal} (ha : ∀ i ∈ s, ∃ r : ℝ, a i = (r : EReal)) :
    ∀ i ∈ s, a i = (((a i).toReal : ℝ) : EReal) := by
  intro i hi
  obtain ⟨r, hr⟩ := ha i hi
  rw [hr, EReal.toReal_coe]

theorem sum_eq_coe {κ : Type*} {s : Finset κ} {a : κ → EReal} (ha : ∀ i ∈ s, ∃ r : ℝ, a i = (r : EReal)) :
    ∑ i ∈ s, a i = ((∑ i ∈ s, (a i).toReal : ℝ) : EReal) := by
  rw [coe_finset_sum]
  exact Finset.sum_congr rfl (eq_coe_toReal ha)

theorem sum_sq_eq_coe {κ : Type*} {s : Finset κ} {a : κ → EReal} (ha : ∀ i ∈ s, ∃ r : ℝ, a i = (r : EReal)) :
    ∑ i ∈ s, a i * a i = ((∑ i ∈ s, (a i).toReal * (a i).toReal : ℝ) : EReal) := by
  rw [coe_finset_sum]
  refine Finset.sum_congr rfl fun i hi => ?_
  rw [EReal.coe_mul, ← eq_coe_toReal ha i hi]

theorem sum_dev_eq_coe {κ : Type*} {s : Finset κ} {a : κ → EReal} (ha : ∀ i ∈ s, ∃ r : ℝ, a i = (r : EReal))
    (μ : ℝ) :
    ∑ i ∈ s, (a i - (μ : EReal)) * (a i - (μ : EReal))
      = ((∑ i ∈ s, ((a i).toReal - μ) * ((a i).toReal - μ) : ℝ) : EReal) := by
  rw [coe_finset_sum]
  refine Finset.sum_congr rfl fun i hi => ?_
  rw [EReal.coe_mul, EReal.coe_sub, ← eq_coe_toReal ha i hi]

noncomputable def realMean {κ : Type*} (s : Finset κ) (α : κ → ℝ) (n : ℝ) : ℝ := (∑ i ∈ s, α i) * (1 / n)

noncomputable def realVar {κ : Type*} (s : Finset κ) (α : κ → ℝ) (n : ℝ) : ℝ :=
  (∑ i ∈ s, (α i - realMean s α n) * (α i - realMean s α n)) * (1 / n)

theorem sum_dev_expand {κ : Type*} (s : Finset κ) (α : κ → ℝ) (μ : ℝ) :
    ∑ i ∈ s, (α i - μ) * (α i - μ)
      = (∑ i ∈ s, α i * α i) - 2 * μ * (∑ i ∈ s, α i) + (s.card : ℝ) * (μ * μ) := by
  have h : ∀ i ∈ s, (α i - μ) * (α i - μ) = α i * α i - 2 * μ * α i + μ * μ := fun i _ => by ring
  rw [Finset.sum_congr rfl h, Finset.sum_add_distrib, Finset.sum_sub_distrib, ← Finset.mul_sum,
    Finset.sum_const, nsmul_eq_mul]

theorem var_identity {κ : Type*} (s : Finset κ) (α : κ → ℝ) {n : ℝ} (hn : n ≠ 0) (hcard : (s.card : ℝ) = n) :
    (∑ i ∈ s, α i * α i) * (1 / n) - realMean s α n * realMean s α n = realVar s α n := by
  unfold realVar
  rw [sum_dev_expand, hcard]
  unfold realMean
  field_simp
  ring

theorem realVar_nonneg {κ : Type*} (s : Finset κ) (α : κ → ℝ) {n : ℝ} (hn : 0 < n) : 0 ≤ realVar s α n := by
  unfold realVar
  exact mul_nonneg (Finset.sum_nonneg fun i _ => mul_self_nonneg _) (by positivity)

section Stats
variable {κ : Type*} {s : Finset κ} {a : κ → EReal}

theorem mean_mul_eq_coe (ha : ∀ i ∈ s, ∃ r : ℝ, a i = (r : EReal)) (n : ℝ) :
    (∑ i ∈ s, a i) * ((1 / n : ℝ) : EReal) = ((realMean s (fun i => (a i).toReal) n : ℝ) : EReal) := by
  rw [sum_eq_coe ha, ← EReal.coe_mul]; rfl

theorem mean_div_eq_coe (ha : ∀ i ∈ s, ∃ r : ℝ, a i = (r : EReal)) {n : ℝ} (hn : n ≠ 0) :
    Ideal.div (0 + ∑ i ∈ s, a i) (n : EReal) = ((realMean s (fun i => (a i).toReal) n : ℝ) : EReal) := by
  rw [Ideal.div_coe hn, zero_add, mean_mul_eq_coe ha]

theorem mean_mul_eq_div (s : Finset κ) (a : κ → EReal) {n : ℝ} (hn : n ≠ 0) :
    (∑ i ∈ s, a i) * ((1 / n : ℝ) : EReal) = Ideal.div (0 + ∑ i ∈ s, a i) (n : EReal) := by
  rw [Ideal.div_coe hn, zero_add]

theorem var_mul_eq_coe (ha : ∀ i ∈ s, ∃ r : ℝ, a i = (r : EReal)) {n : ℝ} (hn : n ≠ 0)
    (hcard : (s.card : ℝ) = n) :
    (∑ i ∈ s, a i * a i) * ((1 / n : ℝ) : EReal)
        - ((∑ i ∈ s, a i) * ((1 / n : ℝ) : EReal)) * ((∑ i ∈ s, a i) * ((1 / n : ℝ) : EReal))
      = ((realVar s (fun i => (a i).toReal) n : ℝ) : EReal) := by
  rw [mean_mul_eq_coe ha, sum_sq_eq_coe ha, ← EReal.coe_mul, ← EReal.coe_mul, ← EReal.coe_sub,
    var_identity s _ hn hcard]

theorem var_div_eq_coe (ha : ∀ i ∈ s, ∃ r : ℝ, a i = (r : EReal)) {n : ℝ} (hn : n ≠ 0) :
    Ideal.div (0 + ∑ i ∈ s, (a i - Ideal.div (0 + ∑ i ∈ s, a i) (n : EReal))
        * (a i - Ideal.div (0 + ∑ i ∈ s, a i) (n : EReal))) (n : EReal)
      = ((realVar s (fun i => (a i).toReal) n : ℝ) : EReal) := by
  rw [mean_div_eq_coe ha hn, sum_dev_eq_coe ha, Ideal.div_coe hn, zero_add, ← EReal.coe_mul]; rfl

theorem var_mul_eq_div (ha : ∀ i ∈ s, ∃ r : ℝ, a i = (r : EReal)) {n : ℝ} (hn : n ≠ 0)
    (hcard : (s.card : ℝ) = n) :
    (∑ i ∈ s, a i * a i) * ((1 / n : ℝ) : EReal)
        - ((∑ i ∈ s, a i) * ((1 / n : ℝ) : EReal)) * ((∑ i ∈ s, a i) * ((1 / n : ℝ) : EReal))
      = Ideal.div (0 + ∑ i ∈ s, (a i - Ideal.div (0 + ∑ i ∈ s, a i) (n : EReal))
          * (a i - Ideal.div (0 + ∑ i ∈ s, a i) (n : EReal))) (n : EReal) := by
  rw [var_mul_eq_coe ha hn hcard, var_div_eq_coe ha hn]

theorem mean_isReal (ha : ∀ i ∈ s, ∃ r : ℝ, a i = (r : EReal)) (n : ℝ) :
    ∃ r : ℝ, (∑ i ∈ s, a i) * ((1 / n : ℝ) : EReal) = (r : EReal) :=
  ⟨_, mean_mul_eq_coe ha n⟩

theorem var_isNonneg (ha : ∀ i ∈ s, ∃ r : ℝ, a i = (r : EReal)) {n : ℝ} (hn : 0 < n)
    (hcard : (s.card : ℝ) = n) :
    ∃ r : ℝ, 0 ≤ r ∧ (∑ i ∈ s, a i * a i) * ((1 / n : ℝ) : EReal)
        - ((∑ i ∈ s, a i) * ((1 / n : ℝ) : EReal)) * ((∑ i ∈ s, a i) * ((1 / n : ℝ) : EReal)) = (r : EReal) :=
  ⟨_, realVar_nonneg s _ hn, var_mul_eq_coe ha hn.ne' hcard⟩

theorem var_add_pos (ha : ∀ i ∈ s, ∃ r : ℝ, a i = (r : EReal)) {n : ℝ} (hn : 0 < n)
    (hcard : (s.card : ℝ) = n) {e : EReal} (he : ∃ r : ℝ, 0 < r ∧ e = (r : EReal)) :
    ∃ r : ℝ, 0 < r ∧ ((∑ i ∈ s, a i * a i) * ((1 / n : ℝ) : EReal)
        - ((∑ i ∈ s, a i) * ((1 / n : ℝ) : EReal)) * ((∑ i ∈ s, a i) * ((1 / n : ℝ) : EReal))) + e = (r : EReal) := by
  obtain ⟨v, hv, hve⟩ := var_isNonneg ha hn hcard
  obtain ⟨p, hp, rfl⟩ := he
  exact ⟨v + p, by linarith, by rw [hve, EReal.coe_add]⟩

end Stats

theorem ofBits_50000_f32 : Ideal.ofBits .f32 0x47435000#32 = ((50000 : ℝ) : EReal) := by
  simp [Ideal.ofBits, Ideal.ieee, -EReal.coe_mul]; norm_num

theorem ofBits_1em5_f32 :
    Ideal.ofBits .f32 0x3727C5AC#32 = (((10995116 : ℝ) * (2 : ℝ) ^ (-40 : ℤ) : ℝ) : EReal) := by
  simp [Ideal.ofBits, Ideal.ieee, -EReal.coe_mul]

theorem ofBits_1em5_f32_pos : ∃ r : ℝ, 0 < r ∧ Ideal.ofBits .f32 0x3727C5AC#32 = (r : EReal) :=
  ⟨_, by positivity, ofBits_1em5_f32⟩

theorem sum_blocks {T R n : ℕ} (hn : n = T * R) (a : Fin n → EReal) (e : Fin T → Fin R → Fin n)
    (he : ∀ t r, (e t r).val = t.val * R + r.val) :
    ∑ t : Fin T, ∑ r : Fin R, a (e t r) = ∑ i : Fin n, a i := by
  subst hn
  rw [← Fintype.sum_prod_type', ← finProdFinEquiv.sum_comp]
  refine Finset.sum_congr rfl fun p _ => ?_
  congr 1
  apply Fin.ext
  rw [he]
  simp [finProdFinEquiv, Nat.mul_comm, Nat.add_comm]

theorem acc_eq_sum_range {N : ℕ} {acc blk : ℕ → EReal} (h0 : acc 0 = 0 + blk 0)
    (hs : ∀ t, t + 1 < N → acc (t + 1) = acc t + blk (t + 1)) :
    ∀ t, t < N → acc t = ∑ k ∈ Finset.range (t + 1), blk k := by
  intro t
  induction t with
  | zero => intro _; rw [h0, zero_add, Finset.sum_range_one]
  | succ t ih => intro ht; rw [hs t ht, ih (Nat.lt_of_succ_lt ht), Finset.sum_range_succ _ (t + 1)]

theorem acc_last_eq_sum {T : ℕ} {acc blk : ℕ → EReal} (h0 : acc 0 = 0 + blk 0)
    (hs : ∀ t, t + 1 < T + 1 → acc (t + 1) = acc t + blk (t + 1)) :
    acc T = ∑ t : Fin (T + 1), blk t.val := by
  rw [acc_eq_sum_range h0 hs T (Nat.lt_succ_self T), Finset.sum_range]

theorem acc_last_eq_sum_rows {T R n : ℕ} (hn : n = (T + 1) * R) (a : Fin n → EReal)
    (e : Fin (T + 1) → Fin R → Fin n) (he : ∀ t r, (e t r).val = t.val * R + r.val) {acc blk : ℕ → EReal}
    (hblk : ∀ t : Fin (T + 1), blk t.val = ∑ r : Fin R, a (e t r)) (h0 : acc 0 = 0 + blk 0)
    (hs : ∀ t, t + 1 < T + 1 → acc (t + 1) = acc t + blk (t + 1)) :
    acc T = ∑ i : Fin n, a i := by
  rw [acc_last_eq_sum h0 hs, Finset.sum_congr rfl fun t _ => hblk t, sum_blocks hn a e he]

end StatsLaw
-- ==== Proof.SpecLaw.lean ====
import Mathlib.Tactic.NormNum
import Mathlib.Tactic.Positivity
import Idealize.ShloMosaic.PureOps.Ideal
import Idealize.ShloMosaic.PureOps.Ideal.Laws
import proofs.«101364_j7567732376252_1_alg».proof.Proof.LibRealValued
import proofs.«101364_j7567732376252_1_alg».proof.Proof.Spec
import proofs.«101364_j7567732376252_1_alg».proof.Proof.StatsLaw

namespace SpecLaw

open Idealize.ShloMosaic
open RealValued
open GcnSpec
open scoped BigOperators

def MatReal {r c : ℕ} (a : Mat r c) : Prop := ∀ i j, ∃ x : ℝ, a i j = (x : EReal)

def VecReal {n : ℕ} (v : Fin n → EReal) : Prop := ∀ j, ∃ x : ℝ, v j = (x : EReal)

theorem matReal_toMat {r c : ℕ} {v : (⟨2, ![r, c]⟩ : Shape).Idx → EReal} (hv : IsReal v) : MatReal (toMat v) :=
  fun _ _ => hv _

theorem vecReal_toVec {n : ℕ} {v : (⟨1, ![n]⟩ : Shape).Idx → EReal} (hv : IsReal v) : VecReal (toVec v) :=
  fun _ => hv _

theorem half_eq : half = (((1 : ℝ) / 2 : ℝ) : EReal) := by
  unfold half
  simp [Ideal.ofBits, Ideal.ieee, -EReal.coe_mul]; norm_num

theorem batchN_eq : batchN = ((50000 : ℝ) : EReal) := StatsLaw.ofBits_50000_f32

theorem eps_pos : ∃ x : ℝ, 0 < x ∧ eps = (x : EReal) := StatsLaw.ofBits_1em5_f32_pos

section Stats
variable {c : ℕ}

theorem meanK_eq_meanR (a : Mat 50000 c) : meanK a = meanR a := by
  funext j
  unfold meanK meanR invN
  rw [batchN_eq]
  exact StatsLaw.mean_mul_eq_div Finset.univ (fun i => a i j) (by norm_num)

theorem varK_eq_varR {a : Mat 50000 c} (ha : MatReal a) : varK a = varR a := by
  funext j
  unfold varK varR meanK meanR invN
  rw [batchN_eq]
  exact StatsLaw.var_mul_eq_div (s := Finset.univ) (a := fun i => a i j) (fun i _ => ha i j) (by norm_num)
    (by simp)

theorem vecReal_meanK {a : Mat 50000 c} (ha : MatReal a) : VecReal (meanK a) := fun j =>
  StatsLaw.mean_isReal (s := Finset.univ) (a := fun i => a i j) (fun i _ => ha i j) 50000

theorem varK_add_eps_pos {a : Mat 50000 c} (ha : MatReal a) (j : Fin c) :
    ∃ x : ℝ, 0 < x ∧ varK a j + eps = (x : EReal) :=
  StatsLaw.var_add_pos (s := Finset.univ) (a := fun i => a i j) (fun i _ => ha i j) (by norm_num) (by simp) eps_pos

theorem norm_stats_eq {a : Mat 50000 c} (ha : MatReal a) (gamma beta : Fin c → EReal) :
    norm a (meanK a) (varK a) gamma beta = norm a (meanR a) (varR a) gamma beta := by
  rw [meanK_eq_meanR, varK_eq_varR ha]

end Stats

section Stages
variable {r k c : ℕ}

theorem matReal_lin {x : Mat r k} {W : Mat k c} {b : Fin c → EReal} (hx : MatReal x) (hW : MatReal W)
    (hb : VecReal b) : MatReal (lin x W b) :=
  fun i j => real_add (isReal_sum_univ _ fun l => real_mul (hx i l) (hW l j)) (hb j)

theorem matReal_full {agg t : Mat r c} {sn : Fin r → EReal} {b : Fin c → EReal} (hagg : MatReal agg)
    (ht : MatReal t) (hsn : VecReal sn) (hb : VecReal b) : MatReal (full agg t sn b) :=
  fun i j => real_add (real_add (hagg i j) (real_mul (ht i j) (hsn i))) (hb j)

theorem matReal_norm {a : Mat r c} {mean var gamma beta : Fin c → EReal} (ha : MatReal a) (hmean : VecReal mean)
    (hvar : ∀ j, ∃ x : ℝ, 0 < x ∧ var j + eps = (x : EReal)) (hgamma : VecReal gamma) (hbeta : VecReal beta) :
    MatReal (norm a mean var gamma beta) := fun i j => by
  obtain ⟨x, _, hx⟩ := rsqrt_of_pos (hvar j)
  exact real_add (real_mul (real_mul (real_sub (ha i j) (hmean j)) ⟨x, hx⟩) (hgamma j)) (hbeta j)

theorem matReal_norm_stats {a : Mat 50000 c} {gamma beta : Fin c → EReal} (ha : MatReal a) (hgamma : VecReal gamma)
    (hbeta : VecReal beta) : MatReal (norm a (meanK a) (varK a) gamma beta) :=
  matReal_norm ha (vecReal_meanK ha) (varK_add_eps_pos ha) hgamma hbeta

theorem matReal_withSkip {a xs : Mat r c} (ha : MatReal a) (hxs : MatReal xs) : MatReal (withSkip a xs) :=
  fun i j => real_add (ha i j) (real_mul ⟨_, half_eq⟩ (hxs i j))

theorem matReal_relu {a : Mat r c} (ha : MatReal a) : MatReal (relu a) :=
  fun i j => real_max (ha i j) ⟨0, rfl⟩

end Stages

section Running

theorem running_total_eq_sum {T R n : ℕ} (hn : n = (T + 1) * R) (a : Fin n → EReal)
    (e : Fin (T + 1) → Fin R → Fin n) (he : ∀ t r, (e t r).val = t.val * R + r.val) {acc : ℕ → EReal}
    (h0 : acc 0 = 0 + ∑ r : Fin R, a (e 0 r))
    (hs : ∀ t (ht : t + 1 < T + 1), acc (t + 1) = acc t + ∑ r : Fin R, a (e ⟨t + 1, ht⟩ r)) :
    acc T = ∑ i : Fin n, a i := by
  refine StatsLaw.acc_last_eq_sum_rows hn a e he
    (blk := fun t => if h : t < T + 1 then ∑ r : Fin R, a (e ⟨t, h⟩ r) else 0) ?_ ?_ ?_
  · intro t
    simp only [dif_pos t.isLt, Fin.eta]
  · rw [h0, dif_pos (Nat.succ_pos T)]
    rfl
  · intro t ht
    rw [hs t ht, dif_pos ht]

theorem stats_of_running {c : ℕ} (a : Mat 50000 c) (e : Fin 25 → Fin 2000 → Fin 50000)
    (he : ∀ t r, (e t r).val = t.val * 2000 + r.val) {S Q : ℕ → Fin c → EReal}
    (hS0 : ∀ j, S 0 j = 0 + ∑ r : Fin 2000, a (e 0 r) j)
    (hSs : ∀ t (ht : t + 1 < 25) j, S (t + 1) j = S t j + ∑ r : Fin 2000, a (e ⟨t + 1, ht⟩ r) j)
    (hQ0 : ∀ j, Q 0 j = 0 + ∑ r : Fin 2000, a (e 0 r) j * a (e 0 r) j)
    (hQs : ∀ t (ht : t + 1 < 25) j,
      Q (t + 1) j = Q t j + ∑ r : Fin 2000, a (e ⟨t + 1, ht⟩ r) j * a (e ⟨t + 1, ht⟩ r) j) :
    (fun j => S 24 j * invN) = meanK a
      ∧ (fun j => Q 24 j * invN - (S 24 j * invN) * (S 24 j * invN)) = varK a := by
  have hS : ∀ j, S 24 j = ∑ i : Fin 50000, a i j := fun j =>
    running_total_eq_sum (T := 24) (R := 2000) (by norm_num) (fun i => a i j) e he (acc := fun t => S t j) (hS0 j)
      (fun t ht => hSs t ht j)
  have hQ : ∀ j, Q 24 j = ∑ i : Fin 50000, a i j * a i j := fun j =>
    running_total_eq_sum (T := 24) (R := 2000) (by norm_num) (fun i => a i j * a i j) e he (acc := fun t => Q t j)
      (hQ0 j) (fun t ht => hQs t ht j)
  refine ⟨?_, ?_⟩
  · funext j
    rw [hS j]
    rfl
  · funext j
    rw [hS j, hQ j]
    rfl

end Running

end SpecLaw
-- ==== Proof.NetLaw.lean ====
import Idealize.ShloMosaic.PureOps.Ideal
import proofs.«101364_j7567732376252_1_alg».proof.Proof.Spec
import proofs.«101364_j7567732376252_1_alg».proof.Proof.SpecLaw

noncomputable section

namespace NetLaw

open Idealize.ShloMosaic
open GcnSpec SpecLaw
open scoped BigOperators

theorem lin_zeroRow {r k c : ℕ} (h : Mat r k) (W : Mat k c) : lin h W zeroRow = mul h W := by
  funext i j
  exact add_zero _

theorem vecReal_zeroRow {c : ℕ} : VecReal (zeroRow : Fin c → EReal) := fun _ => ⟨0, rfl⟩

structure Params where

  aggF : Mat 50000 128 → Mat 50000 128

  sn : Fin 50000 → EReal

  x : Mat 50000 128

  Win : Mat 128 128
  bin : Fin 128 → EReal

  Wg : Fin 4 → Mat 128 128
  bg : Fin 4 → Fin 128 → EReal
  gamma : Fin 4 → Fin 128 → EReal
  beta : Fin 4 → Fin 128 → EReal

  Wout : Mat 128 64
  bout : Fin 64 → EReal

structure Params.AllReal (p : Params) : Prop where
  aggF : ∀ t, MatReal t → MatReal (p.aggF t)
  sn : VecReal p.sn
  x : MatReal p.x
  Win : MatReal p.Win
  bin : VecReal p.bin
  Wg : ∀ k, MatReal (p.Wg k)
  bg : ∀ k, VecReal (p.bg k)
  gamma : ∀ k, VecReal (p.gamma k)
  beta : ∀ k, VecReal (p.beta k)
  Wout : MatReal p.Wout
  bout : VecReal p.bout

section StagesK
variable (p : Params)

def h0 : Mat 50000 128 := lin p.x p.Win p.bin

def tK0 : Mat 50000 128 := lin (h0 p) (p.Wg 0) zeroRow
def aK0 : Mat 50000 128 := full (p.aggF (tK0 p)) (tK0 p) p.sn (p.bg 0)
def mK0 : Fin 128 → EReal := meanK (aK0 p)
def vK0 : Fin 128 → EReal := varK (aK0 p)
def hK0 : Mat 50000 128 := relu (norm (aK0 p) (mK0 p) (vK0 p) (p.gamma 0) (p.beta 0))
def accK0 : Mat 50000 128 := accum zeroMat (hK0 p)

def tK1 : Mat 50000 128 := lin (hK0 p) (p.Wg 1) zeroRow
def aK1 : Mat 50000 128 := full (p.aggF (tK1 p)) (tK1 p) p.sn (p.bg 1)
def mK1 : Fin 128 → EReal := meanK (aK1 p)
def vK1 : Fin 128 → EReal := varK (aK1 p)
def hK1 : Mat 50000 128 := relu (withSkip (norm (aK1 p) (mK1 p) (vK1 p) (p.gamma 1) (p.beta 1)) (h0 p))
def accK1 : Mat 50000 128 := accum (accK0 p) (hK1 p)

def tK2 : Mat 50000 128 := lin (hK1 p) (p.Wg 2) zeroRow
def aK2 : Mat 50000 128 := full (p.aggF (tK2 p)) (tK2 p) p.sn (p.bg 2)
def mK2 : Fin 128 → EReal := meanK (aK2 p)
def vK2 : Fin 128 → EReal := varK (aK2 p)
def hK2 : Mat 50000 128 := relu (norm (aK2 p) (mK2 p) (vK2 p) (p.gamma 2) (p.beta 2))
def accK2 : Mat 50000 128 := accum (accK1 p) (hK2 p)

def tK3 : Mat 50000 128 := lin (hK2 p) (p.Wg 3) zeroRow
def aK3 : Mat 50000 128 := full (p.aggF (tK3 p)) (tK3 p) p.sn (p.bg 3)
def mK3 : Fin 128 → EReal := meanK (aK3 p)
def vK3 : Fin 128 → EReal := varK (aK3 p)
def hK3 : Mat 50000 128 := relu (withSkip (norm (aK3 p) (mK3 p) (vK3 p) (p.gamma 3) (p.beta 3)) (h0 p))
def accK3 : Mat 50000 128 := accum (accK2 p) (hK3 p)

def netK : Mat 50000 64 := lin (accK3 p) p.Wout p.bout

end StagesK

section StagesR
variable (p : Params)

def layR (k : Fin 4) (h : Mat 50000 128) : Mat 50000 128 :=
  let a := full (p.aggF (mul h (p.Wg k))) (mul h (p.Wg k)) p.sn (p.bg k)
  norm a (meanR a) (varR a) (p.gamma k) (p.beta k)

def hR0 : Mat 50000 128 := relu (layR p 0 (h0 p))
def hR1 : Mat 50000 128 := relu (withSkip (layR p 1 (hR0 p)) (h0 p))
def hR2 : Mat 50000 128 := relu (layR p 2 (hR1 p))
def hR3 : Mat 50000 128 := relu (withSkip (layR p 3 (hR2 p)) (h0 p))

def netR : Mat 50000 64 :=
  lin (accum (accum (accum (accum zeroMat (hR0 p)) (hR1 p)) (hR2 p)) (hR3 p)) p.Wout p.bout

end StagesR

section Agree
variable {p : Params} (hp : p.AllReal)
include hp

theorem real_h0 : MatReal (h0 p) := matReal_lin hp.x hp.Win hp.bin

-- On real features both spellings of a layer's normalised pre-activation agree, and it is real.
theorem layer_agree (k : Fin 4) {hK hR : Mat 50000 128} (e : hK = hR) (r : MatReal hK) :
    let aK := full (p.aggF (lin hK (p.Wg k) zeroRow)) (lin hK (p.Wg k) zeroRow) p.sn (p.bg k)
    norm aK (meanK aK) (varK aK) (p.gamma k) (p.beta k) = layR p k hR
      ∧ MatReal (norm aK (meanK aK) (varK aK) (p.gamma k) (p.beta k)) := by
  subst e
  intro aK
  have ht := matReal_lin r (hp.Wg k) vecReal_zeroRow
  have ha : MatReal aK := matReal_full (hp.aggF _ ht) ht hp.sn (hp.bg k)
  refine ⟨?_, matReal_norm_stats ha (hp.gamma k) (hp.beta k)⟩
  rw [norm_stats_eq ha, show aK = full (p.aggF (mul hK (p.Wg k))) (mul hK (p.Wg k)) p.sn (p.bg k) by
    show full _ _ _ _ = _; rw [lin_zeroRow]]
  rfl

theorem hK0_eq : hK0 p = hR0 p ∧ MatReal (hK0 p) :=
  let ⟨e, r⟩ := layer_agree hp 0 rfl (real_h0 hp)
  ⟨congrArg relu e, matReal_relu r⟩

theorem hK1_eq : hK1 p = hR1 p ∧ MatReal (hK1 p) :=
  let ⟨e, r⟩ := layer_agree hp 1 (hK0_eq hp).1 (hK0_eq hp).2
  ⟨congrArg (fun n => relu (withSkip n (h0 p))) e, matReal_relu (matReal_withSkip r (real_h0 hp))⟩

theorem hK2_eq : hK2 p = hR2 p ∧ MatReal (hK2 p) :=
  let ⟨e, r⟩ := layer_agree hp 2 (hK1_eq hp).1 (hK1_eq hp).2
  ⟨congrArg relu e, matReal_relu r⟩

theorem hK3_eq : hK3 p = hR3 p :=
  congrArg (fun n => relu (withSkip n (h0 p))) (layer_agree hp 3 (hK2_eq hp).1 (hK2_eq hp).2).1

theorem netK_eq : netK p = netR p := by
  unfold netK netR accK3 accK2 accK1 accK0
  rw [(hK0_eq hp).1, (hK1_eq hp).1, (hK2_eq hp).1, hK3_eq hp]

end Agree

end NetLaw

end
-- ==== Proof.MatRead.lean ====
import proofs.«101364_j7567732376252_1_alg».proof.Proof.Spec

noncomputable section

namespace GcnSpec

open Idealize.ShloMosaic

def ofMat {r c : ℕ} (M : Mat r c) : (⟨2, ![r, c]⟩ : Shape).Idx → EReal := fun idx => M (idx 0) (idx 1)

theorem toMat_ofMat {r c : ℕ} (M : Mat r c) : toMat (ofMat M) = M := rfl

theorem ofMat_toMat {r c : ℕ} (v : (⟨2, ![r, c]⟩ : Shape).Idx → EReal) : ofMat (toMat v) = v := by
  funext idx
  exact congrArg v (ValueIdx.eq_ix2 idx).symm

theorem toMat_inj {r c : ℕ} {v w : (⟨2, ![r, c]⟩ : Shape).Idx → EReal} (h : toMat v = toMat w) : v = w := by
  rw [← ofMat_toMat v, ← ofMat_toMat w, h]

end GcnSpec

end
-- ==== Proof.KerNet.lean ====
import proofs.«101364_j7567732376252_1_alg».proof.Proof.Ideal.Fold
import proofs.«101364_j7567732376252_1_alg».proof.Proof.Value.HostK0
import proofs.«101364_j7567732376252_1_alg».proof.Proof.Value.HostKAgg
import proofs.«101364_j7567732376252_1_alg».proof.Proof.Value.HostKPar
import proofs.«101364_j7567732376252_1_alg».proof.Proof.Value.HostRead
import proofs.«101364_j7567732376252_1_alg».proof.Proof.NetLaw
import proofs.«101364_j7567732376252_1_alg».proof.Proof.MatRead

set_option maxRecDepth 16384

noncomputable section

namespace KerNet

open Idealize.ShloMosaic Idealize.ShloMosaic.TcCoe Cert.KernelIdeal Cert.KernelIdeal.Gen GcnSpec NetLaw

variable (m : (ℓ : Loc nD τ sig) → Buf (Elt Ideal) ℓ) (c : Dev nD)

theorem c1 (r : Ref sig .tc) (h : r ∉ hostOps0_W) : U1 m c (no_index (Proc.devRef .tc r)) = V0 m c (Proc.devRef .tc r) := by
  unfold U1; exact StableHlo.after_of_writes_sub hostOps0 _ hostOps0_writes h
theorem c3 (r : Ref sig .tc) (h : r ∉ hostOps1_W) : U3 m c (no_index (Proc.devRef .tc r)) = U2 m c (Proc.devRef .tc r) := by
  unfold U3; exact StableHlo.after_of_writes_sub hostOps1 _ hostOps1_writes h
theorem c5 (r : Ref sig .tc) (h : r ∉ hostOps2_W) : U5 m c (no_index (Proc.devRef .tc r)) = U4 m c (Proc.devRef .tc r) := by
  unfold U5; exact StableHlo.after_of_writes_sub hostOps2 _ hostOps2_writes h
theorem c7 (r : Ref sig .tc) (h : r ∉ hostOps3_W) : U7 m c (no_index (Proc.devRef .tc r)) = U6 m c (Proc.devRef .tc r) := by
  unfold U7; exact StableHlo.after_of_writes_sub hostOps3 _ hostOps3_writes h
theorem c9 (r : Ref sig .tc) (h : r ∉ hostOps4_W) : U9 m c (no_index (Proc.devRef .tc r)) = U8 m c (Proc.devRef .tc r) := by
  unfold U9; exact StableHlo.after_of_writes_sub hostOps4 _ hostOps4_writes h
theorem c11 (r : Ref sig .tc) (h : r ∉ hostOps5_W) : U11 m c (no_index (Proc.devRef .tc r)) = U10 m c (Proc.devRef .tc r) := by
  unfold U11; exact StableHlo.after_of_writes_sub hostOps5 _ hostOps5_writes h
theorem c13 (r : Ref sig .tc) (h : r ∉ hostOps6_W) : U13 m c (no_index (Proc.devRef .tc r)) = U12 m c (Proc.devRef .tc r) := by
  unfold U13; exact StableHlo.after_of_writes_sub hostOps6 _ hostOps6_writes h
theorem c15 (r : Ref sig .tc) (h : r ∉ hostOps7_W) : U15 m c (no_index (Proc.devRef .tc r)) = U14 m c (Proc.devRef .tc r) := by
  unfold U15; exact StableHlo.after_of_writes_sub hostOps7 _ hostOps7_writes h
theorem c17 (r : Ref sig .tc) (h : r ∉ hostOps8_W) : U17 m c (no_index (Proc.devRef .tc r)) = U16 m c (Proc.devRef .tc r) := by
  unfold U17; exact StableHlo.after_of_writes_sub hostOps8 _ hostOps8_writes h
theorem c19 (r : Ref sig .tc) (h : r ∉ hostOps9_W) : U19 m c (no_index (Proc.devRef .tc r)) = U18 m c (Proc.devRef .tc r) := by
  unfold U19; exact StableHlo.after_of_writes_sub hostOps9 _ hostOps9_writes h
theorem c21 (r : Ref sig .tc) (h : r ∉ hostOps10_W) : U21 m c (no_index (Proc.devRef .tc r)) = U20 m c (Proc.devRef .tc r) := by
  unfold U21; exact StableHlo.after_of_writes_sub hostOps10 _ hostOps10_writes h
theorem c23 (r : Ref sig .tc) (h : r ∉ hostOps11_W) : U23 m c (no_index (Proc.devRef .tc r)) = U22 m c (Proc.devRef .tc r) := by
  unfold U23; exact StableHlo.after_of_writes_sub hostOps11 _ hostOps11_writes h
theorem c25 (r : Ref sig .tc) (h : r ∉ hostOps12_W) : U25 m c (no_index (Proc.devRef .tc r)) = U24 m c (Proc.devRef .tc r) := by
  unfold U25; exact StableHlo.after_of_writes_sub hostOps12 _ hostOps12_writes h
theorem c27 (r : Ref sig .tc) (h : r ∉ hostOps13_W) : U27 m c (no_index (Proc.devRef .tc r)) = U26 m c (Proc.devRef .tc r) := by
  unfold U27; exact StableHlo.after_of_writes_sub hostOps13 _ hostOps13_writes h
macro "carry" : tactic =>
  `(tactic| simp (disch := decide) only [c1, U2_of m c, c3, U4_of m c, c5, U6_of m c, c7, U8_of m c, c9, U10_of m c,
      c11, U12_of m c, c13, U14_of m c, c15, U16_of m c, c17, U18_of m c, c19, U20_of m c,
      c21, U22_of m c, c23, U24_of m c, c25, U26_of m c, c27, U28_of m c])

abbrev A0 : Vec Ideal GcnHost.SND .f32 := V0 m c (Proc.devRef .tc main_arg0)

abbrev A1 : Vec Ideal GcnHost.SDD .f32 := V0 m c (Proc.devRef .tc main_arg1)
abbrev A2 : Vec Ideal GcnHost.SD .f32 := V0 m c (Proc.devRef .tc main_arg2)

abbrev A3 : Vec Ideal GcnHost.S4DD .f32 := V0 m c (Proc.devRef .tc main_arg3)
abbrev A4 : Vec Ideal GcnHost.S4D .f32 := V0 m c (Proc.devRef .tc main_arg4)
abbrev A5 : Vec Ideal GcnHost.S4D .f32 := V0 m c (Proc.devRef .tc main_arg5)
abbrev A6 : Vec Ideal GcnHost.S4D .f32 := V0 m c (Proc.devRef .tc main_arg6)

abbrev A7 : Vec Ideal (⟨2, ![128, 64]⟩ : Shape) .f32 := V0 m c (Proc.devRef .tc main_arg7)
abbrev A8 : Vec Ideal GcnHost.SC .f32 := V0 m c (Proc.devRef .tc main_arg8)

abbrev A9 : Vec Ideal GcnHost.S2E .i32 := V0 m c (Proc.devRef .tc main_arg9)

def pK : NetLaw.Params where
  aggF := fun t => toMat (GcnHost.agg (F := Ideal) (ofMat t) (A9 m c))
  sn := toVec (GcnHost.selfNorm (F := Ideal) (A9 m c))
  x := toMat (A0 m c)
  Win := toMat (A1 m c)
  bin := toVec (A2 m c)
  Wg := fun k => slab k (A3 m c)
  bg := fun k => rowAt k (A4 m c)
  gamma := fun k => rowAt k (A5 m c)
  beta := fun k => rowAt k (A6 m c)
  Wout := toMat (A7 m c)
  bout := toVec (A8 m c)

structure RegionVals : Prop where

  r0 : toMat (U2 m c main_v33) = lin (toMat (U1 m c main_arg0)) (toMat (U1 m c main_arg1)) (rowOf (U1 m c main_v32))

  r1 : toMat (U4 m c main_v39) = lin (toMat (U3 m c main_v33)) (toMat (U3 m c main_v37)) (rowOf (U3 m c main_v38))
  r2a : toMat (U6 m c main_v57_0) =
    full (toMat (U5 m c main_v52)) (toMat (U5 m c main_v39)) (colOf (U5 m c main_v55)) (rowOf (U5 m c main_v56))
  r2m : rowOf (U6 m c main_v57_1) =
    meanK (full (toMat (U5 m c main_v52)) (toMat (U5 m c main_v39)) (colOf (U5 m c main_v55)) (rowOf (U5 m c main_v56)))
  r2v : rowOf (U6 m c main_v57_2) =
    varK (full (toMat (U5 m c main_v52)) (toMat (U5 m c main_v39)) (colOf (U5 m c main_v55)) (rowOf (U5 m c main_v56)))
  r3h : toMat (U8 m c main_v64_0) =
    relu (norm (toMat (U7 m c main_v57_0)) (rowOf (U7 m c main_v57_1)) (rowOf (U7 m c main_v57_2)) (rowOf (U7 m c main_v62))
      (rowOf (U7 m c main_v63)))
  r3a : toMat (U8 m c main_v64_1) =
    accum (toMat (U7 m c main_v34))
      (relu (norm (toMat (U7 m c main_v57_0)) (rowOf (U7 m c main_v57_1)) (rowOf (U7 m c main_v57_2)) (rowOf (U7 m c main_v62))
        (rowOf (U7 m c main_v63))))

  r4 : toMat (U10 m c main_v68) = lin (toMat (U9 m c main_v64_0)) (toMat (U9 m c main_v66)) (rowOf (U9 m c main_v67))
  r5a : toMat (U12 m c main_v86_0) =
    full (toMat (U11 m c main_v81)) (toMat (U11 m c main_v68)) (colOf (U11 m c main_v84)) (rowOf (U11 m c main_v85))
  r5m : rowOf (U12 m c main_v86_1) =
    meanK (full (toMat (U11 m c main_v81)) (toMat (U11 m c main_v68)) (colOf (U11 m c main_v84)) (rowOf (U11 m c main_v85)))
  r5v : rowOf (U12 m c main_v86_2) =
    varK (full (toMat (U11 m c main_v81)) (toMat (U11 m c main_v68)) (colOf (U11 m c main_v84)) (rowOf (U11 m c main_v85)))
  r6h : toMat (U14 m c main_v93_0) =
    relu (withSkip
      (norm (toMat (U13 m c main_v86_0)) (rowOf (U13 m c main_v86_1)) (rowOf (U13 m c main_v86_2)) (rowOf (U13 m c main_v91))
        (rowOf (U13 m c main_v92)))
      (toMat (U13 m c main_v33)))
  r6a : toMat (U14 m c main_v93_1) =
    accum (toMat (U13 m c main_v64_1))
      (relu (withSkip
        (norm (toMat (U13 m c main_v86_0)) (rowOf (U13 m c main_v86_1)) (rowOf (U13 m c main_v86_2)) (rowOf (U13 m c main_v91))
          (rowOf (U13 m c main_v92)))
        (toMat (U13 m c main_v33))))

  r7 : toMat (U16 m c main_v97) = lin (toMat (U15 m c main_v93_0)) (toMat (U15 m c main_v95)) (rowOf (U15 m c main_v96))
  r8a : toMat (U18 m c main_v115_0) =
    full (toMat (U17 m c main_v110)) (toMat (U17 m c main_v97)) (colOf (U17 m c main_v113)) (rowOf (U17 m c main_v114))
  r8m : rowOf (U18 m c main_v115_1) =
    meanK (full (toMat (U17 m c main_v110)) (toMat (U17 m c main_v97)) (colOf (U17 m c main_v113)) (rowOf (U17 m c main_v114)))
  r8v : rowOf (U18 m c main_v115_2) =
    varK (full (toMat (U17 m c main_v110)) (toMat (U17 m c main_v97)) (colOf (U17 m c main_v113)) (rowOf (U17 m c main_v114)))
  r9h : toMat (U20 m c main_v122_0) =
    relu (norm (toMat (U19 m c main_v115_0)) (rowOf (U19 m c main_v115_1)) (rowOf (U19 m c main_v115_2)) (rowOf (U19 m c main_v120))
      (rowOf (U19 m c main_v121)))
  r9a : toMat (U20 m c main_v122_1) =
    accum (toMat (U19 m c main_v93_1))
      (relu (norm (toMat (U19 m c main_v115_0)) (rowOf (U19 m c main_v115_1)) (rowOf (U19 m c main_v115_2)) (rowOf (U19 m c main_v120))
        (rowOf (U19 m c main_v121))))

  r10 : toMat (U22 m c main_v126) = lin (toMat (U21 m c main_v122_0)) (toMat (U21 m c main_v124)) (rowOf (U21 m c main_v125))
  r11a : toMat (U24 m c main_v144_0) =
    full (toMat (U23 m c main_v139)) (toMat (U23 m c main_v126)) (colOf (U23 m c main_v142)) (rowOf (U23 m c main_v143))
  r11m : rowOf (U24 m c main_v144_1) =
    meanK (full (toMat (U23 m c main_v139)) (toMat (U23 m c main_v126)) (colOf (U23 m c main_v142)) (rowOf (U23 m c main_v143)))
  r11v : rowOf (U24 m c main_v144_2) =
    varK (full (toMat (U23 m c main_v139)) (toMat (U23 m c main_v126)) (colOf (U23 m c main_v142)) (rowOf (U23 m c main_v143)))
  r12h : toMat (U26 m c main_v151_0) =
    relu (withSkip
      (norm (toMat (U25 m c main_v144_0)) (rowOf (U25 m c main_v144_1)) (rowOf (U25 m c main_v144_2)) (rowOf (U25 m c main_v149))
        (rowOf (U25 m c main_v150)))
      (toMat (U25 m c main_v33)))
  r12a : toMat (U26 m c main_v151_1) =
    accum (toMat (U25 m c main_v122_1))
      (relu (withSkip
        (norm (toMat (U25 m c main_v144_0)) (rowOf (U25 m c main_v144_1)) (rowOf (U25 m c main_v144_2)) (rowOf (U25 m c main_v149))
          (rowOf (U25 m c main_v150)))
        (toMat (U25 m c main_v33))))

  r13 : toMat (U28 m c main_v153) = lin (toMat (U27 m c main_v151_1)) (toMat (U27 m c main_arg7)) (rowOf (U27 m c main_v152))

variable {m c}

theorem E_src : U1 m c main_v1 = GcnHost.srcOf (F := Ideal) (A9 m c) := by unfold U1; exact hostOps0_main_v1 (V0 m c)
theorem E_dst : U1 m c main_v3 = GcnHost.dstOf (F := Ideal) (A9 m c) := by unfold U1; exact hostOps0_main_v3 (V0 m c)
theorem E_en : U1 m c main_v30 = GcnHost.edgeNorm (F := Ideal) (A9 m c) := by unfold U1; exact hostOps0_main_v30 (V0 m c)
theorem E_sn : U1 m c main_v31 = GcnHost.selfNorm (F := Ideal) (A9 m c) := by unfold U1; exact hostOps0_main_v31 (V0 m c)

theorem R_bin : rowOf (U1 m c main_v32) = (pK m c).bin := by
  unfold U1; rw [hostOps0_main_v32]; exact GcnHost.rowOf_rowD _

theorem M_z : toMat (U3 m c main_v34) = zeroMat := by
  unfold U3; rw [hostOps1_main_v34]; exact GcnHost.toMat_zerosND
theorem E_zd : U3 m c main_v35 = GcnHost.zerosD (F := Ideal) := by unfold U3; exact hostOps1_main_v35 _

theorem aggOf_carried (t : Vec Ideal GcnHost.SND .f32) :
    GcnHost.aggOf (F := Ideal) t (U1 m c main_v1) (U1 m c main_v3) (U1 m c main_v30) = GcnHost.agg (F := Ideal) t (A9 m c) := by
  rw [E_src, E_dst, E_en]; rfl

theorem agg_of (t : Vec Ideal GcnHost.SND .f32) {T : Mat 50000 128} (e : toMat t = T) :
    toMat (GcnHost.agg (F := Ideal) t (A9 m c)) = (pK m c).aggF T := by
  subst e
  show _ = toMat (GcnHost.agg (F := Ideal) (ofMat (toMat t)) (A9 m c))
  rw [ofMat_toMat]

variable (h : RegionVals m c)
include h

theorem M_h0 : toMat (U2 m c main_v33) = h0 (pK m c) := by
  rw [h.r0]; carry; rw [R_bin]; rfl

theorem M_W0 : toMat (U3 m c main_v37) = (pK m c).Wg 0 := by
  unfold U3; rw [hostOps1_main_v37]; carry; exact GcnHost.toMat_layerMat 0 _ _
theorem R_zr0 : rowOf (U3 m c main_v38) = zeroRow := by
  unfold U3; rw [hostOps1_main_v38]; exact GcnHost.rowOf_zeroRowD
theorem M_t0 : toMat (U4 m c main_v39) = tK0 (pK m c) := by
  rw [h.r1]; carry; rw [M_h0 h, M_W0 h, R_zr0 h]; rfl
theorem M_agg0 : toMat (U5 m c main_v52) = (pK m c).aggF (tK0 (pK m c)) := by
  unfold U5; rw [hostOps2_main_v52]; carry; rw [aggOf_carried]; exact agg_of _ (M_t0 h)
theorem C_sn0 : colOf (U5 m c main_v55) = (pK m c).sn := by
  unfold U5; rw [hostOps2_main_v55]; carry; rw [E_sn]; exact GcnHost.colOf_colN _
theorem R_bg0 : rowOf (U5 m c main_v56) = (pK m c).bg 0 := by
  unfold U5; rw [hostOps2_main_v56]; carry; exact GcnHost.rowOf_layerRow 0 _ _
theorem M_a0 : toMat (U6 m c main_v57_0) = aK0 (pK m c) := by
  rw [h.r2a]; carry; rw [M_agg0 h, M_t0 h, C_sn0 h, R_bg0 h]; rfl
theorem R_m0 : rowOf (U6 m c main_v57_1) = mK0 (pK m c) := by
  rw [h.r2m]; carry; rw [M_agg0 h, M_t0 h, C_sn0 h, R_bg0 h]; rfl
theorem R_v0 : rowOf (U6 m c main_v57_2) = vK0 (pK m c) := by
  rw [h.r2v]; carry; rw [M_agg0 h, M_t0 h, C_sn0 h, R_bg0 h]; rfl
theorem R_g0 : rowOf (U7 m c main_v62) = (pK m c).gamma 0 := by
  unfold U7; rw [hostOps3_main_v62]; carry; exact GcnHost.rowOf_layerRow 0 _ _
theorem R_b0 : rowOf (U7 m c main_v63) = (pK m c).beta 0 := by
  unfold U7; rw [hostOps3_main_v63]; carry; exact GcnHost.rowOf_layerRow 0 _ _
theorem M_hK0 : toMat (U8 m c main_v64_0) = hK0 (pK m c) := by
  rw [h.r3h]; carry; rw [M_a0 h, R_m0 h, R_v0 h, R_g0 h, R_b0 h]; rfl
theorem M_acc0 : toMat (U8 m c main_v64_1) = accK0 (pK m c) := by
  rw [h.r3a]; carry; rw [M_z, M_a0 h, R_m0 h, R_v0 h, R_g0 h, R_b0 h]; rfl

theorem M_W1 : toMat (U9 m c main_v66) = (pK m c).Wg 1 := by
  unfold U9; rw [hostOps4_main_v66]; carry; exact GcnHost.toMat_layerMat 1 _ _
theorem R_zr1 : rowOf (U9 m c main_v67) = zeroRow := by
  unfold U9; rw [hostOps4_main_v67]; carry; rw [E_zd]; exact GcnHost.rowOf_zeroRowD
theorem M_t1 : toMat (U10 m c main_v68) = tK1 (pK m c) := by
  rw [h.r4]; carry; rw [M_hK0 h, M_W1 h, R_zr1 h]; rfl
theorem M_agg1 : toMat (U11 m c main_v81) = (pK m c).aggF (tK1 (pK m c)) := by
  unfold U11; rw [hostOps5_main_v81]; carry; rw [aggOf_carried]; exact agg_of _ (M_t1 h)
theorem C_sn1 : colOf (U11 m c main_v84) = (pK m c).sn := by
  unfold U11; rw [hostOps5_main_v84]; carry; rw [E_sn]; exact GcnHost.colOf_colN _
theorem R_bg1 : rowOf (U11 m c main_v85) = (pK m c).bg 1 := by
  unfold U11; rw [hostOps5_main_v85]; carry; exact GcnHost.rowOf_layerRow 1 _ _
theorem M_a1 : toMat (U12 m c main_v86_0) = aK1 (pK m c) := by
  rw [h.r5a]; carry; rw [M_agg1 h, M_t1 h, C_sn1 h, R_bg1 h]; rfl
theorem R_m1 : rowOf (U12 m c main_v86_1) = mK1 (pK m c) := by
  rw [h.r5m]; carry; rw [M_agg1 h, M_t1 h, C_sn1 h, R_bg1 h]; rfl
theorem R_v1 : rowOf (U12 m c main_v86_2) = vK1 (pK m c) := by
  rw [h.r5v]; carry; rw [M_agg1 h, M_t1 h, C_sn1 h, R_bg1 h]; rfl
theorem R_g1 : rowOf (U13 m c main_v91) = (pK m c).gamma 1 := by
  unfold U13; rw [hostOps6_main_v91]; carry; exact GcnHost.rowOf_layerRow 1 _ _
theorem R_b1 : rowOf (U13 m c main_v92) = (pK m c).beta 1 := by
  unfold U13; rw [hostOps6_main_v92]; carry; exact GcnHost.rowOf_layerRow 1 _ _
theorem M_hK1 : toMat (U14 m c main_v93_0) = hK1 (pK m c) := by
  rw [h.r6h]; carry; rw [M_a1 h, R_m1 h, R_v1 h, R_g1 h, R_b1 h, M_h0 h]; rfl
theorem M_acc1 : toMat (U14 m c main_v93_1) = accK1 (pK m c) := by
  rw [h.r6a]; carry; rw [M_acc0 h, M_a1 h, R_m1 h, R_v1 h, R_g1 h, R_b1 h, M_h0 h]; rfl

theorem M_W2 : toMat (U15 m c main_v95) = (pK m c).Wg 2 := by
  unfold U15; rw [hostOps7_main_v95]; carry; exact GcnHost.toMat_layerMat 2 _ _
theorem R_zr2 : rowOf (U15 m c main_v96) = zeroRow := by
  unfold U15; rw [hostOps7_main_v96]; carry; rw [E_zd]; exact GcnHost.rowOf_zeroRowD
theorem M_t2 : toMat (U16 m c main_v97) = tK2 (pK m c) := by
  rw [h.r7]; carry; rw [M_hK1 h, M_W2 h, R_zr2 h]; rfl
theorem M_agg2 : toMat (U17 m c main_v110) = (pK m c).aggF (tK2 (pK m c)) := by
  unfold U17; rw [hostOps8_main_v110]; carry; rw [aggOf_carried]; exact agg_of _ (M_t2 h)
theorem C_sn2 : colOf (U17 m c main_v113) = (pK m c).sn := by
  unfold U17; rw [hostOps8_main_v113]; carry; rw [E_sn]; exact GcnHost.colOf_colN _
theorem R_bg2 : rowOf (U17 m c main_v114) = (pK m c).bg 2 := by
  unfold U17; rw [hostOps8_main_v114]; carry; exact GcnHost.rowOf_layerRow 2 _ _
theorem M_a2 : toMat (U18 m c main_v115_0) = aK2 (pK m c) := by
  rw [h.r8a]; carry; rw [M_agg2 h, M_t2 h, C_sn2 h, R_bg2 h]; rfl
theorem R_m2 : rowOf (U18 m c main_v115_1) = mK2 (pK m c) := by
  rw [h.r8m]; carry; rw [M_agg2 h, M_t2 h, C_sn2 h, R_bg2 h]; rfl
theorem R_v2 : rowOf (U18 m c main_v115_2) = vK2 (pK m c) := by
  rw [h.r8v]; carry; rw [M_agg2 h, M_t2 h, C_sn2 h, R_bg2 h]; rfl
theorem R_g2 : rowOf (U19 m c main_v120) = (pK m c).gamma 2 := by
  unfold U19; rw [hostOps9_main_v120]; carry; exact GcnHost.rowOf_layerRow 2 _ _
theorem R_b2 : rowOf (U19 m c main_v121) = (pK m c).beta 2 := by
  unfold U19; rw [hostOps9_main_v121]; carry; exact GcnHost.rowOf_layerRow 2 _ _
theorem M_hK2 : toMat (U20 m c main_v122_0) = hK2 (pK m c) := by
  rw [h.r9h]; carry; rw [M_a2 h, R_m2 h, R_v2 h, R_g2 h, R_b2 h]; rfl
theorem M_acc2 : toMat (U20 m c main_v122_1) = accK2 (pK m c) := by
  rw [h.r9a]; carry; rw [M_acc1 h, M_a2 h, R_m2 h, R_v2 h, R_g2 h, R_b2 h]; rfl

theorem M_W3 : toMat (U21 m c main_v124) = (pK m c).Wg 3 := by
  unfold U21; rw [hostOps10_main_v124]; carry; exact GcnHost.toMat_layerMat 3 _ _
theorem R_zr3 : rowOf (U21 m c main_v125) = zeroRow := by
  unfold U21; rw [hostOps10_main_v125]; carry; rw [E_zd]; exact GcnHost.rowOf_zeroRowD
theorem M_t3 : toMat (U22 m c main_v126) = tK3 (pK m c) := by
  rw [h.r10]; carry; rw [M_hK2 h, M_W3 h, R_zr3 h]; rfl
theorem M_agg3 : toMat (U23 m c main_v139) = (pK m c).aggF (tK3 (pK m c)) := by
  unfold U23; rw [hostOps11_main_v139]; carry; rw [aggOf_carried]; exact agg_of _ (M_t3 h)
theorem C_sn3 : colOf (U23 m c main_v142) = (pK m c).sn := by
  unfold U23; rw [hostOps11_main_v142]; carry; rw [E_sn]; exact GcnHost.colOf_colN _
theorem R_bg3 : rowOf (U23 m c main_v143) = (pK m c).bg 3 := by
  unfold U23; rw [hostOps11_main_v143]; carry; exact GcnHost.rowOf_layerRow 3 _ _
theorem M_a3 : toMat (U24 m c main_v144_0) = aK3 (pK m c) := by
  rw [h.r11a]; carry; rw [M_agg3 h, M_t3 h, C_sn3 h, R_bg3 h]; rfl
theorem R_m3 : rowOf (U24 m c main_v144_1) = mK3 (pK m c) := by
  rw [h.r11m]; carry; rw [M_agg3 h, M_t3 h, C_sn3 h, R_bg3 h]; rfl
theorem R_v3 : rowOf (U24 m c main_v144_2) = vK3 (pK m c) := by
  rw [h.r11v]; carry; rw [M_agg3 h, M_t3 h, C_sn3 h, R_bg3 h]; rfl
theorem R_g3 : rowOf (U25 m c main_v149) = (pK m c).gamma 3 := by
  unfold U25; rw [hostOps12_main_v149]; carry; exact GcnHost.rowOf_layerRow 3 _ _
theorem R_b3 : rowOf (U25 m c main_v150) = (pK m c).beta 3 := by
  unfold U25; rw [hostOps12_main_v150]; carry; exact GcnHost.rowOf_layerRow 3 _ _
theorem M_acc3 : toMat (U26 m c main_v151_1) = accK3 (pK m c) := by
  rw [h.r12a]; carry; rw [M_acc2 h, M_a3 h, R_m3 h, R_v3 h, R_g3 h, R_b3 h, M_h0 h]; rfl

theorem R_bout : rowOf (U27 m c main_v152) = (pK m c).bout := by
  unfold U27; rw [hostOps13_main_v152]; carry; exact GcnHost.rowOf_rowC _

theorem ker_net_of : toMat (U28 m c main_v153) = netK (pK m c) := by
  rw [h.r13]; carry; rw [M_acc3 h, R_bout h]; rfl

end KerNet

end
-- ==== Proof.Value.LinearCommon.lean ====
import proofs.«101364_j7567732376252_1_alg».proof.Proof.Spec
import Idealize.ShloMosaic.Lib.ValueIdx
import Idealize.ShloMosaic.Lib.ValueLayout
import Idealize.ShloMosaic.Lib.Pipeline.Value
noncomputable section
namespace Cert.KernelIdeal.LinearValue
open Idealize.ShloMosaic Idealize.ShloMosaic.ValueIdx
open scoped BigOperators
theorem hz2 : (![0, 0] : Fin 2 → Nat) = fun _ => 0 := funext fun a => by fin_cases a <;> rfl
def ofMat {r c : ℕ} (M : GcnSpec.Mat r c) : (⟨2, ![r, c]⟩ : Shape).Idx → EReal := fun i => M (i 0) (i 1)
theorem toMat_ofMat {r c : ℕ} (M : GcnSpec.Mat r c) : GcnSpec.toMat (ofMat M) = M := rfl
-- a one-row block laid along the rows of a block: entry (p, q) is the row's entry q
theorem rowOver_apply {α : Type} {a b : ℕ} (v : (⟨2, ![1, b]⟩ : Shape).Idx → α)
    (hc : (⟨2, ![1, b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix2 (0 : Fin 1) q) := by
  rw [shapeCast_self]
  exact broadcastTo_1b_ab_apply v hb p q
-- an index with the coordinates of (2000 t + p, q) is that index; hypotheses: its two coordinates as block index times block size plus offset, and the two block indices
theorem tile_emb {R C n0 : ℕ} (e : (⟨2, ![R, C]⟩ : Shape).Idx) (i0 i1 : ℕ) (p : Fin n0) (q : Fin C) (t : ℕ)
    (hrn : t * n0 + p.val < R) (he0 : (e 0).val = i0 * n0 + 1 * p.val) (he1 : (e 1).val = i1 * C + 1 * q.val)
    (h0 : i0 = t) (h1 : i1 = 0) : e = ix2 ⟨t * n0 + p.val, hrn⟩ q := by
  subst h0 h1
  exact Shape.idx_ext₂ (he0.trans (show i0 * n0 + 1 * p.val = i0 * n0 + p.val by omega))
    (he1.trans (show 0 * C + 1 * q.val = q.val by omega))
theorem whole_emb {R C : ℕ} (e : (⟨2, ![R, C]⟩ : Shape).Idx) (i0 i1 : ℕ) (p : Fin R) (q : Fin C) (n0 n1 : ℕ)
    (he0 : (e 0).val = i0 * n0 + 1 * p.val) (he1 : (e 1).val = i1 * n1 + 1 * q.val) (h0 : i0 = 0) (h1 : i1 = 0) :
    e = ix2 p q := by
  subst h0 h1
  exact Shape.idx_ext₂ (he0.trans (show 0 * n0 + 1 * p.val = p.val by omega))
    (he1.trans (show 0 * n1 + 1 * q.val = q.val by omega))
theorem row_lt {N : ℕ} (hN : N = 25) (t : Fin N) (p : Fin 2000) : t.val * 2000 + p.val < 50000 := by
  have := t.isLt
  have := p.isLt
  omega
theorem last_lt {N : ℕ} (hN : N = 25) : 24 < N := by omega
theorem last_of_mod {N : ℕ} (hN : N = 25) (t : Fin N) (h : t.val % 25 = 24) : t.val = 24 := by
  have := t.isLt
  omega
theorem tileOf_lt {N C : ℕ} (hN : N = 25) (i : (⟨2, ![50000, C]⟩ : Shape).Idx) : (i 0).val / 2000 < N := by
  have : (i 0).val < 50000 := (i 0).isLt
  omega
-- row i lies in the tile of 2000 rows numbered i / 2000, and every column lies in a tile that spans all columns
theorem rowTile_mem {C : ℕ} (i : (⟨2, ![50000, C]⟩ : Shape).Idx) (idx : Fin 2 → ℕ) (h0 : idx 0 = (i 0).val / 2000)
    (h1 : idx 1 = 0) (a : Fin 2) :
    idx a * (![2000, C] : Fin 2 → ℕ) a ≤ (i a).val
      ∧ (i a).val < idx a * (![2000, C] : Fin 2 → ℕ) a + (![2000, C] : Fin 2 → ℕ) a := by
  have hC : (i 1).val < C := (i 1).isLt
  match a with
  | ⟨0, _⟩ => show idx 0 * 2000 ≤ (i 0).val ∧ (i 0).val < idx 0 * 2000 + 2000; omega
  | ⟨1, _⟩ => show idx 1 * C ≤ (i 1).val ∧ (i 1).val < idx 1 * C + C; rw [h1]; omega
-- a tile that is its whole array holds every index
theorem wholeTile_mem {S : Shape} (i : S.Idx) (idx : Fin S.rank → ℕ) (h : ∀ a, idx a = 0) (a : Fin S.rank) :
    idx a * S.size a ≤ (i a).val ∧ (i a).val < idx a * S.size a + S.size a := by
  rw [h a, Nat.zero_mul, Nat.zero_add]
  exact ⟨Nat.zero_le _, (i a).isLt⟩
-- an entry that is a row of x against a column of w plus a bias entry is the linear layer's entry once the three are read out of arrays
theorem lin_at {C : ℕ} (X : (⟨2, ![50000, 128]⟩ : Shape).Idx → EReal) (W : (⟨2, ![128, C]⟩ : Shape).Idx → EReal)
    (B : (⟨2, ![1, C]⟩ : Shape).Idx → EReal) (x : (⟨2, ![2000, 128]⟩ : Shape).Idx → EReal)
    (w : (⟨2, ![128, C]⟩ : Shape).Idx → EReal) (b : (⟨2, ![1, C]⟩ : Shape).Idx → EReal)
    (r : Fin 50000) (p : Fin 2000) (q : Fin C)
    (hx : ∀ k : Fin 128, x (ix2 p k) = X (ix2 r k)) (hw : ∀ k : Fin 128, w (ix2 k q) = W (ix2 k q))
    (hb : b (ix2 0 q) = B (ix2 0 q)) :
    (∑ k : Fin 128, x (ix2 p k) * w (ix2 k q)) + b (ix2 0 q)
      = ofMat (GcnSpec.lin (GcnSpec.toMat X) (GcnSpec.toMat W) (GcnSpec.rowOf B)) (ix2 r q) := by
  show _ = (∑ l : Fin 128, X (ix2 r l) * W (ix2 l q)) + B (ix2 0 q)
  rw [hb]
  simp only [hx, hw]
end Cert.KernelIdeal.LinearValue
end
-- ==== Proof.Value.LinearPay.lean ====
import proofs.«101364_j7567732376252_1_alg».proof.Proof.Gen.KernelIdeal.Skeleton
import proofs.«101364_j7567732376252_1_alg».proof.Proof.Value.LinearCommon
import Idealize.ShloMosaic.PureOps.Ideal.Laws
noncomputable section
namespace Cert.KernelIdeal.LinearValue
open Cert.KernelIdeal Cert.KernelIdeal.Gen Idealize.ShloMosaic Idealize.ShloMosaic.ValueIdx Idealize.SL.Sem
open scoped BigOperators
theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
theorem matmulA_apply {φ₁ φ₂ : FTy} (x : FVec Ideal S2000x128 φ₁) (w : FVec Ideal S128x128 φ₂) (p : Fin 2000) (q : Fin 128) :
    FloatOps.matmul dot_S2000x128_S128x128_S2000x128_1_0_0_1_n_n none x w (constant S2000x128 .f32 0x00000000#32) (ix2 p q)
      = ∑ k : Fin 128, x (ix2 p k) * w (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    Shape.idx_ext₂ (lhsA_0 _ _) ((dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    Shape.idx_ext₂ ((dot_S2000x128_S128x128_S2000x128_1_0_0_1_n_n.rhsIdx_val_of_single rfl _ _).trans hk) (rhsA_1 _ _)
  rw [el, er]
theorem lhsB_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem rhsB_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl
theorem matmulB_apply {φ₁ φ₂ : FTy} (x : FVec Ideal S2000x128 φ₁) (w : FVec Ideal S128x64 φ₂) (p : Fin 2000) (q : Fin 64) :
    FloatOps.matmul dot_S2000x128_S128x64_S2000x64_1_0_0_1_n_n none x w (constant S2000x64 .f32 0x00000000#32) (ix2 p q)
      = ∑ k : Fin 128, x (ix2 p k) * w (ix2 k q) := by
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    Shape.idx_ext₂ (lhsB_0 _ _) ((dot_S2000x128_S128x64_S2000x64_1_0_0_1_n_n.lhsIdx_val_of_single rfl _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    Shape.idx_ext₂ ((dot_S2000x128_S128x64_S2000x64_1_0_0_1_n_n.rhsIdx_val_of_single rfl _ _).trans hk) (rhsB_1 _ _)
  rw [el, er]
theorem k0_pay1_apply (x : Vec Ideal S2000x128 .f32) (w : Vec Ideal S128x128 .f32) (b : Vec Ideal S1x128 .f32) (p : Fin 2000) (q : Fin 128) :
    k0_pay1 (F := Ideal) x w b (ix2 p q) = (∑ k : Fin 128, x (ix2 p k) * w (ix2 k q)) + b (ix2 0 q) := by
  unfold k0_pay1
  rw [addf_apply, rowOver_apply]
  show FloatOps.matmul dot_S2000x128_S128x128_S2000x128_1_0_0_1_n_n none _ _ (constant S2000x128 .f32 0x00000000#32) (ix2 p q) + _ = _
  rw [matmulA_apply]
  rfl
theorem k1_pay1_apply (x : Vec Ideal S2000x128 .f32) (w : Vec Ideal S128x128 .f32) (b : Vec Ideal S1x128 .f32) (p : Fin 2000) (q : Fin 128) :
    k1_pay1 (F := Ideal) x w b (ix2 p q) = (∑ k : Fin 128, x (ix2 p k) * w (ix2 k q)) + b (ix2 0 q) := by
  unfold k1_pay1
  rw [addf_apply, rowOver_apply]
  show FloatOps.matmul dot_S2000x128_S128x128_S2000x128_1_0_0_1_n_n none _ _ (constant S2000x128 .f32 0x00000000#32) (ix2 p q) + _ = _
  rw [matmulA_apply]
  rw [shapeCast_self, shapeCast_self]
  rfl
theorem k13_pay1_apply (x : Vec Ideal S2000x128 .f32) (w : Vec Ideal S128x64 .f32) (b : Vec Ideal S1x64 .f32) (p : Fin 2000) (q : Fin 64) :
    k13_pay1 (F := Ideal) x w b (ix2 p q) = (∑ k : Fin 128, x (ix2 p k) * w (ix2 k q)) + b (ix2 0 q) := by
  unfold k13_pay1
  rw [addf_apply, rowOver_apply]
  show FloatOps.matmul dot_S2000x128_S128x64_S2000x64_1_0_0_1_n_n none _ _ (constant S2000x64 .f32 0x00000000#32) (ix2 p q) + _ = _
  rw [matmulB_apply]
  rw [shapeCast_self]
  rfl
end Cert.KernelIdeal.LinearValue
end
-- ==== Proof.Value.LinearArr0.lean ====
import proofs.«101364_j7567732376252_1_alg».proof.Proof.Ideal.Reg0
import proofs.«101364_j7567732376252_1_alg».proof.Proof.Value.LinearPay
noncomputable section
namespace Cert.KernelIdeal.LinearValue
open Cert.KernelIdeal Cert.KernelIdeal.Gen Idealize.ShloMosaic Idealize.ShloMosaic.ValueIdx Idealize.SL.Sem Idealize.ShloMosaic.TcCoe
variable (V : (c : Dev nD) → (b : Ref sig .tc) → Buf (Elt Ideal) ((c : Thread nD τ).loc b))
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)
def G0 (c : Dev nD) : S50000x128.Idx → EReal :=
  ofMat (GcnSpec.lin (GcnSpec.toMat (V c main_arg0 : S50000x128.Idx → EReal))
    (GcnSpec.toMat (V c main_arg1 : S128x128.Idx → EReal)) (GcnSpec.rowOf (V c main_v32 : S1x128.Idx → EReal)))
-- tile t of the output is the product of tile t of the input with the weights, plus the bias, and row r lies in tile r / 2000
theorem arr0_lin_refs (c : Dev nD) :
    GcnSpec.toMat ((dat0 V c).arrAt 3 cfg0.N : S50000x128.Idx → EReal)
      = GcnSpec.lin (GcnSpec.toMat (V c main_arg0 : S50000x128.Idx → EReal))
          (GcnSpec.toMat (V c main_arg1 : S128x128.Idx → EReal))
          (GcnSpec.rowOf (V c main_v32 : S1x128.Idx → EReal)) := by
  refine congrArg (fun v : S50000x128.Idx → EReal => GcnSpec.toMat v)
    ((dat0 V c).arrAt_eq_of_cover 3 (G0 V c) (fun t _ => ?_) fun (i : S50000x128.Idx) => ?_)
  · show (cfg0.win 3).cut (grid0.coords t) ((dat0 V c).after 3 t) = _
    rw [after0_3]
    unfold out0_3
    rw [View.canon_unit_zero hz2]
    simp only [View.ld_unit_zero (S := S2000x128) hz2, View.ld_unit_zero (S := S128x128) hz2, View.ld_unit_zero (S := S1x128) hz2]
    obtain ⟨e00, e01, e10, e11, e20, e21, e30, e31⟩ := idx_facts0 t
    funext j
    obtain ⟨p, q, rfl⟩ : ∃ (p : Fin 2000) (q : Fin 128), j = ix2 p q := ⟨j 0, j 1, eq_ix2 j⟩
    exact ((k0_pay1_apply _ _ _ p q).trans (lin_at (C := 128) (V c main_arg0) (V c main_arg1) (V c main_v32)
      (iblk0 V c 0 t) (iblk0 V c 1 t) (iblk0 V c 2 t) _ p q
      (fun k => congrArg (V c main_arg0) (tile_emb _ _ _ p k _ (row_lt N_0 t p) rfl rfl e00 e01))
      (fun k => congrArg (V c main_arg1) (whole_emb _ _ _ k q _ _ rfl rfl e10 e11))
      (congrArg (V c main_v32) (whole_emb _ _ _ 0 q _ _ rfl rfl e20 e21)))).trans
      (congrArg (G0 V c) (tile_emb _ _ _ p q _ (row_lt N_0 t p) rfl rfl e30 e31).symm)
  · have ht := tileOf_lt N_0 i
    obtain ⟨-, -, -, -, -, -, e30, e31⟩ := idx_facts0 ⟨_, ht⟩
    refine ⟨⟨_, ht⟩, flush0_3 _, ?_⟩
    show i ∈ ((View.whole (Pipeline.arrRef spec0 3)).slice (win0_3.rect ⟨_, ht⟩)).set
    rw [View.set_slice_whole, Rect.mem_set_unit]
    exact rowTile_mem i _ e30 e31
end Cert.KernelIdeal.LinearValue
end
-- ==== Proof.Value.LinearArr1.lean ====
import proofs.«101364_j7567732376252_1_alg».proof.Proof.Ideal.Reg1
import proofs.«101364_j7567732376252_1_alg».proof.Proof.Value.LinearPay
noncomputable section
namespace Cert.KernelIdeal.LinearValue
open Cert.KernelIdeal Cert.KernelIdeal.Gen Idealize.ShloMosaic Idealize.ShloMosaic.ValueIdx Idealize.SL.Sem Idealize.ShloMosaic.TcCoe
variable (V : (c : Dev nD) → (b : Ref sig .tc) → Buf (Elt Ideal) ((c : Thread nD τ).loc b))
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)
def G1 (c : Dev nD) : S50000x128.Idx → EReal :=
  ofMat (GcnSpec.lin (GcnSpec.toMat (V c main_v33 : S50000x128.Idx → EReal))
    (GcnSpec.toMat (V c main_v37 : S128x128.Idx → EReal)) (GcnSpec.rowOf (V c main_v38 : S1x128.Idx → EReal)))
-- tile t of the output is the product of tile t of the input with the weights, plus the bias, and row r lies in tile r / 2000
theorem arr1_lin_refs (c : Dev nD) :
    GcnSpec.toMat ((dat1 V c).arrAt 3 cfg1.N : S50000x128.Idx → EReal)
      = GcnSpec.lin (GcnSpec.toMat (V c main_v33 : S50000x128.Idx → EReal))
          (GcnSpec.toMat (V c main_v37 : S128x128.Idx → EReal))
          (GcnSpec.rowOf (V c main_v38 : S1x128.Idx → EReal)) := by
  refine congrArg (fun v : S50000x128.Idx → EReal => GcnSpec.toMat v)
    ((dat1 V c).arrAt_eq_of_cover 3 (G1 V c) (fun t _ => ?_) fun (i : S50000x128.Idx) => ?_)
  · show (cfg1.win 3).cut (grid1.coords t) ((dat1 V c).after 3 t) = _
    rw [after1_3]
    unfold out1_3
    rw [View.canon_unit_zero hz2]
    simp only [View.ld_unit_zero (S := S2000x128) hz2, View.ld_unit_zero (S := S128x128) hz2, View.ld_unit_zero (S := S1x128) hz2]
    obtain ⟨e00, e01, e10, e11, e20, e21, e30, e31⟩ := idx_facts1 t
    funext j
    obtain ⟨p, q, rfl⟩ : ∃ (p : Fin 2000) (q : Fin 128), j = ix2 p q := ⟨j 0, j 1, eq_ix2 j⟩
    exact ((k1_pay1_apply _ _ _ p q).trans (lin_at (C := 128) (V c main_v33) (V c main_v37) (V c main_v38)
      (iblk1 V c 0 t) (iblk1 V c 1 t) (iblk1 V c 2 t) _ p q
      (fun k => congrArg (V c main_v33) (tile_emb _ _ _ p k _ (row_lt N_1 t p) rfl rfl e00 e01))
      (fun k => congrArg (V c main_v37) (whole_emb _ _ _ k q _ _ rfl rfl e10 e11))
      (congrArg (V c main_v38) (whole_emb _ _ _ 0 q _ _ rfl rfl e20 e21)))).trans
      (congrArg (G1 V c) (tile_emb _ _ _ p q _ (row_lt N_1 t p) rfl rfl e30 e31).symm)
  · have ht := tileOf_lt N_1 i
    obtain ⟨-, -, -, -, -, -, e30, e31⟩ := idx_facts1 ⟨_, ht⟩
    refine ⟨⟨_, ht⟩, flush1_3 _, ?_⟩
    show i ∈ ((View.whole (Pipeline.arrRef spec1 3)).slice (win1_3.rect ⟨_, ht⟩)).set
    rw [View.set_slice_whole, Rect.mem_set_unit]
    exact rowTile_mem i _ e30 e31
end Cert.KernelIdeal.LinearValue
end
-- ==== Proof.Value.LinearArr4.lean ====
import proofs.«101364_j7567732376252_1_alg».proof.Proof.Ideal.Reg4
import proofs.«101364_j7567732376252_1_alg».proof.Proof.Value.LinearPay
noncomputable section
namespace Cert.KernelIdeal.LinearValue
open Cert.KernelIdeal Cert.KernelIdeal.Gen Idealize.ShloMosaic Idealize.ShloMosaic.ValueIdx Idealize.SL.Sem Idealize.ShloMosaic.TcCoe
variable (V : (c : Dev nD) → (b : Ref sig .tc) → Buf (Elt Ideal) ((c : Thread nD τ).loc b))
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)
def G4 (c : Dev nD) : S50000x128.Idx → EReal :=
  ofMat (GcnSpec.lin (GcnSpec.toMat (V c main_v64_0 : S50000x128.Idx → EReal))
    (GcnSpec.toMat (V c main_v66 : S128x128.Idx → EReal)) (GcnSpec.rowOf (V c main_v67 : S1x128.Idx → EReal)))
-- tile t of the output is the product of tile t of the input with the weights, plus the bias, and row r lies in tile r / 2000
theorem arr4_lin_refs (c : Dev nD) :
    GcnSpec.toMat ((dat4 V c).arrAt 3 cfg4.N : S50000x128.Idx → EReal)
      = GcnSpec.lin (GcnSpec.toMat (V c main_v64_0 : S50000x128.Idx → EReal))
          (GcnSpec.toMat (V c main_v66 : S128x128.Idx → EReal))
          (GcnSpec.rowOf (V c main_v67 : S1x128.Idx → EReal)) := by
  refine congrArg (fun v : S50000x128.Idx → EReal => GcnSpec.toMat v)
    ((dat4 V c).arrAt_eq_of_cover 3 (G4 V c) (fun t _ => ?_) fun (i : S50000x128.Idx) => ?_)
  · show (cfg4.win 3).cut (grid4.coords t) ((dat4 V c).after 3 t) = _
    rw [after4_3]
    unfold out4_3
    rw [View.canon_unit_zero hz2]
    simp only [View.ld_unit_zero (S := S2000x128) hz2, View.ld_unit_zero (S := S128x128) hz2, View.ld_unit_zero (S := S1x128) hz2]
    obtain ⟨e00, e01, e10, e11, e20, e21, e30, e31⟩ := idx_facts4 t
    funext j
    obtain ⟨p, q, rfl⟩ : ∃ (p : Fin 2000) (q : Fin 128), j = ix2 p q := ⟨j 0, j 1, eq_ix2 j⟩
    exact ((k1_pay1_apply _ _ _ p q).trans (lin_at (C := 128) (V c main_v64_0) (V c main_v66) (V c main_v67)
      (iblk4 V c 0 t) (iblk4 V c 1 t) (iblk4 V c 2 t) _ p q
      (fun k => congrArg (V c main_v64_0) (tile_emb _ _ _ p k _ (row_lt N_4 t p) rfl rfl e00 e01))
      (fun k => congrArg (V c main_v66) (whole_emb _ _ _ k q _ _ rfl rfl e10 e11))
      (congrArg (V c main_v67) (whole_emb _ _ _ 0 q _ _ rfl rfl e20 e21)))).trans
      (congrArg (G4 V c) (tile_emb _ _ _ p q _ (row_lt N_4 t p) rfl rfl e30 e31).symm)
  · have ht := tileOf_lt N_4 i
    obtain ⟨-, -, -, -, -, -, e30, e31⟩ := idx_facts4 ⟨_, ht⟩
    refine ⟨⟨_, ht⟩, flush4_3 _, ?_⟩
    show i ∈ ((View.whole (Pipeline.arrRef spec4 3)).slice (win4_3.rect ⟨_, ht⟩)).set
    rw [View.set_slice_whole, Rect.mem_set_unit]
    exact rowTile_mem i _ e30 e31
end Cert.KernelIdeal.LinearValue
end
-- ==== Proof.Value.LinearArr7.lean ====
import proofs.«101364_j7567732376252_1_alg».proof.Proof.Ideal.Reg7
import proofs.«101364_j7567732376252_1_alg».proof.Proof.Value.LinearPay
noncomputable section
namespace Cert.KernelIdeal.LinearValue
open Cert.KernelIdeal Cert.KernelIdeal.Gen Idealize.ShloMosaic Idealize.ShloMosaic.ValueIdx Idealize.SL.Sem Idealize.ShloMosaic.TcCoe
variable (V : (c : Dev nD) → (b : Ref sig .tc) → Buf (Elt Ideal) ((c : Thread nD τ).loc b))
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)
def G7 (c : Dev nD) : S50000x128.Idx → EReal :=
  ofMat (GcnSpec.lin (GcnSpec.toMat (V c main_v93_0 : S50000x128.Idx → EReal))
    (GcnSpec.toMat (V c main_v95 : S128x128.Idx → EReal)) (GcnSpec.rowOf (V c main_v96 : S1x128.Idx → EReal)))
-- tile t of the output is the product of tile t of the input with the weights, plus the bias, and row r lies in tile r / 2000
theorem arr7_lin_refs (c : Dev nD) :
    GcnSpec.toMat ((dat7 V c).arrAt 3 cfg7.N : S50000x128.Idx → EReal)
      = GcnSpec.lin (GcnSpec.toMat (V c main_v93_0 : S50000x128.Idx → EReal))
          (GcnSpec.toMat (V c main_v95 : S128x128.Idx → EReal))
          (GcnSpec.rowOf (V c main_v96 : S1x128.Idx → EReal)) := by
  refine congrArg (fun v : S50000x128.Idx → EReal => GcnSpec.toMat v)
    ((dat7 V c).arrAt_eq_of_cover 3 (G7 V c) (fun t _ => ?_) fun (i : S50000x128.Idx) => ?_)
  · show (cfg7.win 3).cut (grid7.coords t) ((dat7 V c).after 3 t) = _
    rw [after7_3]
    unfold out7_3
    rw [View.canon_unit_zero hz2]
    simp only [View.ld_unit_zero (S := S2000x128) hz2, View.ld_unit_zero (S := S128x128) hz2, View.ld_unit_zero (S := S1x128) hz2]
    obtain ⟨e00, e01, e10, e11, e20, e21, e30, e31⟩ := idx_facts7 t
    funext j
    obtain ⟨p, q, rfl⟩ : ∃ (p : Fin 2000) (q : Fin 128), j = ix2 p q := ⟨j 0, j 1, eq_ix2 j⟩
    exact ((k1_pay1_apply _ _ _ p q).trans (lin_at (C := 128) (V c main_v93_0) (V c main_v95) (V c main_v96)
      (iblk7 V c 0 t) (iblk7 V c 1 t) (iblk7 V c 2 t) _ p q
      (fun k => congrArg (V c main_v93_0) (tile_emb _ _ _ p k _ (row_lt N_7 t p) rfl rfl e00 e01))
      (fun k => congrArg (V c main_v95) (whole_emb _ _ _ k q _ _ rfl rfl e10 e11))
      (congrArg (V c main_v96) (whole_emb _ _ _ 0 q _ _ rfl rfl e20 e21)))).trans
      (congrArg (G7 V c) (tile_emb _ _ _ p q _ (row_lt N_7 t p) rfl rfl e30 e31).symm)
  · have ht := tileOf_lt N_7 i
    obtain ⟨-, -, -, -, -, -, e30, e31⟩ := idx_facts7 ⟨_, ht⟩
    refine ⟨⟨_, ht⟩, flush7_3 _, ?_⟩
    show i ∈ ((View.whole (Pipeline.arrRef spec7 3)).slice (win7_3.rect ⟨_, ht⟩)).set
    rw [View.set_slice_whole, Rect.mem_set_unit]
    exact rowTile_mem i _ e30 e31
end Cert.KernelIdeal.LinearValue
end
-- ==== Proof.Value.LinearArr10.lean ====
import proofs.«101364_j7567732376252_1_alg».proof.Proof.Ideal.Reg10
import proofs.«101364_j7567732376252_1_alg».proof.Proof.Value.LinearPay
noncomputable section
namespace Cert.KernelIdeal.LinearValue
open Cert.KernelIdeal Cert.KernelIdeal.Gen Idealize.ShloMosaic Idealize.ShloMosaic.ValueIdx Idealize.SL.Sem Idealize.ShloMosaic.TcCoe
variable (V : (c : Dev nD) → (b : Ref sig .tc) → Buf (Elt Ideal) ((c : Thread nD τ).loc b))
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)
def G10 (c : Dev nD) : S50000x128.Idx → EReal :=
  ofMat (GcnSpec.lin (GcnSpec.toMat (V c main_v122_0 : S50000x128.Idx → EReal))
    (GcnSpec.toMat (V c main_v124 : S128x128.Idx → EReal)) (GcnSpec.rowOf (V c main_v125 : S1x128.Idx → EReal)))
-- tile t of the output is the product of tile t of the input with the weights, plus the bias, and row r lies in tile r / 2000
theorem arr10_lin_refs (c : Dev nD) :
    GcnSpec.toMat ((dat10 V c).arrAt 3 cfg10.N : S50000x128.Idx → EReal)
      = GcnSpec.lin (GcnSpec.toMat (V c main_v122_0 : S50000x128.Idx → EReal))
          (GcnSpec.toMat (V c main_v124 : S128x128.Idx → EReal))
          (GcnSpec.rowOf (V c main_v125 : S1x128.Idx → EReal)) := by
  refine congrArg (fun v : S50000x128.Idx → EReal => GcnSpec.toMat v)
    ((dat10 V c).arrAt_eq_of_cover 3 (G10 V c) (fun t _ => ?_) fun (i : S50000x128.Idx) => ?_)
  · show (cfg10.win 3).cut (grid10.coords t) ((dat10 V c).after 3 t) = _
    rw [after10_3]
    unfold out10_3
    rw [View.canon_unit_zero hz2]
    simp only [View.ld_unit_zero (S := S2000x128) hz2, View.ld_unit_zero (S := S128x128) hz2, View.ld_unit_zero (S := S1x128) hz2]
    obtain ⟨e00, e01, e10, e11, e20, e21, e30, e31⟩ := idx_facts10 t
    funext j
    obtain ⟨p, q, rfl⟩ : ∃ (p : Fin 2000) (q : Fin 128), j = ix2 p q := ⟨j 0, j 1, eq_ix2 j⟩
    exact ((k1_pay1_apply _ _ _ p q).trans (lin_at (C := 128) (V c main_v122_0) (V c main_v124) (V c main_v125)
      (iblk10 V c 0 t) (iblk10 V c 1 t) (iblk10 V c 2 t) _ p q
      (fun k => congrArg (V c main_v122_0) (tile_emb _ _ _ p k _ (row_lt N_10 t p) rfl rfl e00 e01))
      (fun k => congrArg (V c main_v124) (whole_emb _ _ _ k q _ _ rfl rfl e10 e11))
      (congrArg (V c main_v125) (whole_emb _ _ _ 0 q _ _ rfl rfl e20 e21)))).trans
      (congrArg (G10 V c) (tile_emb _ _ _ p q _ (row_lt N_10 t p) rfl rfl e30 e31).symm)
  · have ht := tileOf_lt N_10 i
    obtain ⟨-, -, -, -, -, -, e30, e31⟩ := idx_facts10 ⟨_, ht⟩
    refine ⟨⟨_, ht⟩, flush10_3 _, ?_⟩
    show i ∈ ((View.whole (Pipeline.arrRef spec10 3)).slice (win10_3.rect ⟨_, ht⟩)).set
    rw [View.set_slice_whole, Rect.mem_set_unit]
    exact rowTile_mem i _ e30 e31
end Cert.KernelIdeal.LinearValue
end
-- ==== Proof.Value.LinearArr13.lean ====
import proofs.«101364_j7567732376252_1_alg».proof.Proof.Ideal.Reg13
import proofs.«101364_j7567732376252_1_alg».proof.Proof.Value.LinearPay
noncomputable section
namespace Cert.KernelIdeal.LinearValue
open Cert.KernelIdeal Cert.KernelIdeal.Gen Idealize.ShloMosaic Idealize.ShloMosaic.ValueIdx Idealize.SL.Sem Idealize.ShloMosaic.TcCoe
variable (V : (c : Dev nD) → (b : Ref sig .tc) → Buf (Elt Ideal) ((c : Thread nD τ).loc b))
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)
def G13 (c : Dev nD) : S50000x64.Idx → EReal :=
  ofMat (GcnSpec.lin (GcnSpec.toMat (V c main_v151_1 : S50000x128.Idx → EReal))
    (GcnSpec.toMat (V c main_arg7 : S128x64.Idx → EReal)) (GcnSpec.rowOf (V c main_v152 : S1x64.Idx → EReal)))
-- tile t of the output is the product of tile t of the input with the weights, plus the bias, and row r lies in tile r / 2000
theorem arr13_lin_refs (c : Dev nD) :
    GcnSpec.toMat ((dat13 V c).arrAt 3 cfg13.N : S50000x64.Idx → EReal)
      = GcnSpec.lin (GcnSpec.toMat (V c main_v151_1 : S50000x128.Idx → EReal))
          (GcnSpec.toMat (V c main_arg7 : S128x64.Idx → EReal))
          (GcnSpec.rowOf (V c main_v152 : S1x64.Idx → EReal)) := by
  refine congrArg (fun v : S50000x64.Idx → EReal => GcnSpec.toMat v)
    ((dat13 V c).arrAt_eq_of_cover 3 (G13 V c) (fun t _ => ?_) fun (i : S50000x64.Idx) => ?_)
  · show (cfg13.win 3).cut (grid13.coords t) ((dat13 V c).after 3 t) = _
    rw [after13_3]
    unfold out13_3
    rw [View.canon_unit_zero hz2]
    simp only [View.ld_unit_zero (S := S2000x128) hz2, View.ld_unit_zero (S := S128x64) hz2, View.ld_unit_zero (S := S1x64) hz2]
    obtain ⟨e00, e01, e10, e11, e20, e21, e30, e31⟩ := idx_facts13 t
    funext j
    obtain ⟨p, q, rfl⟩ : ∃ (p : Fin 2000) (q : Fin 64), j = ix2 p q := ⟨j 0, j 1, eq_ix2 j⟩
    exact ((k13_pay1_apply _ _ _ p q).trans (lin_at (C := 64) (V c main_v151_1) (V c main_arg7) (V c main_v152)
      (iblk13 V c 0 t) (iblk13 V c 1 t) (iblk13 V c 2 t) _ p q
      (fun k => congrArg (V c main_v151_1) (tile_emb _ _ _ p k _ (row_lt N_13 t p) rfl rfl e00 e01))
      (fun k => congrArg (V c main_arg7) (whole_emb _ _ _ k q _ _ rfl rfl e10 e11))
      (congrArg (V c main_v152) (whole_emb _ _ _ 0 q _ _ rfl rfl e20 e21)))).trans
      (congrArg (G13 V c) (tile_emb _ _ _ p q _ (row_lt N_13 t p) rfl rfl e30 e31).symm)
  · have ht := tileOf_lt N_13 i
    obtain ⟨-, -, -, -, -, -, e30, e31⟩ := idx_facts13 ⟨_, ht⟩
    refine ⟨⟨_, ht⟩, flush13_3 _, ?_⟩
    show i ∈ ((View.whole (Pipeline.arrRef spec13 3)).slice (win13_3.rect ⟨_, ht⟩)).set
    rw [View.set_slice_whole, Rect.mem_set_unit]
    exact rowTile_mem i _ e30 e31
end Cert.KernelIdeal.LinearValue
end
-- ==== Proof.Value.BnPay.lean ====
import proofs.«101364_j7567732376252_1_alg».proof.Proof.Gen.KernelIdeal.Skeleton
import proofs.«101364_j7567732376252_1_alg».proof.Proof.Value.LinearCommon
import Idealize.ShloMosaic.PureOps.Ideal.Laws
noncomputable section
namespace Cert.KernelIdeal.BnValue
open Idealize.ShloMosaic Idealize.ShloMosaic.ValueIdx
open Cert.KernelIdeal Cert.KernelIdeal.Gen
theorem rsqrt_apply {s : Shape} {φ : FTy} (a : FVec Ideal s φ) (i : s.Idx) : rsqrt a i = Ideal.rsqrt (a i) := rfl
theorem k3_pay1_apply (x : Vec Ideal S2000x128 .f32) (var mean gamma beta : Vec Ideal S1x128 .f32)
    (p : Fin 2000) (q : Fin 128) :
    k3_pay1 (F := Ideal) x var mean gamma beta (ix2 p q)
      = max (((x (ix2 p q) - mean (ix2 0 q)) * Ideal.rsqrt (var (ix2 0 q) + Ideal.ofBits .f32 0x3727C5AC#32))
          * gamma (ix2 0 q) + beta (ix2 0 q)) 0 := by
  unfold k3_pay1
  simp only [maximumf_apply, addf_apply, mulf_apply, subf_apply, broadcast_apply, LinearValue.rowOver_apply,
    broadcastTo_1b_ab_apply, rsqrt_apply, shapeCast_self, Ideal.ofBits_def, Ideal.ofBits_zero_f32]
theorem k3_pay2_apply (x : Vec Ideal S2000x128 .f32) (var mean gamma beta : Vec Ideal S1x128 .f32)
    (acc : Vec Ideal S2000x128 .f32) (p : Fin 2000) (q : Fin 128) :
    k3_pay2 (F := Ideal) x var mean gamma beta acc (ix2 p q)
      = acc (ix2 p q) + k3_pay1 (F := Ideal) x var mean gamma beta (ix2 p q) := by
  unfold k3_pay2
  simp only [addf_apply, shapeCast_self]
theorem k6_pay1_apply (x : Vec Ideal S2000x128 .f32) (var mean gamma beta : Vec Ideal S1x128 .f32)
    (xs : Vec Ideal S2000x128 .f32) (p : Fin 2000) (q : Fin 128) :
    k6_pay1 (F := Ideal) x var mean gamma beta xs (ix2 p q)
      = max ((((x (ix2 p q) - mean (ix2 0 q)) * Ideal.rsqrt (var (ix2 0 q) + Ideal.ofBits .f32 0x3727C5AC#32))
          * gamma (ix2 0 q) + beta (ix2 0 q)) + Ideal.ofBits .f32 0x3F000000#32 * xs (ix2 p q)) 0 := by
  unfold k6_pay1
  simp only [maximumf_apply, addf_apply, mulf_apply, subf_apply, broadcast_apply, LinearValue.rowOver_apply,
    broadcastTo_1b_ab_apply, rsqrt_apply, shapeCast_self, Ideal.ofBits_def, Ideal.ofBits_zero_f32]
theorem k6_pay2_apply (x : Vec Ideal S2000x128 .f32) (var mean gamma beta : Vec Ideal S1x128 .f32)
    (xs acc : Vec Ideal S2000x128 .f32) (p : Fin 2000) (q : Fin 128) :
    k6_pay2 (F := Ideal) x var mean gamma beta xs acc (ix2 p q)
      = acc (ix2 p q) + k6_pay1 (F := Ideal) x var mean gamma beta xs (ix2 p q) := by
  unfold k6_pay2
  simp only [addf_apply, shapeCast_self]
end Cert.KernelIdeal.BnValue
end
-- ==== Proof.Value.BnEntry.lean ====
import proofs.«101364_j7567732376252_1_alg».proof.Proof.Value.BnPay
noncomputable section
namespace Cert.KernelIdeal.BnValue
open Idealize.ShloMosaic Idealize.ShloMosaic.ValueIdx
open Cert.KernelIdeal Cert.KernelIdeal.Gen
def plainArr (X : Vec Ideal S50000x128 .f32) (Var Mean Gamma Beta : Vec Ideal S1x128 .f32) : S50000x128.Idx → EReal :=
  fun i => max (((X i - Mean (ix2 0 (i 1))) * Ideal.rsqrt (Var (ix2 0 (i 1)) + Ideal.ofBits .f32 0x3727C5AC#32))
    * Gamma (ix2 0 (i 1)) + Beta (ix2 0 (i 1))) 0
def skipArr (X : Vec Ideal S50000x128 .f32) (Var Mean Gamma Beta : Vec Ideal S1x128 .f32)
    (Xs : Vec Ideal S50000x128 .f32) : S50000x128.Idx → EReal :=
  fun i => max ((((X i - Mean (ix2 0 (i 1))) * Ideal.rsqrt (Var (ix2 0 (i 1)) + Ideal.ofBits .f32 0x3727C5AC#32))
    * Gamma (ix2 0 (i 1)) + Beta (ix2 0 (i 1))) + Ideal.ofBits .f32 0x3F000000#32 * Xs i) 0
def sumArr (Acc H : S50000x128.Idx → EReal) : S50000x128.Idx → EReal := fun i => Acc i + H i
theorem toMat_plainArr (X : Vec Ideal S50000x128 .f32) (Var Mean Gamma Beta : Vec Ideal S1x128 .f32) :
    GcnSpec.toMat (plainArr X Var Mean Gamma Beta)
      = GcnSpec.relu (GcnSpec.norm (GcnSpec.toMat X) (GcnSpec.rowOf Mean) (GcnSpec.rowOf Var) (GcnSpec.rowOf Gamma)
          (GcnSpec.rowOf Beta)) := rfl
theorem toMat_skipArr (X : Vec Ideal S50000x128 .f32) (Var Mean Gamma Beta : Vec Ideal S1x128 .f32)
    (Xs : Vec Ideal S50000x128 .f32) :
    GcnSpec.toMat (skipArr X Var Mean Gamma Beta Xs)
      = GcnSpec.relu (GcnSpec.withSkip (GcnSpec.norm (GcnSpec.toMat X) (GcnSpec.rowOf Mean) (GcnSpec.rowOf Var)
          (GcnSpec.rowOf Gamma) (GcnSpec.rowOf Beta)) (GcnSpec.toMat Xs)) := rfl
theorem toMat_sumArr (Acc H : S50000x128.Idx → EReal) :
    GcnSpec.toMat (sumArr Acc H) = GcnSpec.accum (GcnSpec.toMat Acc) (GcnSpec.toMat H) := rfl
-- a stored entry, its tile entry read at row r of the array and its four rows read whole, is the array function's entry at (r, q)
theorem plain_entry (x : Vec Ideal S2000x128 .f32) (var mean gamma beta : Vec Ideal S1x128 .f32)
    (X : Vec Ideal S50000x128 .f32) (Var Mean Gamma Beta : Vec Ideal S1x128 .f32)
    (hv : var = Var) (hm : mean = Mean) (hg : gamma = Gamma) (hb : beta = Beta)
    (p : Fin 2000) (q : Fin 128) (r : Fin 50000) (hx : x (ix2 p q) = X (ix2 r q)) :
    k3_pay1 (F := Ideal) x var mean gamma beta (ix2 p q) = plainArr X Var Mean Gamma Beta (ix2 r q) := by
  subst hv hm hg hb
  rw [k3_pay1_apply, hx]
  rfl
theorem plainSum_entry (x : Vec Ideal S2000x128 .f32) (var mean gamma beta : Vec Ideal S1x128 .f32)
    (acc : Vec Ideal S2000x128 .f32) (X : Vec Ideal S50000x128 .f32) (Var Mean Gamma Beta : Vec Ideal S1x128 .f32) (Acc : Vec Ideal S50000x128 .f32)
    (hv : var = Var) (hm : mean = Mean) (hg : gamma = Gamma) (hb : beta = Beta)
    (p : Fin 2000) (q : Fin 128) (r : Fin 50000) (hx : x (ix2 p q) = X (ix2 r q)) (ha : acc (ix2 p q) = Acc (ix2 r q)) :
    k3_pay2 (F := Ideal) x var mean gamma beta acc (ix2 p q) = sumArr Acc (plainArr X Var Mean Gamma Beta) (ix2 r q) := by
  rw [k3_pay2_apply, ha, plain_entry x var mean gamma beta X Var Mean Gamma Beta hv hm hg hb p q r hx]
  rfl
theorem skip_entry (x : Vec Ideal S2000x128 .f32) (var mean gamma beta : Vec Ideal S1x128 .f32)
    (xs : Vec Ideal S2000x128 .f32) (X : Vec Ideal S50000x128 .f32) (Var Mean Gamma Beta : Vec Ideal S1x128 .f32) (Xs : Vec Ideal S50000x128 .f32)
    (hv : var = Var) (hm : mean = Mean) (hg : gamma = Gamma) (hb : beta = Beta)
    (p : Fin 2000) (q : Fin 128) (r : Fin 50000) (hx : x (ix2 p q) = X (ix2 r q)) (hs : xs (ix2 p q) = Xs (ix2 r q)) :
    k6_pay1 (F := Ideal) x var mean gamma beta xs (ix2 p q) = skipArr X Var Mean Gamma Beta Xs (ix2 r q) := by
  subst hv hm hg hb
  rw [k6_pay1_apply, hx, hs]
  rfl
theorem skipSum_entry (x : Vec Ideal S2000x128 .f32) (var mean gamma beta : Vec Ideal S1x128 .f32)
    (xs acc : Vec Ideal S2000x128 .f32) (X : Vec Ideal S50000x128 .f32) (Var Mean Gamma Beta : Vec Ideal S1x128 .f32) (Xs Acc : Vec Ideal S50000x128 .f32)
    (hv : var = Var) (hm : mean = Mean) (hg : gamma = Gamma) (hb : beta = Beta)
    (p : Fin 2000) (q : Fin 128) (r : Fin 50000) (hx : x (ix2 p q) = X (ix2 r q)) (hs : xs (ix2 p q) = Xs (ix2 r q)) (ha : acc (ix2 p q) = Acc (ix2 r q)) :
    k6_pay2 (F := Ideal) x var mean gamma beta xs acc (ix2 p q) = sumArr Acc (skipArr X Var Mean Gamma Beta Xs) (ix2 r q) := by
  rw [k6_pay2_apply, ha, skip_entry x var mean gamma beta xs X Var Mean Gamma Beta Xs hv hm hg hb p q r hx hs]
  rfl
end Cert.KernelIdeal.BnValue
end
-- ==== Proof.Value.BnArr3.lean ====
import proofs.«101364_j7567732376252_1_alg».proof.Proof.Value.BnEntry
import proofs.«101364_j7567732376252_1_alg».proof.Proof.Ideal.Reg3
noncomputable section
namespace Cert.KernelIdeal.BnValue
open Idealize.ShloMosaic Idealize.ShloMosaic.ValueIdx Idealize.ShloMosaic.TcCoe
open Idealize.SL Idealize.SL.Sem
open Cert.KernelIdeal Cert.KernelIdeal.Gen
variable (V : (c : Dev nD) → (b : Ref sig .tc) → Buf (Elt Ideal) ((c : Thread nD τ).loc b))
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)
-- a one-row array is its own only block, so each of the four row blocks is its whole array
theorem rows3 (c : Dev nD) (t : Fin cfg3.N) :
    (iblk3 V c 1 t : Vec Ideal S1x128 .f32) = V c main_v57_1 ∧ (iblk3 V c 2 t : Vec Ideal S1x128 .f32) = V c main_v57_2
    ∧ (iblk3 V c 3 t : Vec Ideal S1x128 .f32) = V c main_v62 ∧ (iblk3 V c 4 t : Vec Ideal S1x128 .f32) = V c main_v63 := by
  obtain ⟨-, -, b0, b1, c0, c1, d0, d1, e0, e1, -⟩ := idx3 t
  exact ⟨(funext fun j => congrArg (V c main_v57_1) ((LinearValue.whole_emb _ _ _ (j 0) (j 1) _ _ rfl rfl b0 b1).trans (eq_ix2 j).symm)),
    (funext fun j => congrArg (V c main_v57_2) ((LinearValue.whole_emb _ _ _ (j 0) (j 1) _ _ rfl rfl c0 c1).trans (eq_ix2 j).symm)),
    (funext fun j => congrArg (V c main_v62) ((LinearValue.whole_emb _ _ _ (j 0) (j 1) _ _ rfl rfl d0 d1).trans (eq_ix2 j).symm)),
    (funext fun j => congrArg (V c main_v63) ((LinearValue.whole_emb _ _ _ (j 0) (j 1) _ _ rfl rfl e0 e1).trans (eq_ix2 j).symm))⟩
abbrev plain3 (c : Dev nD) : S50000x128.Idx → EReal :=
  plainArr (V c main_v57_0) (V c main_v57_2) (V c main_v57_1) (V c main_v62) (V c main_v63)
theorem layer3 (c : Dev nD) :
    GcnSpec.toMat ((dat3 V c).arrAt 6 cfg3.N : Vec Ideal S50000x128 .f32)
      = GcnSpec.relu (GcnSpec.norm (GcnSpec.toMat (V c main_v57_0)) (GcnSpec.rowOf (V c main_v57_1))
          (GcnSpec.rowOf (V c main_v57_2)) (GcnSpec.rowOf (V c main_v62)) (GcnSpec.rowOf (V c main_v63))) := by
  refine congrArg (fun v : Vec Ideal S50000x128 .f32 => GcnSpec.toMat v)
    ((dat3 V c).arrAt_eq_of_cover 6 (plain3 V c) (fun t _ => ?_) fun (i : S50000x128.Idx) => ?_)
  · show (cfg3.win 6).cut (grid3.coords t) ((dat3 V c).after 6 t) = _
    rw [after3_6]
    unfold out3_6 bn3
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1⟩ := idx3 t
    obtain ⟨r1, r2, r3, r4⟩ := rows3 V c t
    exact (plain_entry (iblk3 V c 0 t) _ _ _ _ (V c main_v57_0) _ _ _ _ r2 r1 r3 r4 p q _ (congrArg (V c main_v57_0) (LinearValue.tile_emb _ _ _ p q _ (LinearValue.row_lt N_3 t p) rfl rfl a0 a1))).trans
      (congrArg (plain3 V c) (LinearValue.tile_emb _ _ _ p q _ (LinearValue.row_lt N_3 t p) rfl rfl g0 g1).symm)
  · have ht := LinearValue.tileOf_lt N_3 i
    obtain ⟨-, -, -, -, -, -, -, -, -, -, -, -, h0, h1, -⟩ := idx3 ⟨_, ht⟩
    refine ⟨⟨_, ht⟩, flush3_6 _, ?_⟩
    show i ∈ ((View.whole main_v64_0).slice (win3_6.rect ⟨_, ht⟩)).set
    rw [View.set_slice_whole, Rect.mem_set_unit]
    exact LinearValue.rowTile_mem i _ h0 h1
theorem total3 (c : Dev nD) :
    GcnSpec.toMat ((dat3 V c).arrAt 7 cfg3.N : Vec Ideal S50000x128 .f32)
      = GcnSpec.accum (GcnSpec.toMat (V c main_v34))
          (GcnSpec.relu (GcnSpec.norm (GcnSpec.toMat (V c main_v57_0)) (GcnSpec.rowOf (V c main_v57_1))
            (GcnSpec.rowOf (V c main_v57_2)) (GcnSpec.rowOf (V c main_v62)) (GcnSpec.rowOf (V c main_v63)))) := by
  refine congrArg (fun v : Vec Ideal S50000x128 .f32 => GcnSpec.toMat v)
    ((dat3 V c).arrAt_eq_of_cover 7 (sumArr (V c main_v34) (plain3 V c)) (fun t _ => ?_) fun (i : S50000x128.Idx) => ?_)
  · show (cfg3.win 7).cut (grid3.coords t) ((dat3 V c).after 7 t) = _
    rw [after3_7]
    unfold out3_7
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1⟩ := idx3 t
    obtain ⟨r1, r2, r3, r4⟩ := rows3 V c t
    exact (plainSum_entry (iblk3 V c 0 t) _ _ _ _ (iblk3 V c 5 t) (V c main_v57_0) _ _ _ _ (V c main_v34) r2 r1 r3 r4 p q _ (congrArg (V c main_v57_0) (LinearValue.tile_emb _ _ _ p q _ (LinearValue.row_lt N_3 t p) rfl rfl a0 a1))
      (congrArg (V c main_v34) (LinearValue.tile_emb _ _ _ p q _ (LinearValue.row_lt N_3 t p) rfl rfl f0 f1))).trans (congrArg (sumArr (V c main_v34) (plain3 V c)) (LinearValue.tile_emb _ _ _ p q _ (LinearValue.row_lt N_3 t p) rfl rfl h0 h1).symm)
  · have ht := LinearValue.tileOf_lt N_3 i
    obtain ⟨-, -, -, -, -, -, -, -, -, -, -, -, -, -, h0, h1⟩ := idx3 ⟨_, ht⟩
    refine ⟨⟨_, ht⟩, flush3_7 _, ?_⟩
    show i ∈ ((View.whole main_v64_1).slice (win3_7.rect ⟨_, ht⟩)).set
    rw [View.set_slice_whole, Rect.mem_set_unit]
    exact LinearValue.rowTile_mem i _ h0 h1
end Cert.KernelIdeal.BnValue
end
-- ==== Proof.Value.BnArr6.lean ====
import proofs.«101364_j7567732376252_1_alg».proof.Proof.Value.BnEntry
import proofs.«101364_j7567732376252_1_alg».proof.Proof.Ideal.Reg6
noncomputable section
namespace Cert.KernelIdeal.BnValue
open Idealize.ShloMosaic Idealize.ShloMosaic.ValueIdx Idealize.ShloMosaic.TcCoe
open Idealize.SL Idealize.SL.Sem
open Cert.KernelIdeal Cert.KernelIdeal.Gen
variable (V : (c : Dev nD) → (b : Ref sig .tc) → Buf (Elt Ideal) ((c : Thread nD τ).loc b))
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0
    ∧ win6_8.index t (0 : Fin 2) = t.val ∧ win6_8.index t (1 : Fin 2) = 0 :=
  (by decide +kernel : ∀ t : Fin grid6.N, _)
-- a one-row array is its own only block, so each of the four row blocks is its whole array
theorem rows6 (c : Dev nD) (t : Fin cfg6.N) :
    (iblk6 V c 1 t : Vec Ideal S1x128 .f32) = V c main_v86_1 ∧ (iblk6 V c 2 t : Vec Ideal S1x128 .f32) = V c main_v86_2
    ∧ (iblk6 V c 3 t : Vec Ideal S1x128 .f32) = V c main_v91 ∧ (iblk6 V c 4 t : Vec Ideal S1x128 .f32) = V c main_v92 := by
  obtain ⟨-, -, b0, b1, c0, c1, d0, d1, e0, e1, -⟩ := idx6 t
  exact ⟨(funext fun j => congrArg (V c main_v86_1) ((LinearValue.whole_emb _ _ _ (j 0) (j 1) _ _ rfl rfl b0 b1).trans (eq_ix2 j).symm)),
    (funext fun j => congrArg (V c main_v86_2) ((LinearValue.whole_emb _ _ _ (j 0) (j 1) _ _ rfl rfl c0 c1).trans (eq_ix2 j).symm)),
    (funext fun j => congrArg (V c main_v91) ((LinearValue.whole_emb _ _ _ (j 0) (j 1) _ _ rfl rfl d0 d1).trans (eq_ix2 j).symm)),
    (funext fun j => congrArg (V c main_v92) ((LinearValue.whole_emb _ _ _ (j 0) (j 1) _ _ rfl rfl e0 e1).trans (eq_ix2 j).symm))⟩
abbrev skip6 (c : Dev nD) : S50000x128.Idx → EReal :=
  skipArr (V c main_v86_0) (V c main_v86_2) (V c main_v86_1) (V c main_v91) (V c main_v92) (V c main_v33)
theorem layer6 (c : Dev nD) :
    GcnSpec.toMat ((dat6 V c).arrAt 7 cfg6.N : Vec Ideal S50000x128 .f32)
      = GcnSpec.relu (GcnSpec.withSkip (GcnSpec.norm (GcnSpec.toMat (V c main_v86_0)) (GcnSpec.rowOf (V c main_v86_1))
          (GcnSpec.rowOf (V c main_v86_2)) (GcnSpec.rowOf (V c main_v91)) (GcnSpec.rowOf (V c main_v92)))
          (GcnSpec.toMat (V c main_v33))) := by
  refine congrArg (fun v : Vec Ideal S50000x128 .f32 => GcnSpec.toMat v)
    ((dat6 V c).arrAt_eq_of_cover 7 (skip6 V c) (fun t _ => ?_) fun (i : S50000x128.Idx) => ?_)
  · show (cfg6.win 7).cut (grid6.coords t) ((dat6 V c).after 7 t) = _
    rw [after6_7]
    unfold out6_7 bn6
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1, k0, k1⟩ := idx6 t
    obtain ⟨r1, r2, r3, r4⟩ := rows6 V c t
    exact (skip_entry (iblk6 V c 0 t) _ _ _ _ (iblk6 V c 5 t) (V c main_v86_0) _ _ _ _ (V c main_v33) r2 r1 r3 r4 p q _
      (congrArg (V c main_v86_0) (LinearValue.tile_emb _ _ _ p q _ (LinearValue.row_lt N_6 t p) rfl rfl a0 a1)) (congrArg (V c main_v33) (LinearValue.tile_emb _ _ _ p q _ (LinearValue.row_lt N_6 t p) rfl rfl f0 f1))).trans (congrArg (skip6 V c) (LinearValue.tile_emb _ _ _ p q _ (LinearValue.row_lt N_6 t p) rfl rfl h0 h1).symm)
  · have ht := LinearValue.tileOf_lt N_6 i
    obtain ⟨-, -, -, -, -, -, -, -, -, -, -, -, -, -, h0, h1, -⟩ := idx6 ⟨_, ht⟩
    refine ⟨⟨_, ht⟩, flush6_7 _, ?_⟩
    show i ∈ ((View.whole main_v93_0).slice (win6_7.rect ⟨_, ht⟩)).set
    rw [View.set_slice_whole, Rect.mem_set_unit]
    exact LinearValue.rowTile_mem i _ h0 h1
theorem total6 (c : Dev nD) :
    GcnSpec.toMat ((dat6 V c).arrAt 8 cfg6.N : Vec Ideal S50000x128 .f32)
      = GcnSpec.accum (GcnSpec.toMat (V c main_v64_1))
          (GcnSpec.relu (GcnSpec.withSkip (GcnSpec.norm (GcnSpec.toMat (V c main_v86_0)) (GcnSpec.rowOf (V c main_v86_1))
            (GcnSpec.rowOf (V c main_v86_2)) (GcnSpec.rowOf (V c main_v91)) (GcnSpec.rowOf (V c main_v92)))
            (GcnSpec.toMat (V c main_v33)))) := by
  refine congrArg (fun v : Vec Ideal S50000x128 .f32 => GcnSpec.toMat v)
    ((dat6 V c).arrAt_eq_of_cover 8 (sumArr (V c main_v64_1) (skip6 V c)) (fun t _ => ?_) fun (i : S50000x128.Idx) => ?_)
  · show (cfg6.win 8).cut (grid6.coords t) ((dat6 V c).after 8 t) = _
    rw [after6_8]
    unfold out6_8
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1, k0, k1⟩ := idx6 t
    obtain ⟨r1, r2, r3, r4⟩ := rows6 V c t
    exact (skipSum_entry (iblk6 V c 0 t) _ _ _ _ (iblk6 V c 5 t) (iblk6 V c 6 t) (V c main_v86_0) _ _ _ _ (V c main_v33)
      (V c main_v64_1) r2 r1 r3 r4 p q _ (congrArg (V c main_v86_0) (LinearValue.tile_emb _ _ _ p q _ (LinearValue.row_lt N_6 t p) rfl rfl a0 a1)) (congrArg (V c main_v33) (LinearValue.tile_emb _ _ _ p q _ (LinearValue.row_lt N_6 t p) rfl rfl f0 f1))
      (congrArg (V c main_v64_1) (LinearValue.tile_emb _ _ _ p q _ (LinearValue.row_lt N_6 t p) rfl rfl g0 g1))).trans (congrArg (sumArr (V c main_v64_1) (skip6 V c)) (LinearValue.tile_emb _ _ _ p q _ (LinearValue.row_lt N_6 t p) rfl rfl k0 k1).symm)
  · have ht := LinearValue.tileOf_lt N_6 i
    obtain ⟨-, -, -, -, -, -, -, -, -, -, -, -, -, -, -, -, h0, h1⟩ := idx6 ⟨_, ht⟩
    refine ⟨⟨_, ht⟩, flush6_8 _, ?_⟩
    show i ∈ ((View.whole main_v93_1).slice (win6_8.rect ⟨_, ht⟩)).set
    rw [View.set_slice_whole, Rect.mem_set_unit]
    exact LinearValue.rowTile_mem i _ h0 h1
end Cert.KernelIdeal.BnValue
end
-- ==== Proof.Value.BnArr9.lean ====
import proofs.«101364_j7567732376252_1_alg».proof.Proof.Value.BnEntry
import proofs.«101364_j7567732376252_1_alg».proof.Proof.Ideal.Reg9
noncomputable section
namespace Cert.KernelIdeal.BnValue
open Idealize.ShloMosaic Idealize.ShloMosaic.ValueIdx Idealize.ShloMosaic.TcCoe
open Idealize.SL Idealize.SL.Sem
open Cert.KernelIdeal Cert.KernelIdeal.Gen
variable (V : (c : Dev nD) → (b : Ref sig .tc) → Buf (Elt Ideal) ((c : Thread nD τ).loc b))
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0
    ∧ win9_7.index t (0 : Fin 2) = t.val ∧ win9_7.index t (1 : Fin 2) = 0 :=
  (by decide +kernel : ∀ t : Fin grid9.N, _)
-- a one-row array is its own only block, so each of the four row blocks is its whole array
theorem rows9 (c : Dev nD) (t : Fin cfg9.N) :
    (iblk9 V c 1 t : Vec Ideal S1x128 .f32) = V c main_v115_1 ∧ (iblk9 V c 2 t : Vec Ideal S1x128 .f32) = V c main_v115_2
    ∧ (iblk9 V c 3 t : Vec Ideal S1x128 .f32) = V c main_v120 ∧ (iblk9 V c 4 t : Vec Ideal S1x128 .f32) = V c main_v121 := by
  obtain ⟨-, -, b0, b1, c0, c1, d0, d1, e0, e1, -⟩ := idx9 t
  exact ⟨(funext fun j => congrArg (V c main_v115_1) ((LinearValue.whole_emb _ _ _ (j 0) (j 1) _ _ rfl rfl b0 b1).trans (eq_ix2 j).symm)),
    (funext fun j => congrArg (V c main_v115_2) ((LinearValue.whole_emb _ _ _ (j 0) (j 1) _ _ rfl rfl c0 c1).trans (eq_ix2 j).symm)),
    (funext fun j => congrArg (V c main_v120) ((LinearValue.whole_emb _ _ _ (j 0) (j 1) _ _ rfl rfl d0 d1).trans (eq_ix2 j).symm)),
    (funext fun j => congrArg (V c main_v121) ((LinearValue.whole_emb _ _ _ (j 0) (j 1) _ _ rfl rfl e0 e1).trans (eq_ix2 j).symm))⟩
abbrev plain9 (c : Dev nD) : S50000x128.Idx → EReal :=
  plainArr (V c main_v115_0) (V c main_v115_2) (V c main_v115_1) (V c main_v120) (V c main_v121)
theorem layer9 (c : Dev nD) :
    GcnSpec.toMat ((dat9 V c).arrAt 6 cfg9.N : Vec Ideal S50000x128 .f32)
      = GcnSpec.relu (GcnSpec.norm (GcnSpec.toMat (V c main_v115_0)) (GcnSpec.rowOf (V c main_v115_1))
          (GcnSpec.rowOf (V c main_v115_2)) (GcnSpec.rowOf (V c main_v120)) (GcnSpec.rowOf (V c main_v121))) := by
  refine congrArg (fun v : Vec Ideal S50000x128 .f32 => GcnSpec.toMat v)
    ((dat9 V c).arrAt_eq_of_cover 6 (plain9 V c) (fun t _ => ?_) fun (i : S50000x128.Idx) => ?_)
  · show (cfg9.win 6).cut (grid9.coords t) ((dat9 V c).after 6 t) = _
    rw [after9_6]
    unfold out9_6 bn9
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1⟩ := idx9 t
    obtain ⟨r1, r2, r3, r4⟩ := rows9 V c t
    exact (plain_entry (iblk9 V c 0 t) _ _ _ _ (V c main_v115_0) _ _ _ _ r2 r1 r3 r4 p q _ (congrArg (V c main_v115_0) (LinearValue.tile_emb _ _ _ p q _ (LinearValue.row_lt N_9 t p) rfl rfl a0 a1))).trans
      (congrArg (plain9 V c) (LinearValue.tile_emb _ _ _ p q _ (LinearValue.row_lt N_9 t p) rfl rfl g0 g1).symm)
  · have ht := LinearValue.tileOf_lt N_9 i
    obtain ⟨-, -, -, -, -, -, -, -, -, -, -, -, h0, h1, -⟩ := idx9 ⟨_, ht⟩
    refine ⟨⟨_, ht⟩, flush9_6 _, ?_⟩
    show i ∈ ((View.whole main_v122_0).slice (win9_6.rect ⟨_, ht⟩)).set
    rw [View.set_slice_whole, Rect.mem_set_unit]
    exact LinearValue.rowTile_mem i _ h0 h1
theorem total9 (c : Dev nD) :
    GcnSpec.toMat ((dat9 V c).arrAt 7 cfg9.N : Vec Ideal S50000x128 .f32)
      = GcnSpec.accum (GcnSpec.toMat (V c main_v93_1))
          (GcnSpec.relu (GcnSpec.norm (GcnSpec.toMat (V c main_v115_0)) (GcnSpec.rowOf (V c main_v115_1))
            (GcnSpec.rowOf (V c main_v115_2)) (GcnSpec.rowOf (V c main_v120)) (GcnSpec.rowOf (V c main_v121)))) := by
  refine congrArg (fun v : Vec Ideal S50000x128 .f32 => GcnSpec.toMat v)
    ((dat9 V c).arrAt_eq_of_cover 7 (sumArr (V c main_v93_1) (plain9 V c)) (fun t _ => ?_) fun (i : S50000x128.Idx) => ?_)
  · show (cfg9.win 7).cut (grid9.coords t) ((dat9 V c).after 7 t) = _
    rw [after9_7]
    unfold out9_7
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1⟩ := idx9 t
    obtain ⟨r1, r2, r3, r4⟩ := rows9 V c t
    exact (plainSum_entry (iblk9 V c 0 t) _ _ _ _ (iblk9 V c 5 t) (V c main_v115_0) _ _ _ _ (V c main_v93_1) r2 r1 r3 r4 p q _ (congrArg (V c main_v115_0) (LinearValue.tile_emb _ _ _ p q _ (LinearValue.row_lt N_9 t p) rfl rfl a0 a1))
      (congrArg (V c main_v93_1) (LinearValue.tile_emb _ _ _ p q _ (LinearValue.row_lt N_9 t p) rfl rfl f0 f1))).trans (congrArg (sumArr (V c main_v93_1) (plain9 V c)) (LinearValue.tile_emb _ _ _ p q _ (LinearValue.row_lt N_9 t p) rfl rfl h0 h1).symm)
  · have ht := LinearValue.tileOf_lt N_9 i
    obtain ⟨-, -, -, -, -, -, -, -, -, -, -, -, -, -, h0, h1⟩ := idx9 ⟨_, ht⟩
    refine ⟨⟨_, ht⟩, flush9_7 _, ?_⟩
    show i ∈ ((View.whole main_v122_1).slice (win9_7.rect ⟨_, ht⟩)).set
    rw [View.set_slice_whole, Rect.mem_set_unit]
    exact LinearValue.rowTile_mem i _ h0 h1
end Cert.KernelIdeal.BnValue
end
-- ==== Proof.Value.BnArr12.lean ====
import proofs.«101364_j7567732376252_1_alg».proof.Proof.Value.BnEntry
import proofs.«101364_j7567732376252_1_alg».proof.Proof.Ideal.Reg12
noncomputable section
namespace Cert.KernelIdeal.BnValue
open Idealize.ShloMosaic Idealize.ShloMosaic.ValueIdx Idealize.ShloMosaic.TcCoe
open Idealize.SL Idealize.SL.Sem
open Cert.KernelIdeal Cert.KernelIdeal.Gen
variable (V : (c : Dev nD) → (b : Ref sig .tc) → Buf (Elt Ideal) ((c : Thread nD τ).loc b))
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0
    ∧ win12_7.index t (0 : Fin 2) = t.val ∧ win12_7.index t (1 : Fin 2) = 0
    ∧ win12_8.index t (0 : Fin 2) = t.val ∧ win12_8.index t (1 : Fin 2) = 0 :=
  (by decide +kernel : ∀ t : Fin grid12.N, _)
-- a one-row array is its own only block, so each of the four row blocks is its whole array
theorem rows12 (c : Dev nD) (t : Fin cfg12.N) :
    (iblk12 V c 1 t : Vec Ideal S1x128 .f32) = V c main_v144_1 ∧ (iblk12 V c 2 t : Vec Ideal S1x128 .f32) = V c main_v144_2
    ∧ (iblk12 V c 3 t : Vec Ideal S1x128 .f32) = V c main_v149 ∧ (iblk12 V c 4 t : Vec Ideal S1x128 .f32) = V c main_v150 := by
  obtain ⟨-, -, b0, b1, c0, c1, d0, d1, e0, e1, -⟩ := idx12 t
  exact ⟨(funext fun j => congrArg (V c main_v144_1) ((LinearValue.whole_emb _ _ _ (j 0) (j 1) _ _ rfl rfl b0 b1).trans (eq_ix2 j).symm)),
    (funext fun j => congrArg (V c main_v144_2) ((LinearValue.whole_emb _ _ _ (j 0) (j 1) _ _ rfl rfl c0 c1).trans (eq_ix2 j).symm)),
    (funext fun j => congrArg (V c main_v149) ((LinearValue.whole_emb _ _ _ (j 0) (j 1) _ _ rfl rfl d0 d1).trans (eq_ix2 j).symm)),
    (funext fun j => congrArg (V c main_v150) ((LinearValue.whole_emb _ _ _ (j 0) (j 1) _ _ rfl rfl e0 e1).trans (eq_ix2 j).symm))⟩
abbrev skip12 (c : Dev nD) : S50000x128.Idx → EReal :=
  skipArr (V c main_v144_0) (V c main_v144_2) (V c main_v144_1) (V c main_v149) (V c main_v150) (V c main_v33)
theorem layer12 (c : Dev nD) :
    GcnSpec.toMat ((dat12 V c).arrAt 7 cfg12.N : Vec Ideal S50000x128 .f32)
      = GcnSpec.relu (GcnSpec.withSkip (GcnSpec.norm (GcnSpec.toMat (V c main_v144_0)) (GcnSpec.rowOf (V c main_v144_1))
          (GcnSpec.rowOf (V c main_v144_2)) (GcnSpec.rowOf (V c main_v149)) (GcnSpec.rowOf (V c main_v150)))
          (GcnSpec.toMat (V c main_v33))) := by
  refine congrArg (fun v : Vec Ideal S50000x128 .f32 => GcnSpec.toMat v)
    ((dat12 V c).arrAt_eq_of_cover 7 (skip12 V c) (fun t _ => ?_) fun (i : S50000x128.Idx) => ?_)
  · show (cfg12.win 7).cut (grid12.coords t) ((dat12 V c).after 7 t) = _
    rw [after12_7]
    unfold out12_7 bn12
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1, k0, k1⟩ := idx12 t
    obtain ⟨r1, r2, r3, r4⟩ := rows12 V c t
    exact (skip_entry (iblk12 V c 0 t) _ _ _ _ (iblk12 V c 5 t) (V c main_v144_0) _ _ _ _ (V c main_v33) r2 r1 r3 r4 p q _
      (congrArg (V c main_v144_0) (LinearValue.tile_emb _ _ _ p q _ (LinearValue.row_lt N_12 t p) rfl rfl a0 a1)) (congrArg (V c main_v33) (LinearValue.tile_emb _ _ _ p q _ (LinearValue.row_lt N_12 t p) rfl rfl f0 f1))).trans (congrArg (skip12 V c) (LinearValue.tile_emb _ _ _ p q _ (LinearValue.row_lt N_12 t p) rfl rfl h0 h1).symm)
  · have ht := LinearValue.tileOf_lt N_12 i
    obtain ⟨-, -, -, -, -, -, -, -, -, -, -, -, -, -, h0, h1, -⟩ := idx12 ⟨_, ht⟩
    refine ⟨⟨_, ht⟩, flush12_7 _, ?_⟩
    show i ∈ ((View.whole main_v151_0).slice (win12_7.rect ⟨_, ht⟩)).set
    rw [View.set_slice_whole, Rect.mem_set_unit]
    exact LinearValue.rowTile_mem i _ h0 h1
theorem total12 (c : Dev nD) :
    GcnSpec.toMat ((dat12 V c).arrAt 8 cfg12.N : Vec Ideal S50000x128 .f32)
      = GcnSpec.accum (GcnSpec.toMat (V c main_v122_1))
          (GcnSpec.relu (GcnSpec.withSkip (GcnSpec.norm (GcnSpec.toMat (V c main_v144_0)) (GcnSpec.rowOf (V c main_v144_1))
            (GcnSpec.rowOf (V c main_v144_2)) (GcnSpec.rowOf (V c main_v149)) (GcnSpec.rowOf (V c main_v150)))
            (GcnSpec.toMat (V c main_v33)))) := by
  refine congrArg (fun v : Vec Ideal S50000x128 .f32 => GcnSpec.toMat v)
    ((dat12 V c).arrAt_eq_of_cover 8 (sumArr (V c main_v122_1) (skip12 V c)) (fun t _ => ?_) fun (i : S50000x128.Idx) => ?_)
  · show (cfg12.win 8).cut (grid12.coords t) ((dat12 V c).after 8 t) = _
    rw [after12_8]
    unfold out12_8
    rw [View.canon_unit_zero LinearValue.hz2]
    simp only [View.ld_unit_zero (S := S2000x128) LinearValue.hz2, View.ld_unit_zero (S := S1x128) LinearValue.hz2]
    funext j
    obtain ⟨p, q, rfl⟩ : ∃ (p : Fin 2000) (q : Fin 128), j = ix2 p q := ⟨j 0, j 1, eq_ix2 j⟩
    obtain ⟨a0, a1, -, -, -, -, -, -, -, -, f0, f1, g0, g1, h0, h1, k0, k1⟩ := idx12 t
    obtain ⟨r1, r2, r3, r4⟩ := rows12 V c t
    exact (skipSum_entry (iblk12 V c 0 t) _ _ _ _ (iblk12 V c 5 t) (iblk12 V c 6 t) (V c main_v144_0) _ _ _ _ (V c main_v33)
      (V c main_v122_1) r2 r1 r3 r4 p q _ (congrArg (V c main_v144_0) (LinearValue.tile_emb _ _ _ p q _ (LinearValue.row_lt N_12 t p) rfl rfl a0 a1)) (congrArg (V c main_v33) (LinearValue.tile_emb _ _ _ p q _ (LinearValue.row_lt N_12 t p) rfl rfl f0 f1))
      (congrArg (V c main_v122_1) (LinearValue.tile_emb _ _ _ p q _ (LinearValue.row_lt N_12 t p) rfl rfl g0 g1))).trans (congrArg (sumArr (V c main_v122_1) (skip12 V c)) (LinearValue.tile_emb _ _ _ p q _ (LinearValue.row_lt N_12 t p) rfl rfl k0 k1).symm)
  · have ht := LinearValue.tileOf_lt N_12 i
    obtain ⟨-, -, -, -, -, -, -, -, -, -, -, -, -, -, -, -, h0, h1⟩ := idx12 ⟨_, ht⟩
    refine ⟨⟨_, ht⟩, flush12_8 _, ?_⟩
    show i ∈ ((View.whole main_v151_1).slice (win12_8.rect ⟨_, ht⟩)).set
    rw [View.set_slice_whole, Rect.mem_set_unit]
    exact LinearValue.rowTile_mem i _ h0 h1
end Cert.KernelIdeal.BnValue
end
-- ==== Proof.Value.AggPay.lean ====
import proofs.«101364_j7567732376252_1_alg».proof.Proof.Gen.KernelIdeal.Skeleton
import proofs.«101364_j7567732376252_1_alg».proof.Proof.Value.LinearCommon
import proofs.«101364_j7567732376252_1_alg».proof.Proof.SpecLaw
import Idealize.ShloMosaic.PureOps.Ideal.Laws
import Idealize.ShloMosaic.PureOps.IdealRules
noncomputable section
namespace Cert.KernelIdeal.AggValue
open Cert.KernelIdeal Cert.KernelIdeal.Gen Idealize.ShloMosaic Idealize.ShloMosaic.ValueIdx Idealize.SL.Sem
open scoped BigOperators
theorem col_apply (sn : Vec Ideal S2000x1 .f32) (p : Fin 2000) (q : Fin 128) :
    broadcastTo S2000x128 (shapeCast S2000x1 sn shapeCasts_S2000x1_S2000x1) broadcasts_S2000x1_S2000x128 (ix2 p q)
      = sn (ix2 p 0) := by
  rw [shapeCast_self]
  refine broadcastTo_apply sn _ (ix2 p q) (ix2 p 0) fun a => ?_
  match a with
  | ⟨0, _⟩ => rfl
  | ⟨1, _⟩ => rfl
theorem colsum_apply (x : FVec Ideal S2000x128 .f32) (hφ : FKind.Formats .f32)
    (hacc : (0x00000000#32 : BitVec 32) = FKind.add.neutral .f32 hφ) (q : Fin 128) :
    shapeCast S1x128 (multiReduction (F := Ideal) .add [0] S128 x 0x00000000#32 reduces_S2000x128_S128 hφ hacc)
        shapeCasts_S128_S1x128 (ix2 0 q)
      = ∑ p : Fin 2000, x (ix2 p q) := by
  refine (shapeCast_a_1a_apply _ shapeCasts_S128_S1x128 0 q).trans ?_
  refine (Ideal.multiReduction_add_single x 0x00000000#32 reduces_S2000x128_S128 hφ hacc (ix1 q)).trans ?_
  refine Finset.sum_congr rfl fun p _ => congrArg x ?_
  funext a
  match a with
  | ⟨0, _⟩ => rfl
  | ⟨1, _⟩ => rfl
theorem k2_pay5_apply (agg t : Vec Ideal S2000x128 .f32) (sn : Vec Ideal S2000x1 .f32) (b : Vec Ideal S1x128 .f32)
    (p : Fin 2000) (q : Fin 128) :
    k2_pay5 (F := Ideal) agg t sn b (ix2 p q) = agg (ix2 p q) + t (ix2 p q) * sn (ix2 p 0) + b (ix2 0 q) := by
  have e1 : shapeCast S2000x128 agg shapeCasts_S2000x128_S2000x128 = agg := shapeCast_self _ _
  have e2 : shapeCast S2000x128 t shapeCasts_S2000x128_S2000x128 = t := shapeCast_self _ _
  show (shapeCast S2000x128 agg shapeCasts_S2000x128_S2000x128 (ix2 p q)
        + shapeCast S2000x128 t shapeCasts_S2000x128_S2000x128 (ix2 p q)
          * broadcastTo S2000x128 (shapeCast S2000x1 sn shapeCasts_S2000x1_S2000x1) broadcasts_S2000x1_S2000x128 (ix2 p q))
      + broadcastTo S2000x128 (shapeCast S1x128 b shapeCasts_S1x128_S1x128) broadcasts_S1x128_S2000x128 (ix2 p q) = _
  rw [e1, e2, col_apply, LinearValue.rowOver_apply]
theorem k2_pay6_apply (agg t : Vec Ideal S2000x128 .f32) (sn : Vec Ideal S2000x1 .f32) (b : Vec Ideal S1x128 .f32)
    (s : Vec Ideal S1x128 .f32) (q : Fin 128) :
    k2_pay6 (F := Ideal) agg t sn b s (ix2 0 q)
      = s (ix2 0 q) + ∑ p : Fin 2000, k2_pay5 (F := Ideal) agg t sn b (ix2 p q) := by
  have e : ∀ v : FVec Ideal S1x128 .f32, shapeCast S1x128 v shapeCasts_S1x128_S1x128 = v := fun v => shapeCast_self v _
  show shapeCast S1x128 (addf s (shapeCast S1x128 (multiReduction (F := Ideal) .add [0] S128 (k2_pay5 (F := Ideal) agg t sn b)
      0x00000000#32 reduces_S2000x128_S128 (.inl rfl) rfl) shapeCasts_S128_S1x128)) shapeCasts_S1x128_S1x128 (ix2 0 q) = _
  rw [e]
  exact congrArg (fun z => s (ix2 0 q) + z) (colsum_apply (k2_pay5 (F := Ideal) agg t sn b) (.inl rfl) rfl q)
theorem k2_pay7_apply (agg t : Vec Ideal S2000x128 .f32) (sn : Vec Ideal S2000x1 .f32) (b : Vec Ideal S1x128 .f32)
    (s : Vec Ideal S1x128 .f32) (q : Fin 128) :
    k2_pay7 (F := Ideal) agg t sn b s (ix2 0 q)
      = s (ix2 0 q) + ∑ p : Fin 2000, k2_pay5 (F := Ideal) agg t sn b (ix2 p q) * k2_pay5 (F := Ideal) agg t sn b (ix2 p q) := by
  have e : ∀ v : FVec Ideal S1x128 .f32, shapeCast S1x128 v shapeCasts_S1x128_S1x128 = v := fun v => shapeCast_self v _
  show shapeCast S1x128 (addf s (shapeCast S1x128 (multiReduction (F := Ideal) .add [0] S128
      (mulf (k2_pay5 (F := Ideal) agg t sn b) (k2_pay5 (F := Ideal) agg t sn b))
      0x00000000#32 reduces_S2000x128_S128 (.inl rfl) rfl) shapeCasts_S128_S1x128)) shapeCasts_S1x128_S1x128 (ix2 0 q) = _
  rw [e]
  exact congrArg (fun z => s (ix2 0 q) + z)
    (colsum_apply (mulf (k2_pay5 (F := Ideal) agg t sn b) (k2_pay5 (F := Ideal) agg t sn b)) (.inl rfl) rfl q)
theorem k2_pay3_apply (j : S1x128.Idx) : (k2_pay3 (F := Ideal)) j = 0 := by
  show shapeCast S1x128 (broadcast S1x128 (Ideal.ofBits .f32 0x00000000#32)) shapeCasts_S1x128_S1x128 j = 0
  rw [shapeCast_self, broadcast_apply, Ideal.ofBits_zero_f32]
theorem k2_pay4_apply (j : S1x128.Idx) : (k2_pay4 (F := Ideal)) j = 0 := k2_pay3_apply j
theorem inv_50000 : Named.named (F := Ideal) Cert.KernelIdeal.κ "inv_50000" (φ := .f32) 0x37A7C5AC#32 = GcnSpec.invN :=
  IdealRules.named_const.ideal_named_scalar _ _ _ _ rfl
theorem k2_pay1_apply (s : Vec Ideal S1x128 .f32) (j : S1x128.Idx) :
    k2_pay1 (F := Ideal) s j = s j * GcnSpec.invN := by
  show s j * broadcast S1x128 (Named.named (F := Ideal) Cert.KernelIdeal.κ "inv_50000" (φ := .f32) 0x37A7C5AC#32) j = _
  rw [broadcast_apply, inv_50000]
theorem k2_pay2_apply (s q2 : Vec Ideal S1x128 .f32) (j : S1x128.Idx) :
    k2_pay2 (F := Ideal) s q2 j = q2 j * GcnSpec.invN - (s j * GcnSpec.invN) * (s j * GcnSpec.invN) := by
  show q2 j * broadcast S1x128 (Named.named (F := Ideal) Cert.KernelIdeal.κ "inv_50000" (φ := .f32) 0x37A7C5AC#32) j
      - k2_pay1 (F := Ideal) s j * k2_pay1 (F := Ideal) s j = _
  rw [broadcast_apply, inv_50000, k2_pay1_apply]
def sumAtG {N : ℕ} (outs : (n : ℕ) → n < N → Vec Ideal S2000x128 .f32 × Vec Ideal S1x128 .f32 × Vec Ideal S1x128 .f32 × Vec Ideal S1x128 .f32 × Vec Ideal S1x128 .f32) (n : ℕ) (j : Fin 128) : EReal :=
  if h : n < N then (outs n h).2.2.2.1 (ix2 0 j) else 0
def sqAtG {N : ℕ} (outs : (n : ℕ) → n < N → Vec Ideal S2000x128 .f32 × Vec Ideal S1x128 .f32 × Vec Ideal S1x128 .f32 × Vec Ideal S1x128 .f32 × Vec Ideal S1x128 .f32) (n : ℕ) (j : Fin 128) : EReal :=
  if h : n < N then (outs n h).2.2.2.2 (ix2 0 j) else 0
theorem rowG_lt {N : ℕ} (hN : N = 25) {n : ℕ} (h : n < N) (p : Fin 2000) : n * 2000 + p.val < 50000 := by
  have := p.isLt
  omega
-- the two running rows are the column sums, and the column sums of squares, of the blocks stored so far; after the 25th block they give the mean and the variance
theorem stats_of_outs {N : ℕ} (hN : N = 25) (outs : (n : ℕ) → n < N → Vec Ideal S2000x128 .f32 × Vec Ideal S1x128 .f32 × Vec Ideal S1x128 .f32 × Vec Ideal S1x128 .f32 × Vec Ideal S1x128 .f32)
    (b0 b1 : (n : ℕ) → n < N → Vec Ideal S2000x128 .f32) (b2 : (n : ℕ) → n < N → Vec Ideal S2000x1 .f32)
    (b3 : (n : ℕ) → n < N → Vec Ideal S1x128 .f32)
    (hfull : ∀ n h, (outs n h).1 = k2_pay5 (F := Ideal) (b0 n h) (b1 n h) (b2 n h) (b3 n h))
    (hmean : ∀ n h, (outs n h).2.1 = k2_pay1 (F := Ideal) (outs n h).2.2.2.1)
    (hvar : ∀ n h, (outs n h).2.2.1 = k2_pay2 (F := Ideal) (outs n h).2.2.2.1 (outs n h).2.2.2.2)
    (hs0 : ∀ h, (outs 0 h).2.2.2.1 = k2_pay6 (F := Ideal) (b0 0 h) (b1 0 h) (b2 0 h) (b3 0 h) (k2_pay3 (F := Ideal)))
    (hss : ∀ n h, (outs (n + 1) h).2.2.2.1
      = k2_pay6 (F := Ideal) (b0 (n + 1) h) (b1 (n + 1) h) (b2 (n + 1) h) (b3 (n + 1) h) (outs n (Nat.lt_of_succ_lt h)).2.2.2.1)
    (hq0 : ∀ h, (outs 0 h).2.2.2.2 = k2_pay7 (F := Ideal) (b0 0 h) (b1 0 h) (b2 0 h) (b3 0 h) (k2_pay4 (F := Ideal)))
    (hqs : ∀ n h, (outs (n + 1) h).2.2.2.2
      = k2_pay7 (F := Ideal) (b0 (n + 1) h) (b1 (n + 1) h) (b2 (n + 1) h) (b3 (n + 1) h) (outs n (Nat.lt_of_succ_lt h)).2.2.2.2)
    (A : GcnSpec.Mat 50000 128)
    (hA : ∀ n (h : n < N) (p : Fin 2000) (q : Fin 128),
      k2_pay5 (F := Ideal) (b0 n h) (b1 n h) (b2 n h) (b3 n h) (ix2 p q) = A ⟨n * 2000 + p.val, rowG_lt hN h p⟩ q)
    (h24 : 24 < N) :
    GcnSpec.rowOf ((outs 24 h24).2.1) = GcnSpec.meanK A ∧ GcnSpec.rowOf ((outs 24 h24).2.2.1) = GcnSpec.varK A := by
  let e : Fin 25 → Fin 2000 → Fin 50000 := fun t r => ⟨t.val * 2000 + r.val, by have := t.isLt; have := r.isLt; omega⟩
  have key := SpecLaw.stats_of_running A e (fun _ _ => rfl) (S := sumAtG outs) (Q := sqAtG outs)
    (fun j => by
      have h0 : 0 < N := by omega
      unfold sumAtG; rw [dif_pos h0, hs0 h0, k2_pay6_apply, k2_pay3_apply]
      exact congrArg (fun z => (0 : EReal) + z) (Finset.sum_congr rfl fun p _ => hA 0 h0 p j))
    (fun t ht j => by
      have h1 : t + 1 < N := by omega
      unfold sumAtG; rw [dif_pos h1, dif_pos (Nat.lt_of_succ_lt h1), hss t h1, k2_pay6_apply]
      exact congrArg (fun z => (outs t (Nat.lt_of_succ_lt h1)).2.2.2.1 (ix2 0 j) + z)
        (Finset.sum_congr rfl fun p _ => hA (t + 1) h1 p j))
    (fun j => by
      have h0 : 0 < N := by omega
      unfold sqAtG; rw [dif_pos h0, hq0 h0, k2_pay7_apply, k2_pay4_apply]
      exact congrArg (fun z => (0 : EReal) + z)
        (Finset.sum_congr rfl fun p _ => congrArg₂ (fun x y : EReal => x * y) (hA 0 h0 p j) (hA 0 h0 p j)))
    (fun t ht j => by
      have h1 : t + 1 < N := by omega
      unfold sqAtG; rw [dif_pos h1, dif_pos (Nat.lt_of_succ_lt h1), hqs t h1, k2_pay7_apply]
      exact congrArg (fun z => (outs t (Nat.lt_of_succ_lt h1)).2.2.2.2 (ix2 0 j) + z)
        (Finset.sum_congr rfl fun p _ => congrArg₂ (fun x y : EReal => x * y) (hA (t + 1) h1 p j) (hA (t + 1) h1 p j)))
  refine ⟨?_, ?_⟩
  · rw [← key.1]
    funext j
    unfold GcnSpec.rowOf sumAtG
    rw [dif_pos h24]
    exact (congrFun (hmean 24 h24) (ix2 0 j)).trans (k2_pay1_apply _ _)
  · rw [← key.2]
    funext j
    unfold GcnSpec.rowOf sumAtG sqAtG
    rw [dif_pos h24, dif_pos h24]
    exact (congrFun (hvar 24 h24) (ix2 0 j)).trans (k2_pay2_apply _ _ _)
end Cert.KernelIdeal.AggValue
end
-- ==== Proof.Value.AggSums.lean ====
import proofs.«101364_j7567732376252_1_alg».proof.Proof.Ideal.Reg2
import proofs.«101364_j7567732376252_1_alg».proof.Proof.Value.AggPay
noncomputable section
namespace Cert.KernelIdeal.AggValue
open Cert.KernelIdeal Cert.KernelIdeal.Gen
open Idealize.ShloMosaic Idealize.ShloMosaic.TcCoe Idealize.ShloMosaic.ValueIdx Idealize.SL.Sem
open GcnSpec
variable (V : (c : Dev nD) → (b : Ref sig .tc) → Buf (Elt Ideal) ((c : Thread nD τ).loc b)) (c : Dev nD)
theorem full2_eq (n : ℕ) (hn : n < cfg2.N) :
    (outsAt2 V c n hn).1 = k2_pay5 (F := Ideal) (iblk2 V c 0 ⟨n, hn⟩) (iblk2 V c 1 ⟨n, hn⟩) (iblk2 V c 2 ⟨n, hn⟩) (iblk2 V c 3 ⟨n, hn⟩) := by
  cases n <;> rfl
theorem row_lt2 (t : Fin cfg2.N) (p : Fin 2000) : t.val * 2000 + p.val < 50000 := rowG_lt N_2 t.isLt p
theorem stats2_at (A : Mat 50000 128)
    (hA : ∀ (t : Fin cfg2.N) (p : Fin 2000) (q : Fin 128),
      k2_pay5 (F := Ideal) (iblk2 V c 0 t) (iblk2 V c 1 t) (iblk2 V c 2 t) (iblk2 V c 3 t) (ix2 p q)
        = A ⟨t.val * 2000 + p.val, row_lt2 t p⟩ q)
    (t : Fin cfg2.N) (ht : t.val = 24) :
    rowOf ((outsAt2 V c t.val t.isLt).2.1) = meanK A ∧ rowOf ((outsAt2 V c t.val t.isLt).2.2.1) = varK A := by
  obtain ⟨n, h24⟩ := t
  subst ht
  exact stats_of_outs N_2 (outsAt2 V c) (fun n h => iblk2 V c 0 ⟨n, h⟩) (fun n h => iblk2 V c 1 ⟨n, h⟩)
    (fun n h => iblk2 V c 2 ⟨n, h⟩) (fun n h => iblk2 V c 3 ⟨n, h⟩) (full2_eq V c) (fun n h => by cases n <;> rfl)
    (fun n h => by cases n <;> rfl) (fun _ => rfl) (fun _ _ => rfl) (fun _ => rfl) (fun _ _ => rfl) A
    (fun n h p q => hA ⟨n, h⟩ p q) h24
end Cert.KernelIdeal.AggValue
end
-- ==== Proof.Value.AggArr2.lean ====
import proofs.«101364_j7567732376252_1_alg».proof.Proof.Value.AggSums
noncomputable section
namespace Cert.KernelIdeal.AggValue
open Cert.KernelIdeal Cert.KernelIdeal.Gen
open Idealize.ShloMosaic Idealize.ShloMosaic.TcCoe Idealize.ShloMosaic.ValueIdx Idealize.SL.Sem
variable (V : (c : Dev nD) → (b : Ref sig .tc) → Buf (Elt Ideal) ((c : Thread nD τ).loc b))
abbrev aggArr_r2 (c : Dev nD) : S50000x128.Idx → EReal := V c main_v52
abbrev ownArr_r2 (c : Dev nD) : S50000x128.Idx → EReal := V c main_v39
abbrev selfArr_r2 (c : Dev nD) : S50000x1.Idx → EReal := V c main_v55
abbrev biasArr_r2 (c : Dev nD) : S1x128.Idx → EReal := V c main_v56
abbrev fullArr_r2 (c : Dev nD) : GcnSpec.Mat 50000 128 :=
  GcnSpec.full (GcnSpec.toMat (aggArr_r2 V c)) (GcnSpec.toMat (ownArr_r2 V c)) (GcnSpec.colOf (selfArr_r2 V c))
    (GcnSpec.rowOf (biasArr_r2 V c))
theorem idx_r2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0) :=
  (by decide +kernel : ∀ t : Fin grid2.N, _)
-- the four blocks of tile t are the four arrays read at the tile's rows, so the block stored is tile t of the specification's full
theorem stored_r2_apply (c : Dev nD) (t : Fin cfg2.N) (p : Fin 2000) (q : Fin 128) :
    k2_pay5 (F := Ideal) (iblk2 V c 0 t) (iblk2 V c 1 t) (iblk2 V c 2 t) (iblk2 V c 3 t) (ix2 p q)
      = fullArr_r2 V c ⟨t.val * 2000 + p.val, row_lt2 t p⟩ q := by
  obtain ⟨⟨a0, a1⟩, ⟨b0, b1⟩, ⟨c0, c1⟩, ⟨d0, d1⟩, -⟩ := idx_r2 t
  exact (k2_pay5_apply _ _ _ _ p q).trans (congrArg₂ (fun x y : EReal => x + y) (congrArg₂ (fun x y : EReal => x + y)
    (congrArg (V c main_v52) (LinearValue.tile_emb _ _ _ p q _ (row_lt2 t p) rfl rfl a0 a1))
    (congrArg₂ (fun x y : EReal => x * y) (congrArg (V c main_v39) (LinearValue.tile_emb _ _ _ p q _ (row_lt2 t p) rfl rfl b0 b1))
      (congrArg (V c main_v55) (LinearValue.tile_emb _ _ _ p 0 _ (row_lt2 t p) rfl rfl c0 c1))))
    (congrArg (V c main_v56) (LinearValue.whole_emb _ _ _ 0 q _ _ rfl rfl d0 d1)))
abbrev fullBuf_r2 (c : Dev nD) : S50000x128.Idx → EReal := fun i => fullArr_r2 V c (i 0) (i 1)
theorem full_r2_final (c : Dev nD) :
    GcnSpec.toMat ((dat2 V c).arrAt 4 cfg2.N : S50000x128.Idx → EReal)
      = GcnSpec.full (GcnSpec.toMat (aggArr_r2 V c)) (GcnSpec.toMat (ownArr_r2 V c)) (GcnSpec.colOf (selfArr_r2 V c))
          (GcnSpec.rowOf (biasArr_r2 V c)) := by
  refine congrArg (fun v : S50000x128.Idx → EReal => GcnSpec.toMat v)
    ((dat2 V c).arrAt_eq_of_cover 4 (fullBuf_r2 V c) (fun t _ => ?_) fun (i : S50000x128.Idx) => ?_)
  · obtain ⟨-, -, -, -, ⟨h0, h1⟩, -⟩ := idx_r2 t
    funext j
    obtain ⟨p, q, rfl⟩ : ∃ (p : Fin 2000) (q : Fin 128), j = ix2 p q := ⟨j 0, j 1, eq_ix2 (n0 := 2000) (n1 := 128) j⟩
    exact ((congrFun ((after2_4 V c t).trans (full2_eq V c t.val t.isLt)) (ix2 p q)).trans (stored_r2_apply V c t p q)).trans
      (congrArg (fullBuf_r2 V c) (LinearValue.tile_emb _ _ _ p q _ (row_lt2 t p) rfl rfl h0 h1).symm)
  · have ht := LinearValue.tileOf_lt N_2 i
    obtain ⟨-, -, -, -, ⟨h0, h1⟩, -⟩ := idx_r2 ⟨_, ht⟩
    refine ⟨⟨_, ht⟩, flush2_4 _, ?_⟩
    show i ∈ ((View.whole main_v57_0).slice (win2_4.rect ⟨_, ht⟩)).set
    rw [View.set_slice_whole, Rect.mem_set_unit]
    exact LinearValue.rowTile_mem i _ h0 h1
abbrev meanBuf_r2 (c : Dev nD) : S1x128.Idx → EReal := fun j => GcnSpec.meanK (fullArr_r2 V c) (j 1)
abbrev varBuf_r2 (c : Dev nD) : S1x128.Idx → EReal := fun j => GcnSpec.varK (fullArr_r2 V c) (j 1)
-- after the last tile the two running rows are the column sums over all 50000 rows, so the rows stored there are the mean and the variance
theorem mean_r2_final (c : Dev nD) :
    GcnSpec.rowOf ((dat2 V c).arrAt 5 cfg2.N : S1x128.Idx → EReal) = GcnSpec.meanK (fullArr_r2 V c) := by
  suffices h : (dat2 V c).arrAt 5 cfg2.N = meanBuf_r2 V c by rw [h]; rfl
  refine (dat2 V c).arrAt_eq_of_cover 5 _ (fun t hf => ?_) fun (i : S1x128.Idx) => ?_
  · have h24 := LinearValue.last_of_mod N_2 t ((flush2_5 t).mp hf)
    obtain ⟨-, -, -, -, -, ⟨h0, h1⟩, -⟩ := idx_r2 t
    show (cfg2.win 5).cut (grid2.coords t) ((dat2 V c).after 5 t) = _
    rw [after2_5]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt2 V c t.val t.isLt).2.1 (ix2 0 q)
        = GcnSpec.meanK (fullArr_r2 V c) ((((cfg2.win 5).blk t).view.emb (ix2 0 q)) 1)
    exact (congrFun (stats2_at V c (fullArr_r2 V c) (stored_r2_apply V c) t h24).1 q).trans
      (congrArg (GcnSpec.meanK (fullArr_r2 V c)) (Fin.ext (show q.val = win2_5.index t (1 : Fin 2) * 128 + 1 * q.val by omega)))
  · have ht := LinearValue.last_lt N_2
    obtain ⟨-, -, -, -, -, ⟨h0, h1⟩, -⟩ := idx_r2 ⟨24, ht⟩
    refine ⟨⟨24, ht⟩, (flush2_5 _).mpr rfl, ?_⟩
    show i ∈ ((View.whole main_v57_1).slice (win2_5.rect ⟨24, ht⟩)).set
    rw [View.set_slice_whole, Rect.mem_set_unit]
    exact LinearValue.wholeTile_mem (S := S1x128) i _ (Fin.forall_fin_two.mpr ⟨h0, h1⟩)
theorem var_r2_final (c : Dev nD) :
    GcnSpec.rowOf ((dat2 V c).arrAt 6 cfg2.N : S1x128.Idx → EReal) = GcnSpec.varK (fullArr_r2 V c) := by
  suffices h : (dat2 V c).arrAt 6 cfg2.N = varBuf_r2 V c by rw [h]; rfl
  refine (dat2 V c).arrAt_eq_of_cover 6 _ (fun t hf => ?_) fun (i : S1x128.Idx) => ?_
  · have h24 := LinearValue.last_of_mod N_2 t ((flush2_6 t).mp hf)
    obtain ⟨-, -, -, -, -, -, ⟨h0, h1⟩⟩ := idx_r2 t
    show (cfg2.win 6).cut (grid2.coords t) ((dat2 V c).after 6 t) = _
    rw [after2_6]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt2 V c t.val t.isLt).2.2.1 (ix2 0 q)
        = GcnSpec.varK (fullArr_r2 V c) ((((cfg2.win 6).blk t).view.emb (ix2 0 q)) 1)
    exact (congrFun (stats2_at V c (fullArr_r2 V c) (stored_r2_apply V c) t h24).2 q).trans
      (congrArg (GcnSpec.varK (fullArr_r2 V c)) (Fin.ext (show q.val = win2_6.index t (1 : Fin 2) * 128 + 1 * q.val by omega)))
  · have ht := LinearValue.last_lt N_2
    obtain ⟨-, -, -, -, -, -, ⟨h0, h1⟩⟩ := idx_r2 ⟨24, ht⟩
    refine ⟨⟨24, ht⟩, (flush2_6 _).mpr rfl, ?_⟩
    show i ∈ ((View.whole main_v57_2).slice (win2_6.rect ⟨24, ht⟩)).set
    rw [View.set_slice_whole, Rect.mem_set_unit]
    exact LinearValue.wholeTile_mem (S := S1x128) i _ (Fin.forall_fin_two.mpr ⟨h0, h1⟩)
end Cert.KernelIdeal.AggValue
end
-- ==== Proof.Value.AggSums5.lean ====
import proofs.«101364_j7567732376252_1_alg».proof.Proof.Ideal.Reg5
import proofs.«101364_j7567732376252_1_alg».proof.Proof.Value.AggPay
noncomputable section
namespace Cert.KernelIdeal.AggValue
open Cert.KernelIdeal Cert.KernelIdeal.Gen
open Idealize.ShloMosaic Idealize.ShloMosaic.TcCoe Idealize.ShloMosaic.ValueIdx Idealize.SL.Sem
open GcnSpec
variable (V : (c : Dev nD) → (b : Ref sig .tc) → Buf (Elt Ideal) ((c : Thread nD τ).loc b)) (c : Dev nD)
theorem full5_eq (n : ℕ) (hn : n < cfg5.N) :
    (outsAt5 V c n hn).1 = k5_pay5 (F := Ideal) (iblk5 V c 0 ⟨n, hn⟩) (iblk5 V c 1 ⟨n, hn⟩) (iblk5 V c 2 ⟨n, hn⟩) (iblk5 V c 3 ⟨n, hn⟩) := by
  cases n <;> rfl
theorem row_lt5 (t : Fin cfg5.N) (p : Fin 2000) : t.val * 2000 + p.val < 50000 := rowG_lt N_5 t.isLt p
theorem stats5_at (A : Mat 50000 128)
    (hA : ∀ (t : Fin cfg5.N) (p : Fin 2000) (q : Fin 128),
      k5_pay5 (F := Ideal) (iblk5 V c 0 t) (iblk5 V c 1 t) (iblk5 V c 2 t) (iblk5 V c 3 t) (ix2 p q)
        = A ⟨t.val * 2000 + p.val, row_lt5 t p⟩ q)
    (t : Fin cfg5.N) (ht : t.val = 24) :
    rowOf ((outsAt5 V c t.val t.isLt).2.1) = meanK A ∧ rowOf ((outsAt5 V c t.val t.isLt).2.2.1) = varK A := by
  obtain ⟨n, h24⟩ := t
  subst ht
  exact stats_of_outs N_5 (outsAt5 V c) (fun n h => iblk5 V c 0 ⟨n, h⟩) (fun n h => iblk5 V c 1 ⟨n, h⟩)
    (fun n h => iblk5 V c 2 ⟨n, h⟩) (fun n h => iblk5 V c 3 ⟨n, h⟩) (full5_eq V c) (fun n h => by cases n <;> rfl)
    (fun n h => by cases n <;> rfl) (fun _ => rfl) (fun _ _ => rfl) (fun _ => rfl) (fun _ _ => rfl) A
    (fun n h p q => hA ⟨n, h⟩ p q) h24
end Cert.KernelIdeal.AggValue
end
-- ==== Proof.Value.AggArr5.lean ====
import proofs.«101364_j7567732376252_1_alg».proof.Proof.Value.AggSums5
noncomputable section
namespace Cert.KernelIdeal.AggValue
open Cert.KernelIdeal Cert.KernelIdeal.Gen
open Idealize.ShloMosaic Idealize.ShloMosaic.TcCoe Idealize.ShloMosaic.ValueIdx Idealize.SL.Sem
variable (V : (c : Dev nD) → (b : Ref sig .tc) → Buf (Elt Ideal) ((c : Thread nD τ).loc b))
abbrev aggArr_r5 (c : Dev nD) : S50000x128.Idx → EReal := V c main_v81
abbrev ownArr_r5 (c : Dev nD) : S50000x128.Idx → EReal := V c main_v68
abbrev selfArr_r5 (c : Dev nD) : S50000x1.Idx → EReal := V c main_v84
abbrev biasArr_r5 (c : Dev nD) : S1x128.Idx → EReal := V c main_v85
abbrev fullArr_r5 (c : Dev nD) : GcnSpec.Mat 50000 128 :=
  GcnSpec.full (GcnSpec.toMat (aggArr_r5 V c)) (GcnSpec.toMat (ownArr_r5 V c)) (GcnSpec.colOf (selfArr_r5 V c))
    (GcnSpec.rowOf (biasArr_r5 V c))
theorem idx_r5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0) :=
  (by decide +kernel : ∀ t : Fin grid5.N, _)
-- the four blocks of tile t are the four arrays read at the tile's rows, so the block stored is tile t of the specification's full
theorem stored_r5_apply (c : Dev nD) (t : Fin cfg5.N) (p : Fin 2000) (q : Fin 128) :
    k5_pay5 (F := Ideal) (iblk5 V c 0 t) (iblk5 V c 1 t) (iblk5 V c 2 t) (iblk5 V c 3 t) (ix2 p q)
      = fullArr_r5 V c ⟨t.val * 2000 + p.val, row_lt5 t p⟩ q := by
  obtain ⟨⟨a0, a1⟩, ⟨b0, b1⟩, ⟨c0, c1⟩, ⟨d0, d1⟩, -⟩ := idx_r5 t
  exact (k2_pay5_apply _ _ _ _ p q).trans (congrArg₂ (fun x y : EReal => x + y) (congrArg₂ (fun x y : EReal => x + y)
    (congrArg (V c main_v81) (LinearValue.tile_emb _ _ _ p q _ (row_lt5 t p) rfl rfl a0 a1))
    (congrArg₂ (fun x y : EReal => x * y) (congrArg (V c main_v68) (LinearValue.tile_emb _ _ _ p q _ (row_lt5 t p) rfl rfl b0 b1))
      (congrArg (V c main_v84) (LinearValue.tile_emb _ _ _ p 0 _ (row_lt5 t p) rfl rfl c0 c1))))
    (congrArg (V c main_v85) (LinearValue.whole_emb _ _ _ 0 q _ _ rfl rfl d0 d1)))
abbrev fullBuf_r5 (c : Dev nD) : S50000x128.Idx → EReal := fun i => fullArr_r5 V c (i 0) (i 1)
theorem full_r5_final (c : Dev nD) :
    GcnSpec.toMat ((dat5 V c).arrAt 4 cfg5.N : S50000x128.Idx → EReal)
      = GcnSpec.full (GcnSpec.toMat (aggArr_r5 V c)) (GcnSpec.toMat (ownArr_r5 V c)) (GcnSpec.colOf (selfArr_r5 V c))
          (GcnSpec.rowOf (biasArr_r5 V c)) := by
  refine congrArg (fun v : S50000x128.Idx → EReal => GcnSpec.toMat v)
    ((dat5 V c).arrAt_eq_of_cover 4 (fullBuf_r5 V c) (fun t _ => ?_) fun (i : S50000x128.Idx) => ?_)
  · obtain ⟨-, -, -, -, ⟨h0, h1⟩, -⟩ := idx_r5 t
    funext j
    obtain ⟨p, q, rfl⟩ : ∃ (p : Fin 2000) (q : Fin 128), j = ix2 p q := ⟨j 0, j 1, eq_ix2 (n0 := 2000) (n1 := 128) j⟩
    exact ((congrFun ((after5_4 V c t).trans (full5_eq V c t.val t.isLt)) (ix2 p q)).trans (stored_r5_apply V c t p q)).trans
      (congrArg (fullBuf_r5 V c) (LinearValue.tile_emb _ _ _ p q _ (row_lt5 t p) rfl rfl h0 h1).symm)
  · have ht := LinearValue.tileOf_lt N_5 i
    obtain ⟨-, -, -, -, ⟨h0, h1⟩, -⟩ := idx_r5 ⟨_, ht⟩
    refine ⟨⟨_, ht⟩, flush5_4 _, ?_⟩
    show i ∈ ((View.whole main_v86_0).slice (win5_4.rect ⟨_, ht⟩)).set
    rw [View.set_slice_whole, Rect.mem_set_unit]
    exact LinearValue.rowTile_mem i _ h0 h1
abbrev meanBuf_r5 (c : Dev nD) : S1x128.Idx → EReal := fun j => GcnSpec.meanK (fullArr_r5 V c) (j 1)
abbrev varBuf_r5 (c : Dev nD) : S1x128.Idx → EReal := fun j => GcnSpec.varK (fullArr_r5 V c) (j 1)
-- after the last tile the two running rows are the column sums over all 50000 rows, so the rows stored there are the mean and the variance
theorem mean_r5_final (c : Dev nD) :
    GcnSpec.rowOf ((dat5 V c).arrAt 5 cfg5.N : S1x128.Idx → EReal) = GcnSpec.meanK (fullArr_r5 V c) := by
  suffices h : (dat5 V c).arrAt 5 cfg5.N = meanBuf_r5 V c by rw [h]; rfl
  refine (dat5 V c).arrAt_eq_of_cover 5 _ (fun t hf => ?_) fun (i : S1x128.Idx) => ?_
  · have h24 := LinearValue.last_of_mod N_5 t ((flush5_5 t).mp hf)
    obtain ⟨-, -, -, -, -, ⟨h0, h1⟩, -⟩ := idx_r5 t
    show (cfg5.win 5).cut (grid5.coords t) ((dat5 V c).after 5 t) = _
    rw [after5_5]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt5 V c t.val t.isLt).2.1 (ix2 0 q)
        = GcnSpec.meanK (fullArr_r5 V c) ((((cfg5.win 5).blk t).view.emb (ix2 0 q)) 1)
    exact (congrFun (stats5_at V c (fullArr_r5 V c) (stored_r5_apply V c) t h24).1 q).trans
      (congrArg (GcnSpec.meanK (fullArr_r5 V c)) (Fin.ext (show q.val = win5_5.index t (1 : Fin 2) * 128 + 1 * q.val by omega)))
  · have ht := LinearValue.last_lt N_5
    obtain ⟨-, -, -, -, -, ⟨h0, h1⟩, -⟩ := idx_r5 ⟨24, ht⟩
    refine ⟨⟨24, ht⟩, (flush5_5 _).mpr rfl, ?_⟩
    show i ∈ ((View.whole main_v86_1).slice (win5_5.rect ⟨24, ht⟩)).set
    rw [View.set_slice_whole, Rect.mem_set_unit]
    exact LinearValue.wholeTile_mem (S := S1x128) i _ (Fin.forall_fin_two.mpr ⟨h0, h1⟩)
theorem var_r5_final (c : Dev nD) :
    GcnSpec.rowOf ((dat5 V c).arrAt 6 cfg5.N : S1x128.Idx → EReal) = GcnSpec.varK (fullArr_r5 V c) := by
  suffices h : (dat5 V c).arrAt 6 cfg5.N = varBuf_r5 V c by rw [h]; rfl
  refine (dat5 V c).arrAt_eq_of_cover 6 _ (fun t hf => ?_) fun (i : S1x128.Idx) => ?_
  · have h24 := LinearValue.last_of_mod N_5 t ((flush5_6 t).mp hf)
    obtain ⟨-, -, -, -, -, -, ⟨h0, h1⟩⟩ := idx_r5 t
    show (cfg5.win 6).cut (grid5.coords t) ((dat5 V c).after 6 t) = _
    rw [after5_6]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt5 V c t.val t.isLt).2.2.1 (ix2 0 q)
        = GcnSpec.varK (fullArr_r5 V c) ((((cfg5.win 6).blk t).view.emb (ix2 0 q)) 1)
    exact (congrFun (stats5_at V c (fullArr_r5 V c) (stored_r5_apply V c) t h24).2 q).trans
      (congrArg (GcnSpec.varK (fullArr_r5 V c)) (Fin.ext (show q.val = win5_6.index t (1 : Fin 2) * 128 + 1 * q.val by omega)))
  · have ht := LinearValue.last_lt N_5
    obtain ⟨-, -, -, -, -, -, ⟨h0, h1⟩⟩ := idx_r5 ⟨24, ht⟩
    refine ⟨⟨24, ht⟩, (flush5_6 _).mpr rfl, ?_⟩
    show i ∈ ((View.whole main_v86_2).slice (win5_6.rect ⟨24, ht⟩)).set
    rw [View.set_slice_whole, Rect.mem_set_unit]
    exact LinearValue.wholeTile_mem (S := S1x128) i _ (Fin.forall_fin_two.mpr ⟨h0, h1⟩)
end Cert.KernelIdeal.AggValue
end
-- ==== Proof.Value.AggSums8.lean ====
import proofs.«101364_j7567732376252_1_alg».proof.Proof.Ideal.Reg8
import proofs.«101364_j7567732376252_1_alg».proof.Proof.Value.AggPay
noncomputable section
namespace Cert.KernelIdeal.AggValue
open Cert.KernelIdeal Cert.KernelIdeal.Gen
open Idealize.ShloMosaic Idealize.ShloMosaic.TcCoe Idealize.ShloMosaic.ValueIdx Idealize.SL.Sem
open GcnSpec
variable (V : (c : Dev nD) → (b : Ref sig .tc) → Buf (Elt Ideal) ((c : Thread nD τ).loc b)) (c : Dev nD)
theorem full8_eq (n : ℕ) (hn : n < cfg8.N) :
    (outsAt8 V c n hn).1 = k8_pay5 (F := Ideal) (iblk8 V c 0 ⟨n, hn⟩) (iblk8 V c 1 ⟨n, hn⟩) (iblk8 V c 2 ⟨n, hn⟩) (iblk8 V c 3 ⟨n, hn⟩) := by
  cases n <;> rfl
theorem row_lt8 (t : Fin cfg8.N) (p : Fin 2000) : t.val * 2000 + p.val < 50000 := rowG_lt N_8 t.isLt p
theorem stats8_at (A : Mat 50000 128)
    (hA : ∀ (t : Fin cfg8.N) (p : Fin 2000) (q : Fin 128),
      k8_pay5 (F := Ideal) (iblk8 V c 0 t) (iblk8 V c 1 t) (iblk8 V c 2 t) (iblk8 V c 3 t) (ix2 p q)
        = A ⟨t.val * 2000 + p.val, row_lt8 t p⟩ q)
    (t : Fin cfg8.N) (ht : t.val = 24) :
    rowOf ((outsAt8 V c t.val t.isLt).2.1) = meanK A ∧ rowOf ((outsAt8 V c t.val t.isLt).2.2.1) = varK A := by
  obtain ⟨n, h24⟩ := t
  subst ht
  exact stats_of_outs N_8 (outsAt8 V c) (fun n h => iblk8 V c 0 ⟨n, h⟩) (fun n h => iblk8 V c 1 ⟨n, h⟩)
    (fun n h => iblk8 V c 2 ⟨n, h⟩) (fun n h => iblk8 V c 3 ⟨n, h⟩) (full8_eq V c) (fun n h => by cases n <;> rfl)
    (fun n h => by cases n <;> rfl) (fun _ => rfl) (fun _ _ => rfl) (fun _ => rfl) (fun _ _ => rfl) A
    (fun n h p q => hA ⟨n, h⟩ p q) h24
end Cert.KernelIdeal.AggValue
end
-- ==== Proof.Value.AggArr8.lean ====
import proofs.«101364_j7567732376252_1_alg».proof.Proof.Value.AggSums8
noncomputable section
namespace Cert.KernelIdeal.AggValue
open Cert.KernelIdeal Cert.KernelIdeal.Gen
open Idealize.ShloMosaic Idealize.ShloMosaic.TcCoe Idealize.ShloMosaic.ValueIdx Idealize.SL.Sem
variable (V : (c : Dev nD) → (b : Ref sig .tc) → Buf (Elt Ideal) ((c : Thread nD τ).loc b))
abbrev aggArr_r8 (c : Dev nD) : S50000x128.Idx → EReal := V c main_v110
abbrev ownArr_r8 (c : Dev nD) : S50000x128.Idx → EReal := V c main_v97
abbrev selfArr_r8 (c : Dev nD) : S50000x1.Idx → EReal := V c main_v113
abbrev biasArr_r8 (c : Dev nD) : S1x128.Idx → EReal := V c main_v114
abbrev fullArr_r8 (c : Dev nD) : GcnSpec.Mat 50000 128 :=
  GcnSpec.full (GcnSpec.toMat (aggArr_r8 V c)) (GcnSpec.toMat (ownArr_r8 V c)) (GcnSpec.colOf (selfArr_r8 V c))
    (GcnSpec.rowOf (biasArr_r8 V c))
theorem idx_r8 : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = 0 ∧ win8_3.index t (1 : Fin 2) = 0)
    ∧ (win8_4.index t (0 : Fin 2) = t.val ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0) :=
  (by decide +kernel : ∀ t : Fin grid8.N, _)
-- the four blocks of tile t are the four arrays read at the tile's rows, so the block stored is tile t of the specification's full
theorem stored_r8_apply (c : Dev nD) (t : Fin cfg8.N) (p : Fin 2000) (q : Fin 128) :
    k8_pay5 (F := Ideal) (iblk8 V c 0 t) (iblk8 V c 1 t) (iblk8 V c 2 t) (iblk8 V c 3 t) (ix2 p q)
      = fullArr_r8 V c ⟨t.val * 2000 + p.val, row_lt8 t p⟩ q := by
  obtain ⟨⟨a0, a1⟩, ⟨b0, b1⟩, ⟨c0, c1⟩, ⟨d0, d1⟩, -⟩ := idx_r8 t
  exact (k2_pay5_apply _ _ _ _ p q).trans (congrArg₂ (fun x y : EReal => x + y) (congrArg₂ (fun x y : EReal => x + y)
    (congrArg (V c main_v110) (LinearValue.tile_emb _ _ _ p q _ (row_lt8 t p) rfl rfl a0 a1))
    (congrArg₂ (fun x y : EReal => x * y) (congrArg (V c main_v97) (LinearValue.tile_emb _ _ _ p q _ (row_lt8 t p) rfl rfl b0 b1))
      (congrArg (V c main_v113) (LinearValue.tile_emb _ _ _ p 0 _ (row_lt8 t p) rfl rfl c0 c1))))
    (congrArg (V c main_v114) (LinearValue.whole_emb _ _ _ 0 q _ _ rfl rfl d0 d1)))
abbrev fullBuf_r8 (c : Dev nD) : S50000x128.Idx → EReal := fun i => fullArr_r8 V c (i 0) (i 1)
theorem full_r8_final (c : Dev nD) :
    GcnSpec.toMat ((dat8 V c).arrAt 4 cfg8.N : S50000x128.Idx → EReal)
      = GcnSpec.full (GcnSpec.toMat (aggArr_r8 V c)) (GcnSpec.toMat (ownArr_r8 V c)) (GcnSpec.colOf (selfArr_r8 V c))
          (GcnSpec.rowOf (biasArr_r8 V c)) := by
  refine congrArg (fun v : S50000x128.Idx → EReal => GcnSpec.toMat v)
    ((dat8 V c).arrAt_eq_of_cover 4 (fullBuf_r8 V c) (fun t _ => ?_) fun (i : S50000x128.Idx) => ?_)
  · obtain ⟨-, -, -, -, ⟨h0, h1⟩, -⟩ := idx_r8 t
    funext j
    obtain ⟨p, q, rfl⟩ : ∃ (p : Fin 2000) (q : Fin 128), j = ix2 p q := ⟨j 0, j 1, eq_ix2 (n0 := 2000) (n1 := 128) j⟩
    exact ((congrFun ((after8_4 V c t).trans (full8_eq V c t.val t.isLt)) (ix2 p q)).trans (stored_r8_apply V c t p q)).trans
      (congrArg (fullBuf_r8 V c) (LinearValue.tile_emb _ _ _ p q _ (row_lt8 t p) rfl rfl h0 h1).symm)
  · have ht := LinearValue.tileOf_lt N_8 i
    obtain ⟨-, -, -, -, ⟨h0, h1⟩, -⟩ := idx_r8 ⟨_, ht⟩
    refine ⟨⟨_, ht⟩, flush8_4 _, ?_⟩
    show i ∈ ((View.whole main_v115_0).slice (win8_4.rect ⟨_, ht⟩)).set
    rw [View.set_slice_whole, Rect.mem_set_unit]
    exact LinearValue.rowTile_mem i _ h0 h1
abbrev meanBuf_r8 (c : Dev nD) : S1x128.Idx → EReal := fun j => GcnSpec.meanK (fullArr_r8 V c) (j 1)
abbrev varBuf_r8 (c : Dev nD) : S1x128.Idx → EReal := fun j => GcnSpec.varK (fullArr_r8 V c) (j 1)
-- after the last tile the two running rows are the column sums over all 50000 rows, so the rows stored there are the mean and the variance
theorem mean_r8_final (c : Dev nD) :
    GcnSpec.rowOf ((dat8 V c).arrAt 5 cfg8.N : S1x128.Idx → EReal) = GcnSpec.meanK (fullArr_r8 V c) := by
  suffices h : (dat8 V c).arrAt 5 cfg8.N = meanBuf_r8 V c by rw [h]; rfl
  refine (dat8 V c).arrAt_eq_of_cover 5 _ (fun t hf => ?_) fun (i : S1x128.Idx) => ?_
  · have h24 := LinearValue.last_of_mod N_8 t ((flush8_5 t).mp hf)
    obtain ⟨-, -, -, -, -, ⟨h0, h1⟩, -⟩ := idx_r8 t
    show (cfg8.win 5).cut (grid8.coords t) ((dat8 V c).after 5 t) = _
    rw [after8_5]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt8 V c t.val t.isLt).2.1 (ix2 0 q)
        = GcnSpec.meanK (fullArr_r8 V c) ((((cfg8.win 5).blk t).view.emb (ix2 0 q)) 1)
    exact (congrFun (stats8_at V c (fullArr_r8 V c) (stored_r8_apply V c) t h24).1 q).trans
      (congrArg (GcnSpec.meanK (fullArr_r8 V c)) (Fin.ext (show q.val = win8_5.index t (1 : Fin 2) * 128 + 1 * q.val by omega)))
  · have ht := LinearValue.last_lt N_8
    obtain ⟨-, -, -, -, -, ⟨h0, h1⟩, -⟩ := idx_r8 ⟨24, ht⟩
    refine ⟨⟨24, ht⟩, (flush8_5 _).mpr rfl, ?_⟩
    show i ∈ ((View.whole main_v115_1).slice (win8_5.rect ⟨24, ht⟩)).set
    rw [View.set_slice_whole, Rect.mem_set_unit]
    exact LinearValue.wholeTile_mem (S := S1x128) i _ (Fin.forall_fin_two.mpr ⟨h0, h1⟩)
theorem var_r8_final (c : Dev nD) :
    GcnSpec.rowOf ((dat8 V c).arrAt 6 cfg8.N : S1x128.Idx → EReal) = GcnSpec.varK (fullArr_r8 V c) := by
  suffices h : (dat8 V c).arrAt 6 cfg8.N = varBuf_r8 V c by rw [h]; rfl
  refine (dat8 V c).arrAt_eq_of_cover 6 _ (fun t hf => ?_) fun (i : S1x128.Idx) => ?_
  · have h24 := LinearValue.last_of_mod N_8 t ((flush8_6 t).mp hf)
    obtain ⟨-, -, -, -, -, -, ⟨h0, h1⟩⟩ := idx_r8 t
    show (cfg8.win 6).cut (grid8.coords t) ((dat8 V c).after 6 t) = _
    rw [after8_6]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt8 V c t.val t.isLt).2.2.1 (ix2 0 q)
        = GcnSpec.varK (fullArr_r8 V c) ((((cfg8.win 6).blk t).view.emb (ix2 0 q)) 1)
    exact (congrFun (stats8_at V c (fullArr_r8 V c) (stored_r8_apply V c) t h24).2 q).trans
      (congrArg (GcnSpec.varK (fullArr_r8 V c)) (Fin.ext (show q.val = win8_6.index t (1 : Fin 2) * 128 + 1 * q.val by omega)))
  · have ht := LinearValue.last_lt N_8
    obtain ⟨-, -, -, -, -, -, ⟨h0, h1⟩⟩ := idx_r8 ⟨24, ht⟩
    refine ⟨⟨24, ht⟩, (flush8_6 _).mpr rfl, ?_⟩
    show i ∈ ((View.whole main_v115_2).slice (win8_6.rect ⟨24, ht⟩)).set
    rw [View.set_slice_whole, Rect.mem_set_unit]
    exact LinearValue.wholeTile_mem (S := S1x128) i _ (Fin.forall_fin_two.mpr ⟨h0, h1⟩)
end Cert.KernelIdeal.AggValue
end
-- ==== Proof.Value.AggSums11.lean ====
import proofs.«101364_j7567732376252_1_alg».proof.Proof.Ideal.Reg11
import proofs.«101364_j7567732376252_1_alg».proof.Proof.Value.AggPay
noncomputable section
namespace Cert.KernelIdeal.AggValue
open Cert.KernelIdeal Cert.KernelIdeal.Gen
open Idealize.ShloMosaic Idealize.ShloMosaic.TcCoe Idealize.ShloMosaic.ValueIdx Idealize.SL.Sem
open GcnSpec
variable (V : (c : Dev nD) → (b : Ref sig .tc) → Buf (Elt Ideal) ((c : Thread nD τ).loc b)) (c : Dev nD)
theorem full11_eq (n : ℕ) (hn : n < cfg11.N) :
    (outsAt11 V c n hn).1 = k11_pay5 (F := Ideal) (iblk11 V c 0 ⟨n, hn⟩) (iblk11 V c 1 ⟨n, hn⟩) (iblk11 V c 2 ⟨n, hn⟩) (iblk11 V c 3 ⟨n, hn⟩) := by
  cases n <;> rfl
theorem row_lt11 (t : Fin cfg11.N) (p : Fin 2000) : t.val * 2000 + p.val < 50000 := rowG_lt N_11 t.isLt p
theorem stats11_at (A : Mat 50000 128)
    (hA : ∀ (t : Fin cfg11.N) (p : Fin 2000) (q : Fin 128),
      k11_pay5 (F := Ideal) (iblk11 V c 0 t) (iblk11 V c 1 t) (iblk11 V c 2 t) (iblk11 V c 3 t) (ix2 p q)
        = A ⟨t.val * 2000 + p.val, row_lt11 t p⟩ q)
    (t : Fin cfg11.N) (ht : t.val = 24) :
    rowOf ((outsAt11 V c t.val t.isLt).2.1) = meanK A ∧ rowOf ((outsAt11 V c t.val t.isLt).2.2.1) = varK A := by
  obtain ⟨n, h24⟩ := t
  subst ht
  exact stats_of_outs N_11 (outsAt11 V c) (fun n h => iblk11 V c 0 ⟨n, h⟩) (fun n h => iblk11 V c 1 ⟨n, h⟩)
    (fun n h => iblk11 V c 2 ⟨n, h⟩) (fun n h => iblk11 V c 3 ⟨n, h⟩) (full11_eq V c) (fun n h => by cases n <;> rfl)
    (fun n h => by cases n <;> rfl) (fun _ => rfl) (fun _ _ => rfl) (fun _ => rfl) (fun _ _ => rfl) A
    (fun n h p q => hA ⟨n, h⟩ p q) h24
end Cert.KernelIdeal.AggValue
end
-- ==== Proof.Value.AggArr11.lean ====
import proofs.«101364_j7567732376252_1_alg».proof.Proof.Value.AggSums11
noncomputable section
namespace Cert.KernelIdeal.AggValue
open Cert.KernelIdeal Cert.KernelIdeal.Gen
open Idealize.ShloMosaic Idealize.ShloMosaic.TcCoe Idealize.ShloMosaic.ValueIdx Idealize.SL.Sem
variable (V : (c : Dev nD) → (b : Ref sig .tc) → Buf (Elt Ideal) ((c : Thread nD τ).loc b))
abbrev aggArr_r11 (c : Dev nD) : S50000x128.Idx → EReal := V c main_v139
abbrev ownArr_r11 (c : Dev nD) : S50000x128.Idx → EReal := V c main_v126
abbrev selfArr_r11 (c : Dev nD) : S50000x1.Idx → EReal := V c main_v142
abbrev biasArr_r11 (c : Dev nD) : S1x128.Idx → EReal := V c main_v143
abbrev fullArr_r11 (c : Dev nD) : GcnSpec.Mat 50000 128 :=
  GcnSpec.full (GcnSpec.toMat (aggArr_r11 V c)) (GcnSpec.toMat (ownArr_r11 V c)) (GcnSpec.colOf (selfArr_r11 V c))
    (GcnSpec.rowOf (biasArr_r11 V c))
theorem idx_r11 : ∀ t : Fin cfg11.N,
    (win11_0.index t (0 : Fin 2) = t.val ∧ win11_0.index t (1 : Fin 2) = 0)
    ∧ (win11_1.index t (0 : Fin 2) = t.val ∧ win11_1.index t (1 : Fin 2) = 0)
    ∧ (win11_2.index t (0 : Fin 2) = t.val ∧ win11_2.index t (1 : Fin 2) = 0)
    ∧ (win11_3.index t (0 : Fin 2) = 0 ∧ win11_3.index t (1 : Fin 2) = 0)
    ∧ (win11_4.index t (0 : Fin 2) = t.val ∧ win11_4.index t (1 : Fin 2) = 0)
    ∧ (win11_5.index t (0 : Fin 2) = 0 ∧ win11_5.index t (1 : Fin 2) = 0)
    ∧ (win11_6.index t (0 : Fin 2) = 0 ∧ win11_6.index t (1 : Fin 2) = 0) :=
  (by decide +kernel : ∀ t : Fin grid11.N, _)
-- the four blocks of tile t are the four arrays read at the tile's rows, so the block stored is tile t of the specification's full
theorem stored_r11_apply (c : Dev nD) (t : Fin cfg11.N) (p : Fin 2000) (q : Fin 128) :
    k11_pay5 (F := Ideal) (iblk11 V c 0 t) (iblk11 V c 1 t) (iblk11 V c 2 t) (iblk11 V c 3 t) (ix2 p q)
      = fullArr_r11 V c ⟨t.val * 2000 + p.val, row_lt11 t p⟩ q := by
  obtain ⟨⟨a0, a1⟩, ⟨b0, b1⟩, ⟨c0, c1⟩, ⟨d0, d1⟩, -⟩ := idx_r11 t
  exact (k2_pay5_apply _ _ _ _ p q).trans (congrArg₂ (fun x y : EReal => x + y) (congrArg₂ (fun x y : EReal => x + y)
    (congrArg (V c main_v139) (LinearValue.tile_emb _ _ _ p q _ (row_lt11 t p) rfl rfl a0 a1))
    (congrArg₂ (fun x y : EReal => x * y) (congrArg (V c main_v126) (LinearValue.tile_emb _ _ _ p q _ (row_lt11 t p) rfl rfl b0 b1))
      (congrArg (V c main_v142) (LinearValue.tile_emb _ _ _ p 0 _ (row_lt11 t p) rfl rfl c0 c1))))
    (congrArg (V c main_v143) (LinearValue.whole_emb _ _ _ 0 q _ _ rfl rfl d0 d1)))
abbrev fullBuf_r11 (c : Dev nD) : S50000x128.Idx → EReal := fun i => fullArr_r11 V c (i 0) (i 1)
theorem full_r11_final (c : Dev nD) :
    GcnSpec.toMat ((dat11 V c).arrAt 4 cfg11.N : S50000x128.Idx → EReal)
      = GcnSpec.full (GcnSpec.toMat (aggArr_r11 V c)) (GcnSpec.toMat (ownArr_r11 V c)) (GcnSpec.colOf (selfArr_r11 V c))
          (GcnSpec.rowOf (biasArr_r11 V c)) := by
  refine congrArg (fun v : S50000x128.Idx → EReal => GcnSpec.toMat v)
    ((dat11 V c).arrAt_eq_of_cover 4 (fullBuf_r11 V c) (fun t _ => ?_) fun (i : S50000x128.Idx) => ?_)
  · obtain ⟨-, -, -, -, ⟨h0, h1⟩, -⟩ := idx_r11 t
    funext j
    obtain ⟨p, q, rfl⟩ : ∃ (p : Fin 2000) (q : Fin 128), j = ix2 p q := ⟨j 0, j 1, eq_ix2 (n0 := 2000) (n1 := 128) j⟩
    exact ((congrFun ((after11_4 V c t).trans (full11_eq V c t.val t.isLt)) (ix2 p q)).trans (stored_r11_apply V c t p q)).trans
      (congrArg (fullBuf_r11 V c) (LinearValue.tile_emb _ _ _ p q _ (row_lt11 t p) rfl rfl h0 h1).symm)
  · have ht := LinearValue.tileOf_lt N_11 i
    obtain ⟨-, -, -, -, ⟨h0, h1⟩, -⟩ := idx_r11 ⟨_, ht⟩
    refine ⟨⟨_, ht⟩, flush11_4 _, ?_⟩
    show i ∈ ((View.whole main_v144_0).slice (win11_4.rect ⟨_, ht⟩)).set
    rw [View.set_slice_whole, Rect.mem_set_unit]
    exact LinearValue.rowTile_mem i _ h0 h1
abbrev meanBuf_r11 (c : Dev nD) : S1x128.Idx → EReal := fun j => GcnSpec.meanK (fullArr_r11 V c) (j 1)
abbrev varBuf_r11 (c : Dev nD) : S1x128.Idx → EReal := fun j => GcnSpec.varK (fullArr_r11 V c) (j 1)
-- after the last tile the two running rows are the column sums over all 50000 rows, so the rows stored there are the mean and the variance
theorem mean_r11_final (c : Dev nD) :
    GcnSpec.rowOf ((dat11 V c).arrAt 5 cfg11.N : S1x128.Idx → EReal) = GcnSpec.meanK (fullArr_r11 V c) := by
  suffices h : (dat11 V c).arrAt 5 cfg11.N = meanBuf_r11 V c by rw [h]; rfl
  refine (dat11 V c).arrAt_eq_of_cover 5 _ (fun t hf => ?_) fun (i : S1x128.Idx) => ?_
  · have h24 := LinearValue.last_of_mod N_11 t ((flush11_5 t).mp hf)
    obtain ⟨-, -, -, -, -, ⟨h0, h1⟩, -⟩ := idx_r11 t
    show (cfg11.win 5).cut (grid11.coords t) ((dat11 V c).after 5 t) = _
    rw [after11_5]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt11 V c t.val t.isLt).2.1 (ix2 0 q)
        = GcnSpec.meanK (fullArr_r11 V c) ((((cfg11.win 5).blk t).view.emb (ix2 0 q)) 1)
    exact (congrFun (stats11_at V c (fullArr_r11 V c) (stored_r11_apply V c) t h24).1 q).trans
      (congrArg (GcnSpec.meanK (fullArr_r11 V c)) (Fin.ext (show q.val = win11_5.index t (1 : Fin 2) * 128 + 1 * q.val by omega)))
  · have ht := LinearValue.last_lt N_11
    obtain ⟨-, -, -, -, -, ⟨h0, h1⟩, -⟩ := idx_r11 ⟨24, ht⟩
    refine ⟨⟨24, ht⟩, (flush11_5 _).mpr rfl, ?_⟩
    show i ∈ ((View.whole main_v144_1).slice (win11_5.rect ⟨24, ht⟩)).set
    rw [View.set_slice_whole, Rect.mem_set_unit]
    exact LinearValue.wholeTile_mem (S := S1x128) i _ (Fin.forall_fin_two.mpr ⟨h0, h1⟩)
theorem var_r11_final (c : Dev nD) :
    GcnSpec.rowOf ((dat11 V c).arrAt 6 cfg11.N : S1x128.Idx → EReal) = GcnSpec.varK (fullArr_r11 V c) := by
  suffices h : (dat11 V c).arrAt 6 cfg11.N = varBuf_r11 V c by rw [h]; rfl
  refine (dat11 V c).arrAt_eq_of_cover 6 _ (fun t hf => ?_) fun (i : S1x128.Idx) => ?_
  · have h24 := LinearValue.last_of_mod N_11 t ((flush11_6 t).mp hf)
    obtain ⟨-, -, -, -, -, -, ⟨h0, h1⟩⟩ := idx_r11 t
    show (cfg11.win 6).cut (grid11.coords t) ((dat11 V c).after 6 t) = _
    rw [after11_6]
    funext j
    obtain ⟨u, q, rfl⟩ : ∃ (u : Fin 1) (q : Fin 128), j = ix2 u q := ⟨j 0, j 1, eq_ix2 (n0 := 1) (n1 := 128) j⟩
    obtain rfl : u = 0 := Subsingleton.elim u 0
    show (outsAt11 V c t.val t.isLt).2.2.1 (ix2 0 q)
        = GcnSpec.varK (fullArr_r11 V c) ((((cfg11.win 6).blk t).view.emb (ix2 0 q)) 1)
    exact (congrFun (stats11_at V c (fullArr_r11 V c) (stored_r11_apply V c) t h24).2 q).trans
      (congrArg (GcnSpec.varK (fullArr_r11 V c)) (Fin.ext (show q.val = win11_6.index t (1 : Fin 2) * 128 + 1 * q.val by omega)))
  · have ht := LinearValue.last_lt N_11
    obtain ⟨-, -, -, -, -, -, ⟨h0, h1⟩⟩ := idx_r11 ⟨24, ht⟩
    refine ⟨⟨24, ht⟩, (flush11_6 _).mpr rfl, ?_⟩
    show i ∈ ((View.whole main_v144_2).slice (win11_6.rect ⟨24, ht⟩)).set
    rw [View.set_slice_whole, Rect.mem_set_unit]
    exact LinearValue.wholeTile_mem (S := S1x128) i _ (Fin.forall_fin_two.mpr ⟨h0, h1⟩)
end Cert.KernelIdeal.AggValue
end
-- ==== Proof.KerNetVals.lean ====
import proofs.«101364_j7567732376252_1_alg».proof.Proof.KerNet
import proofs.«101364_j7567732376252_1_alg».proof.Proof.Value.LinearArr0
import proofs.«101364_j7567732376252_1_alg».proof.Proof.Value.LinearArr1
import proofs.«101364_j7567732376252_1_alg».proof.Proof.Value.LinearArr4
import proofs.«101364_j7567732376252_1_alg».proof.Proof.Value.LinearArr7
import proofs.«101364_j7567732376252_1_alg».proof.Proof.Value.LinearArr10
import proofs.«101364_j7567732376252_1_alg».proof.Proof.Value.LinearArr13
import proofs.«101364_j7567732376252_1_alg».proof.Proof.Value.BnArr3
import proofs.«101364_j7567732376252_1_alg».proof.Proof.Value.BnArr6
import proofs.«101364_j7567732376252_1_alg».proof.Proof.Value.BnArr9
import proofs.«101364_j7567732376252_1_alg».proof.Proof.Value.BnArr12
import proofs.«101364_j7567732376252_1_alg».proof.Proof.Value.AggArr2
import proofs.«101364_j7567732376252_1_alg».proof.Proof.Value.AggArr5
import proofs.«101364_j7567732376252_1_alg».proof.Proof.Value.AggArr8
import proofs.«101364_j7567732376252_1_alg».proof.Proof.Value.AggArr11

noncomputable section

namespace KerNet

open Idealize.ShloMosaic Idealize.ShloMosaic.TcCoe Cert.KernelIdeal Cert.KernelIdeal.Gen GcnSpec NetLaw

variable (m : (ℓ : Loc nD τ sig) → Buf (Elt Ideal) ℓ) (c : Dev nD)

theorem regionVals : RegionVals m c where
  r0 := (congrArg (fun v : Vec Ideal S50000x128 .f32 => toMat v) (U2_main_v33 m c)).trans (LinearValue.arr0_lin_refs (fun c b => U1 m c b) c)
  r1 := (congrArg (fun v : Vec Ideal S50000x128 .f32 => toMat v) (U4_main_v39 m c)).trans (LinearValue.arr1_lin_refs (fun c b => U3 m c b) c)
  r2a := (congrArg (fun v : Vec Ideal S50000x128 .f32 => toMat v) (U6_main_v57_0 m c)).trans (AggValue.full_r2_final (fun c b => U5 m c b) c)
  r2m := (congrArg (fun v : Vec Ideal S1x128 .f32 => rowOf v) (U6_main_v57_1 m c)).trans (AggValue.mean_r2_final (fun c b => U5 m c b) c)
  r2v := (congrArg (fun v : Vec Ideal S1x128 .f32 => rowOf v) (U6_main_v57_2 m c)).trans (AggValue.var_r2_final (fun c b => U5 m c b) c)
  r3h := (congrArg (fun v : Vec Ideal S50000x128 .f32 => toMat v) (U8_main_v64_0 m c)).trans (BnValue.layer3 (fun c b => U7 m c b) c)
  r3a := (congrArg (fun v : Vec Ideal S50000x128 .f32 => toMat v) (U8_main_v64_1 m c)).trans (BnValue.total3 (fun c b => U7 m c b) c)
  r4 := (congrArg (fun v : Vec Ideal S50000x128 .f32 => toMat v) (U10_main_v68 m c)).trans (LinearValue.arr4_lin_refs (fun c b => U9 m c b) c)
  r5a := (congrArg (fun v : Vec Ideal S50000x128 .f32 => toMat v) (U12_main_v86_0 m c)).trans (AggValue.full_r5_final (fun c b => U11 m c b) c)
  r5m := (congrArg (fun v : Vec Ideal S1x128 .f32 => rowOf v) (U12_main_v86_1 m c)).trans (AggValue.mean_r5_final (fun c b => U11 m c b) c)
  r5v := (congrArg (fun v : Vec Ideal S1x128 .f32 => rowOf v) (U12_main_v86_2 m c)).trans (AggValue.var_r5_final (fun c b => U11 m c b) c)
  r6h := (congrArg (fun v : Vec Ideal S50000x128 .f32 => toMat v) (U14_main_v93_0 m c)).trans (BnValue.layer6 (fun c b => U13 m c b) c)
  r6a := (congrArg (fun v : Vec Ideal S50000x128 .f32 => toMat v) (U14_main_v93_1 m c)).trans (BnValue.total6 (fun c b => U13 m c b) c)
  r7 := (congrArg (fun v : Vec Ideal S50000x128 .f32 => toMat v) (U16_main_v97 m c)).trans (LinearValue.arr7_lin_refs (fun c b => U15 m c b) c)
  r8a := (congrArg (fun v : Vec Ideal S50000x128 .f32 => toMat v) (U18_main_v115_0 m c)).trans (AggValue.full_r8_final (fun c b => U17 m c b) c)
  r8m := (congrArg (fun v : Vec Ideal S1x128 .f32 => rowOf v) (U18_main_v115_1 m c)).trans (AggValue.mean_r8_final (fun c b => U17 m c b) c)
  r8v := (congrArg (fun v : Vec Ideal S1x128 .f32 => rowOf v) (U18_main_v115_2 m c)).trans (AggValue.var_r8_final (fun c b => U17 m c b) c)
  r9h := (congrArg (fun v : Vec Ideal S50000x128 .f32 => toMat v) (U20_main_v122_0 m c)).trans (BnValue.layer9 (fun c b => U19 m c b) c)
  r9a := (congrArg (fun v : Vec Ideal S50000x128 .f32 => toMat v) (U20_main_v122_1 m c)).trans (BnValue.total9 (fun c b => U19 m c b) c)
  r10 := (congrArg (fun v : Vec Ideal S50000x128 .f32 => toMat v) (U22_main_v126 m c)).trans (LinearValue.arr10_lin_refs (fun c b => U21 m c b) c)
  r11a := (congrArg (fun v : Vec Ideal S50000x128 .f32 => toMat v) (U24_main_v144_0 m c)).trans (AggValue.full_r11_final (fun c b => U23 m c b) c)
  r11m := (congrArg (fun v : Vec Ideal S1x128 .f32 => rowOf v) (U24_main_v144_1 m c)).trans (AggValue.mean_r11_final (fun c b => U23 m c b) c)
  r11v := (congrArg (fun v : Vec Ideal S1x128 .f32 => rowOf v) (U24_main_v144_2 m c)).trans (AggValue.var_r11_final (fun c b => U23 m c b) c)
  r12h := (congrArg (fun v : Vec Ideal S50000x128 .f32 => toMat v) (U26_main_v151_0 m c)).trans (BnValue.layer12 (fun c b => U25 m c b) c)
  r12a := (congrArg (fun v : Vec Ideal S50000x128 .f32 => toMat v) (U26_main_v151_1 m c)).trans (BnValue.total12 (fun c b => U25 m c b) c)
  r13 := (congrArg (fun v : Vec Ideal S50000x64 .f32 => toMat v) (U28_main_v153 m c)).trans (LinearValue.arr13_lin_refs (fun c b => U27 m c b) c)

theorem ker_net : toMat (U28 m c main_v153) = netK (pK m c) := ker_net_of (regionVals m c)

end KerNet

end
-- ==== Proof.RefOps.lean ====
import proofs.«101364_j7567732376252_1_alg».proof.ReferenceIdeal
import proofs.«101364_j7567732376252_1_alg».proof.Proof.Gen.ReferenceIdeal
import proofs.«101364_j7567732376252_1_alg».proof.Proof.Spec
import proofs.«101364_j7567732376252_1_alg».proof.Proof.LibRealValued
import Idealize.ShloMosaic.Lib.Pipeline.Value
import Idealize.ShloMosaic.Lib.ValueIdx
import Idealize.ShloMosaic.Lib.IdealHost
import Idealize.ShloMosaic.PureOps.Ideal.Laws

noncomputable section

namespace RefStages

open Idealize.ShloMosaic Idealize.ShloMosaic.ValueIdx Cert.ReferenceIdeal Cert.ReferenceIdeal.Gen GcnSpec RealValued
open scoped BigOperators

def scalarND (w : BitVec 32) : FVec Ideal S50000x128 .f32 :=
  broadcastInDim S50000x128 ![] bcast_S_S50000x128 (constant (F := Ideal) S_ .f32 w)

theorem scalarND_apply (w : BitVec 32) (y : S50000x128.Idx) : scalarND w y = Ideal.ofBits .f32 w := by
  unfold scalarND
  rw [broadcastInDim_scalar_apply]; rfl

def scalarD (w : BitVec 32) : FVec Ideal S128 .f32 :=
  broadcastInDim S128 ![] bcast_S_S128 (constant (F := Ideal) S_ .f32 w)

theorem scalarD_apply (w : BitVec 32) (y : S128.Idx) : scalarD w y = Ideal.ofBits .f32 w := by
  unfold scalarD
  rw [broadcastInDim_scalar_apply]; rfl

def rowND (b : FVec Ideal S128 .f32) : FVec Ideal S50000x128 .f32 :=
  broadcastInDim S50000x128 ![0, 1] bcast_S1x128_S50000x128_0_1 (broadcastInDim S1x128 ![1] bcast_S128_S1x128_1 b)

theorem rowND_apply (b : FVec Ideal S128 .f32) (i : Fin 50000) (j : Fin 128) : rowND b (ix2 i j) = b (ix1 j) := by
  unfold rowND
  rw [broadcastInDim_apply ![0, 1] bcast_S1x128_S50000x128_0_1 _ (ix2 i j) (ix2 0 j) (fun a => match a with
      | ⟨0, _⟩ => by show (0 : ℕ) = if (1 : Nat) = 1 then 0 else i.val; rw [if_pos rfl]
      | ⟨1, _⟩ => by show j.val = if (128 : Nat) = 1 then 0 else j.val; rw [if_neg (by decide)]),
    broadcastInDim_apply ![1] bcast_S128_S1x128_1 b (ix2 0 j) (ix1 j) (fun a => match a with
      | ⟨0, _⟩ => by show j.val = if (128 : Nat) = 1 then 0 else j.val; rw [if_neg (by decide)])]

def colND (s : FVec Ideal S50000 .f32) : FVec Ideal S50000x128 .f32 :=
  broadcastInDim S50000x128 ![0, 1] bcast_S50000x1_S50000x128_0_1 (broadcastInDim S50000x1 ![0] bcast_S50000_S50000x1_0 s)

theorem colND_apply (s : FVec Ideal S50000 .f32) (i : Fin 50000) (j : Fin 128) : colND s (ix2 i j) = s (ix1 i) := by
  unfold colND
  rw [broadcastInDim_apply ![0, 1] bcast_S50000x1_S50000x128_0_1 _ (ix2 i j) (ix2 i 0) (fun a => match a with
      | ⟨0, _⟩ => by show i.val = if (50000 : Nat) = 1 then 0 else i.val; rw [if_neg (by decide)]
      | ⟨1, _⟩ => by show (0 : ℕ) = if (1 : Nat) = 1 then 0 else j.val; rw [if_pos rfl]),
    broadcastInDim_apply ![0] bcast_S50000_S50000x1_0 s (ix2 i 0) (ix1 i) (fun a => match a with
      | ⟨0, _⟩ => by show i.val = if (50000 : Nat) = 1 then 0 else i.val; rw [if_neg (by decide)])]

def colSum (a : FVec Ideal S50000x128 .f32) : FVec Ideal S128 .f32 :=
  Host.reduceAdd a (constant (F := Ideal) S_ .f32 0x00000000#32) reducesTo_S50000x128_S128_d0 h_S_

theorem colSum_apply (a : FVec Ideal S50000x128 .f32) (j : Fin 128) :
    colSum a (ix1 j) = 0 + ∑ i : Fin 50000, a (ix2 i j) := by
  unfold colSum
  rw [hostReduceAdd_apply, Ideal.hostReduceAdd_single reducesTo_S50000x128_S128_d0 (by decide)]
  refine congrArg₂ (· + ·) Ideal.ofBits_zero_f32 (Finset.sum_congr rfl fun k _ => ?_)
  exact congrArg a (funext fun d => Fin.ext (by match d with | ⟨0, _⟩ => rfl | ⟨1, _⟩ => rfl))

def meanArr (a : FVec Ideal S50000x128 .f32) : FVec Ideal S128 .f32 :=
  Host.divf (colSum a) (scalarD 0x47435000#32)

theorem toVec_meanArr (a : FVec Ideal S50000x128 .f32) : toVec (meanArr a) = meanR (toMat a) := by
  funext j
  show Ideal.div (colSum a (ix1 j)) (scalarD 0x47435000#32 (ix1 j)) = _
  rw [colSum_apply, scalarD_apply]; rfl

def centred (a : FVec Ideal S50000x128 .f32) : FVec Ideal S50000x128 .f32 :=
  subf (F := Ideal) a (rowND (meanArr a))

theorem centred_apply (a : FVec Ideal S50000x128 .f32) (i : Fin 50000) (j : Fin 128) :
    centred a (ix2 i j) = a (ix2 i j) - meanR (toMat a) j := by
  show a (ix2 i j) - rowND (meanArr a) (ix2 i j) = _
  rw [rowND_apply, ← toVec_meanArr]; rfl

def varArr (a : FVec Ideal S50000x128 .f32) : FVec Ideal S128 .f32 :=
  Host.divf (colSum (mulf (F := Ideal) (centred a) (centred a))) (scalarD 0x47435000#32)

theorem toVec_varArr (a : FVec Ideal S50000x128 .f32) : toVec (varArr a) = varR (toMat a) := by
  funext j
  show Ideal.div (colSum (mulf (F := Ideal) (centred a) (centred a)) (ix1 j)) (scalarD 0x47435000#32 (ix1 j)) = _
  rw [colSum_apply, scalarD_apply]
  unfold varR
  refine congrArg₂ Ideal.div (congrArg (0 + ·) (Finset.sum_congr rfl fun i _ => ?_)) rfl
  show centred a (ix2 i j) * centred a (ix2 i j) = _
  rw [centred_apply]; rfl

def invStd (a : FVec Ideal S50000x128 .f32) : FVec Ideal S128 .f32 :=
  Host.rsqrt (F := Ideal) (addf (F := Ideal) (varArr a) (scalarD 0x3727C5AC#32))

def normArr (a : FVec Ideal S50000x128 .f32) (g bt : FVec Ideal S128 .f32) : FVec Ideal S50000x128 .f32 :=
  addf (F := Ideal) (mulf (F := Ideal) (mulf (F := Ideal) (centred a) (rowND (invStd a))) (rowND g)) (rowND bt)

theorem toMat_normArr (a : FVec Ideal S50000x128 .f32) (g bt : FVec Ideal S128 .f32) :
    toMat (normArr a g bt) = norm (toMat a) (meanR (toMat a)) (varR (toMat a)) (toVec g) (toVec bt) := by
  funext i j
  show centred a (ix2 i j) * rowND (invStd a) (ix2 i j) * rowND g (ix2 i j) + rowND bt (ix2 i j) = _
  rw [centred_apply, rowND_apply, rowND_apply, rowND_apply]
  show (a (ix2 i j) - meanR (toMat a) j) * Ideal.rsqrt (varArr a (ix1 j) + scalarD 0x3727C5AC#32 (ix1 j)) * g (ix1 j)
    + bt (ix1 j) = _
  rw [scalarD_apply, show varArr a (ix1 j) = varR (toMat a) j from congrFun (toVec_varArr a) j]; rfl

def reluArr (z : FVec Ideal S50000x128 .f32) : FVec Ideal S50000x128 .f32 :=
  maximumf (F := Ideal) z (scalarND 0x00000000#32)

theorem toMat_reluArr (z : FVec Ideal S50000x128 .f32) : toMat (reluArr z) = relu (toMat z) := by
  funext i j
  show max (z (ix2 i j)) (scalarND 0x00000000#32 (ix2 i j)) = _
  rw [scalarND_apply, Ideal.ofBits_zero_f32]; rfl

def skipArr (z xs : FVec Ideal S50000x128 .f32) : FVec Ideal S50000x128 .f32 :=
  addf (F := Ideal) z (mulf (F := Ideal) (scalarND 0x3F000000#32) xs)

theorem toMat_skipArr (z xs : FVec Ideal S50000x128 .f32) : toMat (skipArr z xs) = withSkip (toMat z) (toMat xs) := by
  funext i j
  show z (ix2 i j) + scalarND 0x3F000000#32 (ix2 i j) * xs (ix2 i j) = _
  rw [scalarND_apply]; rfl

theorem toMat_addf (p q : FVec Ideal S50000x128 .f32) : toMat (addf (F := Ideal) p q) = accum (toMat p) (toMat q) := rfl

theorem toMat_zeros : toMat (scalarND 0x00000000#32) = fun _ _ => 0 := by
  funext i j
  show scalarND 0x00000000#32 (ix2 i j) = 0
  rw [scalarND_apply, Ideal.ofBits_zero_f32]

def fullArr (agg t : FVec Ideal S50000x128 .f32) (s : FVec Ideal S50000 .f32) (b : FVec Ideal S128 .f32) :
    FVec Ideal S50000x128 .f32 :=
  addf (F := Ideal) (addf (F := Ideal) agg (mulf (F := Ideal) t (colND s))) (rowND b)

theorem toMat_fullArr (agg t : FVec Ideal S50000x128 .f32) (s : FVec Ideal S50000 .f32) (b : FVec Ideal S128 .f32) :
    toMat (fullArr agg t s b) = full (toMat agg) (toMat t) (toVec s) (toVec b) := by
  funext i j
  show agg (ix2 i j) + t (ix2 i j) * colND s (ix2 i j) + rowND b (ix2 i j) = _
  rw [colND_apply, rowND_apply]; rfl

def degArr (idx : IVec S600000x1 32) : FVec Ideal S50000 .f32 :=
  addf (F := Ideal)
    (Host.scatterAdd (F := Ideal) scatter_S50000_S600000x1_S600000_n_0_0_1
      (broadcastInDim S50000 ![] bcast_S_S50000 (constant (F := Ideal) S_ .f32 0x00000000#32)) idx
      (broadcastInDim S600000 ![] bcast_S_S600000 (constant (F := Ideal) S_ .f32 0x3F800000#32)))
    (broadcastInDim S50000 ![] bcast_S_S50000 (constant (F := Ideal) S_ .f32 0x3F800000#32))

def aggOp (t : FVec Ideal S50000x128 .f32) (srcCol dstCol : IVec S600000x1 32) (wE : FVec Ideal S600000x128 .f32) :
    FVec Ideal S50000x128 .f32 :=
  Host.scatterAdd (F := Ideal) scatter_S50000x128_S600000x1_S600000x128_1_0_0_1 (scalarND 0x00000000#32) dstCol
    (mulf (F := Ideal) (Host.gather gather_S50000x128_S600000x1_S600000x128_1_0_n_n_0_1_1128 t srcCol) wE)

theorem isReal_scalarND {w : BitVec 32} {r : ℝ} (h : Ideal.ofBits .f32 w = (r : EReal)) : IsReal (scalarND w) :=
  fun y => ⟨r, (scalarND_apply w y).trans h⟩

theorem isReal_aggOp {t : FVec Ideal S50000x128 .f32} (srcCol dstCol : IVec S600000x1 32) {wE : FVec Ideal S600000x128 .f32}
    (ht : IsReal t) (hw : IsReal wE) : IsReal (aggOp t srcCol dstCol wE) :=
  isReal_scatterAdd _ _ (isReal_scalarND (r := 0) Ideal.ofBits_zero_f32) (isReal_mulf (isReal_gather _ _ ht) hw)

theorem isPos_degArr (idx : IVec S600000x1 32) : IsPos (degArr idx) := by
  intro i
  refine ⟨((Finset.univ.filter fun j => scatter_S50000_S600000x1_S600000_n_0_0_1.resultIdx? j idx = some i).card : ℝ) + 1,
    by positivity, ?_⟩
  show (broadcastInDim S50000 ![] bcast_S_S50000 (constant (F := Ideal) S_ .f32 0x00000000#32) i
      + ∑ j ∈ Finset.univ.filter (fun j => scatter_S50000_S600000x1_S600000_n_0_0_1.resultIdx? j idx = some i),
        broadcastInDim S600000 ![] bcast_S_S600000 (constant (F := Ideal) S_ .f32 0x3F800000#32) j)
      + broadcastInDim S50000 ![] bcast_S_S50000 (constant (F := Ideal) S_ .f32 0x3F800000#32) i = _
  rw [show broadcastInDim S50000 ![] bcast_S_S50000 (constant (F := Ideal) S_ .f32 0x00000000#32) i = 0 from
      Ideal.ofBits_zero_f32,
    show broadcastInDim S50000 ![] bcast_S_S50000 (constant (F := Ideal) S_ .f32 0x3F800000#32) i = 1 from
      Ideal.ofBits_one_f32,
    Finset.sum_congr rfl (fun j _ =>
      show broadcastInDim S600000 ![] bcast_S_S600000 (constant (F := Ideal) S_ .f32 0x3F800000#32) j = 1 from
        Ideal.ofBits_one_f32),
    Finset.sum_const, nsmul_one, zero_add, EReal.coe_add, EReal.coe_one, EReal.coe_natCast]

end RefStages

end
-- ==== Proof.RefStages.lean ====
import proofs.«101364_j7567732376252_1_alg».proof.Proof.RefOps
import proofs.«101364_j7567732376252_1_alg».proof.Proof.RefRead
import proofs.«101364_j7567732376252_1_alg».proof.Pre_finite_inputs
import proofs.«101364_j7567732376252_1_alg».proof.Proof.Gen.Pre_finite_inputs
import Idealize.ShloMosaic.Lib.ReduceAll

noncomputable section

namespace RefStages

open Idealize.ShloMosaic Idealize.ShloMosaic.ValueIdx Cert.ReferenceIdeal Cert.ReferenceIdeal.Gen Cert.ReferenceIdeal.ReadP
open GcnSpec RealValued
open scoped BigOperators

section Params

variable (p : (⟨S4x128, .f32⟩ : BufTy).Contents (Elt Ideal)) (w : (⟨S4x128x128, .f32⟩ : BufTy).Contents (Elt Ideal))

-- Row `k` of a stack of rows, cut out as a one-row slab and flattened.
theorem toVec_rowK {off : Fin 2 → ℕ} (k : Fin 4) (h0 : off 0 = k.val) (h1 : off 1 = 0) (hs : S4x128.Slices off S1x128) :
    toVec (shapeCast S128 (extractStridedSlice S1x128 off p hs) shapeCasts_S1x128_S128) = rowAt k p := by
  funext j
  show shapeCast S128 _ shapeCasts_S1x128_S128 (ix1 j) = p (ix2 k j)
  rw [shapeCast_apply _ shapeCasts_S1x128_S128 (ix1 j) (ix2 0 j) (by
      rewrite [Shape.rowMajor_val_two, Shape.rowMajor_val_one]; show 0 * 128 + j.val = j.val; omega),
    extractStridedSlice_apply off p hs (ix2 0 j) (ix2 k j) (fun a => match a with
      | ⟨0, _⟩ => by show k.val = off 0 + 0; omega
      | ⟨1, _⟩ => by show j.val = off 1 + j.val; omega)]

theorem toVec_row0 : toVec (val_main_v58 (F := Ideal) p) = rowAt 0 p := toVec_rowK p 0 rfl rfl _
theorem toVec_row1 : toVec (val_main_v114 (F := Ideal) p) = rowAt 1 p := toVec_rowK p 1 rfl rfl _
theorem toVec_row2 : toVec (val_main_v173 (F := Ideal) p) = rowAt 2 p := toVec_rowK p 2 rfl rfl _
theorem toVec_row3 : toVec (val_main_v229 (F := Ideal) p) = rowAt 3 p := toVec_rowK p 3 rfl rfl _

-- Matrix `k` of a stack of matrices, cut out as a one-matrix slab and flattened.
theorem toMat_slabK {off : Fin 3 → ℕ} (k : Fin 4) (h0 : off 0 = k.val) (h1 : off 1 = 0) (h2 : off 2 = 0)
    (hs : S4x128x128.Slices off S1x128x128) :
    toMat (shapeCast S128x128 (extractStridedSlice S1x128x128 off w hs) shapeCasts_S1x128x128_S128x128) = slab k w := by
  funext l j
  show shapeCast S128x128 _ shapeCasts_S1x128x128_S128x128 (ix2 l j) = w (ix3 k l j)
  rw [shapeCast_apply _ shapeCasts_S1x128x128_S128x128 (ix2 l j) (ix3 0 l j) (by
      rewrite [Shape.rowMajor_val_three, Shape.rowMajor_val_two]; show (0 * 128 + l.val) * 128 + j.val = l.val * 128 + j.val; omega),
    extractStridedSlice_apply off w hs (ix3 0 l j) (ix3 k l j) (fun a => match a with
      | ⟨0, _⟩ => by show k.val = off 0 + 0; omega
      | ⟨1, _⟩ => by show l.val = off 1 + l.val; omega
      | ⟨2, _⟩ => by show j.val = off 2 + j.val; omega)]

theorem toMat_slab0 : toMat (val_main_v38 (F := Ideal) w) = slab 0 w := toMat_slabK w 0 rfl rfl rfl _
theorem toMat_slab1 : toMat (val_main_v94 (F := Ideal) w) = slab 1 w := toMat_slabK w 1 rfl rfl rfl _
theorem toMat_slab2 : toMat (val_main_v153 (F := Ideal) w) = slab 2 w := toMat_slabK w 2 rfl rfl rfl _
theorem toMat_slab3 : toMat (val_main_v209 (F := Ideal) w) = slab 3 w := toMat_slabK w 3 rfl rfl rfl _

end Params

theorem toMat_dot (x : (⟨S50000x128, .f32⟩ : BufTy).Contents (Elt Ideal)) (w : (⟨S128x128, .f32⟩ : BufTy).Contents (Elt Ideal)) :
    toMat (val_main_v32 (F := Ideal) x w) = mul (toMat x) (toMat w) := by
  funext i j
  show val_main_v32 (F := Ideal) x w (ix2 i j) = ∑ l : Fin 128, x (ix2 i l) * w (ix2 l j)
  rw [val_main_v32_apply]
  refine Finset.sum_congr rfl fun l _ => ?_
  exact congrArg₂ (· * ·)
    (congrArg x (funext fun d => Fin.ext (by match d with | ⟨0, _⟩ => rfl | ⟨1, _⟩ => rfl)))
    (congrArg w (funext fun d => Fin.ext (by match d with | ⟨0, _⟩ => rfl | ⟨1, _⟩ => rfl)))

section Stages

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S4x128x128, .f32⟩ : BufTy).Contents (Elt Ideal))
  (x4 x5 x6 : (⟨S4x128, .f32⟩ : BufTy).Contents (Elt Ideal)) (x7 : (⟨S128x64, .f32⟩ : BufTy).Contents (Elt Ideal))
  (x8 : (⟨S64, .f32⟩ : BufTy).Contents (Elt Ideal)) (x9 : (⟨S2x600000, .i32⟩ : BufTy).Contents (Elt Ideal))

def aggArr (t : (⟨S50000x128, .f32⟩ : BufTy).Contents (Elt Ideal)) : (⟨S50000x128, .f32⟩ : BufTy).Contents (Elt Ideal) :=
  aggOp t (val_main_v45 (F := Ideal) x9) (val_main_v51 (F := Ideal) x9) (val_main_v48 (F := Ideal) x9)

def layerArr (h : (⟨S50000x128, .f32⟩ : BufTy).Contents (Elt Ideal)) (W : FVec Ideal S128x128 .f32) (b g bt : FVec Ideal S128 .f32) : (⟨S50000x128, .f32⟩ : BufTy).Contents (Elt Ideal) :=
  normArr (fullArr (aggArr x9 (val_main_v32 (F := Ideal) h W)) (val_main_v32 (F := Ideal) h W) (val_main_v31 (F := Ideal) x9) b) g bt

theorem toMat_h0 : toMat (val_main_v35 (F := Ideal) x0 x1 x2) = lin (toMat x0) (toMat x1) (toVec x2) := by
  funext i j
  show val_main_v32 (F := Ideal) x0 x1 (ix2 i j) + rowND x2 (ix2 i j) = _
  rw [show val_main_v32 (F := Ideal) x0 x1 (ix2 i j) = mul (toMat x0) (toMat x1) i j from congrFun (congrFun (toMat_dot x0 x1) i) j,
    rowND_apply]
  rfl

theorem h1_eq : val_main_v91 (F := Ideal) x0 x1 x2 x3 x4 x5 x6 x9
    = reluArr (layerArr x9 (val_main_v35 (F := Ideal) x0 x1 x2) (val_main_v38 (F := Ideal) x3) (val_main_v58 (F := Ideal) x4) (val_main_v58 (F := Ideal) x5) (val_main_v58 (F := Ideal) x6)) := rfl

theorem h2_eq : val_main_v150 (F := Ideal) x0 x1 x2 x3 x4 x5 x6 x9
    = reluArr (skipArr (layerArr x9 (val_main_v91 (F := Ideal) x0 x1 x2 x3 x4 x5 x6 x9) (val_main_v94 (F := Ideal) x3) (val_main_v114 (F := Ideal) x4) (val_main_v114 (F := Ideal) x5) (val_main_v114 (F := Ideal) x6))
        (val_main_v35 (F := Ideal) x0 x1 x2)) := rfl

theorem h3_eq : val_main_v206 (F := Ideal) x0 x1 x2 x3 x4 x5 x6 x9
    = reluArr (layerArr x9 (val_main_v150 (F := Ideal) x0 x1 x2 x3 x4 x5 x6 x9) (val_main_v153 (F := Ideal) x3) (val_main_v173 (F := Ideal) x4) (val_main_v173 (F := Ideal) x5) (val_main_v173 (F := Ideal) x6)) := rfl

theorem h4_eq : val_main_v265 (F := Ideal) x0 x1 x2 x3 x4 x5 x6 x9
    = reluArr (skipArr (layerArr x9 (val_main_v206 (F := Ideal) x0 x1 x2 x3 x4 x5 x6 x9) (val_main_v209 (F := Ideal) x3) (val_main_v229 (F := Ideal) x4) (val_main_v229 (F := Ideal) x5) (val_main_v229 (F := Ideal) x6))
        (val_main_v35 (F := Ideal) x0 x1 x2)) := rfl

theorem acc4_eq : val_main_v266 (F := Ideal) x0 x1 x2 x3 x4 x5 x6 x9
    = addf (F := Ideal) (φ := .f32) (addf (F := Ideal) (φ := .f32) (addf (F := Ideal) (φ := .f32)
        (addf (F := Ideal) (scalarND 0x00000000#32) (val_main_v91 (F := Ideal) x0 x1 x2 x3 x4 x5 x6 x9)) (val_main_v150 (F := Ideal) x0 x1 x2 x3 x4 x5 x6 x9)) (val_main_v206 (F := Ideal) x0 x1 x2 x3 x4 x5 x6 x9)) (val_main_v265 (F := Ideal) x0 x1 x2 x3 x4 x5 x6 x9) := rfl

theorem toMat_out : toMat (val_main_v270 (F := Ideal) x0 x1 x2 x3 x4 x5 x6 x7 x8 x9)
    = lin (toMat (val_main_v266 (F := Ideal) x0 x1 x2 x3 x4 x5 x6 x9)) (toMat x7) (toVec x8) := by
  funext i j
  show val_main_v267 (F := Ideal) x0 x1 x2 x3 x4 x5 x6 x7 x9 (ix2 i j) + val_main_v269 (F := Ideal) x8 (ix2 i j) = _
  rw [val_main_v267_apply, val_main_v269_apply, val_main_v268_apply]
  refine congrArg₂ (· + ·) (Finset.sum_congr rfl fun l _ => ?_) ?_
  · exact congrArg₂ (· * ·)
      (congrArg (val_main_v266 (F := Ideal) x0 x1 x2 x3 x4 x5 x6 x9) (funext fun d => Fin.ext (by match d with | ⟨0, _⟩ => rfl | ⟨1, _⟩ => rfl)))
      (congrArg x7 (funext fun d => Fin.ext (by match d with | ⟨0, _⟩ => rfl | ⟨1, _⟩ => rfl)))
  · exact congrArg x8 (funext fun d => Fin.ext (by match d with | ⟨0, _⟩ => rfl))

theorem isPos_dis : IsPos (val_main_v15 (F := Ideal) x9) := isPos_rsqrt (isPos_degArr (val_main_v10 (F := Ideal) x9))

theorem isReal_selfNorm : IsReal (val_main_v31 (F := Ideal) x9) := (isPos_mulf (isPos_dis x9) (isPos_dis x9)).isReal

theorem isReal_aggArr {t : (⟨S50000x128, .f32⟩ : BufTy).Contents (Elt Ideal)} (ht : IsReal t) : IsReal (aggArr x9 t) :=
  isReal_aggOp _ _ ht (isReal_broadcastInDim (isReal_broadcastInDim
    (isPos_mulf (isPos_gather _ _ (isPos_dis x9)) (isPos_gather _ _ (isPos_dis x9))).isReal))

end Stages

end RefStages

end
-- ==== Proof.RefNet.lean ====
import proofs.«101364_j7567732376252_1_alg».proof.Proof.Spec
import proofs.«101364_j7567732376252_1_alg».proof.Proof.MatRead
import proofs.«101364_j7567732376252_1_alg».proof.Proof.SpecLaw
import proofs.«101364_j7567732376252_1_alg».proof.Proof.NetLaw
import proofs.«101364_j7567732376252_1_alg».proof.Proof.RefRead
import proofs.«101364_j7567732376252_1_alg».proof.Proof.RefStages
import proofs.«101364_j7567732376252_1_alg».proof.Proof.Value.HostFns

noncomputable section

namespace RefNet

open Idealize.ShloMosaic Idealize.ShloMosaic.ValueIdx Cert.ReferenceIdeal Cert.ReferenceIdeal.Gen Cert.ReferenceIdeal.ReadP
open GcnSpec RealValued SpecLaw NetLaw RefStages

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S4x128x128, .f32⟩ : BufTy).Contents (Elt Ideal))
  (x4 x5 x6 : (⟨S4x128, .f32⟩ : BufTy).Contents (Elt Ideal)) (x7 : (⟨S128x64, .f32⟩ : BufTy).Contents (Elt Ideal))
  (x8 : (⟨S64, .f32⟩ : BufTy).Contents (Elt Ideal)) (x9 : (⟨S2x600000, .i32⟩ : BufTy).Contents (Elt Ideal))

def pR : Params where
  aggF := fun t => toMat (GcnHost.agg (F := Ideal) (ofMat t) x9)
  sn := toVec (GcnHost.selfNorm (F := Ideal) x9)
  x := toMat x0
  Win := toMat x1
  bin := toVec x2
  Wg := fun k => slab k x3
  bg := fun k => rowAt k x4
  gamma := fun k => rowAt k x5
  beta := fun k => rowAt k x6
  Wout := toMat x7
  bout := toVec x8

local notation "P" => pR x0 x1 x2 x3 x4 x5 x6 x7 x8 x9

theorem agg_toMat (t : (⟨S50000x128, .f32⟩ : BufTy).Contents (Elt Ideal)) :
    toMat (aggArr x9 t) = (P).aggF (toMat t) := by
  show _ = toMat (GcnHost.agg (F := Ideal) (ofMat (toMat t)) x9)
  rw [ofMat_toMat]; rfl

theorem ref_h0 : toMat (val_main_v35 (F := Ideal) x0 x1 x2) = h0 P := toMat_h0 x0 x1 x2

-- One layer of the reference read as matrices: the product, the neighbours' sum, the batch statistics.
theorem ref_layer {k : Fin 4} {h : (⟨S50000x128, .f32⟩ : BufTy).Contents (Elt Ideal)} {W : FVec Ideal S128x128 .f32}
    {b g bt : FVec Ideal S128 .f32} {H : Mat 50000 128} (eh : toMat h = H) (eW : toMat W = slab k x3)
    (eb : toVec b = rowAt k x4) (eg : toVec g = rowAt k x5) (ebt : toVec bt = rowAt k x6) :
    toMat (layerArr x9 h W b g bt) = layR P k H := by
  unfold layerArr
  rw [toMat_normArr, toMat_fullArr, agg_toMat x0 x1 x2 x3 x4 x5 x6 x7 x8 x9, toMat_dot, eh, eW, eb, eg, ebt]; rfl

theorem ref_hR0 : toMat (val_main_v91 (F := Ideal) x0 x1 x2 x3 x4 x5 x6 x9) = hR0 P := by
  rw [h1_eq, toMat_reluArr, ref_layer x0 x1 x2 x3 x4 x5 x6 x7 x8 x9 (ref_h0 x0 x1 x2 x3 x4 x5 x6 x7 x8 x9) (toMat_slab0 x3) (toVec_row0 x4) (toVec_row0 x5) (toVec_row0 x6)]; rfl

theorem ref_hR1 : toMat (val_main_v150 (F := Ideal) x0 x1 x2 x3 x4 x5 x6 x9) = hR1 P := by
  rw [h2_eq, toMat_reluArr, toMat_skipArr, ref_layer x0 x1 x2 x3 x4 x5 x6 x7 x8 x9 (ref_hR0 x0 x1 x2 x3 x4 x5 x6 x7 x8 x9) (toMat_slab1 x3) (toVec_row1 x4) (toVec_row1 x5) (toVec_row1 x6),
    ref_h0 x0 x1 x2 x3 x4 x5 x6 x7 x8 x9]; rfl

theorem ref_hR2 : toMat (val_main_v206 (F := Ideal) x0 x1 x2 x3 x4 x5 x6 x9) = hR2 P := by
  rw [h3_eq, toMat_reluArr, ref_layer x0 x1 x2 x3 x4 x5 x6 x7 x8 x9 (ref_hR1 x0 x1 x2 x3 x4 x5 x6 x7 x8 x9) (toMat_slab2 x3) (toVec_row2 x4) (toVec_row2 x5) (toVec_row2 x6)]; rfl

theorem ref_hR3 : toMat (val_main_v265 (F := Ideal) x0 x1 x2 x3 x4 x5 x6 x9) = hR3 P := by
  rw [h4_eq, toMat_reluArr, toMat_skipArr, ref_layer x0 x1 x2 x3 x4 x5 x6 x7 x8 x9 (ref_hR2 x0 x1 x2 x3 x4 x5 x6 x7 x8 x9) (toMat_slab3 x3) (toVec_row3 x4) (toVec_row3 x5) (toVec_row3 x6),
    ref_h0 x0 x1 x2 x3 x4 x5 x6 x7 x8 x9]; rfl

theorem ref_net : toMat (val_main_v270 (F := Ideal) x0 x1 x2 x3 x4 x5 x6 x7 x8 x9) = netR P := by
  rw [toMat_out, acc4_eq, toMat_addf, toMat_addf, toMat_addf, toMat_addf, toMat_zeros, ref_hR0 x0 x1 x2 x3 x4 x5 x6 x7 x8 x9, ref_hR1 x0 x1 x2 x3 x4 x5 x6 x7 x8 x9,
    ref_hR2 x0 x1 x2 x3 x4 x5 x6 x7 x8 x9, ref_hR3 x0 x1 x2 x3 x4 x5 x6 x7 x8 x9]; rfl

theorem isReal_ofMat {r c : ℕ} {M : Mat r c} (hM : MatReal M) : IsReal (ofMat M) := fun idx => hM (idx 0) (idx 1)

variable (hx0 : IsReal x0) (hx1 : IsReal x1) (hx2 : IsReal x2) (hx3 : IsReal x3) (hx4 : IsReal x4) (hx5 : IsReal x5)
  (hx6 : IsReal x6) (hx7 : IsReal x7) (hx8 : IsReal x8)
include hx0 hx1 hx2 hx3 hx4 hx5 hx6 hx7 hx8

theorem pR_real : (P).AllReal where
  aggF := fun t ht => by
    show MatReal (toMat (aggArr x9 (ofMat t)))
    exact matReal_toMat (isReal_aggArr x9 (isReal_ofMat ht))
  sn := by
    show VecReal (toVec (val_main_v31 (F := Ideal) x9))
    exact vecReal_toVec (isReal_selfNorm x9)
  x := by show MatReal (toMat x0); exact matReal_toMat hx0
  Win := by show MatReal (toMat x1); exact matReal_toMat hx1
  bin := by show VecReal (toVec x2); exact vecReal_toVec hx2
  Wg := fun k => by show MatReal (slab k x3); exact fun l j => hx3 _
  bg := fun k => by show VecReal (rowAt k x4); exact fun j => hx4 _
  gamma := fun k => by show VecReal (rowAt k x5); exact fun j => hx5 _
  beta := fun k => by show VecReal (rowAt k x6); exact fun j => hx6 _
  Wout := by show MatReal (toMat x7); exact matReal_toMat hx7
  bout := by show VecReal (toVec x8); exact vecReal_toVec hx8

theorem ref_netK : toMat (val_main_v270 (F := Ideal) x0 x1 x2 x3 x4 x5 x6 x7 x8 x9) = netK P :=
  (ref_net x0 x1 x2 x3 x4 x5 x6 x7 x8 x9).trans (netK_eq (pR_real x0 x1 x2 x3 x4 x5 x6 x7 x8 x9 hx0 hx1 hx2 hx3 hx4 hx5 hx6 hx7 hx8)).symm

end RefNet

end
-- ==== Proof.ArgsReal.lean ====
import Idealize.ShloMosaic.Lib.ReduceAll
import Idealize.ShloMosaic.Lib.ValueIdx
import Idealize.ShloMosaic.PureOps.Ideal
import Idealize.ShloMosaic.PureOps.Ideal.Laws
import proofs.«101364_j7567732376252_1_alg».proof.Pre_finite_inputs
import proofs.«101364_j7567732376252_1_alg».proof.Proof.Gen.Pre_finite_inputs
import proofs.«101364_j7567732376252_1_alg».proof.Proof.LibRealValued

namespace ArgsReal

open Idealize.ShloMosaic RealValued Cert.Pre_finite_inputs

instance subsingleton_idx : Subsingleton S_.Idx := ⟨fun _ _ => funext fun d => d.elim0⟩

theorem ofBits_inf_f32 : Ideal.ofBits .f32 0x7F800000#32 = ⊤ := by
  simp [Ideal.ofBits, Ideal.ieee]

theorem abs_lt_top_of_cmp {a : EReal}
    (h : Ideal.cmp .olt (max a (-a)) (Ideal.ofBits .f32 0x7F800000#32) = 1#1) : max a (-a) < ⊤ := by
  rw [ofBits_inf_f32] at h
  unfold Ideal.cmp at h
  by_contra hc
  simp [hc] at h

theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) : IsReal x := by
  refine isReal_of_abs_lt_top fun i => ?_
  have hi := Host.reduce_andi_all _ _ hr hu ValueIdx.ix0 e i
  exact abs_lt_top_of_cmp hi

theorem args_real [Facts] (x0 : FVec Ideal S50000x128 .f32) (x1 : FVec Ideal S128x128 .f32) (x2 : FVec Ideal S128 .f32)
    (x3 : FVec Ideal S4x128x128 .f32) (x4 x5 x6 : FVec Ideal S4x128 .f32) (x7 : FVec Ideal S128x64 .f32)
    (x8 : FVec Ideal S64 .f32) (x9 : IVec S2x600000 32)
    (h : fn (F := Ideal) x0 x1 x2 x3 x4 x5 x6 x7 x8 x9 = fun _ => 1#1) :
    IsReal x0 ∧ IsReal x1 ∧ IsReal x2 ∧ IsReal x3 ∧ IsReal x4 ∧ IsReal x5 ∧ IsReal x6 ∧ IsReal x7 ∧ IsReal x8 := by
  have e := congrFun h ValueIdx.ix0
  dsimp only [fn, fn_part1, fn_part2] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ e0, isReal_of_all x1 _ _ _ e1, isReal_of_all x2 _ _ _ e2, isReal_of_all x3 _ _ _ e3,
    isReal_of_all x4 _ _ _ e4, isReal_of_all x5 _ _ _ e5, isReal_of_all x6 _ _ _ e6, isReal_of_all x7 _ _ _ e7,
    isReal_of_all x8 _ _ _ e8⟩

end ArgsReal
-- ==== Proof.Algebraic.lean ====
import proofs.«101364_j7567732376252_1_alg».proof.Defs
import proofs.«101364_j7567732376252_1_alg».proof.Proof.Ideal.Run
import proofs.«101364_j7567732376252_1_alg».proof.Proof.KerNetVals
import proofs.«101364_j7567732376252_1_alg».proof.Proof.RefNet
import proofs.«101364_j7567732376252_1_alg».proof.Proof.ArgsReal
import proofs.«101364_j7567732376252_1_alg».proof.Proof.Ref.Run
import proofs.«101364_j7567732376252_1_alg».proof.Proof.Gen.KernelIdeal
import proofs.«101364_j7567732376252_1_alg».proof.Proof.Gen.ReferenceIdeal
import proofs.«101364_j7567732376252_1_alg».proof.Proof.Gen.Pre_finite_inputs

noncomputable section

namespace Cert.Proof

open Idealize.ShloMosaic Idealize.SL.Sem

theorem algebraic : Cert.algebraic_KernelIdeal_ReferenceIdeal := by
  intro m ρ m' ρ' hpre hagree
  refine ⟨fun c => Cert.KernelIdeal.Gen.U28 (F := Ideal) m c (Proc.devRef .tc Cert.KernelIdeal.main_v153),
    Cert.KernelIdeal.Gen.result (F := Ideal) m ρ, ?_⟩
  refine (θ_run Cert.ReferenceIdeal.defs _ _).mono (fun _ h c => ⟨(h c).1.trans ?_, (h c).2⟩)
    (Cert.ReferenceIdeal.RunHand.run (F := Ideal) m' ρ')
  obtain ⟨e0, e1, e2, e3, e4, e5, e6, e7, e8, e9⟩ := hagree c
  rw [e0, e1, e2, e3, e4, e5, e6, e7, e8, e9]
  obtain ⟨r0, r1, r2, r3, r4, r5, r6, r7, r8⟩ := ArgsReal.args_real _ _ _ _ _ _ _ _ _ _ (hpre c)
  refine GcnSpec.toMat_inj ?_
  exact (RefNet.ref_netK _ _ _ _ _ _ _ _ _ _ r0 r1 r2 r3 r4 r5 r6 r7 r8).trans (KerNet.ker_net m c).symm

end Cert.Proof

end
-- ==== Proof.lean ====
/- A four-layer graph-convolution forward pass against its plain reference: each program runs to the end and keeps its
   arguments, the idealization only reads `f32(1/50000)` as `1/50000`, and at the ideal values the results are equal. -/
import proofs.«101364_j7567732376252_1_alg».proof.Defs
import proofs.«101364_j7567732376252_1_alg».proof.Proof.Gen.Kernel
import proofs.«101364_j7567732376252_1_alg».proof.Proof.Gen.KernelIdeal
import proofs.«101364_j7567732376252_1_alg».proof.Proof.Gen.ReferenceIdeal
import proofs.«101364_j7567732376252_1_alg».proof.Proof.Gen.Pre_finite_inputs
import proofs.«101364_j7567732376252_1_alg».proof.Proof.Bits.Run
import proofs.«101364_j7567732376252_1_alg».proof.Proof.Ideal.Run
import proofs.«101364_j7567732376252_1_alg».proof.Proof.RefFrame
import proofs.«101364_j7567732376252_1_alg».proof.Proof.Preserves
import proofs.«101364_j7567732376252_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame (F := Bits) m ρ,
    fun m ρ _ => Cert.KernelIdeal.Gen.frame (F := Ideal) m ρ,
    Cert.Proof.frame_reference,
    Cert.Proof.preserves,
    Cert.Proof.algebraic⟩

end Cert.Proof

end
